-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47)) (m ((c.tc : Thread Cert.Kernel.nD Cert.Kernel.τ).loc Cert.Kernel.main_arg48)) (m ((c.tc : Thread Cert.Kernel.nD Cert.Kernel.τ).loc Cert.Kernel.main_arg49))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47)) (m ((c.tc : Thread Cert.ReferenceIdeal.nD Cert.ReferenceIdeal.τ).loc Cert.ReferenceIdeal.main_arg48)) (m ((c.tc : Thread Cert.ReferenceIdeal.nD Cert.ReferenceIdeal.τ).loc Cert.ReferenceIdeal.main_arg49))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47)
      ∧ r.2.mem ((c.tc : Thread Cert.Kernel.nD Cert.Kernel.τ).loc Cert.Kernel.main_arg48) = m ((c.tc : Thread Cert.Kernel.nD Cert.Kernel.τ).loc Cert.Kernel.main_arg48)
      ∧ r.2.mem ((c.tc : Thread Cert.Kernel.nD Cert.Kernel.τ).loc Cert.Kernel.main_arg49) = m ((c.tc : Thread Cert.Kernel.nD Cert.Kernel.τ).loc Cert.Kernel.main_arg49))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
      ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
      ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47)
      ∧ r.2.mem ((c.tc : Thread Cert.ReferenceIdeal.nD Cert.ReferenceIdeal.τ).loc Cert.ReferenceIdeal.main_arg48) = m ((c.tc : Thread Cert.ReferenceIdeal.nD Cert.ReferenceIdeal.τ).loc Cert.ReferenceIdeal.main_arg48)
      ∧ r.2.mem ((c.tc : Thread Cert.ReferenceIdeal.nD Cert.ReferenceIdeal.τ).loc Cert.ReferenceIdeal.main_arg49) = m ((c.tc : Thread Cert.ReferenceIdeal.nD Cert.ReferenceIdeal.τ).loc Cert.ReferenceIdeal.main_arg49))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
      ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
      ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47)
          ∧ r.2.mem ((c.tc : Thread Cert.KernelIdeal.nD Cert.KernelIdeal.τ).loc Cert.KernelIdeal.main_arg48) = m ((c.tc : Thread Cert.KernelIdeal.nD Cert.KernelIdeal.τ).loc Cert.KernelIdeal.main_arg48)
          ∧ r.2.mem ((c.tc : Thread Cert.KernelIdeal.nD Cert.KernelIdeal.τ).loc Cert.KernelIdeal.main_arg49) = m ((c.tc : Thread Cert.KernelIdeal.nD Cert.KernelIdeal.τ).loc Cert.KernelIdeal.main_arg49))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47)
          ∧ r.2.mem ((c.tc : Thread Cert.ReferenceIdeal.nD Cert.ReferenceIdeal.τ).loc Cert.ReferenceIdeal.main_arg48) = m' ((c.tc : Thread Cert.ReferenceIdeal.nD Cert.ReferenceIdeal.τ).loc Cert.ReferenceIdeal.main_arg48)
          ∧ r.2.mem ((c.tc : Thread Cert.ReferenceIdeal.nD Cert.ReferenceIdeal.τ).loc Cert.ReferenceIdeal.main_arg49) = m' ((c.tc : Thread Cert.ReferenceIdeal.nD Cert.ReferenceIdeal.τ).loc Cert.ReferenceIdeal.main_arg49))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x30x200 : Shape := ⟨3, ![8, 30, 200]⟩
abbrev S150x512 : Shape := ⟨2, ![150, 512]⟩
abbrev S512 : Shape := ⟨1, ![512]⟩
abbrev S512x512 : Shape := ⟨2, ![512, 512]⟩
abbrev S1536x512 : Shape := ⟨2, ![1536, 512]⟩
abbrev S512x1500 : Shape := ⟨2, ![512, 1500]⟩
abbrev S1500 : Shape := ⟨1, ![1500]⟩
abbrev S3000x512 : Shape := ⟨2, ![3000, 512]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S8x30x200 : S_.BroadcastsInDim S8x30x200 (![] : Fin 0 → Fin S8x30x200.rank)
  reducesTo_S8x30x200_S_d0_1_2 : S8x30x200.ReducesTo [0, 1, 2] S_
  h_S_ : 0 < S_.numel
  bcast_S_S150x512 : S_.BroadcastsInDim S150x512 (![] : Fin 0 → Fin S150x512.rank)
  reducesTo_S150x512_S_d0_1 : S150x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1536x512 : S_.BroadcastsInDim S1536x512 (![] : Fin 0 → Fin S1536x512.rank)
  reducesTo_S1536x512_S_d0_1 : S1536x512.ReducesTo [0, 1] S_
  bcast_S_S512x1500 : S_.BroadcastsInDim S512x1500 (![] : Fin 0 → Fin S512x1500.rank)
  reducesTo_S512x1500_S_d0_1 : S512x1500.ReducesTo [0, 1] S_
  bcast_S_S1500 : S_.BroadcastsInDim S1500 (![] : Fin 0 → Fin S1500.rank)
  reducesTo_S1500_S_d0 : S1500.ReducesTo [0] S_
  bcast_S_S3000x512 : S_.BroadcastsInDim S3000x512 (![] : Fin 0 → Fin S3000x512.rank)
  reducesTo_S3000x512_S_d0_1 : S3000x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part17 {F : FTy → Type} [FloatOps F] (main_v284 : IVec S_ 1) (main_v287 : IVec S_ 1) : IVec S_ 1 :=
  let main_v288 : IVec S_ 1 := andi main_v284 main_v287
  main_v288

def fn_part16 {F : FTy → Type} [FloatOps F] (main_arg29 : FVec F S512 .f32) (main_arg33 : FVec F S512 .f32) (main_arg37 : FVec F S512 .f32) (main_arg41 : FVec F S1500 .f32) (main_v268 : IVec S_ 1) (main_v271 : IVec S_ 1) : IVec S_ 1 :=
  let main_v272 : IVec S_ 1 := andi main_v268 main_v271
  let main_cst_110 : FVec F S_ .f32 := constant S_ .f32 0x00000000#32
  let main_v273 : FVec F S512 .f32 := broadcastInDim S512 ![] bcast_S_S512 main_cst_110
  let main_v274 : IVec S512 1 := cmpf .oge main_arg29 main_v273
  let main_c_111 : IVec S_ 1 := constantI S_ 1 1#1
  let main_v275 : IVec S_ 1 := (fun x v => Host.reduce IntOp.andi x v reducesTo_S512_S_d0 h_S_) main_v274 main_c_111
  let main_v276 : IVec S_ 1 := andi main_v272 main_v275
  let main_cst_112 : FVec F S_ .f32 := constant S_ .f32 0x00000000#32
  let main_v277 : FVec F S512 .f32 := broadcastInDim S512 ![] bcast_S_S512 main_cst_112
  let main_v278 : IVec S512 1 := cmpf .oge main_arg33 main_v277
  let main_c_113 : IVec S_ 1 := constantI S_ 1 1#1
  let main_v279 : IVec S_ 1 := (fun x v => Host.reduce IntOp.andi x v reducesTo_S512_S_d0 h_S_) main_v278 main_c_113
  let main_v280 : IVec S_ 1 := andi main_v276 main_v279
  let main_cst_114 : FVec F S_ .f32 := constant S_ .f32 0x00000000#32
  let main_v281 : FVec F S512 .f32 := broadcastInDim S512 ![] bcast_S_S512 main_cst_114
  let main_v282 : IVec S512 1 := cmpf .oge main_arg37 main_v281
  let main_c_115 : IVec S_ 1 := constantI S_ 1 1#1
  let main_v283 : IVec S_ 1 := (fun x v => Host.reduce IntOp.andi x v reducesTo_S512_S_d0 h_S_) main_v282 main_c_115
  let main_v284 : IVec S_ 1 := andi main_v280 main_v283
  let main_cst_116 : FVec F S_ .f32 := constant S_ .f32 0x00000000#32
  let main_v285 : FVec F S1500 .f32 := broadcastInDim S1500 ![] bcast_S_S1500 main_cst_116
  let main_v286 : IVec S1500 1 := cmpf .oge main_arg41 main_v285
  let main_c_117 : IVec S_ 1 := constantI S_ 1 1#1
  let main_v287 : IVec S_ 1 := (fun x v => Host.reduce IntOp.andi x v reducesTo_S1500_S_d0 h_S_) main_v286 main_c_117
  fn_part17 (F := F) main_v284 main_v287

def fn_part15 {F : FTy → Type} [FloatOps F] (main_arg13 : FVec F S512 .f32) (main_arg17 : FVec F S512 .f32) (main_arg21 : FVec F S512 .f32) (main_arg25 : FVec F S512 .f32) (main_arg29 : FVec F S512 .f32) (main_arg33 : FVec F S512 .f32) (main_arg37 : FVec F S512 .f32) (main_arg41 : FVec F S1500 .f32) (main_v252 : IVec S_ 1) (main_v255 : IVec S_ 1) : IVec S_ 1 :=
  let main_v256 : IVec S_ 1 := andi main_v252 main_v255
  let main_cst_102 : FVec F S_ .f32 := constant S_ .f32 0x00000000#32
  let main_v257 : FVec F S512 .f32 := broadcastInDim S512 ![] bcast_S_S512 main_cst_102
  let main_v258 : IVec S512 1 := cmpf .oge main_arg13 main_v257
  let main_c_103 : IVec S_ 1 := constantI S_ 1 1#1
  let main_v259 : IVec S_ 1 := (fun x v => Host.reduce IntOp.andi x v reducesTo_S512_S_d0 h_S_) main_v258 main_c_103
  let main_v260 : IVec S_ 1 := andi main_v256 main_v259
  let main_cst_104 : FVec F S_ .f32 := constant S_ .f32 0x00000000#32
  let main_v261 : FVec F S512 .f32 := broadcastInDim S512 ![] bcast_S_S512 main_cst_104
  let main_v262 : IVec S512 1 := cmpf .oge main_arg17 main_v261
  let main_c_105 : IVec S_ 1 := constantI S_ 1 1#1
  let main_v263 : IVec S_ 1 := (fun x v => Host.reduce IntOp.andi x v reducesTo_S512_S_d0 h_S_) main_v262 main_c_105
  let main_v264 : IVec S_ 1 := andi main_v260 main_v263
  let main_cst_106 : FVec F S_ .f32 := constant S_ .f32 0x00000000#32
  let main_v265 : FVec F S512 .f32 := broadcastInDim S512 ![] bcast_S_S512 main_cst_106
  let main_v266 : IVec S512 1 := cmpf .oge main_arg21 main_v265
  let main_c_107 : IVec S_ 1 := constantI S_ 1 1#1
  let main_v267 : IVec S_ 1 := (fun x v => Host.reduce IntOp.andi x v reducesTo_S512_S_d0 h_S_) main_v266 main_c_107
  let main_v268 : IVec S_ 1 := andi main_v264 main_v267
  let main_cst_108 : FVec F S_ .f32 := constant S_ .f32 0x00000000#32
  let main_v269 : FVec F S512 .f32 := broadcastInDim S512 ![] bcast_S_S512 main_cst_108
  let main_v270 : IVec S512 1 := cmpf .oge main_arg25 main_v269
  let main_c_109 : IVec S_ 1 := constantI S_ 1 1#1
  let main_v271 : IVec S_ 1 := (fun x v => Host.reduce IntOp.andi x v reducesTo_S512_S_d0 h_S_) main_v270 main_c_109
  fn_part16 (F := F) main_arg29 main_arg33 main_arg37 main_arg41 main_v268 main_v271

def fn_part14 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg33 : FVec F S512 .f32) (main_arg37 : FVec F S512 .f32) (main_arg41 : FVec F S1500 .f32) (main_arg49 : FVec F S128 .f32) (main_v238 : IVec S_ 1) (main_v239 : FVec F S128 .f32) : IVec S_ 1 :=
  let main_cst_94 : FVec F S_ .f32 := constant S_ .f32 0x7F800000#32
  let main_v240 : FVec F S128 .f32 := broadcastInDim S128 ![] bcast_S_S128 main_cst_94
  let main_v241 : IVec S128 1 := cmpf .olt main_v239 main_v240
  let main_c_95 : IVec S_ 1 := constantI S_ 1 1#1
  let main_v242 : IVec S_ 1 := (fun x v => Host.reduce IntOp.andi x v reducesTo_S128_S_d0 h_S_) main_v241 main_c_95
  let main_v243 : IVec S_ 1 := andi main_v238 main_v242
  let main_v244 : FVec F S128 .f32 := Host.absf main_arg49
  let main_cst_96 : FVec F S_ .f32 := constant S_ .f32 0x7F800000#32
  let main_v245 : FVec F S128 .f32 := broadcastInDim S128 ![] bcast_S_S128 main_cst_96
  let main_v246 : IVec S128 1 := cmpf .olt main_v244 main_v245
  let main_c_97 : IVec S_ 1 := constantI S_ 1 1#1
  let main_v247 : IVec S_ 1 := (fun x v => Host.reduce IntOp.andi x v reducesTo_S128_S_d0 h_S_) main_v246 main_c_97
  let main_v248 : IVec S_ 1 := andi main_v243 main_v247
  let main_cst_98 : FVec F S_ .f32 := constant S_ .f32 0x00000000#32
  let main_v249 : FVec F S512 .f32 := broadcastInDim S512 ![] bcast_S_S512 main_cst_98
  let main_v250 : IVec S512 1 := cmpf .oge main_arg5 main_v249
  let main_c_99 : IVec S_ 1 := constantI S_ 1 1#1
  let main_v251 : IVec S_ 1 := (fun x v => Host.reduce IntOp.andi x v reducesTo_S512_S_d0 h_S_) main_v250 main_c_99
  let main_v252 : IVec S_ 1 := andi main_v248 main_v251
  let main_cst_100 : FVec F S_ .f32 := constant S_ .f32 0x00000000#32
  let main_v253 : FVec F S512 .f32 := broadcastInDim S512 ![] bcast_S_S512 main_cst_100
  let main_v254 : IVec S512 1 := cmpf .oge main_arg9 main_v253
  let main_c_101 : IVec S_ 1 := constantI S_ 1 1#1
  let main_v255 : IVec S_ 1 := (fun x v => Host.reduce IntOp.andi x v reducesTo_S512_S_d0 h_S_) main_v254 main_c_101
  fn_part15 (F := F) main_arg13 main_arg17 main_arg21 main_arg25 main_arg29 main_arg33 main_arg37 main_arg41 main_v252 main_v255

def fn_part13 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg33 : FVec F S512 .f32) (main_arg37 : FVec F S512 .f32) (main_arg41 : FVec F S1500 .f32) (main_arg45 : FVec F S128 .f32) (main_arg46 : FVec F S128x128 .f32) (main_arg47 : FVec F S128 .f32) (main_arg48 : FVec F S128 .f32) (main_arg49 : FVec F S128 .f32) (main_v218 : IVec S_ 1) (main_v221 : IVec S512x128 1) (main_c_87 : IVec S_ 1) : IVec S_ 1 :=
  let main_v222 : IVec S_ 1 := (fun x v => Host.reduce IntOp.andi x v reducesTo_S512x128_S_d0_1 h_S_) main_v221 main_c_87
  let main_v223 : IVec S_ 1 := andi main_v218 main_v222
  let main_v224 : FVec F S128 .f32 := Host.absf main_arg45
  let main_cst_88 : FVec F S_ .f32 := constant S_ .f32 0x7F800000#32
  let main_v225 : FVec F S128 .f32 := broadcastInDim S128 ![] bcast_S_S128 main_cst_88
  let main_v226 : IVec S128 1 := cmpf .olt main_v224 main_v225
  let main_c_89 : IVec S_ 1 := constantI S_ 1 1#1
  let main_v227 : IVec S_ 1 := (fun x v => Host.reduce IntOp.andi x v reducesTo_S128_S_d0 h_S_) main_v226 main_c_89
  let main_v228 : IVec S_ 1 := andi main_v223 main_v227
  let main_v229 : FVec F S128x128 .f32 := Host.absf main_arg46
  let main_cst_90 : FVec F S_ .f32 := constant S_ .f32 0x7F800000#32
  let main_v230 : FVec F S128x128 .f32 := broadcastInDim S128x128 ![] bcast_S_S128x128 main_cst_90
  let main_v231 : IVec S128x128 1 := cmpf .olt main_v229 main_v230
  let main_c_91 : IVec S_ 1 := constantI S_ 1 1#1
  let main_v232 : IVec S_ 1 := (fun x v => Host.reduce IntOp.andi x v reducesTo_S128x128_S_d0_1 h_S_) main_v231 main_c_91
  let main_v233 : IVec S_ 1 := andi main_v228 main_v232
  let main_v234 : FVec F S128 .f32 := Host.absf main_arg47
  let main_cst_92 : FVec F S_ .f32 := constant S_ .f32 0x7F800000#32
  let main_v235 : FVec F S128 .f32 := broadcastInDim S128 ![] bcast_S_S128 main_cst_92
  let main_v236 : IVec S128 1 := cmpf .olt main_v234 main_v235
  let main_c_93 : IVec S_ 1 := constantI S_ 1 1#1
  let main_v237 : IVec S_ 1 := (fun x v => Host.reduce IntOp.andi x v reducesTo_S128_S_d0 h_S_) main_v236 main_c_93
  let main_v238 : IVec S_ 1 := andi main_v233 main_v237
  let main_v239 : FVec F S128 .f32 := Host.absf main_arg48
  fn_part14 (F := F) main_arg5 main_arg9 main_arg13 main_arg17 main_arg21 main_arg25 main_arg29 main_arg33 main_arg37 main_arg41 main_arg49 main_v238 main_v239

def fn_part12 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg33 : FVec F S512 .f32) (main_arg37 : FVec F S512 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v203 : IVec S_ 1) (main_v204 : FVec F S1500 .f32) (main_cst_80 : FVec F S_ .f32) : IVec S_ 1 :=
  let main_v205 : FVec F S1500 .f32 := broadcastInDim S1500 ![] bcast_S_S1500 main_cst_80
  let main_v206 : IVec S1500 1 := cmpf .olt main_v204 main_v205
  let main_c_81 : IVec S_ 1 := constantI S_ 1 1#1
  let main_v207 : IVec S_ 1 := (fun x v => Host.reduce IntOp.andi x v reducesTo_S1500_S_d0 h_S_) main_v206 main_c_81
  let main_v208 : IVec S_ 1 := andi main_v203 main_v207
  let main_v209 : FVec F S3000x512 .f32 := Host.absf main_arg42
  let main_cst_82 : FVec F S_ .f32 := constant S_ .f32 0x7F800000#32
  let main_v210 : FVec F S3000x512 .f32 := broadcastInDim S3000x512 ![] bcast_S_S3000x512 main_cst_82
  let main_v211 : IVec S3000x512 1 := cmpf .olt main_v209 main_v210
  let main_c_83 : IVec S_ 1 := constantI S_ 1 1#1
  let main_v212 : IVec S_ 1 := (fun x v => Host.reduce IntOp.andi x v reducesTo_S3000x512_S_d0_1 h_S_) main_v211 main_c_83
  let main_v213 : IVec S_ 1 := andi main_v208 main_v212
  let main_v214 : FVec F S512 .f32 := Host.absf main_arg43
  let main_cst_84 : FVec F S_ .f32 := constant S_ .f32 0x7F800000#32
  let main_v215 : FVec F S512 .f32 := broadcastInDim S512 ![] bcast_S_S512 main_cst_84
  let main_v216 : IVec S512 1 := cmpf .olt main_v214 main_v215
  let main_c_85 : IVec S_ 1 := constantI S_ 1 1#1
  let main_v217 : IVec S_ 1 := (fun x v => Host.reduce IntOp.andi x v reducesTo_S512_S_d0 h_S_) main_v216 main_c_85
  let main_v218 : IVec S_ 1 := andi main_v213 main_v217
  let main_v219 : FVec F S512x128 .f32 := Host.absf main_arg44
  let main_cst_86 : FVec F S_ .f32 := constant S_ .f32 0x7F800000#32
  let main_v220 : FVec F S512x128 .f32 := broadcastInDim S512x128 ![] bcast_S_S512x128 main_cst_86
  let main_v221 : IVec S512x128 1 := cmpf .olt main_v219 main_v220
  let main_c_87 : IVec S_ 1 := constantI S_ 1 1#1
  fn_part13 (F := F) main_arg5 main_arg9 main_arg13 main_arg17 main_arg21 main_arg25 main_arg29 main_arg33 main_arg37 main_arg41 main_arg45 main_arg46 main_arg47 main_arg48 main_arg49 main_v218 main_v221 main_c_87

def fn_part11 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg33 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v183 : IVec S_ 1) (main_v187 : IVec S_ 1) : IVec S_ 1 :=
  let main_v188 : IVec S_ 1 := andi main_v183 main_v187
  let main_v189 : FVec F S512x1500 .f32 := Host.absf main_arg38
  let main_cst_74 : FVec F S_ .f32 := constant S_ .f32 0x7F800000#32
  let main_v190 : FVec F S512x1500 .f32 := broadcastInDim S512x1500 ![] bcast_S_S512x1500 main_cst_74
  let main_v191 : IVec S512x1500 1 := cmpf .olt main_v189 main_v190
  let main_c_75 : IVec S_ 1 := constantI S_ 1 1#1
  let main_v192 : IVec S_ 1 := (fun x v => Host.reduce IntOp.andi x v reducesTo_S512x1500_S_d0_1 h_S_) main_v191 main_c_75
  let main_v193 : IVec S_ 1 := andi main_v188 main_v192
  let main_v194 : FVec F S1500 .f32 := Host.absf main_arg39
  let main_cst_76 : FVec F S_ .f32 := constant S_ .f32 0x7F800000#32
  let main_v195 : FVec F S1500 .f32 := broadcastInDim S1500 ![] bcast_S_S1500 main_cst_76
  let main_v196 : IVec S1500 1 := cmpf .olt main_v194 main_v195
  let main_c_77 : IVec S_ 1 := constantI S_ 1 1#1
  let main_v197 : IVec S_ 1 := (fun x v => Host.reduce IntOp.andi x v reducesTo_S1500_S_d0 h_S_) main_v196 main_c_77
  let main_v198 : IVec S_ 1 := andi main_v193 main_v197
  let main_v199 : FVec F S1500 .f32 := Host.absf main_arg40
  let main_cst_78 : FVec F S_ .f32 := constant S_ .f32 0x7F800000#32
  let main_v200 : FVec F S1500 .f32 := broadcastInDim S1500 ![] bcast_S_S1500 main_cst_78
  let main_v201 : IVec S1500 1 := cmpf .olt main_v199 main_v200
  let main_c_79 : IVec S_ 1 := constantI S_ 1 1#1
  let main_v202 : IVec S_ 1 := (fun x v => Host.reduce IntOp.andi x v reducesTo_S1500_S_d0 h_S_) main_v201 main_c_79
  let main_v203 : IVec S_ 1 := andi main_v198 main_v202
  let main_v204 : FVec F S1500 .f32 := Host.absf main_arg41
  let main_cst_80 : FVec F S_ .f32 := constant S_ .f32 0x7F800000#32
  fn_part12 (F := F) main_arg5 main_arg9 main_arg13 main_arg17 main_arg21 main_arg25 main_arg29 main_arg33 main_arg37 main_arg41 main_arg42 main_arg43 main_arg44 main_arg45 main_arg46 main_arg47 main_arg48 main_arg49 main_v203 main_v204 main_cst_80

def fn_part10 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg33 : FVec F S512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v168 : IVec S_ 1) (main_v169 : FVec F S512x512 .f32) (main_v170 : FVec F S512x512 .f32) : IVec S_ 1 :=
  let main_v171 : IVec S512x512 1 := cmpf .olt main_v169 main_v170
  let main_c_67 : IVec S_ 1 := constantI S_ 1 1#1
  let main_v172 : IVec S_ 1 := (fun x v => Host.reduce IntOp.andi x v reducesTo_S512x512_S_d0_1 h_S_) main_v171 main_c_67
  let main_v173 : IVec S_ 1 := andi main_v168 main_v172
  let main_v174 : FVec F S512 .f32 := Host.absf main_arg35
  let main_cst_68 : FVec F S_ .f32 := constant S_ .f32 0x7F800000#32
  let main_v175 : FVec F S512 .f32 := broadcastInDim S512 ![] bcast_S_S512 main_cst_68
  let main_v176 : IVec S512 1 := cmpf .olt main_v174 main_v175
  let main_c_69 : IVec S_ 1 := constantI S_ 1 1#1
  let main_v177 : IVec S_ 1 := (fun x v => Host.reduce IntOp.andi x v reducesTo_S512_S_d0 h_S_) main_v176 main_c_69
  let main_v178 : IVec S_ 1 := andi main_v173 main_v177
  let main_v179 : FVec F S512 .f32 := Host.absf main_arg36
  let main_cst_70 : FVec F S_ .f32 := constant S_ .f32 0x7F800000#32
  let main_v180 : FVec F S512 .f32 := broadcastInDim S512 ![] bcast_S_S512 main_cst_70
  let main_v181 : IVec S512 1 := cmpf .olt main_v179 main_v180
  let main_c_71 : IVec S_ 1 := constantI S_ 1 1#1
  let main_v182 : IVec S_ 1 := (fun x v => Host.reduce IntOp.andi x v reducesTo_S512_S_d0 h_S_) main_v181 main_c_71
  let main_v183 : IVec S_ 1 := andi main_v178 main_v182
  let main_v184 : FVec F S512 .f32 := Host.absf main_arg37
  let main_cst_72 : FVec F S_ .f32 := constant S_ .f32 0x7F800000#32
  let main_v185 : FVec F S512 .f32 := broadcastInDim S512 ![] bcast_S_S512 main_cst_72
  let main_v186 : IVec S512 1 := cmpf .olt main_v184 main_v185
  let main_c_73 : IVec S_ 1 := constantI S_ 1 1#1
  let main_v187 : IVec S_ 1 := (fun x v => Host.reduce IntOp.andi x v reducesTo_S512_S_d0 h_S_) main_v186 main_c_73
  fn_part11 (F := F) main_arg5 main_arg9 main_arg13 main_arg17 main_arg21 main_arg25 main_arg29 main_arg33 main_arg37 main_arg38 main_arg39 main_arg40 main_arg41 main_arg42 main_arg43 main_arg44 main_arg45 main_arg46 main_arg47 main_arg48 main_arg49 main_v183 main_v187

def fn_part9 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg29 : FVec F S512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v153 : IVec S_ 1) : IVec S_ 1 :=
  let main_v154 : FVec F S512 .f32 := Host.absf main_arg31
  let main_cst_60 : FVec F S_ .f32 := constant S_ .f32 0x7F800000#32
  let main_v155 : FVec F S512 .f32 := broadcastInDim S512 ![] bcast_S_S512 main_cst_60
  let main_v156 : IVec S512 1 := cmpf .olt main_v154 main_v155
  let main_c_61 : IVec S_ 1 := constantI S_ 1 1#1
  let main_v157 : IVec S_ 1 := (fun x v => Host.reduce IntOp.andi x v reducesTo_S512_S_d0 h_S_) main_v156 main_c_61
  let main_v158 : IVec S_ 1 := andi main_v153 main_v157
  let main_v159 : FVec F S512 .f32 := Host.absf main_arg32
  let main_cst_62 : FVec F S_ .f32 := constant S_ .f32 0x7F800000#32
  let main_v160 : FVec F S512 .f32 := broadcastInDim S512 ![] bcast_S_S512 main_cst_62
  let main_v161 : IVec S512 1 := cmpf .olt main_v159 main_v160
  let main_c_63 : IVec S_ 1 := constantI S_ 1 1#1
  let main_v162 : IVec S_ 1 := (fun x v => Host.reduce IntOp.andi x v reducesTo_S512_S_d0 h_S_) main_v161 main_c_63
  let main_v163 : IVec S_ 1 := andi main_v158 main_v162
  let main_v164 : FVec F S512 .f32 := Host.absf main_arg33
  let main_cst_64 : FVec F S_ .f32 := constant S_ .f32 0x7F800000#32
  let main_v165 : FVec F S512 .f32 := broadcastInDim S512 ![] bcast_S_S512 main_cst_64
  let main_v166 : IVec S512 1 := cmpf .olt main_v164 main_v165
  let main_c_65 : IVec S_ 1 := constantI S_ 1 1#1
  let main_v167 : IVec S_ 1 := (fun x v => Host.reduce IntOp.andi x v reducesTo_S512_S_d0 h_S_) main_v166 main_c_65
  let main_v168 : IVec S_ 1 := andi main_v163 main_v167
  let main_v169 : FVec F S512x512 .f32 := Host.absf main_arg34
  let main_cst_66 : FVec F S_ .f32 := constant S_ .f32 0x7F800000#32
  let main_v170 : FVec F S512x512 .f32 := broadcastInDim S512x512 ![] bcast_S_S512x512 main_cst_66
  fn_part10 (F := F) main_arg5 main_arg9 main_arg13 main_arg17 main_arg21 main_arg25 main_arg29 main_arg33 main_arg35 main_arg36 main_arg37 main_arg38 main_arg39 main_arg40 main_arg41 main_arg42 main_arg43 main_arg44 main_arg45 main_arg46 main_arg47 main_arg48 main_arg49 main_v168 main_v169 main_v170

def fn_part8 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v133 : IVec S_ 1) (main_v136 : IVec S512 1) : IVec S_ 1 :=
  let main_c_53 : IVec S_ 1 := constantI S_ 1 1#1
  let main_v137 : IVec S_ 1 := (fun x v => Host.reduce IntOp.andi x v reducesTo_S512_S_d0 h_S_) main_v136 main_c_53
  let main_v138 : IVec S_ 1 := andi main_v133 main_v137
  let main_v139 : FVec F S512 .f32 := Host.absf main_arg28
  let main_cst_54 : FVec F S_ .f32 := constant S_ .f32 0x7F800000#32
  let main_v140 : FVec F S512 .f32 := broadcastInDim S512 ![] bcast_S_S512 main_cst_54
  let main_v141 : IVec S512 1 := cmpf .olt main_v139 main_v140
  let main_c_55 : IVec S_ 1 := constantI S_ 1 1#1
  let main_v142 : IVec S_ 1 := (fun x v => Host.reduce IntOp.andi x v reducesTo_S512_S_d0 h_S_) main_v141 main_c_55
  let main_v143 : IVec S_ 1 := andi main_v138 main_v142
  let main_v144 : FVec F S512 .f32 := Host.absf main_arg29
  let main_cst_56 : FVec F S_ .f32 := constant S_ .f32 0x7F800000#32
  let main_v145 : FVec F S512 .f32 := broadcastInDim S512 ![] bcast_S_S512 main_cst_56
  let main_v146 : IVec S512 1 := cmpf .olt main_v144 main_v145
  let main_c_57 : IVec S_ 1 := constantI S_ 1 1#1
  let main_v147 : IVec S_ 1 := (fun x v => Host.reduce IntOp.andi x v reducesTo_S512_S_d0 h_S_) main_v146 main_c_57
  let main_v148 : IVec S_ 1 := andi main_v143 main_v147
  let main_v149 : FVec F S512x512 .f32 := Host.absf main_arg30
  let main_cst_58 : FVec F S_ .f32 := constant S_ .f32 0x7F800000#32
  let main_v150 : FVec F S512x512 .f32 := broadcastInDim S512x512 ![] bcast_S_S512x512 main_cst_58
  let main_v151 : IVec S512x512 1 := cmpf .olt main_v149 main_v150
  let main_c_59 : IVec S_ 1 := constantI S_ 1 1#1
  let main_v152 : IVec S_ 1 := (fun x v => Host.reduce IntOp.andi x v reducesTo_S512x512_S_d0_1 h_S_) main_v151 main_c_59
  let main_v153 : IVec S_ 1 := andi main_v148 main_v152
  fn_part9 (F := F) main_arg5 main_arg9 main_arg13 main_arg17 main_arg21 main_arg25 main_arg29 main_arg31 main_arg32 main_arg33 main_arg34 main_arg35 main_arg36 main_arg37 main_arg38 main_arg39 main_arg40 main_arg41 main_arg42 main_arg43 main_arg44 main_arg45 main_arg46 main_arg47 main_arg48 main_arg49 main_v153

def fn_part7 {F : FTy → Type} [FloatOps F] (main_arg5 : FVec F S512 .f32) (main_arg9 : FVec F S512 .f32) (main_arg13 : FVec F S512 .f32) (main_arg17 : FVec F S512 .f32) (main_arg21 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512 .f32 := Host.absf main_arg25
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S1536x512 .f32 := Host.absf main_arg26
  let main_cst_50 : FVec F S_ .f32 := constant S_ .f32 0x7F800000#32
  let main_v130 : FVec F S1536x512 .f32 := broadcastInDim S1536x512 ![] bcast_S_S1536x512 main_cst_50
  let main_v131 : IVec S1536x512 1 := cmpf .olt main_v129 main_v130
  let main_c_51 : IVec S_ 1 := constantI S_ 1 1#1
  let main_v132 : IVec S_ 1 := (fun x v => Host.reduce IntOp.andi x v reducesTo_S1536x512_S_d0_1 h_S_) main_v131 main_c_51
  let main_v133 : IVec S_ 1 := andi main_v128 main_v132
  let main_v134 : FVec F S512 .f32 := Host.absf main_arg27
  let main_cst_52 : FVec F S_ .f32 := constant S_ .f32 0x7F800000#32
  let main_v135 : FVec F S512 .f32 := broadcastInDim S512 ![] bcast_S_S512 main_cst_52
  let main_v136 : IVec S512 1 := cmpf .olt main_v134 main_v135
  fn_part8 (F := F) main_arg5 main_arg9 main_arg13 main_arg17 main_arg21 main_arg25 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v133 main_v136

def fn_part6 {F : FTy → Type} [FloatOps F] (main_arg5 : FVec F S512 .f32) (main_arg9 : FVec F S512 .f32) (main_arg13 : FVec F S512 .f32) (main_arg17 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg22
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_arg5 main_arg9 main_arg13 main_arg17 main_arg21 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v118 main_v119

def fn_part5 {F : FTy → Type} [FloatOps F] (main_arg5 : FVec F S512 .f32) (main_arg9 : FVec F S512 .f32) (main_arg13 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S1536x512 .f32 := Host.absf main_arg18
  let main_cst_34 : FVec F S_ .f32 := constant S_ .f32 0x7F800000#32
  let main_v90 : FVec F S1536x512 .f32 := broadcastInDim S1536x512 ![] bcast_S_S1536x512 main_cst_34
  let main_v91 : IVec S1536x512 1 := cmpf .olt main_v89 main_v90
  let main_c_35 : IVec S_ 1 := constantI S_ 1 1#1
  let main_v92 : IVec S_ 1 := (fun x v => Host.reduce IntOp.andi x v reducesTo_S1536x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg5 main_arg9 main_arg13 main_arg17 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v98 main_v101 main_c_39

def fn_part4 {F : FTy → Type} [FloatOps F] (main_arg5 : FVec F S512 .f32) (main_arg9 : FVec F S512 .f32) (main_arg13 : FVec F S512 .f32) (main_arg14 : FVec F S512x512 .f32) (main_arg15 : FVec F S512 .f32) (main_arg16 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg5 main_arg9 main_arg13 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v83 main_v84 main_cst_32

def fn_part3 {F : FTy → Type} [FloatOps F] (main_arg5 : FVec F S512 .f32) (main_arg9 : FVec F S512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v48 : IVec S_ 1) (main_v49 : FVec F S1536x512 .f32) (main_v50 : FVec F S1536x512 .f32) : IVec S_ 1 :=
  let main_v51 : IVec S1536x512 1 := cmpf .olt main_v49 main_v50
  let main_c_19 : IVec S_ 1 := constantI S_ 1 1#1
  let main_v52 : IVec S_ 1 := (fun x v => Host.reduce IntOp.andi x v reducesTo_S1536x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg5 main_arg9 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v63 main_v67

def fn_part2 {F : FTy → Type} [FloatOps F] (main_arg5 : FVec F S512 .f32) (main_arg7 : FVec F S512 .f32) (main_arg8 : FVec F S512 .f32) (main_arg9 : FVec F S512 .f32) (main_arg10 : FVec F S1536x512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1536x512 .f32 := Host.absf main_arg10
  let main_cst_18 : FVec F S_ .f32 := constant S_ .f32 0x7F800000#32
  let main_v50 : FVec F S1536x512 .f32 := broadcastInDim S1536x512 ![] bcast_S_S1536x512 main_cst_18
  fn_part3 (F := F) main_arg5 main_arg9 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v48 main_v49 main_v50

def fn_part1 {F : FTy → Type} [FloatOps F] (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S1536x512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg5 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v33

def fn {F : FTy → Type} [FloatOps F] (main_arg0 : FVec F S8x30x200 .f32) (main_arg1 : FVec F S8x30x200 .f32) (main_arg2 : FVec F S150x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S1536x512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) (main_arg18 : FVec F S1536x512 .f32) (main_arg19 : FVec F S512 .f32) (main_arg20 : FVec F S512 .f32) (main_arg21 : FVec F S512 .f32) (main_arg22 : FVec F S512x512 .f32) (main_arg23 : FVec F S512 .f32) (main_arg24 : FVec F S512 .f32) (main_arg25 : FVec F S512 .f32) (main_arg26 : FVec F S1536x512 .f32) (main_arg27 : FVec F S512 .f32) (main_arg28 : FVec F S512 .f32) (main_arg29 : FVec F S512 .f32) (main_arg30 : FVec F S512x512 .f32) (main_arg31 : FVec F S512 .f32) (main_arg32 : FVec F S512 .f32) (main_arg33 : FVec F S512 .f32) (main_arg34 : FVec F S512x512 .f32) (main_arg35 : FVec F S512 .f32) (main_arg36 : FVec F S512 .f32) (main_arg37 : FVec F S512 .f32) (main_arg38 : FVec F S512x1500 .f32) (main_arg39 : FVec F S1500 .f32) (main_arg40 : FVec F S1500 .f32) (main_arg41 : FVec F S1500 .f32) (main_arg42 : FVec F S3000x512 .f32) (main_arg43 : FVec F S512 .f32) (main_arg44 : FVec F S512x128 .f32) (main_arg45 : FVec F S128 .f32) (main_arg46 : FVec F S128x128 .f32) (main_arg47 : FVec F S128 .f32) (main_arg48 : FVec F S128 .f32) (main_arg49 : FVec F S128 .f32) : IVec S_ 1 :=
  let main_v0 : FVec F S8x30x200 .f32 := Host.absf main_arg0
  let main_cst : FVec F S_ .f32 := constant S_ .f32 0x7F800000#32
  let main_v1 : FVec F S8x30x200 .f32 := broadcastInDim S8x30x200 ![] bcast_S_S8x30x200 main_cst
  let main_v2 : IVec S8x30x200 1 := cmpf .olt main_v0 main_v1
  let main_c : IVec S_ 1 := constantI S_ 1 1#1
  let main_v3 : IVec S_ 1 := (fun x v => Host.reduce IntOp.andi x v reducesTo_S8x30x200_S_d0_1_2 h_S_) main_v2 main_c
  let main_v4 : FVec F S8x30x200 .f32 := Host.absf main_arg1
  let main_cst_0 : FVec F S_ .f32 := constant S_ .f32 0x7F800000#32
  let main_v5 : FVec F S8x30x200 .f32 := broadcastInDim S8x30x200 ![] bcast_S_S8x30x200 main_cst_0
  let main_v6 : IVec S8x30x200 1 := cmpf .olt main_v4 main_v5
  let main_c_1 : IVec S_ 1 := constantI S_ 1 1#1
  let main_v7 : IVec S_ 1 := (fun x v => Host.reduce IntOp.andi x v reducesTo_S8x30x200_S_d0_1_2 h_S_) main_v6 main_c_1
  let main_v8 : IVec S_ 1 := andi main_v3 main_v7
  let main_v9 : FVec F S150x512 .f32 := Host.absf main_arg2
  let main_cst_2 : FVec F S_ .f32 := constant S_ .f32 0x7F800000#32
  let main_v10 : FVec F S150x512 .f32 := broadcastInDim S150x512 ![] bcast_S_S150x512 main_cst_2
  let main_v11 : IVec S150x512 1 := cmpf .olt main_v9 main_v10
  let main_c_3 : IVec S_ 1 := constantI S_ 1 1#1
  let main_v12 : IVec S_ 1 := (fun x v => Host.reduce IntOp.andi x v reducesTo_S150x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_arg48 main_arg49 main_v13 main_v16
-- ==== Kernel.lean ====
abbrev S8x30x200 : Shape := ⟨3, ![8, 30, 200]⟩
abbrev S150x512 : Shape := ⟨2, ![150, 512]⟩
abbrev S512 : Shape := ⟨1, ![512]⟩
abbrev S512x512 : Shape := ⟨2, ![512, 512]⟩
abbrev S1536x512 : Shape := ⟨2, ![1536, 512]⟩
abbrev S512x1500 : Shape := ⟨2, ![512, 1500]⟩
abbrev S1500 : Shape := ⟨1, ![1500]⟩
abbrev S3000x512 : Shape := ⟨2, ![3000, 512]⟩
abbrev S512x128 : Shape := ⟨2, ![512, 128]⟩
abbrev S128 : Shape := ⟨1, ![128]⟩
abbrev S128x128 : Shape := ⟨2, ![128, 128]⟩
abbrev S16x30x200 : Shape := ⟨3, ![16, 30, 200]⟩
abbrev S16x200x30 : Shape := ⟨3, ![16, 200, 30]⟩
abbrev S_ : Shape := ⟨0, ![]⟩
abbrev S1x512 : Shape := ⟨2, ![1, 512]⟩
abbrev S3x512 : Shape := ⟨2, ![3, 512]⟩
abbrev S1x1500 : Shape := ⟨2, ![1, 1500]⟩
abbrev S3x1500 : Shape := ⟨2, ![3, 1500]⟩
abbrev S16x1x1500 : Shape := ⟨3, ![16, 1, 1500]⟩
abbrev S1x200x30 : Shape := ⟨3, ![1, 200, 30]⟩
abbrev S1x1x1500 : Shape := ⟨3, ![1, 1, 1500]⟩
abbrev S200x30 : Shape := ⟨2, ![200, 30]⟩
abbrev S196x30 : Shape := ⟨2, ![196, 30]⟩
abbrev S196x150 : Shape := ⟨2, ![196, 150]⟩
abbrev S196x512 : Shape := ⟨2, ![196, 512]⟩
abbrev S192x512 : Shape := ⟨2, ![192, 512]⟩
abbrev S192x1536 : Shape := ⟨2, ![192, 1536]⟩
abbrev S186x512 : Shape := ⟨2, ![186, 512]⟩
abbrev S186x1536 : Shape := ⟨2, ![186, 1536]⟩
abbrev S178x512 : Shape := ⟨2, ![178, 512]⟩
abbrev S178x1536 : Shape := ⟨2, ![178, 1536]⟩
abbrev S178x1500 : Shape := ⟨2, ![178, 1500]⟩
abbrev S16x1500 : Shape := ⟨2, ![16, 1500]⟩
abbrev S1x128 : Shape := ⟨2, ![1, 128]⟩
abbrev S2x128 : Shape := ⟨2, ![2, 128]⟩
abbrev S1500x512 : Shape := ⟨2, ![1500, 512]⟩
abbrev S8x1 : Shape := ⟨2, ![8, 1]⟩
abbrev S16x512 : Shape := ⟨2, ![16, 512]⟩
abbrev S16x128 : Shape := ⟨2, ![16, 128]⟩
abbrev S16 : Shape := ⟨1, ![16]⟩
abbrev S16x1 : Shape := ⟨2, ![16, 1]⟩
abbrev S8x128 : Shape := ⟨2, ![8, 128]⟩
abbrev S8 : Shape := ⟨1, ![8]⟩

abbrev nBuf : Space → Nat
  | .hbm => 170
  | .vmem => 37
  | .smem => 0
  | _ => 0

abbrev hbmTy0_0 (i : Nat) : BufTy := match i % 128 with
  | 0 => ⟨S8x30x200, .f32⟩
  | 1 => ⟨S8x30x200, .f32⟩
  | 2 => ⟨S150x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S1536x512, .f32⟩
  | 11 => ⟨S512, .f32⟩
  | 12 => ⟨S512, .f32⟩
  | 13 => ⟨S512, .f32⟩
  | 14 => ⟨S512x512, .f32⟩
  | 15 => ⟨S512, .f32⟩
  | 16 => ⟨S512, .f32⟩
  | 17 => ⟨S512, .f32⟩
  | 18 => ⟨S1536x512, .f32⟩
  | 19 => ⟨S512, .f32⟩
  | 20 => ⟨S512, .f32⟩
  | 21 => ⟨S512, .f32⟩
  | 22 => ⟨S512x512, .f32⟩
  | 23 => ⟨S512, .f32⟩
  | 24 => ⟨S512, .f32⟩
  | 25 => ⟨S512, .f32⟩
  | 26 => ⟨S1536x512, .f32⟩
  | 27 => ⟨S512, .f32⟩
  | 28 => ⟨S512, .f32⟩
  | 29 => ⟨S512, .f32⟩
  | 30 => ⟨S512x512, .f32⟩
  | 31 => ⟨S512, .f32⟩
  | 32 => ⟨S512, .f32⟩
  | 33 => ⟨S512, .f32⟩
  | 34 => ⟨S512x512, .f32⟩
  | 35 => ⟨S512, .f32⟩
  | 36 => ⟨S512, .f32⟩
  | 37 => ⟨S512, .f32⟩
  | 38 => ⟨S512x1500, .f32⟩
  | 39 => ⟨S1500, .f32⟩
  | 40 => ⟨S1500, .f32⟩
  | 41 => ⟨S1500, .f32⟩
  | 42 => ⟨S3000x512, .f32⟩
  | 43 => ⟨S512, .f32⟩
  | 44 => ⟨S512x128, .f32⟩
  | 45 => ⟨S128, .f32⟩
  | 46 => ⟨S128x128, .f32⟩
  | 47 => ⟨S128, .f32⟩
  | 48 => ⟨S128, .f32⟩
  | 49 => ⟨S128, .f32⟩
  | 50 => ⟨S16x30x200, .f32⟩
  | 51 => ⟨S16x200x30, .f32⟩
  | 52 => ⟨S150x512, .bf16⟩
  | 53 => ⟨S512x512, .bf16⟩
  | 54 => ⟨S1536x512, .bf16⟩
  | 55 => ⟨S512x512, .bf16⟩
  | 56 => ⟨S1536x512, .bf16⟩
  | 57 => ⟨S512x512, .bf16⟩
  | 58 => ⟨S1536x512, .bf16⟩
  | 59 => ⟨S512x512, .bf16⟩
  | 60 => ⟨S512x512, .bf16⟩
  | 61 => ⟨S512x1500, .bf16⟩
  | 62 => ⟨S_, .f32⟩
  | 63 => ⟨S512, .f32⟩
  | 64 => ⟨S512, .f32⟩
  | 65 => ⟨S512, .f32⟩
  | 66 => ⟨S512, .f32⟩
  | 67 => ⟨S1x512, .f32⟩
  | 68 => ⟨S1x512, .f32⟩
  | 69 => ⟨S1x512, .f32⟩
  | 70 => ⟨S3x512, .f32⟩
  | 71 => ⟨S_, .f32⟩
  | 72 => ⟨S512, .f32⟩
  | 73 => ⟨S512, .f32⟩
  | 74 => ⟨S512, .f32⟩
  | 75 => ⟨S512, .f32⟩
  | 76 => ⟨S1x512, .f32⟩
  | 77 => ⟨S1x512, .f32⟩
  | 78 => ⟨S1x512, .f32⟩
  | 79 => ⟨S3x512, .f32⟩
  | 80 => ⟨S_, .f32⟩
  | 81 => ⟨S512, .f32⟩
  | 82 => ⟨S512, .f32⟩
  | 83 => ⟨S512, .f32⟩
  | 84 => ⟨S512, .f32⟩
  | 85 => ⟨S1x512, .f32⟩
  | 86 => ⟨S1x512, .f32⟩
  | 87 => ⟨S1x512, .f32⟩
  | 88 => ⟨S3x512, .f32⟩
  | 89 => ⟨S_, .f32⟩
  | 90 => ⟨S512, .f32⟩
  | 91 => ⟨S512, .f32⟩
  | 92 => ⟨S512, .f32⟩
  | 93 => ⟨S512, .f32⟩
  | 94 => ⟨S1x512, .f32⟩
  | 95 => ⟨S1x512, .f32⟩
  | 96 => ⟨S1x512, .f32⟩
  | 97 => ⟨S3x512, .f32⟩
  | 98 => ⟨S_, .f32⟩
  | 99 => ⟨S512, .f32⟩
  | 100 => ⟨S512, .f32⟩
  | 101 => ⟨S512, .f32⟩
  | 102 => ⟨S512, .f32⟩
  | 103 => ⟨S1x512, .f32⟩
  | 104 => ⟨S1x512, .f32⟩
  | 105 => ⟨S1x512, .f32⟩
  | 106 => ⟨S3x512, .f32⟩
  | 107 => ⟨S_, .f32⟩
  | 108 => ⟨S512, .f32⟩
  | 109 => ⟨S512, .f32⟩
  | 110 => ⟨S512, .f32⟩
  | 111 => ⟨S512, .f32⟩
  | 112 => ⟨S1x512, .f32⟩
  | 113 => ⟨S1x512, .f32⟩
  | 114 => ⟨S1x512, .f32⟩
  | 115 => ⟨S3x512, .f32⟩
  | 116 => ⟨S_, .f32⟩
  | 117 => ⟨S512, .f32⟩
  | 118 => ⟨S512, .f32⟩
  | 119 => ⟨S512, .f32⟩
  | 120 => ⟨S512, .f32⟩
  | 121 => ⟨S1x512, .f32⟩
  | 122 => ⟨S1x512, .f32⟩
  | 123 => ⟨S1x512, .f32⟩
  | 124 => ⟨S3x512, .f32⟩
  | 125 => ⟨S_, .f32⟩
  | 126 => ⟨S512, .f32⟩
  | 127 => ⟨S512, .f32⟩
  | _ => ⟨S8x30x200, .f32⟩

abbrev hbmTy0_1 (i : Nat) : BufTy := match i % 128 with
  | 0 => ⟨S512, .f32⟩
  | 1 => ⟨S512, .f32⟩
  | 2 => ⟨S1x512, .f32⟩
  | 3 => ⟨S1x512, .f32⟩
  | 4 => ⟨S1x512, .f32⟩
  | 5 => ⟨S3x512, .f32⟩
  | 6 => ⟨S_, .f32⟩
  | 7 => ⟨S512, .f32⟩
  | 8 => ⟨S512, .f32⟩
  | 9 => ⟨S512, .f32⟩
  | 10 => ⟨S512, .f32⟩
  | 11 => ⟨S1x512, .f32⟩
  | 12 => ⟨S1x512, .f32⟩
  | 13 => ⟨S1x512, .f32⟩
  | 14 => ⟨S3x512, .f32⟩
  | 15 => ⟨S_, .f32⟩
  | 16 => ⟨S1500, .f32⟩
  | 17 => ⟨S1500, .f32⟩
  | 18 => ⟨S1500, .f32⟩
  | 19 => ⟨S1500, .f32⟩
  | 20 => ⟨S1x1500, .f32⟩
  | 21 => ⟨S1x1500, .f32⟩
  | 22 => ⟨S1x1500, .f32⟩
  | 23 => ⟨S3x1500, .f32⟩
  | 24 => ⟨S16x1x1500, .f32⟩
  | 25 => ⟨S16x1x1500, .f32⟩
  | 26 => ⟨S16x1500, .f32⟩
  | 27 => ⟨S16x1500, .f32⟩
  | 28 => ⟨S3000x512, .bf16⟩
  | 29 => ⟨S128, .f32⟩
  | 30 => ⟨S1x128, .f32⟩
  | 31 => ⟨S1x128, .f32⟩
  | 32 => ⟨S2x128, .f32⟩
  | 33 => ⟨S1500x512, .bf16⟩
  | 34 => ⟨S1500x512, .bf16⟩
  | 35 => ⟨S1x512, .f32⟩
  | 36 => ⟨S512x128, .bf16⟩
  | 37 => ⟨S1x128, .f32⟩
  | 38 => ⟨S128x128, .bf16⟩
  | 39 => ⟨S1x128, .f32⟩
  | 40 => ⟨S8x1, .f32⟩
  | 41 => ⟨S8, .f32⟩
  | _ => ⟨S8x30x200, .f32⟩

abbrev hbmTy (i : Nat) : BufTy := match i / 128 with
  | 0 => hbmTy0_0 i
  | 1 => hbmTy0_1 i
  | _ => ⟨S8x30x200, .f32⟩

abbrev bufTy : (tb : Table) → Fin (tcTables nBuf tb) → BufTy
  | .hbm, ⟨i, _⟩ => hbmTy i
  | .local _ .vmem, ⟨0, _⟩ => ⟨S1x200x30, .f32⟩
  | .local _ .vmem, ⟨1, _⟩ => ⟨S1x200x30, .f32⟩
  | .local _ .vmem, ⟨2, _⟩ => ⟨S150x512, .bf16⟩
  | .local _ .vmem, ⟨3, _⟩ => ⟨S512x512, .bf16⟩
  | .local _ .vmem, ⟨4, _⟩ => ⟨S1536x512, .bf16⟩
  | .local _ .vmem, ⟨5, _⟩ => ⟨S512x512, .bf16⟩
  | .local _ .vmem, ⟨6, _⟩ => ⟨S1536x512, .bf16⟩
  | .local _ .vmem, ⟨7, _⟩ => ⟨S512x512, .bf16⟩
  | .local _ .vmem, ⟨8, _⟩ => ⟨S1536x512, .bf16⟩
  | .local _ .vmem, ⟨9, _⟩ => ⟨S512x512, .bf16⟩
  | .local _ .vmem, ⟨10, _⟩ => ⟨S512x512, .bf16⟩
  | .local _ .vmem, ⟨11, _⟩ => ⟨S512x1500, .bf16⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S3x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x1500, .f32⟩
  | .local _ .vmem, ⟨22, _⟩ => ⟨S1x1x1500, .f32⟩
  | .local _ .vmem, ⟨23, _⟩ => ⟨S1x1x1500, .f32⟩
  | .local _ .vmem, ⟨24, _⟩ => ⟨S1x1x1500, .f32⟩
  | .local _ .vmem, ⟨25, _⟩ => ⟨S1x1x1500, .f32⟩
  | .local _ .vmem, ⟨26, _⟩ => ⟨S16x1500, .f32⟩
  | .local _ .vmem, ⟨27, _⟩ => ⟨S16x1500, .f32⟩
  | .local _ .vmem, ⟨28, _⟩ => ⟨S1500x512, .bf16⟩
  | .local _ .vmem, ⟨29, _⟩ => ⟨S1500x512, .bf16⟩
  | .local _ .vmem, ⟨30, _⟩ => ⟨S1x512, .f32⟩
  | .local _ .vmem, ⟨31, _⟩ => ⟨S512x128, .bf16⟩
  | .local _ .vmem, ⟨32, _⟩ => ⟨S1x128, .f32⟩
  | .local _ .vmem, ⟨33, _⟩ => ⟨S128x128, .bf16⟩
  | .local _ .vmem, ⟨34, _⟩ => ⟨S1x128, .f32⟩
  | .local _ .vmem, ⟨35, _⟩ => ⟨S2x128, .f32⟩
  | .local _ .vmem, ⟨36, _⟩ => ⟨S8x1, .f32⟩
  | _, _ => ⟨S8x30x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_v0 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_0 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_1 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_cst_2 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_cst_3 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_cst_4 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_cst_5 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_6 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_7 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_8 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92_0 : Ref sig .tc := ⟨.hbm, 152, rfl⟩
abbrev main_v92_1 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg22_1 : Ref sig .tc := ⟨.vmem, 25, rfl⟩
abbrev cc1_stg0_0 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem22_1 : DmaSem sig := 25
abbrev cc1_sem0_0 : DmaSem sig := 26
abbrev cc1_sem1_0 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S150x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1500 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3x1500 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x1x1500 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1500 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := .none

abbrev stage1_0 : Fin 1 → Memref sig .tc .vmem S16x1500 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1500 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1500x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1500x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

class Facts₀ : Prop where
  concatenates_S8x30x200_S8x30x200_S16x30x200_d0 : Shape.Concatenates [S8x30x200, S8x30x200] S16x30x200 0
  transposes_S16x30x200_S16x200x30_0_2_1 : S16x30x200.Transposes [0, 2, 1] S16x200x30
  bitsLt_bf16_f32 : FTy.bits .bf16 < FTy.bits .f32
  bcast_S_S512 : S_.BroadcastsInDim S512 (![] : Fin 0 → Fin S512.rank)
  bcast_S512_S1x512_1 : S512.BroadcastsInDim S1x512 (![1] : Fin 1 → Fin S1x512.rank)
  concatenates_S1x512_S1x512_S1x512_S3x512_d0 : Shape.Concatenates [S1x512, S1x512, S1x512] S3x512 0
  bcast_S_S1500 : S_.BroadcastsInDim S1500 (![] : Fin 0 → Fin S1500.rank)
  bcast_S1500_S1x1500_1 : S1500.BroadcastsInDim S1x1500 (![1] : Fin 1 → Fin S1x1500.rank)
  concatenates_S1x1500_S1x1500_S1x1500_S3x1500_d0 : Shape.Concatenates [S1x1500, S1x1500, S1x1500] S3x1500 0
  inb_S1x200x30_S1x200x30_0_0_0 : ∀ a, (![0, 0, 0] : Fin 3 → Nat) a + S1x200x30.size a ≤ S1x200x30.size a
  h_S1x200x30 : 0 < S1x200x30.numel
  shapeCasts_S1x200x30_S200x30 : S1x200x30.ShapeCasts S200x30
  slices_S200x30_o0_0_S196x30 : S200x30.Slices ![0, 0] S196x30
  slices_S200x30_o1_0_S196x30 : S200x30.Slices ![1, 0] S196x30
  slices_S200x30_o2_0_S196x30 : S200x30.Slices ![2, 0] S196x30
  slices_S200x30_o3_0_S196x30 : S200x30.Slices ![3, 0] S196x30
  slices_S200x30_o4_0_S196x30 : S200x30.Slices ![4, 0] S196x30
  concatenates_S196x30_S196x30_S196x30_S196x30_S196x30_S196x150_d1 : Shape.Concatenates [S196x30, S196x30, S196x30, S196x30, S196x30] S196x150 1
  inb_S150x512_S150x512_0_0 : ∀ a, (![0, 0] : Fin 2 → Nat) a + S150x512.size a ≤ S150x512.size a
  h_S150x512 : 0 < S150x512.numel
  shapeCasts_S150x512_S150x512 : S150x512.ShapeCasts S150x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  slices_S3x512_o0_0_S1x512 : S3x512.Slices ![0, 0] S1x512
  broadcasts_S1x512_S196x512 : S1x512.Broadcasts S196x512
  slices_S3x512_o1_0_S1x512 : S3x512.Slices ![1, 0] S1x512
  slices_S3x512_o2_0_S1x512 : S3x512.Slices ![2, 0] S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S196x512_o0_0_S192x512 : S196x512.Slices ![0, 0] S192x512
  slices_S196x512_o2_0_S192x512 : S196x512.Slices ![2, 0] S192x512
  slices_S196x512_o4_0_S192x512 : S196x512.Slices ![4, 0] S192x512
  concatenates_S192x512_S192x512_S192x512_S192x1536_d1 : Shape.Concatenates [S192x512, S192x512, S192x512] S192x1536 1
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  broadcasts_S1x512_S192x512 : S1x512.Broadcasts S192x512
  slices_S192x512_o0_0_S186x512 : S192x512.Slices ![0, 0] S186x512
  slices_S192x512_o3_0_S186x512 : S192x512.Slices ![3, 0] S186x512
  slices_S192x512_o6_0_S186x512 : S192x512.Slices ![6, 0] S186x512
  concatenates_S186x512_S186x512_S186x512_S186x1536_d1 : Shape.Concatenates [S186x512, S186x512, S186x512] S186x1536 1
  broadcasts_S1x512_S186x512 : S1x512.Broadcasts S186x512
  slices_S186x512_o0_0_S178x512 : S186x512.Slices ![0, 0] S178x512
  slices_S186x512_o4_0_S178x512 : S186x512.Slices ![4, 0] S178x512
  slices_S186x512_o8_0_S178x512 : S186x512.Slices ![8, 0] S178x512
  concatenates_S178x512_S178x512_S178x512_S178x1536_d1 : Shape.Concatenates [S178x512, S178x512, S178x512] S178x1536 1
  broadcasts_S1x512_S178x512 : S1x512.Broadcasts S178x512
  inb_S512x1500_S512x1500_0_0 : ∀ a, (![0, 0] : Fin 2 → Nat) a + S512x1500.size a ≤ S512x1500.size a
  h_S512x1500 : 0 < S512x1500.numel
  shapeCasts_S512x1500_S512x1500 : S512x1500.ShapeCasts S512x1500
  inb_S3x1500_S3x1500_0_0 : ∀ a, (![0, 0] : Fin 2 → Nat) a + S3x1500.size a ≤ S3x1500.size a
  h_S3x1500 : 0 < S3x1500.numel
  shapeCasts_S3x1500_S3x1500 : S3x1500.ShapeCasts S3x1500
  slices_S3x1500_o0_0_S1x1500 : S3x1500.Slices ![0, 0] S1x1500
  broadcasts_S1x1500_S178x1500 : S1x1500.Broadcasts S178x1500
  slices_S3x1500_o1_0_S1x1500 : S3x1500.Slices ![1, 0] S1x1500
  slices_S3x1500_o2_0_S1x1500 : S3x1500.Slices ![2, 0] S1x1500
  reduces_S178x1500_S1500 : S178x1500.Reduces [0] S1500
  shapeCasts_S1500_S1x1500 : S1500.ShapeCasts S1x1500
  inb_S1x1x1500_S1x1x1500_0_0_0 : ∀ a, (![0, 0, 0] : Fin 3 → Nat) a + S1x1x1500.size a ≤ S1x1x1500.size a
  h_S1x1x1500 : 0 < S1x1x1500.numel
  shapeCasts_S1x1x1500_S1x1500 : S1x1x1500.ShapeCasts S1x1500
  shapeCasts_S1x1500_S1x1x1500 : S1x1500.ShapeCasts S1x1x1500
  shapeCasts_S16x1x1500_S16x1500 : S16x1x1500.ShapeCasts S16x1500
  bcast_S128_S1x128_1 : S128.BroadcastsInDim S1x128 (![1] : Fin 1 → Fin S1x128.rank)
  concatenates_S1x128_S1x128_S2x128_d0 : Shape.Concatenates [S1x128, S1x128] S2x128 0
  slices_S3000x512_S1500x512_0_0 : S3000x512.Slices ![0, 0] S1500x512
  slices_S3000x512_S1500x512_1500_0 : S3000x512.Slices ![1500, 0] S1500x512
  shapeCasts_S512_S1x512 : S512.ShapeCasts S1x512
  shapeCasts_S128_S1x128 : S128.ShapeCasts S1x128
  inb_S16x1500_S16x1500_0_0 : ∀ a, (![0, 0] : Fin 2 → Nat) a + S16x1500.size a ≤ S16x1500.size a
  h_S16x1500 : 0 < S16x1500.numel
  shapeCasts_S16x1500_S16x1500 : S16x1500.ShapeCasts S16x1500
  inb_S1500x512_S1500x512_0_0 : ∀ a, (![0, 0] : Fin 2 → Nat) a + S1500x512.size a ≤ S1500x512.size a
  h_S1500x512 : 0 < S1500x512.numel
  shapeCasts_S1500x512_S1500x512 : S1500x512.ShapeCasts S1500x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  reduces_S16x128_S16 : S16x128.Reduces [1] S16
  shapeCasts_S16_S16x1 : S16.ShapeCasts S16x1
  broadcasts_S16x1_S16x128 : S16x1.Broadcasts S16x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S16x128_o0_0_S8x128 : S16x128.Slices ![0, 0] S8x128
  slices_S16x128_o8_0_S8x128 : S16x128.Slices ![8, 0] S8x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  broadcasts_S1x128_S8x128 : S1x128.Broadcasts S8x128
  reduces_S8x128_S8 : S8x128.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S8x1_S8 : S8x1.ShapeCasts S8
  dot_S196x150_S150x512_S196x512_1_0_0_1_n_n_wf : DotDims.WF S196x150 S150x512 S196x512 [1] [0] [0] [1] [] []
  dot_S196x512_S512x512_S196x512_1_0_0_1_n_n_wf : DotDims.WF S196x512 S512x512 S196x512 [1] [0] [0] [1] [] []
  dot_S192x1536_S1536x512_S192x512_1_0_0_1_n_n_wf : DotDims.WF S192x1536 S1536x512 S192x512 [1] [0] [0] [1] [] []
  dot_S192x512_S512x512_S192x512_1_0_0_1_n_n_wf : DotDims.WF S192x512 S512x512 S192x512 [1] [0] [0] [1] [] []
  dot_S186x1536_S1536x512_S186x512_1_0_0_1_n_n_wf : DotDims.WF S186x1536 S1536x512 S186x512 [1] [0] [0] [1] [] []
  dot_S186x512_S512x512_S186x512_1_0_0_1_n_n_wf : DotDims.WF S186x512 S512x512 S186x512 [1] [0] [0] [1] [] []
  dot_S178x1536_S1536x512_S178x512_1_0_0_1_n_n_wf : DotDims.WF S178x1536 S1536x512 S178x512 [1] [0] [0] [1] [] []
  dot_S178x512_S512x512_S178x512_1_0_0_1_n_n_wf : DotDims.WF S178x512 S512x512 S178x512 [1] [0] [0] [1] [] []
  dot_S178x512_S512x1500_S178x1500_1_0_0_1_n_n_wf : DotDims.WF S178x512 S512x1500 S178x1500 [1] [0] [0] [1] [] []
  dot_S16x1500_S1500x512_S16x512_1_0_0_1_n_n_wf : DotDims.WF S16x1500 S1500x512 S16x512 [1] [0] [0] [1] [] []
  dot_S16x512_S512x128_S16x128_1_0_0_1_n_n_wf : DotDims.WF S16x512 S512x128 S16x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x30.size a ≤ S16x200x30.size a
  hwx0_0 : ∀ i : grid0.Coords, EltTy.bits .f32 = 32 ∨ (Rect.block (s := S16x200x30) S1x200x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S150x512.size a ≤ S150x512.size a
  hwx0_1 : ∀ i : grid0.Coords, EltTy.bits .bf16 = 32 ∨ (Rect.block (s := S150x512) S150x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x512.size a ≤ S1536x512.size a
  hwx0_3 : ∀ i : grid0.Coords, EltTy.bits .bf16 = 32 ∨ (Rect.block (s := S1536x512) S1536x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x512.size a
  hwx0_5 : ∀ i : grid0.Coords, EltTy.bits .bf16 = 32 ∨ (Rect.block (s := S1536x512) S1536x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x512.size a ≤ S1536x512.size a
  hwx0_7 : ∀ i : grid0.Coords, EltTy.bits .bf16 = 32 ∨ (Rect.block (s := S1536x512) S1536x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x1500.size a ≤ S512x1500.size a
  hwx0_10 : ∀ i : grid0.Coords, EltTy.bits .bf16 = 32 ∨ (Rect.block (s := S512x1500) S512x1500.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x512.size a ≤ S3x512.size a
  hwx0_11 : ∀ i : grid0.Coords, EltTy.bits .f32 = 32 ∨ (Rect.block (s := S3x512) S3x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x512.size a ≤ S3x512.size a
  hwx0_12 : ∀ i : grid0.Coords, EltTy.bits .f32 = 32 ∨ (Rect.block (s := S3x512) S3x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x512.size a ≤ S3x512.size a
  hwx0_13 : ∀ i : grid0.Coords, EltTy.bits .f32 = 32 ∨ (Rect.block (s := S3x512) S3x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x512.size a ≤ S3x512.size a
  hwx0_14 : ∀ i : grid0.Coords, EltTy.bits .f32 = 32 ∨ (Rect.block (s := S3x512) S3x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S3x512.size a ≤ S3x512.size a
  hwx0_15 : ∀ i : grid0.Coords, EltTy.bits .f32 = 32 ∨ (Rect.block (s := S3x512) S3x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3x512.size a ≤ S3x512.size a
  hwx0_16 : ∀ i : grid0.Coords, EltTy.bits .f32 = 32 ∨ (Rect.block (s := S3x512) S3x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x512.size a ≤ S3x512.size a
  hwx0_17 : ∀ i : grid0.Coords, EltTy.bits .f32 = 32 ∨ (Rect.block (s := S3x512) S3x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3x512.size a ≤ S3x512.size a
  hwx0_18 : ∀ i : grid0.Coords, EltTy.bits .f32 = 32 ∨ (Rect.block (s := S3x512) S3x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x512.size a ≤ S3x512.size a
  hwx0_19 : ∀ i : grid0.Coords, EltTy.bits .f32 = 32 ∨ (Rect.block (s := S3x512) S3x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S3x1500.size a ≤ S3x1500.size a
  hwx0_20 : ∀ i : grid0.Coords, EltTy.bits .f32 = 32 ∨ (Rect.block (s := S3x1500) S3x1500.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1x1x1500.size a ≤ S16x1x1500.size a
  hwx0_21 : ∀ i : grid0.Coords, EltTy.bits .f32 = 32 ∨ (Rect.block (s := S16x1x1500) S1x1x1500.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1x1x1500.size a ≤ S16x1x1500.size a
  hwx0_22 : ∀ i : grid0.Coords, EltTy.bits .f32 = 32 ∨ (Rect.block (s := S16x1x1500) S1x1x1500.size (cc0_transform_22 i) (hinb0_22 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole

variable [Facts₀]

def dot_S196x150_S150x512_S196x512_1_0_0_1_n_n : DotDims S196x150 S150x512 S196x512 where
  lhsContracting := [1]
  rhsContracting := [0]
  lhsNonContracting := [0]
  rhsNonContracting := [1]
  lhsBatch := []
  rhsBatch := []
  wf := dot_S196x150_S150x512_S196x512_1_0_0_1_n_n_wf
def dot_S196x512_S512x512_S196x512_1_0_0_1_n_n : DotDims S196x512 S512x512 S196x512 where
  lhsContracting := [1]
  rhsContracting := [0]
  lhsNonContracting := [0]
  rhsNonContracting := [1]
  lhsBatch := []
  rhsBatch := []
  wf := dot_S196x512_S512x512_S196x512_1_0_0_1_n_n_wf
def dot_S192x1536_S1536x512_S192x512_1_0_0_1_n_n : DotDims S192x1536 S1536x512 S192x512 where
  lhsContracting := [1]
  rhsContracting := [0]
  lhsNonContracting := [0]
  rhsNonContracting := [1]
  lhsBatch := []
  rhsBatch := []
  wf := dot_S192x1536_S1536x512_S192x512_1_0_0_1_n_n_wf
def dot_S192x512_S512x512_S192x512_1_0_0_1_n_n : DotDims S192x512 S512x512 S192x512 where
  lhsContracting := [1]
  rhsContracting := [0]
  lhsNonContracting := [0]
  rhsNonContracting := [1]
  lhsBatch := []
  rhsBatch := []
  wf := dot_S192x512_S512x512_S192x512_1_0_0_1_n_n_wf
def dot_S186x1536_S1536x512_S186x512_1_0_0_1_n_n : DotDims S186x1536 S1536x512 S186x512 where
  lhsContracting := [1]
  rhsContracting := [0]
  lhsNonContracting := [0]
  rhsNonContracting := [1]
  lhsBatch := []
  rhsBatch := []
  wf := dot_S186x1536_S1536x512_S186x512_1_0_0_1_n_n_wf
def dot_S186x512_S512x512_S186x512_1_0_0_1_n_n : DotDims S186x512 S512x512 S186x512 where
  lhsContracting := [1]
  rhsContracting := [0]
  lhsNonContracting := [0]
  rhsNonContracting := [1]
  lhsBatch := []
  rhsBatch := []
  wf := dot_S186x512_S512x512_S186x512_1_0_0_1_n_n_wf
def dot_S178x1536_S1536x512_S178x512_1_0_0_1_n_n : DotDims S178x1536 S1536x512 S178x512 where
  lhsContracting := [1]
  rhsContracting := [0]
  lhsNonContracting := [0]
  rhsNonContracting := [1]
  lhsBatch := []
  rhsBatch := []
  wf := dot_S178x1536_S1536x512_S178x512_1_0_0_1_n_n_wf
def dot_S178x512_S512x512_S178x512_1_0_0_1_n_n : DotDims S178x512 S512x512 S178x512 where
  lhsContracting := [1]
  rhsContracting := [0]
  lhsNonContracting := [0]
  rhsNonContracting := [1]
  lhsBatch := []
  rhsBatch := []
  wf := dot_S178x512_S512x512_S178x512_1_0_0_1_n_n_wf
def dot_S178x512_S512x1500_S178x1500_1_0_0_1_n_n : DotDims S178x512 S512x1500 S178x1500 where
  lhsContracting := [1]
  rhsContracting := [0]
  lhsNonContracting := [0]
  rhsNonContracting := [1]
  lhsBatch := []
  rhsBatch := []
  wf := dot_S178x512_S512x1500_S178x1500_1_0_0_1_n_n_wf
def dot_S16x1500_S1500x512_S16x512_1_0_0_1_n_n : DotDims S16x1500 S1500x512 S16x512 where
  lhsContracting := [1]
  rhsContracting := [0]
  lhsNonContracting := [0]
  rhsNonContracting := [1]
  lhsBatch := []
  rhsBatch := []
  wf := dot_S16x1500_S1500x512_S16x512_1_0_0_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_v1) S1x200x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S150x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1536x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1536x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1536x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S512x1500.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S3x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S3x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v35) S3x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v43) S3x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v51) S3x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v59) S3x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v67) S3x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v75) S3x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v83) S3x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v91) S3x1500.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v92_0) S1x1x1500.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v92_1) S1x1x1500.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.whole (Memref.whole main_v93) false false (stage1_0 0) (sem1_0 0) (Memref.isWhole_whole _) (hstage1_0 0)

abbrev win1_1 : Pipeline.Window sig grid1 :=
  Pipeline.Window.whole (Memref.whole main_v94) false false (stage1_1 0) (sem1_1 0) (Memref.isWhole_whole _) (hstage1_1 0)

abbrev win1_2 : Pipeline.Window sig grid1 :=
  Pipeline.Window.whole (Memref.whole main_v100) false false (stage1_2 0) (sem1_2 0) (Memref.isWhole_whole _) (hstage1_2 0)

abbrev win1_3 : Pipeline.Window sig grid1 :=
  Pipeline.Window.whole (Memref.whole main_v101) false false (stage1_3 0) (sem1_3 0) (Memref.isWhole_whole _) (hstage1_3 0)

abbrev win1_4 : Pipeline.Window sig grid1 :=
  Pipeline.Window.whole (Memref.whole main_v102) false false (stage1_4 0) (sem1_4 0) (Memref.isWhole_whole _) (hstage1_4 0)

abbrev win1_5 : Pipeline.Window sig grid1 :=
  Pipeline.Window.whole (Memref.whole main_v103) false false (stage1_5 0) (sem1_5 0) (Memref.isWhole_whole _) (hstage1_5 0)

abbrev win1_6 : Pipeline.Window sig grid1 :=
  Pipeline.Window.whole (Memref.whole main_v104) false false (stage1_6 0) (sem1_6 0) (Memref.isWhole_whole _) (hstage1_6 0)

abbrev win1_7 : Pipeline.Window sig grid1 :=
  Pipeline.Window.whole (Memref.whole main_v105) false false (stage1_7 0) (sem1_7 0) (Memref.isWhole_whole _) (hstage1_7 0)

abbrev win1_8 : Pipeline.Window sig grid1 :=
  Pipeline.Window.whole (Memref.whole main_v106) false false (stage1_8 0) (sem1_8 0) (Memref.isWhole_whole _) (hstage1_8 0)

abbrev win1_9 : Pipeline.Window sig grid1 :=
  Pipeline.Window.whole (Memref.whole main_v99) false false (stage1_9 0) (sem1_9 0) (Memref.isWhole_whole _) (hstage1_9 0)

abbrev win1_10 : Pipeline.Window sig grid1 :=
  Pipeline.Window.whole (Memref.whole main_v107) true false (stage1_10 0) (sem1_10 0) (Memref.isWhole_whole _) (hstage1_10 0)

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8x30x200 : Shape := ⟨3, ![8, 30, 200]⟩
abbrev S150x512 : Shape := ⟨2, ![150, 512]⟩
abbrev S512 : Shape := ⟨1, ![512]⟩
abbrev S512x512 : Shape := ⟨2, ![512, 512]⟩
abbrev S1536x512 : Shape := ⟨2, ![1536, 512]⟩
abbrev S512x1500 : Shape := ⟨2, ![512, 1500]⟩
abbrev S1500 : Shape := ⟨1, ![1500]⟩
abbrev S3000x512 : Shape := ⟨2, ![3000, 512]⟩
abbrev S512x128 : Shape := ⟨2, ![512, 128]⟩
abbrev S128 : Shape := ⟨1, ![128]⟩
abbrev S128x128 : Shape := ⟨2, ![128, 128]⟩
abbrev S16x30x200 : Shape := ⟨3, ![16, 30, 200]⟩
abbrev S16x200x30 : Shape := ⟨3, ![16, 200, 30]⟩
abbrev S1x512 : Shape := ⟨2, ![1, 512]⟩
abbrev S16x196x512 : Shape := ⟨3, ![16, 196, 512]⟩
abbrev S1x200x30 : Shape := ⟨3, ![1, 200, 30]⟩
abbrev S1x196x512 : Shape := ⟨3, ![1, 196, 512]⟩
abbrev S200x30 : Shape := ⟨2, ![200, 30]⟩
abbrev S196x30 : Shape := ⟨2, ![196, 30]⟩
abbrev S30x512 : Shape := ⟨2, ![30, 512]⟩
abbrev S196x512 : Shape := ⟨2, ![196, 512]⟩
abbrev S16x192x512 : Shape := ⟨3, ![16, 192, 512]⟩
abbrev S1x192x512 : Shape := ⟨3, ![1, 192, 512]⟩
abbrev S192x512 : Shape := ⟨2, ![192, 512]⟩
abbrev S16x186x512 : Shape := ⟨3, ![16, 186, 512]⟩
abbrev S1x186x512 : Shape := ⟨3, ![1, 186, 512]⟩
abbrev S186x512 : Shape := ⟨2, ![186, 512]⟩
abbrev S16x178x512 : Shape := ⟨3, ![16, 178, 512]⟩
abbrev S1x178x512 : Shape := ⟨3, ![1, 178, 512]⟩
abbrev S178x512 : Shape := ⟨2, ![178, 512]⟩
abbrev S1x1500 : Shape := ⟨2, ![1, 1500]⟩
abbrev S16x178x1500 : Shape := ⟨3, ![16, 178, 1500]⟩
abbrev S1x178x1500 : Shape := ⟨3, ![1, 178, 1500]⟩
abbrev S178x1500 : Shape := ⟨2, ![178, 1500]⟩
abbrev S1500x512 : Shape := ⟨2, ![1500, 512]⟩
abbrev S1x128 : Shape := ⟨2, ![1, 128]⟩
abbrev S128x1 : Shape := ⟨2, ![128, 1]⟩
abbrev S1x8 : Shape := ⟨2, ![1, 8]⟩
abbrev S16x1500 : Shape := ⟨2, ![16, 1500]⟩
abbrev S16x512 : Shape := ⟨2, ![16, 512]⟩
abbrev S16x128 : Shape := ⟨2, ![16, 128]⟩
abbrev S16 : Shape := ⟨1, ![16]⟩
abbrev S16x1 : Shape := ⟨2, ![16, 1]⟩
abbrev S128x16 : Shape := ⟨2, ![128, 16]⟩
abbrev S128x8 : Shape := ⟨2, ![128, 8]⟩
abbrev S8 : Shape := ⟨1, ![8]⟩

abbrev nBuf : Space → Nat
  | .hbm => 101
  | .vmem => 91
  | .smem => 0
  | _ => 0

abbrev bufTy : (tb : Table) → Fin (tcTables nBuf tb) → BufTy
  | .hbm, ⟨0, _⟩ => ⟨S8x30x200, .f32⟩
  | .hbm, ⟨1, _⟩ => ⟨S8x30x200, .f32⟩
  | .hbm, ⟨2, _⟩ => ⟨S150x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1536x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S1536x512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512x512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1536x512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512x512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512x512, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512x1500, .f32⟩
  | .hbm, ⟨39, _⟩ => ⟨S1500, .f32⟩
  | .hbm, ⟨40, _⟩ => ⟨S1500, .f32⟩
  | .hbm, ⟨41, _⟩ => ⟨S1500, .f32⟩
  | .hbm, ⟨42, _⟩ => ⟨S3000x512, .f32⟩
  | .hbm, ⟨43, _⟩ => ⟨S512, .f32⟩
  | .hbm, ⟨44, _⟩ => ⟨S512x128, .f32⟩
  | .hbm, ⟨45, _⟩ => ⟨S128, .f32⟩
  | .hbm, ⟨46, _⟩ => ⟨S128x128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S16x30x200, .f32⟩
  | .hbm, ⟨51, _⟩ => ⟨S16x200x30, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S16x196x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S16x196x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S16x192x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S16x192x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S16x186x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S16x186x512, .f32⟩
  | .hbm, ⟨76, _⟩ => ⟨S1x512, .f32⟩
  | .hbm, ⟨77, _⟩ => ⟨S1x512, .f32⟩
  | .hbm, ⟨78, _⟩ => ⟨S1x512, .f32⟩
  | .hbm, ⟨79, _⟩ => ⟨S16x178x512, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S16x178x512, .f32⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S16x178x512, .f32⟩
  | .hbm, ⟨88, _⟩ => ⟨S1x1500, .f32⟩
  | .hbm, ⟨89, _⟩ => ⟨S1x1500, .f32⟩
  | .hbm, ⟨90, _⟩ => ⟨S1x1500, .f32⟩
  | .hbm, ⟨91, _⟩ => ⟨S16x178x1500, .f32⟩
  | .hbm, ⟨92, _⟩ => ⟨S1500x512, .f32⟩
  | .hbm, ⟨93, _⟩ => ⟨S1500x512, .f32⟩
  | .hbm, ⟨94, _⟩ => ⟨S1x512, .f32⟩
  | .hbm, ⟨95, _⟩ => ⟨S1x128, .f32⟩
  | .hbm, ⟨96, _⟩ => ⟨S1x128, .f32⟩
  | .hbm, ⟨97, _⟩ => ⟨S128x1, .f32⟩
  | .hbm, ⟨98, _⟩ => ⟨S128x1, .f32⟩
  | .hbm, ⟨99, _⟩ => ⟨S1x8, .f32⟩
  | .hbm, ⟨100, _⟩ => ⟨S8, .f32⟩
  | .local _ .vmem, ⟨0, _⟩ => ⟨S1x200x30, .f32⟩
  | .local _ .vmem, ⟨1, _⟩ => ⟨S1x200x30, .f32⟩
  | .local _ .vmem, ⟨2, _⟩ => ⟨S150x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x196x512, .f32⟩
  | .local _ .vmem, ⟨7, _⟩ => ⟨S1x196x512, .f32⟩
  | .local _ .vmem, ⟨8, _⟩ => ⟨S1x196x512, .f32⟩
  | .local _ .vmem, ⟨9, _⟩ => ⟨S1x196x512, .f32⟩
  | .local _ .vmem, ⟨10, _⟩ => ⟨S512x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x196x512, .f32⟩
  | .local _ .vmem, ⟨15, _⟩ => ⟨S1x196x512, .f32⟩
  | .local _ .vmem, ⟨16, _⟩ => ⟨S1x196x512, .f32⟩
  | .local _ .vmem, ⟨17, _⟩ => ⟨S1x196x512, .f32⟩
  | .local _ .vmem, ⟨18, _⟩ => ⟨S1536x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x192x512, .f32⟩
  | .local _ .vmem, ⟨23, _⟩ => ⟨S1x192x512, .f32⟩
  | .local _ .vmem, ⟨24, _⟩ => ⟨S1x192x512, .f32⟩
  | .local _ .vmem, ⟨25, _⟩ => ⟨S1x192x512, .f32⟩
  | .local _ .vmem, ⟨26, _⟩ => ⟨S512x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x192x512, .f32⟩
  | .local _ .vmem, ⟨31, _⟩ => ⟨S1x192x512, .f32⟩
  | .local _ .vmem, ⟨32, _⟩ => ⟨S1x192x512, .f32⟩
  | .local _ .vmem, ⟨33, _⟩ => ⟨S1x192x512, .f32⟩
  | .local _ .vmem, ⟨34, _⟩ => ⟨S1536x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x186x512, .f32⟩
  | .local _ .vmem, ⟨39, _⟩ => ⟨S1x186x512, .f32⟩
  | .local _ .vmem, ⟨40, _⟩ => ⟨S1x186x512, .f32⟩
  | .local _ .vmem, ⟨41, _⟩ => ⟨S1x186x512, .f32⟩
  | .local _ .vmem, ⟨42, _⟩ => ⟨S512x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S1x186x512, .f32⟩
  | .local _ .vmem, ⟨47, _⟩ => ⟨S1x186x512, .f32⟩
  | .local _ .vmem, ⟨48, _⟩ => ⟨S1x186x512, .f32⟩
  | .local _ .vmem, ⟨49, _⟩ => ⟨S1x186x512, .f32⟩
  | .local _ .vmem, ⟨50, _⟩ => ⟨S1536x512, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x178x512, .f32⟩
  | .local _ .vmem, ⟨55, _⟩ => ⟨S1x178x512, .f32⟩
  | .local _ .vmem, ⟨56, _⟩ => ⟨S1x178x512, .f32⟩
  | .local _ .vmem, ⟨57, _⟩ => ⟨S1x178x512, .f32⟩
  | .local _ .vmem, ⟨58, _⟩ => ⟨S512x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S1x178x512, .f32⟩
  | .local _ .vmem, ⟨63, _⟩ => ⟨S1x178x512, .f32⟩
  | .local _ .vmem, ⟨64, _⟩ => ⟨S1x178x512, .f32⟩
  | .local _ .vmem, ⟨65, _⟩ => ⟨S1x178x512, .f32⟩
  | .local _ .vmem, ⟨66, _⟩ => ⟨S512x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x178x512, .f32⟩
  | .local _ .vmem, ⟨71, _⟩ => ⟨S1x178x512, .f32⟩
  | .local _ .vmem, ⟨72, _⟩ => ⟨S1x178x512, .f32⟩
  | .local _ .vmem, ⟨73, _⟩ => ⟨S1x178x512, .f32⟩
  | .local _ .vmem, ⟨74, _⟩ => ⟨S512x1500, .f32⟩
  | .local _ .vmem, ⟨75, _⟩ => ⟨S1x1500, .f32⟩
  | .local _ .vmem, ⟨76, _⟩ => ⟨S1x1500, .f32⟩
  | .local _ .vmem, ⟨77, _⟩ => ⟨S1x1500, .f32⟩
  | .local _ .vmem, ⟨78, _⟩ => ⟨S1x178x1500, .f32⟩
  | .local _ .vmem, ⟨79, _⟩ => ⟨S1x178x1500, .f32⟩
  | .local _ .vmem, ⟨80, _⟩ => ⟨S16x178x1500, .f32⟩
  | .local _ .vmem, ⟨81, _⟩ => ⟨S1500x512, .f32⟩
  | .local _ .vmem, ⟨82, _⟩ => ⟨S1500x512, .f32⟩
  | .local _ .vmem, ⟨83, _⟩ => ⟨S1x512, .f32⟩
  | .local _ .vmem, ⟨84, _⟩ => ⟨S512x128, .f32⟩
  | .local _ .vmem, ⟨85, _⟩ => ⟨S1x128, .f32⟩
  | .local _ .vmem, ⟨86, _⟩ => ⟨S128x128, .f32⟩
  | .local _ .vmem, ⟨87, _⟩ => ⟨S1x128, .f32⟩
  | .local _ .vmem, ⟨88, _⟩ => ⟨S128x1, .f32⟩
  | .local _ .vmem, ⟨89, _⟩ => ⟨S128x1, .f32⟩
  | .local _ .vmem, ⟨90, _⟩ => ⟨S1x8, .f32⟩
  | _, _ => ⟨S8x30x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_v0 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc10_stg0_0 : Ref sig .tc := ⟨.vmem, 80, rfl⟩
abbrev cc10_stg1_0 : Ref sig .tc := ⟨.vmem, 81, rfl⟩
abbrev cc10_stg2_0 : Ref sig .tc := ⟨.vmem, 82, rfl⟩
abbrev cc10_stg3_0 : Ref sig .tc := ⟨.vmem, 83, rfl⟩
abbrev cc10_stg4_0 : Ref sig .tc := ⟨.vmem, 84, rfl⟩
abbrev cc10_stg5_0 : Ref sig .tc := ⟨.vmem, 85, rfl⟩
abbrev cc10_stg6_0 : Ref sig .tc := ⟨.vmem, 86, rfl⟩
abbrev cc10_stg7_0 : Ref sig .tc := ⟨.vmem, 87, rfl⟩
abbrev cc10_stg8_0 : Ref sig .tc := ⟨.vmem, 88, rfl⟩
abbrev cc10_stg9_0 : Ref sig .tc := ⟨.vmem, 89, rfl⟩
abbrev cc10_stg10_0 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79
abbrev cc10_sem0_0 : DmaSem sig := 80
abbrev cc10_sem1_0 : DmaSem sig := 81
abbrev cc10_sem2_0 : DmaSem sig := 82
abbrev cc10_sem3_0 : DmaSem sig := 83
abbrev cc10_sem4_0 : DmaSem sig := 84
abbrev cc10_sem5_0 : DmaSem sig := 85
abbrev cc10_sem6_0 : DmaSem sig := 86
abbrev cc10_sem7_0 : DmaSem sig := 87
abbrev cc10_sem8_0 : DmaSem sig := 88
abbrev cc10_sem9_0 : DmaSem sig := 89
abbrev cc10_sem10_0 : DmaSem sig := 90

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x200x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S150x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x196x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x196x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x196x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x196x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1536x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x192x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x192x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1x192x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x192x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1536x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x186x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x186x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S1x186x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x186x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1536x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x178x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x178x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1x178x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x178x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S1x178x512 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![16], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x178x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x1500 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1500 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1500 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1500 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S1x178x1500 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := .none

abbrev stage10_0 : Fin 1 → Memref sig .tc .vmem S16x178x1500 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S1500x512 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S1500x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S512x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))

abbrev stage10_6 : Fin 1 → Memref sig .tc .vmem S128x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))

abbrev stage10_8 : Fin 1 → Memref sig .tc .vmem S128x1 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))

abbrev stage10_9 : Fin 1 → Memref sig .tc .vmem S128x1 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))

abbrev stage10_10 : Fin 1 → Memref sig .tc .vmem S1x8 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))

class Facts₀ : Prop where
  concatenates_S8x30x200_S8x30x200_S16x30x200_d0 : Shape.Concatenates [S8x30x200, S8x30x200] S16x30x200 0
  transposes_S16x30x200_S16x200x30_0_2_1 : S16x30x200.Transposes [0, 2, 1] S16x200x30
  shapeCasts_S512_S1x512 : S512.ShapeCasts S1x512
  inb_S1x200x30_S1x200x30_0_0_0 : ∀ a, (![0, 0, 0] : Fin 3 → Nat) a + S1x200x30.size a ≤ S1x200x30.size a
  h_S1x200x30 : 0 < S1x200x30.numel
  shapeCasts_S1x200x30_S200x30 : S1x200x30.ShapeCasts S200x30
  slices_S200x30_o0_0_S196x30 : S200x30.Slices ![0, 0] S196x30
  inb_S150x512_S30x512_0_0 : ∀ a, (![0, 0] : Fin 2 → Nat) a + S30x512.size a ≤ S150x512.size a
  h_S30x512 : 0 < S30x512.numel
  slices_S200x30_o1_0_S196x30 : S200x30.Slices ![1, 0] S196x30
  inb_S150x512_S30x512_30_0 : ∀ a, (![30, 0] : Fin 2 → Nat) a + S30x512.size a ≤ S150x512.size a
  slices_S200x30_o2_0_S196x30 : S200x30.Slices ![2, 0] S196x30
  inb_S150x512_S30x512_60_0 : ∀ a, (![60, 0] : Fin 2 → Nat) a + S30x512.size a ≤ S150x512.size a
  slices_S200x30_o3_0_S196x30 : S200x30.Slices ![3, 0] S196x30
  inb_S150x512_S30x512_90_0 : ∀ a, (![90, 0] : Fin 2 → Nat) a + S30x512.size a ≤ S150x512.size a
  slices_S200x30_o4_0_S196x30 : S200x30.Slices ![4, 0] S196x30
  inb_S150x512_S30x512_120_0 : ∀ a, (![120, 0] : Fin 2 → Nat) a + S30x512.size a ≤ S150x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S196x512 : S1x512.Broadcasts S196x512
  inb_S1x196x512_S1x196x512_0_0_0 : ∀ a, (![0, 0, 0] : Fin 3 → Nat) a + S1x196x512.size a ≤ S1x196x512.size a
  h_S1x196x512 : 0 < S1x196x512.numel
  shapeCasts_S1x196x512_S196x512 : S1x196x512.ShapeCasts S196x512
  shapeCasts_S196x512_S1x196x512 : S196x512.ShapeCasts S1x196x512
  inb_S512x512_S512x512_0_0 : ∀ a, (![0, 0] : Fin 2 → Nat) a + S512x512.size a ≤ S512x512.size a
  h_S512x512 : 0 < S512x512.numel
  slices_S196x512_o0_0_S192x512 : S196x512.Slices ![0, 0] S192x512
  inb_S1536x512_S512x512_0_0 : ∀ a, (![0, 0] : Fin 2 → Nat) a + S512x512.size a ≤ S1536x512.size a
  slices_S196x512_o2_0_S192x512 : S196x512.Slices ![2, 0] S192x512
  inb_S1536x512_S512x512_512_0 : ∀ a, (![512, 0] : Fin 2 → Nat) a + S512x512.size a ≤ S1536x512.size a
  slices_S196x512_o4_0_S192x512 : S196x512.Slices ![4, 0] S192x512
  inb_S1536x512_S512x512_1024_0 : ∀ a, (![1024, 0] : Fin 2 → Nat) a + S512x512.size a ≤ S1536x512.size a
  broadcasts_S1x512_S192x512 : S1x512.Broadcasts S192x512
  inb_S1x192x512_S1x192x512_0_0_0 : ∀ a, (![0, 0, 0] : Fin 3 → Nat) a + S1x192x512.size a ≤ S1x192x512.size a
  h_S1x192x512 : 0 < S1x192x512.numel
  shapeCasts_S1x192x512_S192x512 : S1x192x512.ShapeCasts S192x512
  shapeCasts_S192x512_S1x192x512 : S192x512.ShapeCasts S1x192x512
  slices_S192x512_o0_0_S186x512 : S192x512.Slices ![0, 0] S186x512
  slices_S192x512_o3_0_S186x512 : S192x512.Slices ![3, 0] S186x512
  slices_S192x512_o6_0_S186x512 : S192x512.Slices ![6, 0] S186x512
  broadcasts_S1x512_S186x512 : S1x512.Broadcasts S186x512
  inb_S1x186x512_S1x186x512_0_0_0 : ∀ a, (![0, 0, 0] : Fin 3 → Nat) a + S1x186x512.size a ≤ S1x186x512.size a
  h_S1x186x512 : 0 < S1x186x512.numel
  shapeCasts_S1x186x512_S186x512 : S1x186x512.ShapeCasts S186x512
  shapeCasts_S186x512_S1x186x512 : S186x512.ShapeCasts S1x186x512
  slices_S186x512_o0_0_S178x512 : S186x512.Slices ![0, 0] S178x512
  slices_S186x512_o4_0_S178x512 : S186x512.Slices ![4, 0] S178x512
  slices_S186x512_o8_0_S178x512 : S186x512.Slices ![8, 0] S178x512
  broadcasts_S1x512_S178x512 : S1x512.Broadcasts S178x512
  inb_S1x178x512_S1x178x512_0_0_0 : ∀ a, (![0, 0, 0] : Fin 3 → Nat) a + S1x178x512.size a ≤ S1x178x512.size a
  h_S1x178x512 : 0 < S1x178x512.numel
  shapeCasts_S1x178x512_S178x512 : S1x178x512.ShapeCasts S178x512
  shapeCasts_S178x512_S1x178x512 : S178x512.ShapeCasts S1x178x512
  shapeCasts_S1500_S1x1500 : S1500.ShapeCasts S1x1500
  inb_S512x1500_S512x1500_0_0 : ∀ a, (![0, 0] : Fin 2 → Nat) a + S512x1500.size a ≤ S512x1500.size a
  h_S512x1500 : 0 < S512x1500.numel
  inb_S1x1500_S1x1500_0_0 : ∀ a, (![0, 0] : Fin 2 → Nat) a + S1x1500.size a ≤ S1x1500.size a
  h_S1x1500 : 0 < S1x1500.numel
  shapeCasts_S1x1500_S1x1500 : S1x1500.ShapeCasts S1x1500
  broadcasts_S1x1500_S178x1500 : S1x1500.Broadcasts S178x1500
  inb_S1x178x1500_S1x178x1500_0_0_0 : ∀ a, (![0, 0, 0] : Fin 3 → Nat) a + S1x178x1500.size a ≤ S1x178x1500.size a
  h_S1x178x1500 : 0 < S1x178x1500.numel
  shapeCasts_S1x178x1500_S178x1500 : S1x178x1500.ShapeCasts S178x1500
  shapeCasts_S178x1500_S1x178x1500 : S178x1500.ShapeCasts S1x178x1500
  slices_S3000x512_S1500x512_0_0 : S3000x512.Slices ![0, 0] S1500x512
  slices_S3000x512_S1500x512_1500_0 : S3000x512.Slices ![1500, 0] S1500x512
  shapeCasts_S128_S1x128 : S128.ShapeCasts S1x128
  shapeCasts_S128_S128x1 : S128.ShapeCasts S128x1
  inb_S16x178x1500_S1x178x1500_0_0_0 : ∀ a, (![0, 0, 0] : Fin 3 → Nat) a + S1x178x1500.size a ≤ S16x178x1500.size a
  reduces_S178x1500_S1500 : S178x1500.Reduces [0] S1500
  inb_S16x178x1500_S1x178x1500_1_0_0 : ∀ a, (![1, 0, 0] : Fin 3 → Nat) a + S1x178x1500.size a ≤ S16x178x1500.size a
  inb_S16x178x1500_S1x178x1500_2_0_0 : ∀ a, (![2, 0, 0] : Fin 3 → Nat) a + S1x178x1500.size a ≤ S16x178x1500.size a
  inb_S16x178x1500_S1x178x1500_3_0_0 : ∀ a, (![3, 0, 0] : Fin 3 → Nat) a + S1x178x1500.size a ≤ S16x178x1500.size a
  inb_S16x178x1500_S1x178x1500_4_0_0 : ∀ a, (![4, 0, 0] : Fin 3 → Nat) a + S1x178x1500.size a ≤ S16x178x1500.size a
  inb_S16x178x1500_S1x178x1500_5_0_0 : ∀ a, (![5, 0, 0] : Fin 3 → Nat) a + S1x178x1500.size a ≤ S16x178x1500.size a
  inb_S16x178x1500_S1x178x1500_6_0_0 : ∀ a, (![6, 0, 0] : Fin 3 → Nat) a + S1x178x1500.size a ≤ S16x178x1500.size a
  inb_S16x178x1500_S1x178x1500_7_0_0 : ∀ a, (![7, 0, 0] : Fin 3 → Nat) a + S1x178x1500.size a ≤ S16x178x1500.size a
  inb_S16x178x1500_S1x178x1500_8_0_0 : ∀ a, (![8, 0, 0] : Fin 3 → Nat) a + S1x178x1500.size a ≤ S16x178x1500.size a
  inb_S16x178x1500_S1x178x1500_9_0_0 : ∀ a, (![9, 0, 0] : Fin 3 → Nat) a + S1x178x1500.size a ≤ S16x178x1500.size a
  inb_S16x178x1500_S1x178x1500_10_0_0 : ∀ a, (![10, 0, 0] : Fin 3 → Nat) a + S1x178x1500.size a ≤ S16x178x1500.size a
  inb_S16x178x1500_S1x178x1500_11_0_0 : ∀ a, (![11, 0, 0] : Fin 3 → Nat) a + S1x178x1500.size a ≤ S16x178x1500.size a
  inb_S16x178x1500_S1x178x1500_12_0_0 : ∀ a, (![12, 0, 0] : Fin 3 → Nat) a + S1x178x1500.size a ≤ S16x178x1500.size a
  inb_S16x178x1500_S1x178x1500_13_0_0 : ∀ a, (![13, 0, 0] : Fin 3 → Nat) a + S1x178x1500.size a ≤ S16x178x1500.size a
  inb_S16x178x1500_S1x178x1500_14_0_0 : ∀ a, (![14, 0, 0] : Fin 3 → Nat) a + S1x178x1500.size a ≤ S16x178x1500.size a
  inb_S16x178x1500_S1x178x1500_15_0_0 : ∀ a, (![15, 0, 0] : Fin 3 → Nat) a + S1x178x1500.size a ≤ S16x178x1500.size a
  concatenates_S1x1500_S1x1500_S1x1500_S1x1500_S1x1500_S1x1500_S1x1500_S1x1500_S1x1500_S1x1500_S1x1500_S1x1500_S1x1500_S1x1500_S1x1500_S1x1500_S16x1500_d0 : Shape.Concatenates [S1x1500, S1x1500, S1x1500, S1x1500, S1x1500, S1x1500, S1x1500, S1x1500, S1x1500, S1x1500, S1x1500, S1x1500, S1x1500, S1x1500, S1x1500, S1x1500] S16x1500 0
  inb_S1500x512_S1500x512_0_0 : ∀ a, (![0, 0] : Fin 2 → Nat) a + S1500x512.size a ≤ S1500x512.size a
  h_S1500x512 : 0 < S1500x512.numel
  shapeCasts_S1500x512_S1500x512 : S1500x512.ShapeCasts S1500x512
  broadcasts_S1x512_S16x512 : S1x512.Broadcasts S16x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  reduces_S16x128_S16 : S16x128.Reduces [1] S16
  shapeCasts_S16_S16x1 : S16.ShapeCasts S16x1
  broadcasts_S16x1_S16x128 : S16x1.Broadcasts S16x128
  inb_S128x128_S128x128_0_0 : ∀ a, (![0, 0] : Fin 2 → Nat) a + S128x128.size a ≤ S128x128.size a
  h_S128x128 : 0 < S128x128.numel
  transposes_S16x128_p1_0_S128x16 : S16x128.Transposes [1, 0] S128x16
  slices_S128x16_o0_0_S128x8 : S128x16.Slices ![0, 0] S128x8
  slices_S128x16_o0_8_S128x8 : S128x16.Slices ![0, 8] S128x8
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x8 : S128x1.Broadcasts S128x8
  reduces_S128x8_S8 : S128x8.Reduces [0] S8
  shapeCasts_S8_S1x8 : S8.ShapeCasts S1x8
  inb_S1x8_S1x8_0_0 : ∀ a, (![0, 0] : Fin 2 → Nat) a + S1x8.size a ≤ S1x8.size a
  h_S1x8 : 0 < S1x8.numel
  shapeCasts_S1x8_S8 : S1x8.ShapeCasts S8
  dot_S196x30_S30x512_S196x512_1_0_0_1_n_n_wf : DotDims.WF S196x30 S30x512 S196x512 [1] [0] [0] [1] [] []
  dot_S196x512_S512x512_S196x512_1_0_0_1_n_n_wf : DotDims.WF S196x512 S512x512 S196x512 [1] [0] [0] [1] [] []
  dot_S192x512_S512x512_S192x512_1_0_0_1_n_n_wf : DotDims.WF S192x512 S512x512 S192x512 [1] [0] [0] [1] [] []
  dot_S186x512_S512x512_S186x512_1_0_0_1_n_n_wf : DotDims.WF S186x512 S512x512 S186x512 [1] [0] [0] [1] [] []
  dot_S178x512_S512x512_S178x512_1_0_0_1_n_n_wf : DotDims.WF S178x512 S512x512 S178x512 [1] [0] [0] [1] [] []
  dot_S178x512_S512x1500_S178x1500_1_0_0_1_n_n_wf : DotDims.WF S178x512 S512x1500 S178x1500 [1] [0] [0] [1] [] []
  dot_S16x1500_S1500x512_S16x512_1_0_0_1_n_n_wf : DotDims.WF S16x1500 S1500x512 S16x512 [1] [0] [0] [1] [] []
  dot_S16x512_S512x128_S16x128_1_0_0_1_n_n_wf : DotDims.WF S16x512 S512x128 S16x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x30.size a ≤ S16x200x30.size a
  hwx0_0 : ∀ i : grid0.Coords, EltTy.bits .f32 = 32 ∨ (Rect.block (s := S16x200x30) S1x200x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S150x512.size a ≤ S150x512.size a
  hwx0_1 : ∀ i : grid0.Coords, EltTy.bits .f32 = 32 ∨ (Rect.block (s := S150x512) S150x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x512.size a ≤ S16x196x512.size a
  hwx0_5 : ∀ i : grid0.Coords, EltTy.bits .f32 = 32 ∨ (Rect.block (s := S16x196x512) S1x196x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x196x512.size a ≤ S16x196x512.size a
  hwx1_0 : ∀ i : grid1.Coords, EltTy.bits .f32 = 32 ∨ (Rect.block (s := S16x196x512) S1x196x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x196x512.size a ≤ S16x196x512.size a
  hwx1_5 : ∀ i : grid1.Coords, EltTy.bits .f32 = 32 ∨ (Rect.block (s := S16x196x512) S1x196x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x196x512.size a ≤ S16x196x512.size a
  hwx2_0 : ∀ i : grid2.Coords, EltTy.bits .f32 = 32 ∨ (Rect.block (s := S16x196x512) S1x196x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1536x512.size a ≤ S1536x512.size a
  hwx2_1 : ∀ i : grid2.Coords, EltTy.bits .f32 = 32 ∨ (Rect.block (s := S1536x512) S1536x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x192x512.size a ≤ S16x192x512.size a
  hwx2_5 : ∀ i : grid2.Coords, EltTy.bits .f32 = 32 ∨ (Rect.block (s := S16x192x512) S1x192x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x192x512.size a ≤ S16x192x512.size a
  hwx3_0 : ∀ i : grid3.Coords, EltTy.bits .f32 = 32 ∨ (Rect.block (s := S16x192x512) S1x192x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x192x512.size a ≤ S16x192x512.size a
  hwx3_5 : ∀ i : grid3.Coords, EltTy.bits .f32 = 32 ∨ (Rect.block (s := S16x192x512) S1x192x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x192x512.size a ≤ S16x192x512.size a
  hwx4_0 : ∀ i : grid4.Coords, EltTy.bits .f32 = 32 ∨ (Rect.block (s := S16x192x512) S1x192x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1536x512.size a ≤ S1536x512.size a
  hwx4_1 : ∀ i : grid4.Coords, EltTy.bits .f32 = 32 ∨ (Rect.block (s := S1536x512) S1536x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x512.size a ≤ S1x512.size a
  hwx4_3 : ∀ i : grid4.Coords, EltTy.bits .f32 = 32 ∨ (Rect.block (s := S1x512) S1x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x186x512.size a ≤ S16x186x512.size a
  hwx4_5 : ∀ i : grid4.Coords, EltTy.bits .f32 = 32 ∨ (Rect.block (s := S16x186x512) S1x186x512.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x186x512.size a ≤ S16x186x512.size a
  hwx5_0 : ∀ i : grid5.Coords, EltTy.bits .f32 = 32 ∨ (Rect.block (s := S16x186x512) S1x186x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x186x512.size a ≤ S16x186x512.size a
  hwx5_5 : ∀ i : grid5.Coords, EltTy.bits .f32 = 32 ∨ (Rect.block (s := S16x186x512) S1x186x512.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x186x512.size a ≤ S16x186x512.size a
  hwx6_0 : ∀ i : grid6.Coords, EltTy.bits .f32 = 32 ∨ (Rect.block (s := S16x186x512) S1x186x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1536x512.size a ≤ S1536x512.size a
  hwx6_1 : ∀ i : grid6.Coords, EltTy.bits .f32 = 32 ∨ (Rect.block (s := S1536x512) S1536x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x178x512.size a ≤ S16x178x512.size a
  hwx6_5 : ∀ i : grid6.Coords, EltTy.bits .f32 = 32 ∨ (Rect.block (s := S16x178x512) S1x178x512.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x178x512.size a ≤ S16x178x512.size a
  hwx7_0 : ∀ i : grid7.Coords, EltTy.bits .f32 = 32 ∨ (Rect.block (s := S16x178x512) S1x178x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S512x512.size a
  hwx7_1 : ∀ i : grid7.Coords, EltTy.bits .f32 = 32 ∨ (Rect.block (s := S512x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1x178x512.size a ≤ S16x178x512.size a
  hwx7_5 : ∀ i : grid7.Coords, EltTy.bits .f32 = 32 ∨ (Rect.block (s := S16x178x512) S1x178x512.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x178x512.size a ≤ S16x178x512.size a
  hwx8_0 : ∀ i : grid8.Coords, EltTy.bits .f32 = 32 ∨ (Rect.block (s := S16x178x512) S1x178x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S512x512.size a
  hwx8_1 : ∀ i : grid8.Coords, EltTy.bits .f32 = 32 ∨ (Rect.block (s := S512x512) S512x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x512.size a
  hwx8_3 : ∀ i : grid8.Coords, EltTy.bits .f32 = 32 ∨ (Rect.block (s := S1x512) S1x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x512.size a ≤ S1x512.size a
  hwx8_4 : ∀ i : grid8.Coords, EltTy.bits .f32 = 32 ∨ (Rect.block (s := S1x512) S1x512.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1x178x512.size a ≤ S16x178x512.size a
  hwx8_5 : ∀ i : grid8.Coords, EltTy.bits .f32 = 32 ∨ (Rect.block (s := S16x178x512) S1x178x512.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x178x512.size a ≤ S16x178x512.size a
  hwx9_0 : ∀ i : grid9.Coords, EltTy.bits .f32 = 32 ∨ (Rect.block (s := S16x178x512) S1x178x512.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x1500.size a ≤ S512x1500.size a
  hwx9_1 : ∀ i : grid9.Coords, EltTy.bits .f32 = 32 ∨ (Rect.block (s := S512x1500) S512x1500.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1500.size a ≤ S1x1500.size a
  hwx9_2 : ∀ i : grid9.Coords, EltTy.bits .f32 = 32 ∨ (Rect.block (s := S1x1500) S1x1500.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1500.size a ≤ S1x1500.size a
  hwx9_3 : ∀ i : grid9.Coords, EltTy.bits .f32 = 32 ∨ (Rect.block (s := S1x1500) S1x1500.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1500.size a ≤ S1x1500.size a
  hwx9_4 : ∀ i : grid9.Coords, EltTy.bits .f32 = 32 ∨ (Rect.block (s := S1x1500) S1x1500.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S1x178x1500.size a ≤ S16x178x1500.size a
  hwx9_5 : ∀ i : grid9.Coords, EltTy.bits .f32 = 32 ∨ (Rect.block (s := S16x178x1500) S1x178x1500.size (cc9_transform_5 i) (hinb9_5 i)).WholeWords (EltTy.packing .f32)
  hstage10_0 : ∀ j, (stage10_0 j).IsWhole
  hstage10_1 : ∀ j, (stage10_1 j).IsWhole
  hstage10_2 : ∀ j, (stage10_2 j).IsWhole
  hstage10_3 : ∀ j, (stage10_3 j).IsWhole
  hstage10_4 : ∀ j, (stage10_4 j).IsWhole
  hstage10_5 : ∀ j, (stage10_5 j).IsWhole
  hstage10_6 : ∀ j, (stage10_6 j).IsWhole
  hstage10_7 : ∀ j, (stage10_7 j).IsWhole
  hstage10_8 : ∀ j, (stage10_8 j).IsWhole
  hstage10_9 : ∀ j, (stage10_9 j).IsWhole
  hstage10_10 : ∀ j, (stage10_10 j).IsWhole

variable [Facts₀]

def dot_S196x30_S30x512_S196x512_1_0_0_1_n_n : DotDims S196x30 S30x512 S196x512 where
  lhsContracting := [1]
  rhsContracting := [0]
  lhsNonContracting := [0]
  rhsNonContracting := [1]
  lhsBatch := []
  rhsBatch := []
  wf := dot_S196x30_S30x512_S196x512_1_0_0_1_n_n_wf
def dot_S196x512_S512x512_S196x512_1_0_0_1_n_n : DotDims S196x512 S512x512 S196x512 where
  lhsContracting := [1]
  rhsContracting := [0]
  lhsNonContracting := [0]
  rhsNonContracting := [1]
  lhsBatch := []
  rhsBatch := []
  wf := dot_S196x512_S512x512_S196x512_1_0_0_1_n_n_wf
def dot_S192x512_S512x512_S192x512_1_0_0_1_n_n : DotDims S192x512 S512x512 S192x512 where
  lhsContracting := [1]
  rhsContracting := [0]
  lhsNonContracting := [0]
  rhsNonContracting := [1]
  lhsBatch := []
  rhsBatch := []
  wf := dot_S192x512_S512x512_S192x512_1_0_0_1_n_n_wf
def dot_S186x512_S512x512_S186x512_1_0_0_1_n_n : DotDims S186x512 S512x512 S186x512 where
  lhsContracting := [1]
  rhsContracting := [0]
  lhsNonContracting := [0]
  rhsNonContracting := [1]
  lhsBatch := []
  rhsBatch := []
  wf := dot_S186x512_S512x512_S186x512_1_0_0_1_n_n_wf
def dot_S178x512_S512x512_S178x512_1_0_0_1_n_n : DotDims S178x512 S512x512 S178x512 where
  lhsContracting := [1]
  rhsContracting := [0]
  lhsNonContracting := [0]
  rhsNonContracting := [1]
  lhsBatch := []
  rhsBatch := []
  wf := dot_S178x512_S512x512_S178x512_1_0_0_1_n_n_wf
def dot_S178x512_S512x1500_S178x1500_1_0_0_1_n_n : DotDims S178x512 S512x1500 S178x1500 where
  lhsContracting := [1]
  rhsContracting := [0]
  lhsNonContracting := [0]
  rhsNonContracting := [1]
  lhsBatch := []
  rhsBatch := []
  wf := dot_S178x512_S512x1500_S178x1500_1_0_0_1_n_n_wf
def dot_S16x1500_S1500x512_S16x512_1_0_0_1_n_n : DotDims S16x1500 S1500x512 S16x512 where
  lhsContracting := [1]
  rhsContracting := [0]
  lhsNonContracting := [0]
  rhsNonContracting := [1]
  lhsBatch := []
  rhsBatch := []
  wf := dot_S16x1500_S1500x512_S16x512_1_0_0_1_n_n_wf
def dot_S16x512_S512x128_S16x128_1_0_0_1_n_n : DotDims S16x512 S512x128 S16x128 where
  lhsContracting := [1]
  rhsContracting := [0]
  lhsNonContracting := [0]
  rhsNonContracting := [1]
  lhsBatch := []
  rhsBatch := []
  wf := dot_S16x512_S512x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_v1) S1x200x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S150x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x196x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S1x196x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x196x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v9) S1x196x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S1536x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x192x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v13) S1x192x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x192x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v17) S1x192x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S1536x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v21) S1x186x512.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v21) S1x186x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v22) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v23) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v24) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v25) S1x186x512.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v25) S1x186x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S1536x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v26) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27) S1x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v28) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v29) S1x178x512.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v29) S1x178x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg30) S512x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v30) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v31) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v32) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v33) S1x178x512.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v33) S1x178x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg34) S512x512.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v34) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v35) S1x512.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v36) S1x512.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v37) S1x178x512.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v37) S1x178x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg38) S512x1500.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v38) S1x1500.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v39) S1x1500.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v40) S1x1500.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v41) S1x178x1500.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.whole (Memref.whole main_v41) false false (stage10_0 0) (sem10_0 0) (Memref.isWhole_whole _) (hstage10_0 0)

abbrev win10_1 : Pipeline.Window sig grid10 :=
  Pipeline.Window.whole (Memref.whole main_v42) false false (stage10_1 0) (sem10_1 0) (Memref.isWhole_whole _) (hstage10_1 0)

abbrev win10_2 : Pipeline.Window sig grid10 :=
  Pipeline.Window.whole (Memref.whole main_v43) false false (stage10_2 0) (sem10_2 0) (Memref.isWhole_whole _) (hstage10_2 0)

abbrev win10_3 : Pipeline.Window sig grid10 :=
  Pipeline.Window.whole (Memref.whole main_v44) false false (stage10_3 0) (sem10_3 0) (Memref.isWhole_whole _) (hstage10_3 0)

abbrev win10_4 : Pipeline.Window sig grid10 :=
  Pipeline.Window.whole (Memref.whole main_arg44) false false (stage10_4 0) (sem10_4 0) (Memref.isWhole_whole _) (hstage10_4 0)

abbrev win10_5 : Pipeline.Window sig grid10 :=
  Pipeline.Window.whole (Memref.whole main_v45) false false (stage10_5 0) (sem10_5 0) (Memref.isWhole_whole _) (hstage10_5 0)

abbrev win10_6 : Pipeline.Window sig grid10 :=
  Pipeline.Window.whole (Memref.whole main_arg46) false false (stage10_6 0) (sem10_6 0) (Memref.isWhole_whole _) (hstage10_6 0)

abbrev win10_7 : Pipeline.Window sig grid10 :=
  Pipeline.Window.whole (Memref.whole main_v46) false false (stage10_7 0) (sem10_7 0) (Memref.isWhole_whole _) (hstage10_7 0)

abbrev win10_8 : Pipeline.Window sig grid10 :=
  Pipeline.Window.whole (Memref.whole main_v47) false false (stage10_8 0) (sem10_8 0) (Memref.isWhole_whole _) (hstage10_8 0)

abbrev win10_9 : Pipeline.Window sig grid10 :=
  Pipeline.Window.whole (Memref.whole main_v48) false false (stage10_9 0) (sem10_9 0) (Memref.isWhole_whole _) (hstage10_9 0)

abbrev win10_10 : Pipeline.Window sig grid10 :=
  Pipeline.Window.whole (Memref.whole main_v49) true false (stage10_10 0) (sem10_10 0) (Memref.isWhole_whole _) (hstage10_10 0)

abbrev win10 : Fin 11 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | ⟨_ + 11, h⟩ => absurd h (Nat.not_lt.2 (Nat.le_add_left _ _))
abbrev spec10 : Fin 11 → Pipeline.WinSpec sig grid10.rank := fun w => (win10 w).toWinSpec

class Facts : Prop extends Facts₀ where

variable [Facts]
-- ==== Proof.K.Body0.lean ====
import proofs.«169142_g2000501041679005_pallasbulk_208_6_alg».proof.Proof.Gen.Kernel.Launch
import proofs.«169142_g2000501041679005_pallasbulk_208_6_alg».proof.Proof.Gen.Kernel.Skeleton
import proofs.«169142_g2000501041679005_pallasbulk_208_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S1x200x30 := Rect.unit (s := S1x200x30) ![0, 0, 0] S1x200x30.size inb_S1x200x30_S1x200x30_0_0_0

abbrev r0_1 : Rect S150x512 := Rect.unit (s := S150x512) ![0, 0] S150x512.size inb_S150x512_S150x512_0_0

abbrev r0_2 : Rect S512x512 := Rect.unit (s := S512x512) ![0, 0] S512x512.size inb_S512x512_S512x512_0_0

abbrev r0_3 : Rect S1536x512 := Rect.unit (s := S1536x512) ![0, 0] S1536x512.size inb_S1536x512_S1536x512_0_0

abbrev r0_4 : Rect S512x1500 := Rect.unit (s := S512x1500) ![0, 0] S512x1500.size inb_S512x1500_S512x1500_0_0

abbrev r0_5 : Rect S3x512 := Rect.unit (s := S3x512) ![0, 0] S3x512.size inb_S3x512_S3x512_0_0

abbrev r0_6 : Rect S3x1500 := Rect.unit (s := S3x1500) ![0, 0] S3x1500.size inb_S3x1500_S3x1500_0_0

abbrev r0_7 : Rect S1x1x1500 := Rect.unit (s := S1x1x1500) ![0, 0, 0] S1x1x1500.size inb_S1x1x1500_S1x1x1500_0_0_0

abbrev act0 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) : FVec F S178x1500 .f32 :=
  k0_pay11 (k0_pay8 (View.ld x17 r0_5))
    (k0_pay9
      (k0_pay7
        (k0_pay5 (View.ld x0 r0_0) (View.ld x1 r0_1) (View.ld x11 r0_5) (View.ld x2 r0_2) (View.ld x12 r0_5))
        (k0_pay6 (View.ld x0 r0_0) (View.ld x1 r0_1) (View.ld x11 r0_5) (View.ld x2 r0_2) (View.ld x12 r0_5))
        (View.ld x3 r0_3) (View.ld x13 r0_5) (View.ld x4 r0_2) (View.ld x14 r0_5) (View.ld x5 r0_3))
      (View.ld x15 r0_5) (View.ld x6 r0_2) (View.ld x16 r0_5) (View.ld x7 r0_3) (View.ld x17 r0_5))
    (k0_pay10 (View.ld x17 r0_5))
    (View.ld x8 r0_2) (View.ld x18 r0_5) (View.ld x9 r0_2) (View.ld x19 r0_5) (View.ld x10 r0_4)

def out0_21 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) : Vec F S1x1x1500 .f32 :=
  View.canon [⟨r0_7, k0_pay3 (act0 x0 x1 x2 x3 x4 x5 x6 x7 x8 x9 x10 x11 x12 x13 x14 x15 x16 x17 x18 x19) (View.ld x20 r0_6)⟩]

def out0_22 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) : Vec F S1x1x1500 .f32 :=
  View.canon [⟨r0_7, k0_pay4 (act0 x0 x1 x2 x3 x4 x5 x6 x7 x8 x9 x10 x11 x12 x13 x14 x15 x16 x17 x18 x19) (View.ld x20 r0_6)⟩]

theorem cover0_row (p0 : Vec F S1x1x1500 .f32) (y : S1x1x1500.Idx) :
    ∃ pc ∈ ([⟨r0_7, p0⟩] : List (View.Piece (Elt F) S1x1x1500 .f32)), y ∈ pc.1.set :=
  View.cover_of_tiled [⟨r0_7, p0⟩] S1x1x1500.size (by rfl) y

set_option maxHeartbeats 4000000 in

theorem sound_kernel0 (c : Dev nD) (E : Set ℕ) (i : grid0.Coords) (arg1 : Memref sig .tc .vmem S1x200x30 .f32) (harg1 : arg1.IsWhole) (arg2 : Memref sig .tc .vmem S150x512 .bf16) (harg2 : arg2.IsWhole) (arg3 : Memref sig .tc .vmem S512x512 .bf16) (harg3 : arg3.IsWhole) (arg4 : Memref sig .tc .vmem S1536x512 .bf16) (harg4 : arg4.IsWhole) (arg5 : Memref sig .tc .vmem S512x512 .bf16) (harg5 : arg5.IsWhole) (arg6 : Memref sig .tc .vmem S1536x512 .bf16) (harg6 : arg6.IsWhole) (arg7 : Memref sig .tc .vmem S512x512 .bf16) (harg7 : arg7.IsWhole) (arg8 : Memref sig .tc .vmem S1536x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1500 .bf16) (harg11 : arg11.IsWhole) (arg12 : Memref sig .tc .vmem S3x512 .f32) (harg12 : arg12.IsWhole) (arg13 : Memref sig .tc .vmem S3x512 .f32) (harg13 : arg13.IsWhole) (arg14 : Memref sig .tc .vmem S3x512 .f32) (harg14 : arg14.IsWhole) (arg15 : Memref sig .tc .vmem S3x512 .f32) (harg15 : arg15.IsWhole) (arg16 : Memref sig .tc .vmem S3x512 .f32) (harg16 : arg16.IsWhole) (arg17 : Memref sig .tc .vmem S3x512 .f32) (harg17 : arg17.IsWhole) (arg18 : Memref sig .tc .vmem S3x512 .f32) (harg18 : arg18.IsWhole) (arg19 : Memref sig .tc .vmem S3x512 .f32) (harg19 : arg19.IsWhole) (arg20 : Memref sig .tc .vmem S3x512 .f32) (harg20 : arg20.IsWhole) (arg21 : Memref sig .tc .vmem S3x1500 .f32) (harg21 : arg21.IsWhole) (arg22 : Memref sig .tc .vmem S1x1x1500 .f32) (harg22 : arg22.IsWhole) (arg23 : Memref sig .tc .vmem S1x1x1500 .f32) (harg23 : arg23.IsWhole)
    (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x8 x9 x10 x11 x12 x13 x14 x15 x16 x17 x18 x19 x20)) -∗ K ⟨⟩))
      ⊢ wp frame (wpE (defs₀ (F := F)) Variants.none c none) E (cc0__trunk_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__trunk_body_eq_skeleton]; unfold cc0__trunk_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    try dsimp only
    exact View.read_writes_eq_canon _ _ _ (cover0_row _)
  iexists _; isplitr
  swap; · iexact H22
  ipureintro
  try dsimp only
  exact View.read_writes_eq_canon _ _ _ (cover0_row _)

end Cert.Kernel.Hand

end
-- ==== Proof.K.Region0.lean ====
import proofs.«169142_g2000501041679005_pallasbulk_208_6_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)
    | ⟨_ + 23, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t))

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«169142_g2000501041679005_pallasbulk_208_6_alg».proof.Proof.Gen.Kernel.Launch
import proofs.«169142_g2000501041679005_pallasbulk_208_6_alg».proof.Proof.Gen.Kernel.Skeleton
import proofs.«169142_g2000501041679005_pallasbulk_208_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S16x1500 := Rect.unit (s := S16x1500) ![0, 0] S16x1500.size inb_S16x1500_S16x1500_0_0
abbrev r1_1 : Rect S1500x512 := Rect.unit (s := S1500x512) ![0, 0] S1500x512.size inb_S1500x512_S1500x512_0_0
abbrev r1_2 : Rect S1x512 := Rect.unit (s := S1x512) ![0, 0] S1x512.size inb_S1x512_S1x512_0_0
abbrev r1_3 : Rect S512x128 := Rect.unit (s := S512x128) ![0, 0] S512x128.size inb_S512x128_S512x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S2x128 := Rect.unit (s := S2x128) ![0, 0] S1x128.size inb_S2x128_S1x128_0_0
abbrev r1_7 : Rect S2x128 := Rect.unit (s := S2x128) ![1, 0] S1x128.size inb_S2x128_S1x128_1_0
abbrev r1_8 : Rect S8x1 := Rect.unit (s := S8x1) ![0, 0] S8x1.size inb_S8x1_S8x1_0_0

def out1_10 (x0 : Vec F S16x1500 .f32) (x1 : Vec F S16x1500 .f32) (x2 : Vec F S1500x512 .bf16) (x3 : Vec F S1500x512 .bf16) (x4 : Vec F S1x512 .f32) (x5 : Vec F S512x128 .bf16) (x6 : Vec F S1x128 .f32) (x7 : Vec F S128x128 .bf16) (x8 : Vec F S1x128 .f32) (x9 : Vec F S2x128 .f32) : Vec F S8x1 .f32 :=
  View.canon [⟨r1_8, k1_pay1 (k1_pay2 (View.ld x0 r1_0) (View.ld x1 r1_0) (View.ld x2 r1_1) (View.ld x3 r1_1) (View.ld x4 r1_2) (View.ld x5 r1_3) (View.ld x6 r1_4) (View.ld x7 r1_5)) (View.ld x8 r1_4) (View.ld x9 r1_6) (View.ld x9 r1_7)⟩]

theorem cover1_10 (p0 : Vec F S8x1 .f32) (y : S8x1.Idx) :
    ∃ pc ∈ ([⟨r1_8, p0⟩] : List (View.Piece (Elt F) S8x1 .f32)), y ∈ pc.1.set :=
  View.cover_of_tiled [⟨r1_8, p0⟩] S8x1.size (by rfl) y

set_option maxHeartbeats 1000000 in

theorem sound_kernel1 (c : Dev nD) (E : Set ℕ) (arg0 : Memref sig .tc .vmem S16x1500 .f32) (harg0 : arg0.IsWhole) (arg1 : Memref sig .tc .vmem S16x1500 .f32) (harg1 : arg1.IsWhole) (arg2 : Memref sig .tc .vmem S1500x512 .bf16) (harg2 : arg2.IsWhole) (arg3 : Memref sig .tc .vmem S1500x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S2x128 .f32) (harg9 : arg9.IsWhole) (arg10 : Memref sig .tc .vmem S8x1 .f32) (harg10 : arg10.IsWhole)
    (x0 : Vec F S16x1500 .f32) (x1 : Vec F S16x1500 .f32) (x2 : Vec F S1500x512 .bf16) (x3 : Vec F S1500x512 .bf16) (x4 : Vec F S1x512 .f32) (x5 : Vec F S512x128 .bf16) (x6 : Vec F S1x128 .f32) (x7 : Vec F S128x128 .bf16) (x8 : Vec F S1x128 .f32) (x9 : Vec F S2x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out1_10 x0 x1 x2 x3 x4 x5 x6 x7 x8 x9)) -∗ K ⟨⟩))
      ⊢ wp frame (wpE (defs₀ (F := F)) Variants.none c none) E (cc1__head_body arg0 harg0 arg1 harg1 arg2 harg2 arg3 harg3 arg4 harg4 arg5 harg5 arg6 harg6 arg7 harg7 arg8 harg8 arg9 harg9 arg10 harg10) K := by
  simp only [cc1__head_body_eq_skeleton]; unfold cc1__head_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

end Cert.Kernel.Hand

end
-- ==== Proof.K.Region1.lean ====
import proofs.«169142_g2000501041679005_pallasbulk_208_6_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Fold.lean ====
import proofs.«169142_g2000501041679005_pallasbulk_208_6_alg».proof.Proof.K.Region0
import proofs.«169142_g2000501041679005_pallasbulk_208_6_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- Host results and windows' arrays are all numbered 50 or more, so a buffer numbered below 50 is written by nothing. -/
theorem arg_kept (c : Dev nD) (b : Ref sig .tc) (hb : b.idx.val < 50) :
    W2 m ρ c (Proc.devRef .tc b) = m ((c : Thread nD τ).loc b) ∧ W5 m ρ c (Proc.devRef .tc b) = m ((c : Thread nD τ).loc b) := by
  have ne : ∀ y : Ref sig .tc, 50 ≤ y.idx.val → Proc.devRef (τ := τ) .tc b ≠ Proc.devRef .tc y :=
    fun y hy => StableHlo.devRef_ne_of_ne fun e => by subst e; omega
  have hw : ∀ op ∈ (hostOps0 ++ hostOps1 ++ hostOps2 : List (HloOp τ sig (Elt F))), Proc.devRef .tc b ∉ op.writes :=
    List.forall_iff_forall_mem.mp (by
      simp only [hostOps0, hostOps1, hostOps2, List.cons_append, List.nil_append, List.Forall, StableHlo.nullary_writes,
        StableHlo.unary_writes, StableHlo.binary_writes, StableHlo.ternary_writes, StableHlo.quaternary_writes,
        StableHlo.reshape_writes, StableHlo.binaryIndexed_writes, StableHlo.nary_writes, Finset.mem_singleton]
      repeat' apply And.intro
      all_goals exact ne _ (by decide))
  have hr0 : ∀ w, Pipeline.arrRef spec0 w ≠ b := fun w e => by
    have := (by decide : ∀ w, 50 ≤ (Pipeline.arrRef spec0 w).idx.val) w
    rw [e] at this; omega
  have hr1 : ∀ w, Pipeline.arrRef spec1 w ≠ b := fun w e => by
    have := (by decide : ∀ w, 50 ≤ (Pipeline.arrRef spec1 w).idx.val) w
    rw [e] at this; omega
  have h2 : W2 m ρ c (Proc.devRef .tc b) = m ((c : Thread nD τ).loc b) :=
    calc W2 m ρ c (Proc.devRef .tc b)
      _ = W1 m ρ c (Proc.devRef .tc b) := W2_of_ne m ρ c b hr0
      _ = W0 m ρ c (Proc.devRef .tc b) :=
        StableHlo.after_of_forall_not_mem _ _ fun op h => hw op (List.mem_append_left _ (List.mem_append_left _ h))
      _ = m ((c : Thread nD τ).loc b) := rfl
  exact ⟨h2,
    calc W5 m ρ c (Proc.devRef .tc b)
      _ = W4 m ρ c (Proc.devRef .tc b) :=
        StableHlo.after_of_forall_not_mem _ _ fun op h => hw op (List.mem_append_right _ h)
      _ = W3 m ρ c (Proc.devRef .tc b) := W4_of_ne m ρ c b hr1
      _ = W2 m ρ c (Proc.devRef .tc b) :=
        StableHlo.after_of_forall_not_mem _ _ fun op h => hw op (List.mem_append_left _ (List.mem_append_right _ h))
      _ = m ((c : Thread nD τ).loc b) := h2⟩

end Cert.Kernel.Hand

end
-- ==== Proof.K.Run.lean ====
import proofs.«169142_g2000501041679005_pallasbulk_208_6_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := by
  rw [main_chain c, Pipeline.Seg.run_eq_chain]; rfl

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.K.Frame.lean ====
import proofs.«169142_g2000501041679005_pallasbulk_208_6_alg».proof.Proof.K.Run

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The run, read at the result buffer and at the buffers nothing writes. -/
theorem run_kept : θ_run defs (onTc (τ := τ) (main (F := F))) ⟨m, fun _ => 0, ρ⟩ (fun r => ∀ c : Dev nD,
      r.2.mem ((c.tc : Thread nD τ).loc main_v108) = W5 m ρ c (Proc.devRef .tc main_v108)
      ∧ ∀ b : Ref sig .tc, ¬ (Proc.devRef .tc b : DevRef τ sig).isScoped → b.idx.val < 50 →
          r.2.mem ((c.tc : Thread nD τ).loc b) = m ((c.tc : Thread nD τ).loc b)) :=
  (θ_run defs _ _).mono (fun r h c =>
    ⟨h c _ (mem_uc main_v108 (by decide)),
     fun b hu hb => (h c _ (mem_uc b hu)).trans (arg_kept m ρ c b hb).2⟩) (run_all m ρ)

end Cert.Kernel.Hand

end
-- ==== Proof.KI.Body0.lean ====
import proofs.«169142_g2000501041679005_pallasbulk_208_6_alg».proof.Proof.Gen.KernelIdeal.Launch
import proofs.«169142_g2000501041679005_pallasbulk_208_6_alg».proof.Proof.Gen.KernelIdeal.Skeleton
import proofs.«169142_g2000501041679005_pallasbulk_208_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S1x200x30 := Rect.unit (s := S1x200x30) ![0, 0, 0] S1x200x30.size inb_S1x200x30_S1x200x30_0_0_0

abbrev r0_1 : Rect S150x512 := Rect.unit (s := S150x512) ![0, 0] S150x512.size inb_S150x512_S150x512_0_0

abbrev r0_2 : Rect S512x512 := Rect.unit (s := S512x512) ![0, 0] S512x512.size inb_S512x512_S512x512_0_0

abbrev r0_3 : Rect S1536x512 := Rect.unit (s := S1536x512) ![0, 0] S1536x512.size inb_S1536x512_S1536x512_0_0

abbrev r0_4 : Rect S512x1500 := Rect.unit (s := S512x1500) ![0, 0] S512x1500.size inb_S512x1500_S512x1500_0_0

abbrev r0_5 : Rect S3x512 := Rect.unit (s := S3x512) ![0, 0] S3x512.size inb_S3x512_S3x512_0_0

abbrev r0_6 : Rect S3x1500 := Rect.unit (s := S3x1500) ![0, 0] S3x1500.size inb_S3x1500_S3x1500_0_0

abbrev r0_7 : Rect S1x1x1500 := Rect.unit (s := S1x1x1500) ![0, 0, 0] S1x1x1500.size inb_S1x1x1500_S1x1x1500_0_0_0

abbrev act0 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) : FVec F S178x1500 .f32 :=
  k0_pay11 (k0_pay8 (View.ld x17 r0_5))
    (k0_pay9
      (k0_pay7
        (k0_pay5 (View.ld x0 r0_0) (View.ld x1 r0_1) (View.ld x11 r0_5) (View.ld x2 r0_2) (View.ld x12 r0_5))
        (k0_pay6 (View.ld x0 r0_0) (View.ld x1 r0_1) (View.ld x11 r0_5) (View.ld x2 r0_2) (View.ld x12 r0_5))
        (View.ld x3 r0_3) (View.ld x13 r0_5) (View.ld x4 r0_2) (View.ld x14 r0_5) (View.ld x5 r0_3))
      (View.ld x15 r0_5) (View.ld x6 r0_2) (View.ld x16 r0_5) (View.ld x7 r0_3) (View.ld x17 r0_5))
    (k0_pay10 (View.ld x17 r0_5))
    (View.ld x8 r0_2) (View.ld x18 r0_5) (View.ld x9 r0_2) (View.ld x19 r0_5) (View.ld x10 r0_4)

def out0_21 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) : Vec F S1x1x1500 .f32 :=
  View.canon [⟨r0_7, k0_pay3 (act0 x0 x1 x2 x3 x4 x5 x6 x7 x8 x9 x10 x11 x12 x13 x14 x15 x16 x17 x18 x19) (View.ld x20 r0_6)⟩]

def out0_22 (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) : Vec F S1x1x1500 .f32 :=
  View.canon [⟨r0_7, k0_pay4 (act0 x0 x1 x2 x3 x4 x5 x6 x7 x8 x9 x10 x11 x12 x13 x14 x15 x16 x17 x18 x19) (View.ld x20 r0_6)⟩]

theorem cover0_row (p0 : Vec F S1x1x1500 .f32) (y : S1x1x1500.Idx) :
    ∃ pc ∈ ([⟨r0_7, p0⟩] : List (View.Piece (Elt F) S1x1x1500 .f32)), y ∈ pc.1.set :=
  View.cover_of_tiled [⟨r0_7, p0⟩] S1x1x1500.size (by rfl) y

set_option maxHeartbeats 4000000 in

theorem sound_kernel0 (c : Dev nD) (E : Set ℕ) (i : grid0.Coords) (arg1 : Memref sig .tc .vmem S1x200x30 .f32) (harg1 : arg1.IsWhole) (arg2 : Memref sig .tc .vmem S150x512 .bf16) (harg2 : arg2.IsWhole) (arg3 : Memref sig .tc .vmem S512x512 .bf16) (harg3 : arg3.IsWhole) (arg4 : Memref sig .tc .vmem S1536x512 .bf16) (harg4 : arg4.IsWhole) (arg5 : Memref sig .tc .vmem S512x512 .bf16) (harg5 : arg5.IsWhole) (arg6 : Memref sig .tc .vmem S1536x512 .bf16) (harg6 : arg6.IsWhole) (arg7 : Memref sig .tc .vmem S512x512 .bf16) (harg7 : arg7.IsWhole) (arg8 : Memref sig .tc .vmem S1536x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1500 .bf16) (harg11 : arg11.IsWhole) (arg12 : Memref sig .tc .vmem S3x512 .f32) (harg12 : arg12.IsWhole) (arg13 : Memref sig .tc .vmem S3x512 .f32) (harg13 : arg13.IsWhole) (arg14 : Memref sig .tc .vmem S3x512 .f32) (harg14 : arg14.IsWhole) (arg15 : Memref sig .tc .vmem S3x512 .f32) (harg15 : arg15.IsWhole) (arg16 : Memref sig .tc .vmem S3x512 .f32) (harg16 : arg16.IsWhole) (arg17 : Memref sig .tc .vmem S3x512 .f32) (harg17 : arg17.IsWhole) (arg18 : Memref sig .tc .vmem S3x512 .f32) (harg18 : arg18.IsWhole) (arg19 : Memref sig .tc .vmem S3x512 .f32) (harg19 : arg19.IsWhole) (arg20 : Memref sig .tc .vmem S3x512 .f32) (harg20 : arg20.IsWhole) (arg21 : Memref sig .tc .vmem S3x1500 .f32) (harg21 : arg21.IsWhole) (arg22 : Memref sig .tc .vmem S1x1x1500 .f32) (harg22 : arg22.IsWhole) (arg23 : Memref sig .tc .vmem S1x1x1500 .f32) (harg23 : arg23.IsWhole)
    (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20) ∗ owns (c : Thread nD τ) arg23 fullShare (out0_22 x0 x1 x2 x3 x4 x5 x6 x7 x8 x9 x10 x11 x12 x13 x14 x15 x16 x17 x18 x19 x20)) -∗ K ⟨⟩))
      ⊢ wp frame (wpE (defs₀ (F := F)) Variants.none c none) E (cc0__trunk_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__trunk_body_eq_skeleton]; unfold cc0__trunk_body_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    try dsimp only
    exact View.read_writes_eq_canon _ _ _ (cover0_row _)
  iexists _; isplitr
  swap; · iexact H22
  ipureintro
  try dsimp only
  exact View.read_writes_eq_canon _ _ _ (cover0_row _)

end Cert.KernelIdeal.Hand

end
-- ==== Proof.KI.Region0.lean ====
import proofs.«169142_g2000501041679005_pallasbulk_208_6_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)
    | ⟨22, _⟩ => out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)
    | ⟨_ + 23, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) := by dsimp only [dat0]
theorem after0_22 (c : Dev nD) (t : Fin cfg0.N) : (dat0 V c).after 22 t = out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t))

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10,
    before0_11, before0_12, before0_13, before0_14, before0_15, before0_16, before0_17, before0_18, before0_19, before0_20]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10,
    after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«169142_g2000501041679005_pallasbulk_208_6_alg».proof.Proof.Gen.KernelIdeal.Launch
import proofs.«169142_g2000501041679005_pallasbulk_208_6_alg».proof.Proof.Gen.KernelIdeal.Skeleton
import proofs.«169142_g2000501041679005_pallasbulk_208_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S16x1500 := Rect.unit (s := S16x1500) ![0, 0] S16x1500.size inb_S16x1500_S16x1500_0_0
abbrev r1_1 : Rect S1500x512 := Rect.unit (s := S1500x512) ![0, 0] S1500x512.size inb_S1500x512_S1500x512_0_0
abbrev r1_2 : Rect S1x512 := Rect.unit (s := S1x512) ![0, 0] S1x512.size inb_S1x512_S1x512_0_0
abbrev r1_3 : Rect S512x128 := Rect.unit (s := S512x128) ![0, 0] S512x128.size inb_S512x128_S512x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S2x128 := Rect.unit (s := S2x128) ![0, 0] S1x128.size inb_S2x128_S1x128_0_0
abbrev r1_7 : Rect S2x128 := Rect.unit (s := S2x128) ![1, 0] S1x128.size inb_S2x128_S1x128_1_0
abbrev r1_8 : Rect S8x1 := Rect.unit (s := S8x1) ![0, 0] S8x1.size inb_S8x1_S8x1_0_0

def out1_10 (x0 : Vec F S16x1500 .f32) (x1 : Vec F S16x1500 .f32) (x2 : Vec F S1500x512 .bf16) (x3 : Vec F S1500x512 .bf16) (x4 : Vec F S1x512 .f32) (x5 : Vec F S512x128 .bf16) (x6 : Vec F S1x128 .f32) (x7 : Vec F S128x128 .bf16) (x8 : Vec F S1x128 .f32) (x9 : Vec F S2x128 .f32) : Vec F S8x1 .f32 :=
  View.canon [⟨r1_8, k1_pay1 (k1_pay2 (View.ld x0 r1_0) (View.ld x1 r1_0) (View.ld x2 r1_1) (View.ld x3 r1_1) (View.ld x4 r1_2) (View.ld x5 r1_3) (View.ld x6 r1_4) (View.ld x7 r1_5)) (View.ld x8 r1_4) (View.ld x9 r1_6) (View.ld x9 r1_7)⟩]

theorem cover1_10 (p0 : Vec F S8x1 .f32) (y : S8x1.Idx) :
    ∃ pc ∈ ([⟨r1_8, p0⟩] : List (View.Piece (Elt F) S8x1 .f32)), y ∈ pc.1.set :=
  View.cover_of_tiled [⟨r1_8, p0⟩] S8x1.size (by rfl) y

set_option maxHeartbeats 1000000 in

theorem sound_kernel1 (c : Dev nD) (E : Set ℕ) (arg0 : Memref sig .tc .vmem S16x1500 .f32) (harg0 : arg0.IsWhole) (arg1 : Memref sig .tc .vmem S16x1500 .f32) (harg1 : arg1.IsWhole) (arg2 : Memref sig .tc .vmem S1500x512 .bf16) (harg2 : arg2.IsWhole) (arg3 : Memref sig .tc .vmem S1500x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S2x128 .f32) (harg9 : arg9.IsWhole) (arg10 : Memref sig .tc .vmem S8x1 .f32) (harg10 : arg10.IsWhole)
    (x0 : Vec F S16x1500 .f32) (x1 : Vec F S16x1500 .f32) (x2 : Vec F S1500x512 .bf16) (x3 : Vec F S1500x512 .bf16) (x4 : Vec F S1x512 .f32) (x5 : Vec F S512x128 .bf16) (x6 : Vec F S1x128 .f32) (x7 : Vec F S128x128 .bf16) (x8 : Vec F S1x128 .f32) (x9 : Vec F S2x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out1_10 x0 x1 x2 x3 x4 x5 x6 x7 x8 x9)) -∗ K ⟨⟩))
      ⊢ wp frame (wpE (defs₀ (F := F)) Variants.none c none) E (cc1__head_body arg0 harg0 arg1 harg1 arg2 harg2 arg3 harg3 arg4 harg4 arg5 harg5 arg6 harg6 arg7 harg7 arg8 harg8 arg9 harg9 arg10 harg10) K := by
  simp only [cc1__head_body_eq_skeleton]; unfold cc1__head_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

end Cert.KernelIdeal.Hand

end
-- ==== Proof.KI.Region1.lean ====
import proofs.«169142_g2000501041679005_pallasbulk_208_6_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Fold.lean ====
import proofs.«169142_g2000501041679005_pallasbulk_208_6_alg».proof.Proof.KI.Region0
import proofs.«169142_g2000501041679005_pallasbulk_208_6_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

/-- Host results and windows' arrays are all numbered 50 or more, so a buffer numbered below 50 is written by nothing. -/
theorem arg_kept (c : Dev nD) (b : Ref sig .tc) (hb : b.idx.val < 50) :
    W2 m ρ c (Proc.devRef .tc b) = m ((c : Thread nD τ).loc b) ∧ W5 m ρ c (Proc.devRef .tc b) = m ((c : Thread nD τ).loc b) := by
  have ne : ∀ y : Ref sig .tc, 50 ≤ y.idx.val → Proc.devRef (τ := τ) .tc b ≠ Proc.devRef .tc y :=
    fun y hy => StableHlo.devRef_ne_of_ne fun e => by subst e; omega
  have hw : ∀ op ∈ (hostOps0 ++ hostOps1 ++ hostOps2 : List (HloOp τ sig (Elt F))), Proc.devRef .tc b ∉ op.writes :=
    List.forall_iff_forall_mem.mp (by
      simp only [hostOps0, hostOps1, hostOps2, List.cons_append, List.nil_append, List.Forall, StableHlo.nullary_writes,
        StableHlo.unary_writes, StableHlo.binary_writes, StableHlo.ternary_writes, StableHlo.quaternary_writes,
        StableHlo.reshape_writes, StableHlo.binaryIndexed_writes, StableHlo.nary_writes, Finset.mem_singleton]
      repeat' apply And.intro
      all_goals exact ne _ (by decide))
  have hr0 : ∀ w, Pipeline.arrRef spec0 w ≠ b := fun w e => by
    have := (by decide : ∀ w, 50 ≤ (Pipeline.arrRef spec0 w).idx.val) w
    rw [e] at this; omega
  have hr1 : ∀ w, Pipeline.arrRef spec1 w ≠ b := fun w e => by
    have := (by decide : ∀ w, 50 ≤ (Pipeline.arrRef spec1 w).idx.val) w
    rw [e] at this; omega
  have h2 : W2 m ρ c (Proc.devRef .tc b) = m ((c : Thread nD τ).loc b) :=
    calc W2 m ρ c (Proc.devRef .tc b)
      _ = W1 m ρ c (Proc.devRef .tc b) := W2_of_ne m ρ c b hr0
      _ = W0 m ρ c (Proc.devRef .tc b) :=
        StableHlo.after_of_forall_not_mem _ _ fun op h => hw op (List.mem_append_left _ (List.mem_append_left _ h))
      _ = m ((c : Thread nD τ).loc b) := rfl
  exact ⟨h2,
    calc W5 m ρ c (Proc.devRef .tc b)
      _ = W4 m ρ c (Proc.devRef .tc b) :=
        StableHlo.after_of_forall_not_mem _ _ fun op h => hw op (List.mem_append_right _ h)
      _ = W3 m ρ c (Proc.devRef .tc b) := W4_of_ne m ρ c b hr1
      _ = W2 m ρ c (Proc.devRef .tc b) :=
        StableHlo.after_of_forall_not_mem _ _ fun op h => hw op (List.mem_append_left _ (List.mem_append_right _ h))
      _ = m ((c : Thread nD τ).loc b) := h2⟩

end Cert.KernelIdeal.Hand

end
-- ==== Proof.KI.Run.lean ====
import proofs.«169142_g2000501041679005_pallasbulk_208_6_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := by
  rw [main_chain c, Pipeline.Seg.run_eq_chain]; rfl

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.KI.Frame.lean ====
import proofs.«169142_g2000501041679005_pallasbulk_208_6_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The run, read at the result buffer and at the buffers nothing writes. -/
theorem run_kept : θ_run defs (onTc (τ := τ) (main (F := F))) ⟨m, fun _ => 0, ρ⟩ (fun r => ∀ c : Dev nD,
      r.2.mem ((c.tc : Thread nD τ).loc main_v108) = W5 m ρ c (Proc.devRef .tc main_v108)
      ∧ ∀ b : Ref sig .tc, ¬ (Proc.devRef .tc b : DevRef τ sig).isScoped → b.idx.val < 50 →
          r.2.mem ((c.tc : Thread nD τ).loc b) = m ((c.tc : Thread nD τ).loc b)) :=
  (θ_run defs _ _).mono (fun r h c =>
    ⟨h c _ (mem_uc main_v108 (by decide)),
     fun b hu hb => (h c _ (mem_uc b hu)).trans (arg_kept m ρ c b hb).2⟩) (run_all m ρ)

end Cert.KernelIdeal.Hand

end
-- ==== Proof.R.HostBase.lean ====
import proofs.«169142_g2000501041679005_pallasbulk_208_6_alg».proof.Proof.RF.Fold
import Idealize.ShloMosaic.Lib.ValueIdx
import Idealize.ShloMosaic.Lib.ValueLayout

set_option maxRecDepth 16384

noncomputable section

namespace Cert.ReferenceIdeal.Host

open Idealize.ShloMosaic Idealize.ShloMosaic.TcCoe Idealize.ShloMosaic.Tactic
open Idealize.SL Idealize.SL.Sem
open Idealize.ShloMosaic.ValueIdx
open Cert.ReferenceIdeal.Gen

variable {F : FTy → Type} [FloatOps F]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

abbrev allW : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26, main_v27, main_v28, main_v29, main_v30, main_v31, main_v32, main_v33, main_v34, main_v35, main_v36,
   main_v37, main_v38, main_v39, main_v40, main_v41, main_v42, main_v43, main_v44, main_v45, main_v46, main_v47, main_v48,
   main_v49, main_v50]

macro "rhost_writes_one" : tactic =>
  `(tactic| (simp only [StableHlo.nullary_writes, StableHlo.unary_writes, StableHlo.binary_writes, StableHlo.reshape_writes,
      Finset.singleton_subset_iff, List.mem_toFinset]; exact List.mem_map_of_mem (by decide)))

variable (m : (ℓ : Loc nD τ sig) → Buf (Elt F) ℓ) (ρ : Dev nD → PrngReg)

theorem W0_arg (c : Dev nD) (b : Ref sig .tc) : W0 m ρ c (Proc.devRef .tc b) = m ((c : Thread nD τ).loc b) := rfl

abbrev host0_W : List (Ref sig .tc) := [main_v0, main_v1, main_v2, main_v3, main_v4]
theorem host0_sub : ∀ r ∈ host0_W, r ∈ allW := by decide
theorem host0_writes : (hostOps0 : List (HloOp τ sig (Elt F))).Forall fun op => op.writes ⊆ (host0_W.map (Proc.devRef (τ := τ) .tc)).toFinset := by
  simp only [List.Forall]; exact ⟨by rhost_writes_one, by rhost_writes_one, by rhost_writes_one, by rhost_writes_one, by rhost_writes_one⟩

theorem W1_of (c : Dev nD) (r : Ref sig .tc) (h : r ∉ host0_W) :
    W1 m ρ c (Proc.devRef .tc r) = W0 m ρ c (Proc.devRef .tc r) :=
  StableHlo.after_of_writes_sub hostOps0 _ host0_writes h

theorem W2_of (c : Dev nD) (b : Ref sig .tc) (hb : b ≠ main_v5) :
    W2 m ρ c (Proc.devRef .tc b) = W1 m ρ c (Proc.devRef .tc b) := by
  by_cases h : ∀ w, Pipeline.arrRef spec0 w ≠ b
  · exact W2_of_ne m ρ c b h
  · obtain ⟨w, rfl⟩ := not_forall_not.mp h
    exact (W2_arr m ρ c w).trans (((dat0 (V1 m ρ) c).arrAt_in w
      ((by decide : ∀ w, Pipeline.arrRef spec0 w ≠ main_v5 → (cfg0.win w).isOut = false) w hb) _).trans (A_eq0 (V1 m ρ) c w))

theorem W1_arg (c : Dev nD) (b : Ref sig .tc) (hb : b ∉ allW) : W1 m ρ c (Proc.devRef .tc b) = m ((c : Thread nD τ).loc b) :=
  (W1_of m ρ c b fun h => hb (host0_sub _ h)).trans (W0_arg m ρ c b)

theorem W2_arg (c : Dev nD) (b : Ref sig .tc) (hb : b ∉ allW) : W2 m ρ c (Proc.devRef .tc b) = m ((c : Thread nD τ).loc b) :=
  (W2_of m ρ c b fun e => hb (by subst e; decide)).trans (W1_arg m ρ c b hb)

theorem x_in0 (c : Dev nD) : (V1 m ρ c main_v1 : Vec F S16x200x30 .f32)
    = transpose S16x200x30 [0, 2, 1] (concatenate S16x30x200 0 [⟨S8x30x200, (m ((c : Thread nD τ).loc main_arg0) : Vec F S8x30x200 .f32)⟩,
        ⟨S8x30x200, (m ((c : Thread nD τ).loc main_arg1) : Vec F S8x30x200 .f32)⟩] concatenates_S8x30x200_S8x30x200_S16x30x200_d0)
        transposes_S16x30x200_S16x200x30_0_2_1 := by
  show StableHlo.after hostOps0 (W0 m ρ c) (Proc.devRef .tc main_v1) = _
  after_results

theorem w_in0 (c : Dev nD) : V1 m ρ c main_arg2 = m ((c : Thread nD τ).loc main_arg2) := W1_arg m ρ c main_arg2 (by decide)

theorem b_in0 (c : Dev nD) : (V1 m ρ c main_v2 : Vec F S1x512 .f32)
    = shapeCast S1x512 (m ((c : Thread nD τ).loc main_arg3) : Vec F S512 .f32) shapeCasts_S512_S1x512 := by
  show StableHlo.after hostOps0 (W0 m ρ c) (Proc.devRef .tc main_v2) = _
  after_results; rfl

theorem mean_in0 (c : Dev nD) : (V1 m ρ c main_v3 : Vec F S1x512 .f32)
    = shapeCast S1x512 (m ((c : Thread nD τ).loc main_arg4) : Vec F S512 .f32) shapeCasts_S512_S1x512 := by
  show StableHlo.after hostOps0 (W0 m ρ c) (Proc.devRef .tc main_v3) = _
  after_results; rfl

theorem var_in0 (c : Dev nD) : (V1 m ρ c main_v4 : Vec F S1x512 .f32)
    = shapeCast S1x512 (m ((c : Thread nD τ).loc main_arg5) : Vec F S512 .f32) shapeCasts_S512_S1x512 := by
  show StableHlo.after hostOps0 (W0 m ρ c) (Proc.devRef .tc main_v4) = _
  after_results; rfl

end Cert.ReferenceIdeal.Host

end
-- ==== Proof.R.HostMid.lean ====
import proofs.«169142_g2000501041679005_pallasbulk_208_6_alg».proof.Proof.R.HostBase

set_option maxRecDepth 16384

noncomputable section

namespace Cert.ReferenceIdeal.Host

open Idealize.ShloMosaic Idealize.ShloMosaic.TcCoe Idealize.ShloMosaic.Tactic
open Idealize.SL Idealize.SL.Sem
open Idealize.ShloMosaic.ValueIdx
open Cert.ReferenceIdeal.Gen

variable {F : FTy → Type} [FloatOps F]
variable (m : (ℓ : Loc nD τ sig) → Buf (Elt F) ℓ) (ρ : Dev nD → PrngReg)

abbrev host1_W : List (Ref sig .tc) := [main_v6, main_v7, main_v8]
theorem host1_sub : ∀ r ∈ host1_W, r ∈ allW := by decide
theorem host1_writes : (hostOps1 : List (HloOp τ sig (Elt F))).Forall fun op => op.writes ⊆ (host1_W.map (Proc.devRef (τ := τ) .tc)).toFinset := by
  simp only [List.Forall]; exact ⟨by rhost_writes_one, by rhost_writes_one, by rhost_writes_one⟩

theorem W3_of (c : Dev nD) (r : Ref sig .tc) (h : r ∉ host1_W) :
    W3 m ρ c (Proc.devRef .tc r) = W2 m ρ c (Proc.devRef .tc r) :=
  StableHlo.after_of_writes_sub hostOps1 _ host1_writes h

theorem W4_of (c : Dev nD) (b : Ref sig .tc) (hb : b ≠ main_v9) :
    W4 m ρ c (Proc.devRef .tc b) = W3 m ρ c (Proc.devRef .tc b) := by
  by_cases h : ∀ w, Pipeline.arrRef spec1 w ≠ b
  · exact W4_of_ne m ρ c b h
  · obtain ⟨w, rfl⟩ := not_forall_not.mp h
    exact (W4_arr m ρ c w).trans (((dat1 (V3 m ρ) c).arrAt_in w
      ((by decide : ∀ w, Pipeline.arrRef spec1 w ≠ main_v9 → (cfg1.win w).isOut = false) w hb) _).trans (A_eq1 (V3 m ρ) c w))

theorem W3_arg (c : Dev nD) (b : Ref sig .tc) (hb : b ∉ allW) : W3 m ρ c (Proc.devRef .tc b) = m ((c : Thread nD τ).loc b) :=
  (W3_of m ρ c b fun h => hb (host1_sub _ h)).trans (W2_arg m ρ c b hb)

theorem W4_arg (c : Dev nD) (b : Ref sig .tc) (hb : b ∉ allW) : W4 m ρ c (Proc.devRef .tc b) = m ((c : Thread nD τ).loc b) :=
  (W4_of m ρ c b fun e => hb (by subst e; decide)).trans (W3_arg m ρ c b hb)

theorem x_in1 (c : Dev nD) : V3 m ρ c main_v5 = (dat0 (V1 m ρ) c).arrAt 5 cfg0.N :=
  (W3_of m ρ c main_v5 (by decide)).trans (W2_arr m ρ c 5)

theorem w_in1 (c : Dev nD) : V3 m ρ c main_arg6 = m ((c : Thread nD τ).loc main_arg6) := W3_arg m ρ c main_arg6 (by decide)

theorem b_in1 (c : Dev nD) : (V3 m ρ c main_v6 : Vec F S1x512 .f32)
    = shapeCast S1x512 (m ((c : Thread nD τ).loc main_arg7) : Vec F S512 .f32) shapeCasts_S512_S1x512 := by
  show StableHlo.after hostOps1 (W2 m ρ c) (Proc.devRef .tc main_v6) = _
  after_results
  rw [← W2_arg m ρ c main_arg7 (by decide)]; rfl

theorem mean_in1 (c : Dev nD) : (V3 m ρ c main_v7 : Vec F S1x512 .f32)
    = shapeCast S1x512 (m ((c : Thread nD τ).loc main_arg8) : Vec F S512 .f32) shapeCasts_S512_S1x512 := by
  show StableHlo.after hostOps1 (W2 m ρ c) (Proc.devRef .tc main_v7) = _
  after_results
  rw [← W2_arg m ρ c main_arg8 (by decide)]; rfl

theorem var_in1 (c : Dev nD) : (V3 m ρ c main_v8 : Vec F S1x512 .f32)
    = shapeCast S1x512 (m ((c : Thread nD τ).loc main_arg9) : Vec F S512 .f32) shapeCasts_S512_S1x512 := by
  show StableHlo.after hostOps1 (W2 m ρ c) (Proc.devRef .tc main_v8) = _
  after_results
  rw [← W2_arg m ρ c main_arg9 (by decide)]; rfl

abbrev host2_W : List (Ref sig .tc) := [main_v10, main_v11, main_v12]
theorem host2_sub : ∀ r ∈ host2_W, r ∈ allW := by decide
theorem host2_writes : (hostOps2 : List (HloOp τ sig (Elt F))).Forall fun op => op.writes ⊆ (host2_W.map (Proc.devRef (τ := τ) .tc)).toFinset := by
  simp only [List.Forall]; exact ⟨by rhost_writes_one, by rhost_writes_one, by rhost_writes_one⟩

theorem W5_of (c : Dev nD) (r : Ref sig .tc) (h : r ∉ host2_W) :
    W5 m ρ c (Proc.devRef .tc r) = W4 m ρ c (Proc.devRef .tc r) :=
  StableHlo.after_of_writes_sub hostOps2 _ host2_writes h

theorem W6_of (c : Dev nD) (b : Ref sig .tc) (hb : b ≠ main_v13) :
    W6 m ρ c (Proc.devRef .tc b) = W5 m ρ c (Proc.devRef .tc b) := by
  by_cases h : ∀ w, Pipeline.arrRef spec2 w ≠ b
  · exact W6_of_ne m ρ c b h
  · obtain ⟨w, rfl⟩ := not_forall_not.mp h
    exact (W6_arr m ρ c w).trans (((dat2 (V5 m ρ) c).arrAt_in w
      ((by decide : ∀ w, Pipeline.arrRef spec2 w ≠ main_v13 → (cfg2.win w).isOut = false) w hb) _).trans (A_eq2 (V5 m ρ) c w))

theorem W5_arg (c : Dev nD) (b : Ref sig .tc) (hb : b ∉ allW) : W5 m ρ c (Proc.devRef .tc b) = m ((c : Thread nD τ).loc b) :=
  (W5_of m ρ c b fun h => hb (host2_sub _ h)).trans (W4_arg m ρ c b hb)

theorem W6_arg (c : Dev nD) (b : Ref sig .tc) (hb : b ∉ allW) : W6 m ρ c (Proc.devRef .tc b) = m ((c : Thread nD τ).loc b) :=
  (W6_of m ρ c b fun e => hb (by subst e; decide)).trans (W5_arg m ρ c b hb)

theorem x_in2 (c : Dev nD) : V5 m ρ c main_v9 = (dat1 (V3 m ρ) c).arrAt 5 cfg1.N :=
  (W5_of m ρ c main_v9 (by decide)).trans (W4_arr m ρ c 5)

theorem w_in2 (c : Dev nD) : V5 m ρ c main_arg10 = m ((c : Thread nD τ).loc main_arg10) := W5_arg m ρ c main_arg10 (by decide)

theorem b_in2 (c : Dev nD) : (V5 m ρ c main_v10 : Vec F S1x512 .f32)
    = shapeCast S1x512 (m ((c : Thread nD τ).loc main_arg11) : Vec F S512 .f32) shapeCasts_S512_S1x512 := by
  show StableHlo.after hostOps2 (W4 m ρ c) (Proc.devRef .tc main_v10) = _
  after_results
  rw [← W4_arg m ρ c main_arg11 (by decide)]; rfl

theorem mean_in2 (c : Dev nD) : (V5 m ρ c main_v11 : Vec F S1x512 .f32)
    = shapeCast S1x512 (m ((c : Thread nD τ).loc main_arg12) : Vec F S512 .f32) shapeCasts_S512_S1x512 := by
  show StableHlo.after hostOps2 (W4 m ρ c) (Proc.devRef .tc main_v11) = _
  after_results
  rw [← W4_arg m ρ c main_arg12 (by decide)]; rfl

theorem var_in2 (c : Dev nD) : (V5 m ρ c main_v12 : Vec F S1x512 .f32)
    = shapeCast S1x512 (m ((c : Thread nD τ).loc main_arg13) : Vec F S512 .f32) shapeCasts_S512_S1x512 := by
  show StableHlo.after hostOps2 (W4 m ρ c) (Proc.devRef .tc main_v12) = _
  after_results
  rw [← W4_arg m ρ c main_arg13 (by decide)]; rfl

abbrev host3_W : List (Ref sig .tc) := [main_v14, main_v15, main_v16]
theorem host3_sub : ∀ r ∈ host3_W, r ∈ allW := by decide
theorem host3_writes : (hostOps3 : List (HloOp τ sig (Elt F))).Forall fun op => op.writes ⊆ (host3_W.map (Proc.devRef (τ := τ) .tc)).toFinset := by
  simp only [List.Forall]; exact ⟨by rhost_writes_one, by rhost_writes_one, by rhost_writes_one⟩

theorem W7_of (c : Dev nD) (r : Ref sig .tc) (h : r ∉ host3_W) :
    W7 m ρ c (Proc.devRef .tc r) = W6 m ρ c (Proc.devRef .tc r) :=
  StableHlo.after_of_writes_sub hostOps3 _ host3_writes h

theorem W8_of (c : Dev nD) (b : Ref sig .tc) (hb : b ≠ main_v17) :
    W8 m ρ c (Proc.devRef .tc b) = W7 m ρ c (Proc.devRef .tc b) := by
  by_cases h : ∀ w, Pipeline.arrRef spec3 w ≠ b
  · exact W8_of_ne m ρ c b h
  · obtain ⟨w, rfl⟩ := not_forall_not.mp h
    exact (W8_arr m ρ c w).trans (((dat3 (V7 m ρ) c).arrAt_in w
      ((by decide : ∀ w, Pipeline.arrRef spec3 w ≠ main_v17 → (cfg3.win w).isOut = false) w hb) _).trans (A_eq3 (V7 m ρ) c w))

theorem W7_arg (c : Dev nD) (b : Ref sig .tc) (hb : b ∉ allW) : W7 m ρ c (Proc.devRef .tc b) = m ((c : Thread nD τ).loc b) :=
  (W7_of m ρ c b fun h => hb (host3_sub _ h)).trans (W6_arg m ρ c b hb)

theorem W8_arg (c : Dev nD) (b : Ref sig .tc) (hb : b ∉ allW) : W8 m ρ c (Proc.devRef .tc b) = m ((c : Thread nD τ).loc b) :=
  (W8_of m ρ c b fun e => hb (by subst e; decide)).trans (W7_arg m ρ c b hb)

theorem x_in3 (c : Dev nD) : V7 m ρ c main_v13 = (dat2 (V5 m ρ) c).arrAt 5 cfg2.N :=
  (W7_of m ρ c main_v13 (by decide)).trans (W6_arr m ρ c 5)

theorem w_in3 (c : Dev nD) : V7 m ρ c main_arg14 = m ((c : Thread nD τ).loc main_arg14) := W7_arg m ρ c main_arg14 (by decide)

theorem b_in3 (c : Dev nD) : (V7 m ρ c main_v14 : Vec F S1x512 .f32)
    = shapeCast S1x512 (m ((c : Thread nD τ).loc main_arg15) : Vec F S512 .f32) shapeCasts_S512_S1x512 := by
  show StableHlo.after hostOps3 (W6 m ρ c) (Proc.devRef .tc main_v14) = _
  after_results
  rw [← W6_arg m ρ c main_arg15 (by decide)]; rfl

theorem mean_in3 (c : Dev nD) : (V7 m ρ c main_v15 : Vec F S1x512 .f32)
    = shapeCast S1x512 (m ((c : Thread nD τ).loc main_arg16) : Vec F S512 .f32) shapeCasts_S512_S1x512 := by
  show StableHlo.after hostOps3 (W6 m ρ c) (Proc.devRef .tc main_v15) = _
  after_results
  rw [← W6_arg m ρ c main_arg16 (by decide)]; rfl

theorem var_in3 (c : Dev nD) : (V7 m ρ c main_v16 : Vec F S1x512 .f32)
    = shapeCast S1x512 (m ((c : Thread nD τ).loc main_arg17) : Vec F S512 .f32) shapeCasts_S512_S1x512 := by
  show StableHlo.after hostOps3 (W6 m ρ c) (Proc.devRef .tc main_v16) = _
  after_results
  rw [← W6_arg m ρ c main_arg17 (by decide)]; rfl

abbrev host4_W : List (Ref sig .tc) := [main_v18, main_v19, main_v20]
theorem host4_sub : ∀ r ∈ host4_W, r ∈ allW := by decide
theorem host4_writes : (hostOps4 : List (HloOp τ sig (Elt F))).Forall fun op => op.writes ⊆ (host4_W.map (Proc.devRef (τ := τ) .tc)).toFinset := by
  simp only [List.Forall]; exact ⟨by rhost_writes_one, by rhost_writes_one, by rhost_writes_one⟩

theorem W9_of (c : Dev nD) (r : Ref sig .tc) (h : r ∉ host4_W) :
    W9 m ρ c (Proc.devRef .tc r) = W8 m ρ c (Proc.devRef .tc r) :=
  StableHlo.after_of_writes_sub hostOps4 _ host4_writes h

theorem W10_of (c : Dev nD) (b : Ref sig .tc) (hb : b ≠ main_v21) :
    W10 m ρ c (Proc.devRef .tc b) = W9 m ρ c (Proc.devRef .tc b) := by
  by_cases h : ∀ w, Pipeline.arrRef spec4 w ≠ b
  · exact W10_of_ne m ρ c b h
  · obtain ⟨w, rfl⟩ := not_forall_not.mp h
    exact (W10_arr m ρ c w).trans (((dat4 (V9 m ρ) c).arrAt_in w
      ((by decide : ∀ w, Pipeline.arrRef spec4 w ≠ main_v21 → (cfg4.win w).isOut = false) w hb) _).trans (A_eq4 (V9 m ρ) c w))

theorem W9_arg (c : Dev nD) (b : Ref sig .tc) (hb : b ∉ allW) : W9 m ρ c (Proc.devRef .tc b) = m ((c : Thread nD τ).loc b) :=
  (W9_of m ρ c b fun h => hb (host4_sub _ h)).trans (W8_arg m ρ c b hb)

theorem W10_arg (c : Dev nD) (b : Ref sig .tc) (hb : b ∉ allW) : W10 m ρ c (Proc.devRef .tc b) = m ((c : Thread nD τ).loc b) :=
  (W10_of m ρ c b fun e => hb (by subst e; decide)).trans (W9_arg m ρ c b hb)

theorem x_in4 (c : Dev nD) : V9 m ρ c main_v17 = (dat3 (V7 m ρ) c).arrAt 5 cfg3.N :=
  (W9_of m ρ c main_v17 (by decide)).trans (W8_arr m ρ c 5)

theorem w_in4 (c : Dev nD) : V9 m ρ c main_arg18 = m ((c : Thread nD τ).loc main_arg18) := W9_arg m ρ c main_arg18 (by decide)

theorem b_in4 (c : Dev nD) : (V9 m ρ c main_v18 : Vec F S1x512 .f32)
    = shapeCast S1x512 (m ((c : Thread nD τ).loc main_arg19) : Vec F S512 .f32) shapeCasts_S512_S1x512 := by
  show StableHlo.after hostOps4 (W8 m ρ c) (Proc.devRef .tc main_v18) = _
  after_results
  rw [← W8_arg m ρ c main_arg19 (by decide)]; rfl

theorem mean_in4 (c : Dev nD) : (V9 m ρ c main_v19 : Vec F S1x512 .f32)
    = shapeCast S1x512 (m ((c : Thread nD τ).loc main_arg20) : Vec F S512 .f32) shapeCasts_S512_S1x512 := by
  show StableHlo.after hostOps4 (W8 m ρ c) (Proc.devRef .tc main_v19) = _
  after_results
  rw [← W8_arg m ρ c main_arg20 (by decide)]; rfl

theorem var_in4 (c : Dev nD) : (V9 m ρ c main_v20 : Vec F S1x512 .f32)
    = shapeCast S1x512 (m ((c : Thread nD τ).loc main_arg21) : Vec F S512 .f32) shapeCasts_S512_S1x512 := by
  show StableHlo.after hostOps4 (W8 m ρ c) (Proc.devRef .tc main_v20) = _
  after_results
  rw [← W8_arg m ρ c main_arg21 (by decide)]; rfl

abbrev host5_W : List (Ref sig .tc) := [main_v22, main_v23, main_v24]
theorem host5_sub : ∀ r ∈ host5_W, r ∈ allW := by decide
theorem host5_writes : (hostOps5 : List (HloOp τ sig (Elt F))).Forall fun op => op.writes ⊆ (host5_W.map (Proc.devRef (τ := τ) .tc)).toFinset := by
  simp only [List.Forall]; exact ⟨by rhost_writes_one, by rhost_writes_one, by rhost_writes_one⟩

theorem W11_of (c : Dev nD) (r : Ref sig .tc) (h : r ∉ host5_W) :
    W11 m ρ c (Proc.devRef .tc r) = W10 m ρ c (Proc.devRef .tc r) :=
  StableHlo.after_of_writes_sub hostOps5 _ host5_writes h

theorem W12_of (c : Dev nD) (b : Ref sig .tc) (hb : b ≠ main_v25) :
    W12 m ρ c (Proc.devRef .tc b) = W11 m ρ c (Proc.devRef .tc b) := by
  by_cases h : ∀ w, Pipeline.arrRef spec5 w ≠ b
  · exact W12_of_ne m ρ c b h
  · obtain ⟨w, rfl⟩ := not_forall_not.mp h
    exact (W12_arr m ρ c w).trans (((dat5 (V11 m ρ) c).arrAt_in w
      ((by decide : ∀ w, Pipeline.arrRef spec5 w ≠ main_v25 → (cfg5.win w).isOut = false) w hb) _).trans (A_eq5 (V11 m ρ) c w))

theorem W11_arg (c : Dev nD) (b : Ref sig .tc) (hb : b ∉ allW) : W11 m ρ c (Proc.devRef .tc b) = m ((c : Thread nD τ).loc b) :=
  (W11_of m ρ c b fun h => hb (host5_sub _ h)).trans (W10_arg m ρ c b hb)

theorem W12_arg (c : Dev nD) (b : Ref sig .tc) (hb : b ∉ allW) : W12 m ρ c (Proc.devRef .tc b) = m ((c : Thread nD τ).loc b) :=
  (W12_of m ρ c b fun e => hb (by subst e; decide)).trans (W11_arg m ρ c b hb)

theorem x_in5 (c : Dev nD) : V11 m ρ c main_v21 = (dat4 (V9 m ρ) c).arrAt 5 cfg4.N :=
  (W11_of m ρ c main_v21 (by decide)).trans (W10_arr m ρ c 5)

theorem w_in5 (c : Dev nD) : V11 m ρ c main_arg22 = m ((c : Thread nD τ).loc main_arg22) := W11_arg m ρ c main_arg22 (by decide)

theorem b_in5 (c : Dev nD) : (V11 m ρ c main_v22 : Vec F S1x512 .f32)
    = shapeCast S1x512 (m ((c : Thread nD τ).loc main_arg23) : Vec F S512 .f32) shapeCasts_S512_S1x512 := by
  show StableHlo.after hostOps5 (W10 m ρ c) (Proc.devRef .tc main_v22) = _
  after_results
  rw [← W10_arg m ρ c main_arg23 (by decide)]; rfl

theorem mean_in5 (c : Dev nD) : (V11 m ρ c main_v23 : Vec F S1x512 .f32)
    = shapeCast S1x512 (m ((c : Thread nD τ).loc main_arg24) : Vec F S512 .f32) shapeCasts_S512_S1x512 := by
  show StableHlo.after hostOps5 (W10 m ρ c) (Proc.devRef .tc main_v23) = _
  after_results
  rw [← W10_arg m ρ c main_arg24 (by decide)]; rfl

theorem var_in5 (c : Dev nD) : (V11 m ρ c main_v24 : Vec F S1x512 .f32)
    = shapeCast S1x512 (m ((c : Thread nD τ).loc main_arg25) : Vec F S512 .f32) shapeCasts_S512_S1x512 := by
  show StableHlo.after hostOps5 (W10 m ρ c) (Proc.devRef .tc main_v24) = _
  after_results
  rw [← W10_arg m ρ c main_arg25 (by decide)]; rfl

abbrev host6_W : List (Ref sig .tc) := [main_v26, main_v27, main_v28]
theorem host6_sub : ∀ r ∈ host6_W, r ∈ allW := by decide
theorem host6_writes : (hostOps6 : List (HloOp τ sig (Elt F))).Forall fun op => op.writes ⊆ (host6_W.map (Proc.devRef (τ := τ) .tc)).toFinset := by
  simp only [List.Forall]; exact ⟨by rhost_writes_one, by rhost_writes_one, by rhost_writes_one⟩

theorem W13_of (c : Dev nD) (r : Ref sig .tc) (h : r ∉ host6_W) :
    W13 m ρ c (Proc.devRef .tc r) = W12 m ρ c (Proc.devRef .tc r) :=
  StableHlo.after_of_writes_sub hostOps6 _ host6_writes h

theorem W14_of (c : Dev nD) (b : Ref sig .tc) (hb : b ≠ main_v29) :
    W14 m ρ c (Proc.devRef .tc b) = W13 m ρ c (Proc.devRef .tc b) := by
  by_cases h : ∀ w, Pipeline.arrRef spec6 w ≠ b
  · exact W14_of_ne m ρ c b h
  · obtain ⟨w, rfl⟩ := not_forall_not.mp h
    exact (W14_arr m ρ c w).trans (((dat6 (V13 m ρ) c).arrAt_in w
      ((by decide : ∀ w, Pipeline.arrRef spec6 w ≠ main_v29 → (cfg6.win w).isOut = false) w hb) _).trans (A_eq6 (V13 m ρ) c w))

theorem W13_arg (c : Dev nD) (b : Ref sig .tc) (hb : b ∉ allW) : W13 m ρ c (Proc.devRef .tc b) = m ((c : Thread nD τ).loc b) :=
  (W13_of m ρ c b fun h => hb (host6_sub _ h)).trans (W12_arg m ρ c b hb)

theorem W14_arg (c : Dev nD) (b : Ref sig .tc) (hb : b ∉ allW) : W14 m ρ c (Proc.devRef .tc b) = m ((c : Thread nD τ).loc b) :=
  (W14_of m ρ c b fun e => hb (by subst e; decide)).trans (W13_arg m ρ c b hb)

theorem x_in6 (c : Dev nD) : V13 m ρ c main_v25 = (dat5 (V11 m ρ) c).arrAt 5 cfg5.N :=
  (W13_of m ρ c main_v25 (by decide)).trans (W12_arr m ρ c 5)

theorem w_in6 (c : Dev nD) : V13 m ρ c main_arg26 = m ((c : Thread nD τ).loc main_arg26) := W13_arg m ρ c main_arg26 (by decide)

theorem b_in6 (c : Dev nD) : (V13 m ρ c main_v26 : Vec F S1x512 .f32)
    = shapeCast S1x512 (m ((c : Thread nD τ).loc main_arg27) : Vec F S512 .f32) shapeCasts_S512_S1x512 := by
  show StableHlo.after hostOps6 (W12 m ρ c) (Proc.devRef .tc main_v26) = _
  after_results
  rw [← W12_arg m ρ c main_arg27 (by decide)]; rfl

theorem mean_in6 (c : Dev nD) : (V13 m ρ c main_v27 : Vec F S1x512 .f32)
    = shapeCast S1x512 (m ((c : Thread nD τ).loc main_arg28) : Vec F S512 .f32) shapeCasts_S512_S1x512 := by
  show StableHlo.after hostOps6 (W12 m ρ c) (Proc.devRef .tc main_v27) = _
  after_results
  rw [← W12_arg m ρ c main_arg28 (by decide)]; rfl

theorem var_in6 (c : Dev nD) : (V13 m ρ c main_v28 : Vec F S1x512 .f32)
    = shapeCast S1x512 (m ((c : Thread nD τ).loc main_arg29) : Vec F S512 .f32) shapeCasts_S512_S1x512 := by
  show StableHlo.after hostOps6 (W12 m ρ c) (Proc.devRef .tc main_v28) = _
  after_results
  rw [← W12_arg m ρ c main_arg29 (by decide)]; rfl

abbrev host7_W : List (Ref sig .tc) := [main_v30, main_v31, main_v32]
theorem host7_sub : ∀ r ∈ host7_W, r ∈ allW := by decide
theorem host7_writes : (hostOps7 : List (HloOp τ sig (Elt F))).Forall fun op => op.writes ⊆ (host7_W.map (Proc.devRef (τ := τ) .tc)).toFinset := by
  simp only [List.Forall]; exact ⟨by rhost_writes_one, by rhost_writes_one, by rhost_writes_one⟩

theorem W15_of (c : Dev nD) (r : Ref sig .tc) (h : r ∉ host7_W) :
    W15 m ρ c (Proc.devRef .tc r) = W14 m ρ c (Proc.devRef .tc r) :=
  StableHlo.after_of_writes_sub hostOps7 _ host7_writes h

theorem W16_of (c : Dev nD) (b : Ref sig .tc) (hb : b ≠ main_v33) :
    W16 m ρ c (Proc.devRef .tc b) = W15 m ρ c (Proc.devRef .tc b) := by
  by_cases h : ∀ w, Pipeline.arrRef spec7 w ≠ b
  · exact W16_of_ne m ρ c b h
  · obtain ⟨w, rfl⟩ := not_forall_not.mp h
    exact (W16_arr m ρ c w).trans (((dat7 (V15 m ρ) c).arrAt_in w
      ((by decide : ∀ w, Pipeline.arrRef spec7 w ≠ main_v33 → (cfg7.win w).isOut = false) w hb) _).trans (A_eq7 (V15 m ρ) c w))

theorem W15_arg (c : Dev nD) (b : Ref sig .tc) (hb : b ∉ allW) : W15 m ρ c (Proc.devRef .tc b) = m ((c : Thread nD τ).loc b) :=
  (W15_of m ρ c b fun h => hb (host7_sub _ h)).trans (W14_arg m ρ c b hb)

theorem W16_arg (c : Dev nD) (b : Ref sig .tc) (hb : b ∉ allW) : W16 m ρ c (Proc.devRef .tc b) = m ((c : Thread nD τ).loc b) :=
  (W16_of m ρ c b fun e => hb (by subst e; decide)).trans (W15_arg m ρ c b hb)

theorem x_in7 (c : Dev nD) : V15 m ρ c main_v29 = (dat6 (V13 m ρ) c).arrAt 5 cfg6.N :=
  (W15_of m ρ c main_v29 (by decide)).trans (W14_arr m ρ c 5)

theorem w_in7 (c : Dev nD) : V15 m ρ c main_arg30 = m ((c : Thread nD τ).loc main_arg30) := W15_arg m ρ c main_arg30 (by decide)

theorem b_in7 (c : Dev nD) : (V15 m ρ c main_v30 : Vec F S1x512 .f32)
    = shapeCast S1x512 (m ((c : Thread nD τ).loc main_arg31) : Vec F S512 .f32) shapeCasts_S512_S1x512 := by
  show StableHlo.after hostOps7 (W14 m ρ c) (Proc.devRef .tc main_v30) = _
  after_results
  rw [← W14_arg m ρ c main_arg31 (by decide)]; rfl

theorem mean_in7 (c : Dev nD) : (V15 m ρ c main_v31 : Vec F S1x512 .f32)
    = shapeCast S1x512 (m ((c : Thread nD τ).loc main_arg32) : Vec F S512 .f32) shapeCasts_S512_S1x512 := by
  show StableHlo.after hostOps7 (W14 m ρ c) (Proc.devRef .tc main_v31) = _
  after_results
  rw [← W14_arg m ρ c main_arg32 (by decide)]; rfl

theorem var_in7 (c : Dev nD) : (V15 m ρ c main_v32 : Vec F S1x512 .f32)
    = shapeCast S1x512 (m ((c : Thread nD τ).loc main_arg33) : Vec F S512 .f32) shapeCasts_S512_S1x512 := by
  show StableHlo.after hostOps7 (W14 m ρ c) (Proc.devRef .tc main_v32) = _
  after_results
  rw [← W14_arg m ρ c main_arg33 (by decide)]; rfl

abbrev host8_W : List (Ref sig .tc) := [main_v34, main_v35, main_v36]
theorem host8_sub : ∀ r ∈ host8_W, r ∈ allW := by decide
theorem host8_writes : (hostOps8 : List (HloOp τ sig (Elt F))).Forall fun op => op.writes ⊆ (host8_W.map (Proc.devRef (τ := τ) .tc)).toFinset := by
  simp only [List.Forall]; exact ⟨by rhost_writes_one, by rhost_writes_one, by rhost_writes_one⟩

theorem W17_of (c : Dev nD) (r : Ref sig .tc) (h : r ∉ host8_W) :
    W17 m ρ c (Proc.devRef .tc r) = W16 m ρ c (Proc.devRef .tc r) :=
  StableHlo.after_of_writes_sub hostOps8 _ host8_writes h

theorem W18_of (c : Dev nD) (b : Ref sig .tc) (hb : b ≠ main_v37) :
    W18 m ρ c (Proc.devRef .tc b) = W17 m ρ c (Proc.devRef .tc b) := by
  by_cases h : ∀ w, Pipeline.arrRef spec8 w ≠ b
  · exact W18_of_ne m ρ c b h
  · obtain ⟨w, rfl⟩ := not_forall_not.mp h
    exact (W18_arr m ρ c w).trans (((dat8 (V17 m ρ) c).arrAt_in w
      ((by decide : ∀ w, Pipeline.arrRef spec8 w ≠ main_v37 → (cfg8.win w).isOut = false) w hb) _).trans (A_eq8 (V17 m ρ) c w))

theorem W17_arg (c : Dev nD) (b : Ref sig .tc) (hb : b ∉ allW) : W17 m ρ c (Proc.devRef .tc b) = m ((c : Thread nD τ).loc b) :=
  (W17_of m ρ c b fun h => hb (host8_sub _ h)).trans (W16_arg m ρ c b hb)

theorem W18_arg (c : Dev nD) (b : Ref sig .tc) (hb : b ∉ allW) : W18 m ρ c (Proc.devRef .tc b) = m ((c : Thread nD τ).loc b) :=
  (W18_of m ρ c b fun e => hb (by subst e; decide)).trans (W17_arg m ρ c b hb)

theorem x_in8 (c : Dev nD) : V17 m ρ c main_v33 = (dat7 (V15 m ρ) c).arrAt 5 cfg7.N :=
  (W17_of m ρ c main_v33 (by decide)).trans (W16_arr m ρ c 5)

theorem w_in8 (c : Dev nD) : V17 m ρ c main_arg34 = m ((c : Thread nD τ).loc main_arg34) := W17_arg m ρ c main_arg34 (by decide)

theorem b_in8 (c : Dev nD) : (V17 m ρ c main_v34 : Vec F S1x512 .f32)
    = shapeCast S1x512 (m ((c : Thread nD τ).loc main_arg35) : Vec F S512 .f32) shapeCasts_S512_S1x512 := by
  show StableHlo.after hostOps8 (W16 m ρ c) (Proc.devRef .tc main_v34) = _
  after_results
  rw [← W16_arg m ρ c main_arg35 (by decide)]; rfl

theorem mean_in8 (c : Dev nD) : (V17 m ρ c main_v35 : Vec F S1x512 .f32)
    = shapeCast S1x512 (m ((c : Thread nD τ).loc main_arg36) : Vec F S512 .f32) shapeCasts_S512_S1x512 := by
  show StableHlo.after hostOps8 (W16 m ρ c) (Proc.devRef .tc main_v35) = _
  after_results
  rw [← W16_arg m ρ c main_arg36 (by decide)]; rfl

theorem var_in8 (c : Dev nD) : (V17 m ρ c main_v36 : Vec F S1x512 .f32)
    = shapeCast S1x512 (m ((c : Thread nD τ).loc main_arg37) : Vec F S512 .f32) shapeCasts_S512_S1x512 := by
  show StableHlo.after hostOps8 (W16 m ρ c) (Proc.devRef .tc main_v36) = _
  after_results
  rw [← W16_arg m ρ c main_arg37 (by decide)]; rfl

abbrev host9_W : List (Ref sig .tc) := [main_v38, main_v39, main_v40]
theorem host9_sub : ∀ r ∈ host9_W, r ∈ allW := by decide
theorem host9_writes : (hostOps9 : List (HloOp τ sig (Elt F))).Forall fun op => op.writes ⊆ (host9_W.map (Proc.devRef (τ := τ) .tc)).toFinset := by
  simp only [List.Forall]; exact ⟨by rhost_writes_one, by rhost_writes_one, by rhost_writes_one⟩

theorem W19_of (c : Dev nD) (r : Ref sig .tc) (h : r ∉ host9_W) :
    W19 m ρ c (Proc.devRef .tc r) = W18 m ρ c (Proc.devRef .tc r) :=
  StableHlo.after_of_writes_sub hostOps9 _ host9_writes h

theorem W20_of (c : Dev nD) (b : Ref sig .tc) (hb : b ≠ main_v41) :
    W20 m ρ c (Proc.devRef .tc b) = W19 m ρ c (Proc.devRef .tc b) := by
  by_cases h : ∀ w, Pipeline.arrRef spec9 w ≠ b
  · exact W20_of_ne m ρ c b h
  · obtain ⟨w, rfl⟩ := not_forall_not.mp h
    exact (W20_arr m ρ c w).trans (((dat9 (V19 m ρ) c).arrAt_in w
      ((by decide : ∀ w, Pipeline.arrRef spec9 w ≠ main_v41 → (cfg9.win w).isOut = false) w hb) _).trans (A_eq9 (V19 m ρ) c w))

theorem W19_arg (c : Dev nD) (b : Ref sig .tc) (hb : b ∉ allW) : W19 m ρ c (Proc.devRef .tc b) = m ((c : Thread nD τ).loc b) :=
  (W19_of m ρ c b fun h => hb (host9_sub _ h)).trans (W18_arg m ρ c b hb)

theorem W20_arg (c : Dev nD) (b : Ref sig .tc) (hb : b ∉ allW) : W20 m ρ c (Proc.devRef .tc b) = m ((c : Thread nD τ).loc b) :=
  (W20_of m ρ c b fun e => hb (by subst e; decide)).trans (W19_arg m ρ c b hb)

theorem x_in9 (c : Dev nD) : V19 m ρ c main_v37 = (dat8 (V17 m ρ) c).arrAt 5 cfg8.N :=
  (W19_of m ρ c main_v37 (by decide)).trans (W18_arr m ρ c 5)

theorem w_in9 (c : Dev nD) : V19 m ρ c main_arg38 = m ((c : Thread nD τ).loc main_arg38) := W19_arg m ρ c main_arg38 (by decide)

theorem b_in9 (c : Dev nD) : (V19 m ρ c main_v38 : Vec F S1x1500 .f32)
    = shapeCast S1x1500 (m ((c : Thread nD τ).loc main_arg39) : Vec F S1500 .f32) shapeCasts_S1500_S1x1500 := by
  show StableHlo.after hostOps9 (W18 m ρ c) (Proc.devRef .tc main_v38) = _
  after_results
  rw [← W18_arg m ρ c main_arg39 (by decide)]; rfl

theorem mean_in9 (c : Dev nD) : (V19 m ρ c main_v39 : Vec F S1x1500 .f32)
    = shapeCast S1x1500 (m ((c : Thread nD τ).loc main_arg40) : Vec F S1500 .f32) shapeCasts_S1500_S1x1500 := by
  show StableHlo.after hostOps9 (W18 m ρ c) (Proc.devRef .tc main_v39) = _
  after_results
  rw [← W18_arg m ρ c main_arg40 (by decide)]; rfl

theorem var_in9 (c : Dev nD) : (V19 m ρ c main_v40 : Vec F S1x1500 .f32)
    = shapeCast S1x1500 (m ((c : Thread nD τ).loc main_arg41) : Vec F S1500 .f32) shapeCasts_S1500_S1x1500 := by
  show StableHlo.after hostOps9 (W18 m ρ c) (Proc.devRef .tc main_v40) = _
  after_results
  rw [← W18_arg m ρ c main_arg41 (by decide)]; rfl

end Cert.ReferenceIdeal.Host

end
-- ==== Proof.R.Host.lean ====
import proofs.«169142_g2000501041679005_pallasbulk_208_6_alg».proof.Proof.R.HostMid

set_option maxRecDepth 16384

noncomputable section

namespace Cert.ReferenceIdeal.Host

open Idealize.ShloMosaic Idealize.ShloMosaic.TcCoe Idealize.ShloMosaic.Tactic
open Idealize.SL Idealize.SL.Sem
open Idealize.ShloMosaic.ValueIdx
open Cert.ReferenceIdeal.Gen

variable {F : FTy → Type} [FloatOps F]
variable (m : (ℓ : Loc nD τ sig) → Buf (Elt F) ℓ) (ρ : Dev nD → PrngReg)

abbrev host10_W : List (Ref sig .tc) := [main_v42, main_v43, main_v44, main_v45, main_v46, main_v47, main_v48]
theorem host10_sub : ∀ r ∈ host10_W, r ∈ allW := by decide
theorem host10_writes : (hostOps10 : List (HloOp τ sig (Elt F))).Forall fun op => op.writes ⊆ (host10_W.map (Proc.devRef (τ := τ) .tc)).toFinset := by
  simp only [List.Forall]; exact ⟨by rhost_writes_one, by rhost_writes_one, by rhost_writes_one, by rhost_writes_one, by rhost_writes_one, by rhost_writes_one, by rhost_writes_one⟩

theorem W21_of (c : Dev nD) (r : Ref sig .tc) (h : r ∉ host10_W) :
    W21 m ρ c (Proc.devRef .tc r) = W20 m ρ c (Proc.devRef .tc r) :=
  StableHlo.after_of_writes_sub hostOps10 _ host10_writes h
theorem W22_of (c : Dev nD) (b : Ref sig .tc) (hb : b ≠ main_v49) :
    W22 m ρ c (Proc.devRef .tc b) = W21 m ρ c (Proc.devRef .tc b) := by
  by_cases h : ∀ w, Pipeline.arrRef spec10 w ≠ b
  · exact W22_of_ne m ρ c b h
  · obtain ⟨w, rfl⟩ := not_forall_not.mp h
    exact (W22_arr m ρ c w).trans (((dat10 (V21 m ρ) c).arrAt_in w
      ((by decide : ∀ w, Pipeline.arrRef spec10 w ≠ main_v49 → (cfg10.win w).isOut = false) w hb) _).trans (A_eq10 (V21 m ρ) c w))

theorem W21_arg (c : Dev nD) (b : Ref sig .tc) (hb : b ∉ allW) : W21 m ρ c (Proc.devRef .tc b) = m ((c : Thread nD τ).loc b) :=
  (W21_of m ρ c b fun h => hb (host10_sub _ h)).trans (W20_arg m ρ c b hb)

theorem W22_arg (c : Dev nD) (b : Ref sig .tc) (hb : b ∉ allW) : W22 m ρ c (Proc.devRef .tc b) = m ((c : Thread nD τ).loc b) :=
  (W22_of m ρ c b fun e => hb (by subst e; decide)).trans (W21_arg m ρ c b hb)

abbrev host11_W : List (Ref sig .tc) := [main_v50]
theorem host11_sub : ∀ r ∈ host11_W, r ∈ allW := by decide
theorem host11_writes : (hostOps11 : List (HloOp τ sig (Elt F))).Forall fun op => op.writes ⊆ (host11_W.map (Proc.devRef (τ := τ) .tc)).toFinset := by
  simp only [List.Forall]; exact (by rhost_writes_one)
theorem W23_of (c : Dev nD) (r : Ref sig .tc) (h : r ∉ host11_W) :
    W23 m ρ c (Proc.devRef .tc r) = W22 m ρ c (Proc.devRef .tc r) :=
  StableHlo.after_of_writes_sub hostOps11 _ host11_writes h

theorem W23_arg (c : Dev nD) (b : Ref sig .tc) (hb : b ∉ allW) : W23 m ρ c (Proc.devRef .tc b) = m ((c : Thread nD τ).loc b) :=
  (W23_of m ρ c b fun h => hb (host11_sub _ h)).trans (W22_arg m ρ c b hb)

theorem x_in10 (c : Dev nD) : V21 m ρ c main_v41 = (dat9 (V19 m ρ) c).arrAt 5 cfg9.N :=
  (W21_of m ρ c main_v41 (by decide)).trans (W20_arr m ρ c 5)

theorem w11a_in (c : Dev nD) : (V21 m ρ c main_v42 : Vec F S1500x512 .f32)
    = extractStridedSlice S1500x512 ![0, 0] (m ((c : Thread nD τ).loc main_arg42) : Vec F S3000x512 .f32) slices_S3000x512_S1500x512_0_0 :=
  (show StableHlo.after hostOps10 (W20 m ρ c) (Proc.devRef .tc main_v42)
      = extractStridedSlice S1500x512 ![0, 0] (W20 m ρ c (Proc.devRef .tc main_arg42) : Vec F S3000x512 .f32) slices_S3000x512_S1500x512_0_0 from by after_results).trans
    (congrArg (fun x : Vec F S3000x512 .f32 => extractStridedSlice S1500x512 ![0, 0] x slices_S3000x512_S1500x512_0_0) (W20_arg m ρ c main_arg42 (by decide)))

theorem w11b_in (c : Dev nD) : (V21 m ρ c main_v43 : Vec F S1500x512 .f32)
    = extractStridedSlice S1500x512 ![1500, 0] (m ((c : Thread nD τ).loc main_arg42) : Vec F S3000x512 .f32) slices_S3000x512_S1500x512_1500_0 :=
  (show StableHlo.after hostOps10 (W20 m ρ c) (Proc.devRef .tc main_v43)
      = extractStridedSlice S1500x512 ![1500, 0] (W20 m ρ c (Proc.devRef .tc main_arg42) : Vec F S3000x512 .f32) slices_S3000x512_S1500x512_1500_0 from by after_results).trans
    (congrArg (fun x : Vec F S3000x512 .f32 => extractStridedSlice S1500x512 ![1500, 0] x slices_S3000x512_S1500x512_1500_0) (W20_arg m ρ c main_arg42 (by decide)))

theorem b11_in (c : Dev nD) : (V21 m ρ c main_v44 : Vec F S1x512 .f32)
    = shapeCast S1x512 (m ((c : Thread nD τ).loc main_arg43) : Vec F S512 .f32) shapeCasts_S512_S1x512 := by
  show StableHlo.after hostOps10 (W20 m ρ c) (Proc.devRef .tc main_v44) = _
  after_results
  rw [← W20_arg m ρ c main_arg43 (by decide)]; rfl

theorem wlda_in (c : Dev nD) : V21 m ρ c main_arg44 = m ((c : Thread nD τ).loc main_arg44) := W21_arg m ρ c main_arg44 (by decide)

theorem blda_in (c : Dev nD) : (V21 m ρ c main_v45 : Vec F S1x128 .f32)
    = shapeCast S1x128 (m ((c : Thread nD τ).loc main_arg45) : Vec F S128 .f32) shapeCasts_S128_S1x128 := by
  show StableHlo.after hostOps10 (W20 m ρ c) (Proc.devRef .tc main_v45) = _
  after_results
  rw [← W20_arg m ρ c main_arg45 (by decide)]; rfl

theorem wplda_in (c : Dev nD) : V21 m ρ c main_arg46 = m ((c : Thread nD τ).loc main_arg46) := W21_arg m ρ c main_arg46 (by decide)

theorem bplda_in (c : Dev nD) : (V21 m ρ c main_v46 : Vec F S1x128 .f32)
    = shapeCast S1x128 (m ((c : Thread nD τ).loc main_arg47) : Vec F S128 .f32) shapeCasts_S128_S1x128 := by
  show StableHlo.after hostOps10 (W20 m ρ c) (Proc.devRef .tc main_v46) = _
  after_results
  rw [← W20_arg m ρ c main_arg47 (by decide)]; rfl

theorem psqrt_in (c : Dev nD) : (V21 m ρ c main_v47 : Vec F S128x1 .f32)
    = shapeCast S128x1 (m ((c : Thread nD τ).loc main_arg48) : Vec F S128 .f32) shapeCasts_S128_S128x1 := by
  show StableHlo.after hostOps10 (W20 m ρ c) (Proc.devRef .tc main_v47) = _
  after_results
  rw [← W20_arg m ρ c main_arg48 (by decide)]; rfl
theorem q_in (c : Dev nD) : (V21 m ρ c main_v48 : Vec F S128x1 .f32)
    = shapeCast S128x1 (m ((c : Thread nD τ).loc main_arg49) : Vec F S128 .f32) shapeCasts_S128_S128x1 := by
  show StableHlo.after hostOps10 (W20 m ρ c) (Proc.devRef .tc main_v48) = _
  after_results
  rw [← W20_arg m ρ c main_arg49 (by decide)]; rfl

theorem result_eq (c : Dev nD) : (W23 m ρ c (Proc.devRef .tc main_v50) : Vec F S8 .f32)
    = shapeCast S8 ((dat10 (V21 m ρ) c).arrAt 10 cfg10.N : Vec F S1x8 .f32) shapeCasts_S1x8_S8 :=
  (show StableHlo.after hostOps11 (W22 m ρ c) (Proc.devRef .tc main_v50)
      = shapeCast S8 (W22 m ρ c (Proc.devRef .tc main_v49) : Vec F S1x8 .f32) shapeCasts_S1x8_S8 from by after_results; rfl).trans
    (congrArg (fun x : Vec F S1x8 .f32 => shapeCast S8 x shapeCasts_S1x8_S8) (W22_arr m ρ c 10))

theorem result_apply (c : Dev nD) (n : Fin 8) : (W23 m ρ c (Proc.devRef .tc main_v50) : Vec F S8 .f32) (ix1 n)
    = ((dat10 (V21 m ρ) c).arrAt 10 cfg10.N : Vec F S1x8 .f32) (ix2 0 n) := by
  rw [result_eq]; exact shapeCast_1a_a_apply _ _ n

end Cert.ReferenceIdeal.Host

end
-- ==== Proof.R.Frame.lean ====
import proofs.«169142_g2000501041679005_pallasbulk_208_6_alg».proof.Proof.R.Run
import proofs.«169142_g2000501041679005_pallasbulk_208_6_alg».proof.Proof.R.Host

set_option maxRecDepth 16384

noncomputable section

namespace Cert.ReferenceIdeal.Host

open Idealize.ShloMosaic Idealize.ShloMosaic.TcCoe
open Idealize.SL Idealize.SL.Sem
open Cert.ReferenceIdeal.Gen

variable {F : FTy → Type} [FloatOps F]
variable (m : (ℓ : Loc nD τ sig) → Buf (Elt F) ℓ) (ρ : Dev nD → PrngReg)

/-- Every buffer the program writes is numbered 50 or more. -/
theorem not_mem_allW (b : Ref sig .tc) (hb : b.idx.val < 50) : b ∉ allW := fun h => by
  have := (by decide : ∀ y ∈ allW, 50 ≤ y.idx.val) b h
  omega

/-- The run, read at the result buffer and at the buffers nothing writes. -/
theorem run_kept : θ_run defs (onTc (τ := τ) (main (F := F))) ⟨m, fun _ => 0, ρ⟩ (fun r => ∀ c : Dev nD,
      r.2.mem ((c.tc : Thread nD τ).loc main_v50) = W23 m ρ c (Proc.devRef .tc main_v50)
      ∧ ∀ b : Ref sig .tc, ¬ (Proc.devRef .tc b : DevRef τ sig).isScoped → b.idx.val < 50 →
          r.2.mem ((c.tc : Thread nD τ).loc b) = m ((c.tc : Thread nD τ).loc b)) :=
  (θ_run defs _ _).mono (fun r h c =>
    ⟨h c _ (mem_uc main_v50 (by decide)),
     fun b hu hb => (h c _ (mem_uc b hu)).trans (W23_arg m ρ c b (not_mem_allW b hb))⟩) (GenP.run_all m ρ)

end Cert.ReferenceIdeal.Host

end
-- ==== Proof.KI.HostDefs.lean ====
import proofs.«169142_g2000501041679005_pallasbulk_208_6_alg».proof.Proof.Gen.KernelIdeal
import Idealize.ShloMosaic.Lib.ValueIdx
import Idealize.ShloMosaic.Lib.ValueLayout

set_option maxRecDepth 16384

noncomputable section

namespace Cert.KernelIdeal.Hand

open Idealize.ShloMosaic Idealize.ShloMosaic.ValueIdx
open Cert.KernelIdeal Cert.KernelIdeal.Gen

variable {F : FTy → Type} [FloatOps F]

macro "stack_side" : tactic =>
  `(tactic| first
    | rfl
    | (simp only [List.length_cons, List.length_nil]; omega)
    | (intro a ha
       match a, ha with
       | ⟨0, _⟩, ha => exact absurd (Fin.ext rfl) ha
       | ⟨1, _⟩, _ => rfl
       | ⟨2, _⟩, _ => rfl)
    | (intro a ha
       match a, ha with
       | ⟨0, _⟩, ha => exact absurd (Fin.ext rfl) ha
       | ⟨1, _⟩, _ => rfl)
    | (intro a
       match a with
       | ⟨0, _⟩ => rfl
       | ⟨1, _⟩ => rfl))

def xStack (x1 x2 : FVec F S8x30x200 .f32) : FVec F S16x200x30 .f32 :=
  transpose S16x200x30 [0, 2, 1]
    (concatenate S16x30x200 0 [⟨S8x30x200, x1⟩, ⟨S8x30x200, x2⟩] concatenates_S8x30x200_S8x30x200_S16x30x200_d0)
    transposes_S16x30x200_S16x200x30_0_2_1

def bnScale512 (var : FVec F S512 .f32) : FVec F S512 .f32 :=
  Host.rsqrt (addf var (broadcastInDim S512 ![] bcast_S_S512 (constant S_ .f32 0x3727C5AC#32)))

def bnScale1500 (var : FVec F S1500 .f32) : FVec F S1500 .f32 :=
  Host.rsqrt (addf var (broadcastInDim S1500 ![] bcast_S_S1500 (constant S_ .f32 0x3727C5AC#32)))

def rows512 (b mean var : FVec F S512 .f32) : FVec F S3x512 .f32 :=
  concatenate S3x512 0
    [⟨S1x512, broadcastInDim S1x512 ![1] bcast_S512_S1x512_1 b⟩,
     ⟨S1x512, broadcastInDim S1x512 ![1] bcast_S512_S1x512_1 (bnScale512 var)⟩,
     ⟨S1x512, broadcastInDim S1x512 ![1] bcast_S512_S1x512_1 (mulf mean (bnScale512 var))⟩]
    concatenates_S1x512_S1x512_S1x512_S3x512_d0

def rows1500 (b mean var : FVec F S1500 .f32) : FVec F S3x1500 .f32 :=
  concatenate S3x1500 0
    [⟨S1x1500, broadcastInDim S1x1500 ![1] bcast_S1500_S1x1500_1 b⟩,
     ⟨S1x1500, broadcastInDim S1x1500 ![1] bcast_S1500_S1x1500_1 (bnScale1500 var)⟩,
     ⟨S1x1500, broadcastInDim S1x1500 ![1] bcast_S1500_S1x1500_1 (mulf mean (bnScale1500 var))⟩]
    concatenates_S1x1500_S1x1500_S1x1500_S3x1500_d0

def pqRows (psqrt q : FVec F S128 .f32) : FVec F S2x128 .f32 :=
  concatenate S2x128 0
    [⟨S1x128, broadcastInDim S1x128 ![1] bcast_S128_S1x128_1 (mulf psqrt psqrt)⟩,
     ⟨S1x128, broadcastInDim S1x128 ![1] bcast_S128_S1x128_1 q⟩]
    concatenates_S1x128_S1x128_S2x128_d0

theorem row512_apply (v : FVec F S512 .f32) (j : Fin 512) :
    broadcastInDim S1x512 ![1] bcast_S512_S1x512_1 v (ix2 (0 : Fin 1) j) = v (ix1 j) :=
  broadcastInDim_apply _ _ _ _ (ix1 j) (fun a => match a with | ⟨0, _⟩ => rfl)

theorem row1500_apply (v : FVec F S1500 .f32) (j : Fin 1500) :
    broadcastInDim S1x1500 ![1] bcast_S1500_S1x1500_1 v (ix2 (0 : Fin 1) j) = v (ix1 j) :=
  broadcastInDim_apply _ _ _ _ (ix1 j) (fun a => match a with | ⟨0, _⟩ => rfl)

theorem rows512_bias (b mean var : FVec F S512 .f32) (j : Fin 512) :
    rows512 b mean var (ix2 (0 : Fin 3) j) = b (ix1 j) := by
  unfold rows512
  refine (concatenate_apply_piece (t := S3x512) (0 : Fin 2) _ _
    (ix2 (0 : Fin 3) j) 0 ?_ S1x512 _ ?_ rfl 0 ?_ (ix2 (0 : Fin 1) j) ?_ ?_).trans (row512_apply b j) <;> stack_side

theorem rows512_scale (b mean var : FVec F S512 .f32) (j : Fin 512) :
    rows512 b mean var (ix2 (1 : Fin 3) j) = bnScale512 var (ix1 j) := by
  unfold rows512
  refine (concatenate_apply_piece (t := S3x512) (0 : Fin 2) _ _
    (ix2 (1 : Fin 3) j) 1 ?_ S1x512 _ ?_ rfl 1 ?_ (ix2 (0 : Fin 1) j) ?_ ?_).trans (row512_apply _ j) <;> stack_side

theorem rows512_shift (b mean var : FVec F S512 .f32) (j : Fin 512) :
    rows512 b mean var (ix2 (2 : Fin 3) j) = mulf mean (bnScale512 var) (ix1 j) := by
  unfold rows512
  refine (concatenate_apply_piece (t := S3x512) (0 : Fin 2) _ _
    (ix2 (2 : Fin 3) j) 2 ?_ S1x512 _ ?_ rfl 2 ?_ (ix2 (0 : Fin 1) j) ?_ ?_).trans (row512_apply _ j) <;> stack_side

theorem rows1500_bias (b mean var : FVec F S1500 .f32) (j : Fin 1500) :
    rows1500 b mean var (ix2 (0 : Fin 3) j) = b (ix1 j) := by
  unfold rows1500
  refine (concatenate_apply_piece (t := S3x1500) (0 : Fin 2) _ _
    (ix2 (0 : Fin 3) j) 0 ?_ S1x1500 _ ?_ rfl 0 ?_ (ix2 (0 : Fin 1) j) ?_ ?_).trans (row1500_apply b j) <;> stack_side

theorem rows1500_scale (b mean var : FVec F S1500 .f32) (j : Fin 1500) :
    rows1500 b mean var (ix2 (1 : Fin 3) j) = bnScale1500 var (ix1 j) := by
  unfold rows1500
  refine (concatenate_apply_piece (t := S3x1500) (0 : Fin 2) _ _
    (ix2 (1 : Fin 3) j) 1 ?_ S1x1500 _ ?_ rfl 1 ?_ (ix2 (0 : Fin 1) j) ?_ ?_).trans (row1500_apply _ j) <;> stack_side

theorem rows1500_shift (b mean var : FVec F S1500 .f32) (j : Fin 1500) :
    rows1500 b mean var (ix2 (2 : Fin 3) j) = mulf mean (bnScale1500 var) (ix1 j) := by
  unfold rows1500
  refine (concatenate_apply_piece (t := S3x1500) (0 : Fin 2) _ _
    (ix2 (2 : Fin 3) j) 2 ?_ S1x1500 _ ?_ rfl 2 ?_ (ix2 (0 : Fin 1) j) ?_ ?_).trans (row1500_apply _ j) <;> stack_side

theorem bnScale512_apply (var : FVec Ideal S512 .f32) (j : Fin 512) :
    bnScale512 var (ix1 j) = Ideal.rsqrt (var (ix1 j) + Ideal.ofBits .f32 0x3727C5AC#32) := rfl

theorem bnScale1500_apply (var : FVec Ideal S1500 .f32) (j : Fin 1500) :
    bnScale1500 var (ix1 j) = Ideal.rsqrt (var (ix1 j) + Ideal.ofBits .f32 0x3727C5AC#32) := rfl

theorem rows512_scale_real (b mean var : FVec Ideal S512 .f32) (j : Fin 512) :
    rows512 b mean var (ix2 (1 : Fin 3) j) = Ideal.rsqrt (var (ix1 j) + Ideal.ofBits .f32 0x3727C5AC#32) :=
  (rows512_scale b mean var j).trans (bnScale512_apply var j)

theorem rows512_shift_real (b mean var : FVec Ideal S512 .f32) (j : Fin 512) :
    rows512 b mean var (ix2 (2 : Fin 3) j)
      = mean (ix1 j) * Ideal.rsqrt (var (ix1 j) + Ideal.ofBits .f32 0x3727C5AC#32) :=
  (rows512_shift b mean var j).trans (congrArg (mean (ix1 j) * ·) (bnScale512_apply var j))

theorem rows1500_scale_real (b mean var : FVec Ideal S1500 .f32) (j : Fin 1500) :
    rows1500 b mean var (ix2 (1 : Fin 3) j) = Ideal.rsqrt (var (ix1 j) + Ideal.ofBits .f32 0x3727C5AC#32) :=
  (rows1500_scale b mean var j).trans (bnScale1500_apply var j)

theorem rows1500_shift_real (b mean var : FVec Ideal S1500 .f32) (j : Fin 1500) :
    rows1500 b mean var (ix2 (2 : Fin 3) j)
      = mean (ix1 j) * Ideal.rsqrt (var (ix1 j) + Ideal.ofBits .f32 0x3727C5AC#32) :=
  (rows1500_shift b mean var j).trans (congrArg (mean (ix1 j) * ·) (bnScale1500_apply var j))

theorem row128_apply (v : FVec F S128 .f32) (j : Fin 128) :
    broadcastInDim S1x128 ![1] bcast_S128_S1x128_1 v (ix2 (0 : Fin 1) j) = v (ix1 j) :=
  broadcastInDim_apply _ _ _ _ (ix1 j) (fun a => match a with | ⟨0, _⟩ => rfl)

theorem pqRows_p (psqrt q : FVec F S128 .f32) (j : Fin 128) :
    pqRows psqrt q (ix2 (0 : Fin 2) j) = mulf psqrt psqrt (ix1 j) := by
  unfold pqRows
  refine (concatenate_pair_apply_left (t := S2x128) (0 : Fin 2) _ _ concatenates_S1x128_S1x128_S2x128_d0
    (ix2 (0 : Fin 2) j) rfl (ix2 (0 : Fin 1) j) ?_).trans (row128_apply _ j) <;> stack_side

theorem pqRows_q (psqrt q : FVec F S128 .f32) (j : Fin 128) :
    pqRows psqrt q (ix2 (1 : Fin 2) j) = q (ix1 j) := by
  unfold pqRows
  refine (concatenate_pair_apply_right (t := S2x128) (0 : Fin 2) _ _ concatenates_S1x128_S1x128_S2x128_d0
    (ix2 (1 : Fin 2) j) rfl rfl (ix2 (0 : Fin 1) j) ?_ ?_).trans (row128_apply _ j) <;> stack_side

theorem pqRows_p_real (psqrt q : FVec Ideal S128 .f32) (j : Fin 128) :
    pqRows psqrt q (ix2 (0 : Fin 2) j) = psqrt (ix1 j) * psqrt (ix1 j) := pqRows_p psqrt q j

variable {α : Type}

theorem drop_unit_16x1500 (x : S16x1x1500.Idx → α) (u : Fin 16) (j : Fin 1500) :
    shapeCast S16x1500 x shapeCasts_S16x1x1500_S16x1500 (ix2 u j) = x (ix3 u (0 : Fin 1) j) :=
  shapeCast_apply x _ _ _ (by
    rw [Shape.rowMajor_val_three, Shape.rowMajor_val_two]
    show (u.val * 1 + 0) * 1500 + j.val = u.val * 1500 + j.val
    omega)

theorem drop_unit_8 (x : S8x1.Idx → α) (n : Fin 8) :
    shapeCast S8 x shapeCasts_S8x1_S8 (ix1 n) = x (ix2 n (0 : Fin 1)) :=
  shapeCast_apply x _ _ _ (by
    rw [Shape.rowMajor_val_two, Shape.rowMajor_val_one]
    show n.val * 1 + 0 = n.val
    omega)

theorem add_unit_512 (x : S512.Idx → α) (j : Fin 512) :
    shapeCast S1x512 x shapeCasts_S512_S1x512 (ix2 (0 : Fin 1) j) = x (ix1 j) :=
  shapeCast_a_1a_apply x _ 0 j

theorem add_unit_128 (x : S128.Idx → α) (j : Fin 128) :
    shapeCast S1x128 x shapeCasts_S128_S1x128 (ix2 (0 : Fin 1) j) = x (ix1 j) :=
  shapeCast_a_1a_apply x _ 0 j

theorem half_upper (x : S3000x512.Idx → α) (a : Fin 1500) (j : Fin 512) :
    extractStridedSlice S1500x512 ![0, 0] x slices_S3000x512_S1500x512_0_0 (ix2 a j)
      = x (ix2 (⟨a.val, by have := a.isLt; omega⟩ : Fin 3000) j) :=
  slice2_axis0_apply 0 x _ a j _ (by show a.val = 0 + a.val; omega)

theorem half_lower (x : S3000x512.Idx → α) (a : Fin 1500) (j : Fin 512) :
    extractStridedSlice S1500x512 ![1500, 0] x slices_S3000x512_S1500x512_1500_0 (ix2 a j)
      = x (ix2 (⟨a.val + 1500, by have := a.isLt; omega⟩ : Fin 3000) j) :=
  slice2_axis0_apply 1500 x _ a j _ (by show a.val + 1500 = 1500 + a.val; omega)

end Cert.KernelIdeal.Hand

end
-- ==== Proof.Math.LayerDefsH.lean ====
import proofs.«169142_g2000501041679005_pallasbulk_208_6_alg».proof.KernelIdeal
import proofs.«169142_g2000501041679005_pallasbulk_208_6_alg».proof.Proof.Gen.KernelIdeal

noncomputable section

namespace Cert.Math

open Idealize.ShloMosaic
open Cert.KernelIdeal Cert.KernelIdeal.Gen

section Def
variable {F : FTy → Type} [FloatOps F]

def KL0 (x : FVec F S200x30 .bf16) (w : FVec F S150x512 .bf16) (p : FVec F S3x512 .f32) : FVec F S196x512 .f32 :=
  have v3 : FVec F S196x30 .bf16 := extractStridedSlice S196x30 ![0, 0] x slices_S200x30_o0_0_S196x30
  have v4 : FVec F S196x30 .bf16 := extractStridedSlice S196x30 ![1, 0] x slices_S200x30_o1_0_S196x30
  have v5 : FVec F S196x30 .bf16 := extractStridedSlice S196x30 ![2, 0] x slices_S200x30_o2_0_S196x30
  have v6 : FVec F S196x30 .bf16 := extractStridedSlice S196x30 ![3, 0] x slices_S200x30_o3_0_S196x30
  have v7 : FVec F S196x30 .bf16 := extractStridedSlice S196x30 ![4, 0] x slices_S200x30_o4_0_S196x30
  have v8 : FVec F S196x150 .bf16 := concatenate S196x150 1 [⟨S196x30, v3⟩, ⟨S196x30, v4⟩, ⟨S196x30, v5⟩, ⟨S196x30, v6⟩, ⟨S196x30, v7⟩] concatenates_S196x30_S196x30_S196x30_S196x30_S196x30_S196x150_d1
  have v10 : FVec F S150x512 .bf16 := shapeCast S150x512 w shapeCasts_S150x512_S150x512
  have cst : FVec F S196x512 .f32 := constant S196x512 .f32 0x00000000#32
  have v11 : FVec F S196x512 .f32 := matmul dot_S196x150_S150x512_S196x512_1_0_0_1_n_n none v8 v10 cst
  have v13 : FVec F S3x512 .f32 := shapeCast S3x512 p shapeCasts_S3x512_S3x512
  have v14 : FVec F S1x512 .f32 := extractStridedSlice S1x512 ![0, 0] v13 slices_S3x512_o0_0_S1x512
  have v15 : FVec F S196x512 .f32 := broadcastTo S196x512 v14 broadcasts_S1x512_S196x512
  have v16 : FVec F S196x512 .f32 := addf v11 v15
  have cst_6 : F .f32 := Scalar.ofBits .f32 0x00000000#32
  have v17 : FVec F S196x512 .f32 := broadcast S196x512 cst_6
  have v18 : FVec F S196x512 .f32 := maximumf v16 v17
  have v19 : FVec F S1x512 .f32 := extractStridedSlice S1x512 ![1, 0] v13 slices_S3x512_o1_0_S1x512
  have v20 : FVec F S196x512 .f32 := broadcastTo S196x512 v19 broadcasts_S1x512_S196x512
  have v21 : FVec F S196x512 .f32 := mulf v18 v20
  have v22 : FVec F S1x512 .f32 := extractStridedSlice S1x512 ![2, 0] v13 slices_S3x512_o2_0_S1x512
  have v23 : FVec F S196x512 .f32 := broadcastTo S196x512 v22 broadcasts_S1x512_S196x512
  have v24 : FVec F S196x512 .f32 := subf v21 v23
  v24

end Def

section Def
variable {F : FTy → Type} [FloatOps F]

def KL2 (x : FVec F S196x512 .bf16) (w : FVec F S1536x512 .bf16) (p : FVec F S3x512 .f32) : FVec F S192x512 .f32 :=
  have v43 : FVec F S192x512 .bf16 := extractStridedSlice S192x512 ![0, 0] x slices_S196x512_o0_0_S192x512
  have v44 : FVec F S192x512 .bf16 := extractStridedSlice S192x512 ![2, 0] x slices_S196x512_o2_0_S192x512
  have v45 : FVec F S192x512 .bf16 := extractStridedSlice S192x512 ![4, 0] x slices_S196x512_o4_0_S192x512
  have v46 : FVec F S192x1536 .bf16 := concatenate S192x1536 1 [⟨S192x512, v43⟩, ⟨S192x512, v44⟩, ⟨S192x512, v45⟩] concatenates_S192x512_S192x512_S192x512_S192x1536_d1
  have v48 : FVec F S1536x512 .bf16 := shapeCast S1536x512 w shapeCasts_S1536x512_S1536x512
  have cst_15 : FVec F S192x512 .f32 := constant S192x512 .f32 0x00000000#32
  have v49 : FVec F S192x512 .f32 := matmul dot_S192x1536_S1536x512_S192x512_1_0_0_1_n_n none v46 v48 cst_15
  have v51 : FVec F S3x512 .f32 := shapeCast S3x512 p shapeCasts_S3x512_S3x512
  have v52 : FVec F S1x512 .f32 := extractStridedSlice S1x512 ![0, 0] v51 slices_S3x512_o0_0_S1x512
  have v53 : FVec F S192x512 .f32 := broadcastTo S192x512 v52 broadcasts_S1x512_S192x512
  have v54 : FVec F S192x512 .f32 := addf v49 v53
  have cst_18 : F .f32 := Scalar.ofBits .f32 0x00000000#32
  have v55 : FVec F S192x512 .f32 := broadcast S192x512 cst_18
  have v56 : FVec F S192x512 .f32 := maximumf v54 v55
  have v57 : FVec F S1x512 .f32 := extractStridedSlice S1x512 ![1, 0] v51 slices_S3x512_o1_0_S1x512
  have v58 : FVec F S192x512 .f32 := broadcastTo S192x512 v57 broadcasts_S1x512_S192x512
  have v59 : FVec F S192x512 .f32 := mulf v56 v58
  have v60 : FVec F S1x512 .f32 := extractStridedSlice S1x512 ![2, 0] v51 slices_S3x512_o2_0_S1x512
  have v61 : FVec F S192x512 .f32 := broadcastTo S192x512 v60 broadcasts_S1x512_S192x512
  have v62 : FVec F S192x512 .f32 := subf v59 v61
  v62

end Def

section Def
variable {F : FTy → Type} [FloatOps F]

def KL4 (x : FVec F S192x512 .bf16) (w : FVec F S1536x512 .bf16) (p : FVec F S3x512 .f32) : FVec F S186x512 .f32 :=
  have v81 : FVec F S186x512 .bf16 := extractStridedSlice S186x512 ![0, 0] x slices_S192x512_o0_0_S186x512
  have v82 : FVec F S186x512 .bf16 := extractStridedSlice S186x512 ![3, 0] x slices_S192x512_o3_0_S186x512
  have v83 : FVec F S186x512 .bf16 := extractStridedSlice S186x512 ![6, 0] x slices_S192x512_o6_0_S186x512
  have v84 : FVec F S186x1536 .bf16 := concatenate S186x1536 1 [⟨S186x512, v81⟩, ⟨S186x512, v82⟩, ⟨S186x512, v83⟩] concatenates_S186x512_S186x512_S186x512_S186x1536_d1
  have v86 : FVec F S1536x512 .bf16 := shapeCast S1536x512 w shapeCasts_S1536x512_S1536x512
  have cst_27 : FVec F S186x512 .f32 := constant S186x512 .f32 0x00000000#32
  have v87 : FVec F S186x512 .f32 := matmul dot_S186x1536_S1536x512_S186x512_1_0_0_1_n_n none v84 v86 cst_27
  have v89 : FVec F S3x512 .f32 := shapeCast S3x512 p shapeCasts_S3x512_S3x512
  have v90 : FVec F S1x512 .f32 := extractStridedSlice S1x512 ![0, 0] v89 slices_S3x512_o0_0_S1x512
  have v91 : FVec F S186x512 .f32 := broadcastTo S186x512 v90 broadcasts_S1x512_S186x512
  have v92 : FVec F S186x512 .f32 := addf v87 v91
  have cst_30 : F .f32 := Scalar.ofBits .f32 0x00000000#32
  have v93 : FVec F S186x512 .f32 := broadcast S186x512 cst_30
  have v94 : FVec F S186x512 .f32 := maximumf v92 v93
  have v95 : FVec F S1x512 .f32 := extractStridedSlice S1x512 ![1, 0] v89 slices_S3x512_o1_0_S1x512
  have v96 : FVec F S186x512 .f32 := broadcastTo S186x512 v95 broadcasts_S1x512_S186x512
  have v97 : FVec F S186x512 .f32 := mulf v94 v96
  have v98 : FVec F S1x512 .f32 := extractStridedSlice S1x512 ![2, 0] v89 slices_S3x512_o2_0_S1x512
  have v99 : FVec F S186x512 .f32 := broadcastTo S186x512 v98 broadcasts_S1x512_S186x512
  have v100 : FVec F S186x512 .f32 := subf v97 v99
  v100

end Def

section Def
variable {F : FTy → Type} [FloatOps F]

def KL6 (x : FVec F S186x512 .bf16) (w : FVec F S1536x512 .bf16) (p : FVec F S3x512 .f32) : FVec F S178x512 .f32 :=
  have v119 : FVec F S178x512 .bf16 := extractStridedSlice S178x512 ![0, 0] x slices_S186x512_o0_0_S178x512
  have v120 : FVec F S178x512 .bf16 := extractStridedSlice S178x512 ![4, 0] x slices_S186x512_o4_0_S178x512
  have v121 : FVec F S178x512 .bf16 := extractStridedSlice S178x512 ![8, 0] x slices_S186x512_o8_0_S178x512
  have v122 : FVec F S178x1536 .bf16 := concatenate S178x1536 1 [⟨S178x512, v119⟩, ⟨S178x512, v120⟩, ⟨S178x512, v121⟩] concatenates_S178x512_S178x512_S178x512_S178x1536_d1
  have v124 : FVec F S1536x512 .bf16 := shapeCast S1536x512 w shapeCasts_S1536x512_S1536x512
  have cst_39 : FVec F S178x512 .f32 := constant S178x512 .f32 0x00000000#32
  have v125 : FVec F S178x512 .f32 := matmul dot_S178x1536_S1536x512_S178x512_1_0_0_1_n_n none v122 v124 cst_39
  have v127 : FVec F S3x512 .f32 := shapeCast S3x512 p shapeCasts_S3x512_S3x512
  have v128 : FVec F S1x512 .f32 := extractStridedSlice S1x512 ![0, 0] v127 slices_S3x512_o0_0_S1x512
  have v129 : FVec F S178x512 .f32 := broadcastTo S178x512 v128 broadcasts_S1x512_S178x512
  have v130 : FVec F S178x512 .f32 := addf v125 v129
  have cst_42 : F .f32 := Scalar.ofBits .f32 0x00000000#32
  have v131 : FVec F S178x512 .f32 := broadcast S178x512 cst_42
  have v132 : FVec F S178x512 .f32 := maximumf v130 v131
  have v133 : FVec F S1x512 .f32 := extractStridedSlice S1x512 ![1, 0] v127 slices_S3x512_o1_0_S1x512
  have v134 : FVec F S178x512 .f32 := broadcastTo S178x512 v133 broadcasts_S1x512_S178x512
  have v135 : FVec F S178x512 .f32 := mulf v132 v134
  have v136 : FVec F S1x512 .f32 := extractStridedSlice S1x512 ![2, 0] v127 slices_S3x512_o2_0_S1x512
  have v137 : FVec F S178x512 .f32 := broadcastTo S178x512 v136 broadcasts_S1x512_S178x512
  have v138 : FVec F S178x512 .f32 := subf v135 v137
  v138

end Def

end Cert.Math

end
-- ==== Proof.Math.LayerDefsCtx1.lean ====
import proofs.«169142_g2000501041679005_pallasbulk_208_6_alg».proof.KernelIdeal
import proofs.«169142_g2000501041679005_pallasbulk_208_6_alg».proof.Proof.Gen.KernelIdeal.Skeleton

set_option maxRecDepth 16384

noncomputable section

namespace Cert.Math

open Idealize.ShloMosaic
open Cert.KernelIdeal Cert.KernelIdeal.Gen

section Def
variable {F : FTy → Type} [FloatOps F]

def KL1 (x : FVec F S196x512 .bf16) (w : FVec F S512x512 .bf16) (p : FVec F S3x512 .f32) : FVec F S196x512 .f32 :=
  have wc : FVec F S512x512 .bf16 := shapeCast S512x512 w shapeCasts_S512x512_S512x512
  have z : FVec F S196x512 .f32 := constant S196x512 .f32 0x00000000#32
  have acc : FVec F S196x512 .f32 := matmul dot_S196x512_S512x512_S196x512_1_0_0_1_n_n none x wc z
  have pc : FVec F S3x512 .f32 := shapeCast S3x512 p shapeCasts_S3x512_S3x512
  have r0 : FVec F S1x512 .f32 := extractStridedSlice S1x512 ![0, 0] pc slices_S3x512_o0_0_S1x512
  have b0 : FVec F S196x512 .f32 := broadcastTo S196x512 r0 broadcasts_S1x512_S196x512
  have a0 : FVec F S196x512 .f32 := addf acc b0
  have c0 : F .f32 := Scalar.ofBits .f32 0x00000000#32
  have z0 : FVec F S196x512 .f32 := broadcast S196x512 c0
  have a1 : FVec F S196x512 .f32 := maximumf a0 z0
  have r1 : FVec F S1x512 .f32 := extractStridedSlice S1x512 ![1, 0] pc slices_S3x512_o1_0_S1x512
  have b1 : FVec F S196x512 .f32 := broadcastTo S196x512 r1 broadcasts_S1x512_S196x512
  have a2 : FVec F S196x512 .f32 := mulf a1 b1
  have r2 : FVec F S1x512 .f32 := extractStridedSlice S1x512 ![2, 0] pc slices_S3x512_o2_0_S1x512
  have b2 : FVec F S196x512 .f32 := broadcastTo S196x512 r2 broadcasts_S1x512_S196x512
  have a3 : FVec F S196x512 .f32 := subf a2 b2
  a3

end Def

section Def
variable {F : FTy → Type} [FloatOps F]

def KL3 (x : FVec F S192x512 .bf16) (w : FVec F S512x512 .bf16) (p : FVec F S3x512 .f32) : FVec F S192x512 .f32 :=
  have wc : FVec F S512x512 .bf16 := shapeCast S512x512 w shapeCasts_S512x512_S512x512
  have z : FVec F S192x512 .f32 := constant S192x512 .f32 0x00000000#32
  have acc : FVec F S192x512 .f32 := matmul dot_S192x512_S512x512_S192x512_1_0_0_1_n_n none x wc z
  have pc : FVec F S3x512 .f32 := shapeCast S3x512 p shapeCasts_S3x512_S3x512
  have r0 : FVec F S1x512 .f32 := extractStridedSlice S1x512 ![0, 0] pc slices_S3x512_o0_0_S1x512
  have b0 : FVec F S192x512 .f32 := broadcastTo S192x512 r0 broadcasts_S1x512_S192x512
  have a0 : FVec F S192x512 .f32 := addf acc b0
  have c0 : F .f32 := Scalar.ofBits .f32 0x00000000#32
  have z0 : FVec F S192x512 .f32 := broadcast S192x512 c0
  have a1 : FVec F S192x512 .f32 := maximumf a0 z0
  have r1 : FVec F S1x512 .f32 := extractStridedSlice S1x512 ![1, 0] pc slices_S3x512_o1_0_S1x512
  have b1 : FVec F S192x512 .f32 := broadcastTo S192x512 r1 broadcasts_S1x512_S192x512
  have a2 : FVec F S192x512 .f32 := mulf a1 b1
  have r2 : FVec F S1x512 .f32 := extractStridedSlice S1x512 ![2, 0] pc slices_S3x512_o2_0_S1x512
  have b2 : FVec F S192x512 .f32 := broadcastTo S192x512 r2 broadcasts_S1x512_S192x512
  have a3 : FVec F S192x512 .f32 := subf a2 b2
  a3

end Def

section Def
variable {F : FTy → Type} [FloatOps F]

def KL5 (x : FVec F S186x512 .bf16) (w : FVec F S512x512 .bf16) (p : FVec F S3x512 .f32) : FVec F S186x512 .f32 :=
  have wc : FVec F S512x512 .bf16 := shapeCast S512x512 w shapeCasts_S512x512_S512x512
  have z : FVec F S186x512 .f32 := constant S186x512 .f32 0x00000000#32
  have acc : FVec F S186x512 .f32 := matmul dot_S186x512_S512x512_S186x512_1_0_0_1_n_n none x wc z
  have pc : FVec F S3x512 .f32 := shapeCast S3x512 p shapeCasts_S3x512_S3x512
  have r0 : FVec F S1x512 .f32 := extractStridedSlice S1x512 ![0, 0] pc slices_S3x512_o0_0_S1x512
  have b0 : FVec F S186x512 .f32 := broadcastTo S186x512 r0 broadcasts_S1x512_S186x512
  have a0 : FVec F S186x512 .f32 := addf acc b0
  have c0 : F .f32 := Scalar.ofBits .f32 0x00000000#32
  have z0 : FVec F S186x512 .f32 := broadcast S186x512 c0
  have a1 : FVec F S186x512 .f32 := maximumf a0 z0
  have r1 : FVec F S1x512 .f32 := extractStridedSlice S1x512 ![1, 0] pc slices_S3x512_o1_0_S1x512
  have b1 : FVec F S186x512 .f32 := broadcastTo S186x512 r1 broadcasts_S1x512_S186x512
  have a2 : FVec F S186x512 .f32 := mulf a1 b1
  have r2 : FVec F S1x512 .f32 := extractStridedSlice S1x512 ![2, 0] pc slices_S3x512_o2_0_S1x512
  have b2 : FVec F S186x512 .f32 := broadcastTo S186x512 r2 broadcasts_S1x512_S186x512
  have a3 : FVec F S186x512 .f32 := subf a2 b2
  a3

end Def

section Def
variable {F : FTy → Type} [FloatOps F]

def KL7 (x : FVec F S178x512 .bf16) (w : FVec F S512x512 .bf16) (p : FVec F S3x512 .f32) : FVec F S178x512 .f32 :=
  have wc : FVec F S512x512 .bf16 := shapeCast S512x512 w shapeCasts_S512x512_S512x512
  have z : FVec F S178x512 .f32 := constant S178x512 .f32 0x00000000#32
  have acc : FVec F S178x512 .f32 := matmul dot_S178x512_S512x512_S178x512_1_0_0_1_n_n none x wc z
  have pc : FVec F S3x512 .f32 := shapeCast S3x512 p shapeCasts_S3x512_S3x512
  have r0 : FVec F S1x512 .f32 := extractStridedSlice S1x512 ![0, 0] pc slices_S3x512_o0_0_S1x512
  have b0 : FVec F S178x512 .f32 := broadcastTo S178x512 r0 broadcasts_S1x512_S178x512
  have a0 : FVec F S178x512 .f32 := addf acc b0
  have c0 : F .f32 := Scalar.ofBits .f32 0x00000000#32
  have z0 : FVec F S178x512 .f32 := broadcast S178x512 c0
  have a1 : FVec F S178x512 .f32 := maximumf a0 z0
  have r1 : FVec F S1x512 .f32 := extractStridedSlice S1x512 ![1, 0] pc slices_S3x512_o1_0_S1x512
  have b1 : FVec F S178x512 .f32 := broadcastTo S178x512 r1 broadcasts_S1x512_S178x512
  have a2 : FVec F S178x512 .f32 := mulf a1 b1
  have r2 : FVec F S1x512 .f32 := extractStridedSlice S1x512 ![2, 0] pc slices_S3x512_o2_0_S1x512
  have b2 : FVec F S178x512 .f32 := broadcastTo S178x512 r2 broadcasts_S1x512_S178x512
  have a3 : FVec F S178x512 .f32 := subf a2 b2
  a3

end Def

section Def
variable {F : FTy → Type} [FloatOps F]

def KL8 (x : FVec F S178x512 .bf16) (w : FVec F S512x512 .bf16) (p : FVec F S3x512 .f32) : FVec F S178x512 .f32 :=
  have wc : FVec F S512x512 .bf16 := shapeCast S512x512 w shapeCasts_S512x512_S512x512
  have z : FVec F S178x512 .f32 := constant S178x512 .f32 0x00000000#32
  have acc : FVec F S178x512 .f32 := matmul dot_S178x512_S512x512_S178x512_1_0_0_1_n_n none x wc z
  have pc : FVec F S3x512 .f32 := shapeCast S3x512 p shapeCasts_S3x512_S3x512
  have r0 : FVec F S1x512 .f32 := extractStridedSlice S1x512 ![0, 0] pc slices_S3x512_o0_0_S1x512
  have b0 : FVec F S178x512 .f32 := broadcastTo S178x512 r0 broadcasts_S1x512_S178x512
  have a0 : FVec F S178x512 .f32 := addf acc b0
  have c0 : F .f32 := Scalar.ofBits .f32 0x00000000#32
  have z0 : FVec F S178x512 .f32 := broadcast S178x512 c0
  have a1 : FVec F S178x512 .f32 := maximumf a0 z0
  have r1 : FVec F S1x512 .f32 := extractStridedSlice S1x512 ![1, 0] pc slices_S3x512_o1_0_S1x512
  have b1 : FVec F S178x512 .f32 := broadcastTo S178x512 r1 broadcasts_S1x512_S178x512
  have a2 : FVec F S178x512 .f32 := mulf a1 b1
  have r2 : FVec F S1x512 .f32 := extractStridedSlice S1x512 ![2, 0] pc slices_S3x512_o2_0_S1x512
  have b2 : FVec F S178x512 .f32 := broadcastTo S178x512 r2 broadcasts_S1x512_S178x512
  have a3 : FVec F S178x512 .f32 := subf a2 b2
  a3

end Def

section Def
variable {F : FTy → Type} [FloatOps F]

def KL9 (x : FVec F S178x512 .bf16) (w : FVec F S512x1500 .bf16) (p : FVec F S3x1500 .f32) : FVec F S178x1500 .f32 :=
  have wc : FVec F S512x1500 .bf16 := shapeCast S512x1500 w shapeCasts_S512x1500_S512x1500
  have z : FVec F S178x1500 .f32 := constant S178x1500 .f32 0x00000000#32
  have acc : FVec F S178x1500 .f32 := matmul dot_S178x512_S512x1500_S178x1500_1_0_0_1_n_n none x wc z
  have pc : FVec F S3x1500 .f32 := shapeCast S3x1500 p shapeCasts_S3x1500_S3x1500
  have r0 : FVec F S1x1500 .f32 := extractStridedSlice S1x1500 ![0, 0] pc slices_S3x1500_o0_0_S1x1500
  have b0 : FVec F S178x1500 .f32 := broadcastTo S178x1500 r0 broadcasts_S1x1500_S178x1500
  have a0 : FVec F S178x1500 .f32 := addf acc b0
  have c0 : F .f32 := Scalar.ofBits .f32 0x00000000#32
  have z0 : FVec F S178x1500 .f32 := broadcast S178x1500 c0
  have a1 : FVec F S178x1500 .f32 := maximumf a0 z0
  have r1 : FVec F S1x1500 .f32 := extractStridedSlice S1x1500 ![1, 0] pc slices_S3x1500_o1_0_S1x1500
  have b1 : FVec F S178x1500 .f32 := broadcastTo S178x1500 r1 broadcasts_S1x1500_S178x1500
  have a2 : FVec F S178x1500 .f32 := mulf a1 b1
  have r2 : FVec F S1x1500 .f32 := extractStridedSlice S1x1500 ![2, 0] pc slices_S3x1500_o2_0_S1x1500
  have b2 : FVec F S178x1500 .f32 := broadcastTo S178x1500 r2 broadcasts_S1x1500_S178x1500
  have a3 : FVec F S178x1500 .f32 := subf a2 b2
  a3

end Def

end Cert.Math
-- ==== Proof.Math.TrunkDefs.lean ====
import proofs.«169142_g2000501041679005_pallasbulk_208_6_alg».proof.Proof.Math.LayerDefsH
import proofs.«169142_g2000501041679005_pallasbulk_208_6_alg».proof.Proof.Math.LayerDefsCtx1
import Idealize.ShloMosaic.Lib.ValueIdx
import Idealize.ShloMosaic.Lib.Pipeline.Value

set_option maxRecDepth 16384

noncomputable section

namespace Cert.Math

open Cert.KernelIdeal Cert.KernelIdeal.Gen
open Idealize.ShloMosaic Idealize.ShloMosaic.ValueIdx

section AnyFloat
variable {F : FTy → Type} [FloatOps F]

abbrev toOperand {s : Shape} (v : FVec F s .f32) : FVec F s .bf16 := truncf .bf16 v bitsLt_bf16_f32

abbrev frames (x0 : Vec F S1x200x30 .f32) : FVec F S200x30 .bf16 :=
  toOperand (shapeCast S200x30 x0 shapeCasts_S1x200x30_S200x30)

def T0 (a : FVec F S200x30 .bf16) (w0 : FVec F S150x512 .bf16) (p0 : FVec F S3x512 .f32) : FVec F S196x512 .f32 :=
  KL0 a w0 p0

def T1 (a : FVec F S200x30 .bf16) (w0 : FVec F S150x512 .bf16) (p0 : FVec F S3x512 .f32)
    (w1 : FVec F S512x512 .bf16) (p1 : FVec F S3x512 .f32) : FVec F S196x512 .f32 :=
  KL1 (toOperand (T0 a w0 p0)) w1 p1

def T2 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32) :
    FVec F S192x512 .f32 :=
  KL2 (toOperand (T1 a w0 p0 w1 p1)) w2 p2

def T3 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) : FVec F S192x512 .f32 :=
  KL3 (toOperand (T2 a w0 p0 w1 p1 w2 p2)) w3 p3

def T4 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32) :
    FVec F S186x512 .f32 :=
  KL4 (toOperand (T3 a w0 p0 w1 p1 w2 p2 w3 p3)) w4 p4

def T5 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32)
    (w5 : FVec F S512x512 .bf16) (p5 : FVec F S3x512 .f32) : FVec F S186x512 .f32 :=
  KL5 (toOperand (T4 a w0 p0 w1 p1 w2 p2 w3 p3 w4 p4)) w5 p5

def T6 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32)
    (w5 : FVec F S512x512 .bf16) (p5 : FVec F S3x512 .f32) (w6 : FVec F S1536x512 .bf16) (p6 : FVec F S3x512 .f32) :
    FVec F S178x512 .f32 :=
  KL6 (toOperand (T5 a w0 p0 w1 p1 w2 p2 w3 p3 w4 p4 w5 p5)) w6 p6

def T7 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32)
    (w5 : FVec F S512x512 .bf16) (p5 : FVec F S3x512 .f32) (w6 : FVec F S1536x512 .bf16) (p6 : FVec F S3x512 .f32)
    (w7 : FVec F S512x512 .bf16) (p7 : FVec F S3x512 .f32) : FVec F S178x512 .f32 :=
  KL7 (toOperand (T6 a w0 p0 w1 p1 w2 p2 w3 p3 w4 p4 w5 p5 w6 p6)) w7 p7

def T8 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32)
    (w5 : FVec F S512x512 .bf16) (p5 : FVec F S3x512 .f32) (w6 : FVec F S1536x512 .bf16) (p6 : FVec F S3x512 .f32)
    (w7 : FVec F S512x512 .bf16) (p7 : FVec F S3x512 .f32) (w8 : FVec F S512x512 .bf16) (p8 : FVec F S3x512 .f32) :
    FVec F S178x512 .f32 :=
  KL8 (toOperand (T7 a w0 p0 w1 p1 w2 p2 w3 p3 w4 p4 w5 p5 w6 p6 w7 p7)) w8 p8

def T9 (a : FVec F S200x30 .bf16) (w0 : FVec F S150x512 .bf16) (p0 : FVec F S3x512 .f32)
    (w1 : FVec F S512x512 .bf16) (p1 : FVec F S3x512 .f32) (w2 : FVec F S1536x512 .bf16) (p2 : FVec F S3x512 .f32)
    (w3 : FVec F S512x512 .bf16) (p3 : FVec F S3x512 .f32) (w4 : FVec F S1536x512 .bf16) (p4 : FVec F S3x512 .f32)
    (w5 : FVec F S512x512 .bf16) (p5 : FVec F S3x512 .f32) (w6 : FVec F S1536x512 .bf16) (p6 : FVec F S3x512 .f32)
    (w7 : FVec F S512x512 .bf16) (p7 : FVec F S3x512 .f32) (w8 : FVec F S512x512 .bf16) (p8 : FVec F S3x512 .f32)
    (w9 : FVec F S512x1500 .bf16) (p9 : FVec F S3x1500 .f32) : FVec F S178x1500 .f32 :=
  KL9 (toOperand (T8 a w0 p0 w1 p1 w2 p2 w3 p3 w4 p4 w5 p5 w6 p6 w7 p7 w8 p8)) w9 p9

end AnyFloat

theorem frames_apply (x0 : Vec Ideal S1x200x30 .f32) (t : Fin 200) (f : Fin 30) :
    frames x0 (ix2 t f) = x0 (ix3 (0 : Fin 1) t f) :=
  (shapeCast_dropUnit_apply ![200, 30] x0 shapeCasts_S1x200x30_S200x30 (ix2 t f)).trans
    (congrArg x0 (funext fun a => by match a with | ⟨0, _⟩ => rfl | ⟨1, _⟩ => rfl | ⟨2, _⟩ => rfl))

end Cert.Math

end
-- ==== Proof.KI.Chain.lean ====
import proofs.«169142_g2000501041679005_pallasbulk_208_6_alg».proof.Proof.KI.Body0
import proofs.«169142_g2000501041679005_pallasbulk_208_6_alg».proof.Proof.Math.TrunkDefs

set_option maxRecDepth 16384

noncomputable section

namespace Cert.KernelIdeal.Hand

open Cert.KernelIdeal Cert.KernelIdeal.Gen Cert.Math
open Idealize.ShloMosaic Idealize.ShloMosaic.ValueIdx

section AnyFloat
variable {F : FTy → Type} [FloatOps F]

theorem pooled_eq_layers (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) :
    k0_pay1 (act0 x0 x1 x2 x3 x4 x5 x6 x7 x8 x9 x10 x11 x12 x13 x14 x15 x16 x17 x18 x19) (View.ld x20 r0_6)
      = T9 (frames (View.ld x0 r0_0)) (View.ld x1 r0_1) (View.ld x11 r0_5) (View.ld x2 r0_2) (View.ld x12 r0_5)
          (View.ld x3 r0_3) (View.ld x13 r0_5) (View.ld x4 r0_2) (View.ld x14 r0_5) (View.ld x5 r0_3) (View.ld x15 r0_5)
          (View.ld x6 r0_2) (View.ld x16 r0_5) (View.ld x7 r0_3) (View.ld x17 r0_5) (View.ld x8 r0_2) (View.ld x18 r0_5)
          (View.ld x9 r0_2) (View.ld x19 r0_5) (View.ld x10 r0_4) (View.ld x20 r0_6) := rfl

theorem zeros2 : (![0, 0] : Fin 2 → Nat) = fun _ => 0 := funext fun a => by fin_cases a <;> rfl
theorem zeros3 : (![0, 0, 0] : Fin 3 → Nat) = fun _ => 0 := funext fun a => by fin_cases a <;> rfl

theorem ld_r0_0 (x : Vec F S1x200x30 .f32) : View.ld x r0_0 = x := View.ld_unit_zero zeros3 _ x
theorem ld_r0_1 (x : Vec F S150x512 .bf16) : View.ld x r0_1 = x := View.ld_unit_zero zeros2 _ x
theorem ld_r0_2 (x : Vec F S512x512 .bf16) : View.ld x r0_2 = x := View.ld_unit_zero zeros2 _ x
theorem ld_r0_3 (x : Vec F S1536x512 .bf16) : View.ld x r0_3 = x := View.ld_unit_zero zeros2 _ x
theorem ld_r0_4 (x : Vec F S512x1500 .bf16) : View.ld x r0_4 = x := View.ld_unit_zero zeros2 _ x
theorem ld_r0_5 (x : Vec F S3x512 .f32) : View.ld x r0_5 = x := View.ld_unit_zero zeros2 _ x
theorem ld_r0_6 (x : Vec F S3x1500 .f32) : View.ld x r0_6 = x := View.ld_unit_zero zeros2 _ x

theorem pooled_eq_layers' (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) :
    k0_pay1 (act0 x0 x1 x2 x3 x4 x5 x6 x7 x8 x9 x10 x11 x12 x13 x14 x15 x16 x17 x18 x19) (View.ld x20 r0_6)
      = T9 (frames x0) x1 x11 x2 x12 x3 x13 x4 x14 x5 x15 x6 x16 x7 x17 x8 x18 x9 x19 x10 x20 := by
  rw [pooled_eq_layers]
  simp only [ld_r0_0, ld_r0_1, ld_r0_2, ld_r0_3, ld_r0_4, ld_r0_5, ld_r0_6]

theorem out0_21_eq (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) :
    out0_21 x0 x1 x2 x3 x4 x5 x6 x7 x8 x9 x10 x11 x12 x13 x14 x15 x16 x17 x18 x19 x20 = k0_pay3 (act0 x0 x1 x2 x3 x4 x5 x6 x7 x8 x9 x10 x11 x12 x13 x14 x15 x16 x17 x18 x19) (View.ld x20 r0_6) := by
  unfold out0_21; exact View.canon_unit_zero zeros3 _ _

theorem out0_22_eq (x0 : Vec F S1x200x30 .f32) (x1 : Vec F S150x512 .bf16) (x2 : Vec F S512x512 .bf16) (x3 : Vec F S1536x512 .bf16) (x4 : Vec F S512x512 .bf16) (x5 : Vec F S1536x512 .bf16) (x6 : Vec F S512x512 .bf16) (x7 : Vec F S1536x512 .bf16) (x8 : Vec F S512x512 .bf16) (x9 : Vec F S512x512 .bf16) (x10 : Vec F S512x1500 .bf16) (x11 : Vec F S3x512 .f32) (x12 : Vec F S3x512 .f32) (x13 : Vec F S3x512 .f32) (x14 : Vec F S3x512 .f32) (x15 : Vec F S3x512 .f32) (x16 : Vec F S3x512 .f32) (x17 : Vec F S3x512 .f32) (x18 : Vec F S3x512 .f32) (x19 : Vec F S3x512 .f32) (x20 : Vec F S3x1500 .f32) :
    out0_22 x0 x1 x2 x3 x4 x5 x6 x7 x8 x9 x10 x11 x12 x13 x14 x15 x16 x17 x18 x19 x20 = k0_pay4 (act0 x0 x1 x2 x3 x4 x5 x6 x7 x8 x9 x10 x11 x12 x13 x14 x15 x16 x17 x18 x19) (View.ld x20 r0_6) := by
  unfold out0_22; exact View.canon_unit_zero zeros3 _ _

end AnyFloat

end Cert.KernelIdeal.Hand

end
-- ==== Proof.Math.Pool.lean ====
import proofs.«169142_g2000501041679005_pallasbulk_208_6_alg».proof.Proof.Gen.KernelIdeal.Skeleton
import proofs.«169142_g2000501041679005_pallasbulk_208_6_alg».proof.Proof.Gen.ReferenceIdeal.Skeleton
import Idealize.ShloMosaic.PureOps.Ideal.Laws
import Idealize.ShloMosaic.Lib.ValueLayout

noncomputable section

namespace Cert.Math

open Idealize.ShloMosaic Idealize.ShloMosaic.ValueIdx
open scoped BigOperators

def poolMean (h : Fin 178 → Fin 1500 → EReal) (j : Fin 1500) : EReal :=
  (∑ t : Fin 178, h t j) * Ideal.ofBits .f32 0x3BB81703#32

def poolDev (h : Fin 178 → Fin 1500 → EReal) (μ : EReal) (j : Fin 1500) : EReal :=
  Ideal.sqrt ((∑ t : Fin 178, (h t j - μ) * (h t j - μ)) * Ideal.ofBits .f32 0x3BB92144#32)

def poolStd (h : Fin 178 → Fin 1500 → EReal) (j : Fin 1500) : EReal :=
  poolDev h (poolMean h j) j

section Core

variable (X : FVec Ideal ⟨2, ![178, 1500]⟩ .f32)
  (hred : (⟨2, ![178, 1500]⟩ : Shape).Reduces [0] ⟨1, ![1500]⟩) (hφ : FKind.Formats .f32)
  (hacc : (0x00000000#32 : BitVec 32) = FKind.add.neutral .f32 hφ)
  (hsc : (⟨1, ![1500]⟩ : Shape).ShapeCasts ⟨2, ![1, 1500]⟩)

theorem colsum_apply (j : Fin 1500) :
    shapeCast ⟨2, ![1, 1500]⟩ (multiReduction .add [0] ⟨1, ![1500]⟩ X 0x00000000#32 hred hφ hacc) hsc (ix2 (0 : Fin 1) j)
      = ∑ t : Fin 178, X (ix2 t j) := by
  refine (shapeCast_a_1a_apply _ hsc 0 j).trans ?_
  refine (Ideal.multiReduction_add_single X _ hred hφ hacc (ix1 j)).trans ?_
  refine Finset.sum_congr rfl fun t _ => congrArg X ?_
  funext a
  apply Fin.ext
  match a with
  | ⟨0, _⟩ => rfl
  | ⟨1, _⟩ => rfl

theorem pooled_mean_apply (j : Fin 1500) :
    mulf (shapeCast ⟨2, ![1, 1500]⟩ (multiReduction .add [0] ⟨1, ![1500]⟩ X 0x00000000#32 hred hφ hacc) hsc)
        (broadcast ⟨2, ![1, 1500]⟩ (Scalar.ofBits .f32 0x3BB81703#32 : Ideal .f32)) (ix2 (0 : Fin 1) j)
      = poolMean (fun t j => X (ix2 t j)) j :=
  congrArg (· * Ideal.ofBits .f32 0x3BB81703#32) (colsum_apply X hred hφ hacc hsc j)

theorem devsq_apply (M : FVec Ideal ⟨2, ![1, 1500]⟩ .f32)
    (hbc : (⟨2, ![1, 1500]⟩ : Shape).Broadcasts ⟨2, ![178, 1500]⟩) (j : Fin 1500) :
    sqrt (mulf (shapeCast ⟨2, ![1, 1500]⟩ (multiReduction .add [0] ⟨1, ![1500]⟩
          (mulf (subf X (broadcastTo ⟨2, ![178, 1500]⟩ M hbc)) (subf X (broadcastTo ⟨2, ![178, 1500]⟩ M hbc)))
          0x00000000#32 hred hφ hacc) hsc)
        (broadcast ⟨2, ![1, 1500]⟩ (Scalar.ofBits .f32 0x3BB92144#32 : Ideal .f32))) (ix2 (0 : Fin 1) j)
      = poolDev (fun t j => X (ix2 t j)) (M (ix2 (0 : Fin 1) j)) j :=
  congrArg (fun s => Ideal.sqrt (s * Ideal.ofBits .f32 0x3BB92144#32))
    ((colsum_apply _ hred hφ hacc hsc j).trans (Finset.sum_congr rfl fun t _ => by
      show (X (ix2 t j) - broadcastTo ⟨2, ![178, 1500]⟩ M hbc (ix2 t j)) * (X (ix2 t j) - broadcastTo ⟨2, ![178, 1500]⟩ M hbc (ix2 t j)) = _
      rw [broadcastTo_1b_ab_apply M hbc t j]))

theorem pooled_std_apply (hbc : (⟨2, ![1, 1500]⟩ : Shape).Broadcasts ⟨2, ![178, 1500]⟩) (j : Fin 1500) :
    sqrt (mulf (shapeCast ⟨2, ![1, 1500]⟩ (multiReduction .add [0] ⟨1, ![1500]⟩
          (mulf (subf X (broadcastTo ⟨2, ![178, 1500]⟩
              (mulf (shapeCast ⟨2, ![1, 1500]⟩ (multiReduction .add [0] ⟨1, ![1500]⟩ X 0x00000000#32 hred hφ hacc) hsc)
                (broadcast ⟨2, ![1, 1500]⟩ (Scalar.ofBits .f32 0x3BB81703#32 : Ideal .f32))) hbc))
            (subf X (broadcastTo ⟨2, ![178, 1500]⟩
              (mulf (shapeCast ⟨2, ![1, 1500]⟩ (multiReduction .add [0] ⟨1, ![1500]⟩ X 0x00000000#32 hred hφ hacc) hsc)
                (broadcast ⟨2, ![1, 1500]⟩ (Scalar.ofBits .f32 0x3BB81703#32 : Ideal .f32))) hbc)))
          0x00000000#32 hred hφ hacc) hsc)
        (broadcast ⟨2, ![1, 1500]⟩ (Scalar.ofBits .f32 0x3BB92144#32 : Ideal .f32))) (ix2 (0 : Fin 1) j)
      = poolStd (fun t j => X (ix2 t j)) j :=
  (devsq_apply X hred hφ hacc hsc _ hbc j).trans
    (congrArg (fun μ => poolDev (fun t j => X (ix2 t j)) μ j) (pooled_mean_apply X hred hφ hacc hsc j))

end Core

section Kernel

open Cert.KernelIdeal Cert.KernelIdeal.Gen

variable (v176 : FVec Ideal S178x1500 .f32) (v177 : Vec Ideal S3x1500 .f32)

theorem k0_pay2_apply (j : Fin 1500) :
    k0_pay2 (F := Ideal) v176 v177 (ix2 (0 : Fin 1) j)
      = poolMean (fun t j => k0_pay1 (F := Ideal) v176 v177 (ix2 t j)) j := by
  unfold k0_pay2
  exact pooled_mean_apply (k0_pay1 (F := Ideal) v176 v177) _ _ _ _ j

theorem k0_pay3_apply (j : Fin 1500) :
    k0_pay3 (F := Ideal) v176 v177 (ix3 (0 : Fin 1) (0 : Fin 1) j)
      = poolMean (fun t j => k0_pay1 (F := Ideal) v176 v177 (ix2 t j)) j := by
  unfold k0_pay3
  exact (shapeCast_ab_1ab_apply _ _ 0 0 j).trans (k0_pay2_apply v176 v177 j)

theorem k0_pay4_apply (j : Fin 1500) :
    k0_pay4 (F := Ideal) v176 v177 (ix3 (0 : Fin 1) (0 : Fin 1) j)
      = poolStd (fun t j => k0_pay1 (F := Ideal) v176 v177 (ix2 t j)) j := by
  unfold k0_pay4
  refine (shapeCast_ab_1ab_apply _ _ 0 0 j).trans ?_
  refine (devsq_apply (k0_pay1 (F := Ideal) v176 v177) _ _ _ _ (k0_pay2 (F := Ideal) v176 v177) _ j).trans ?_
  exact congrArg (fun μ => poolDev (fun t j => k0_pay1 (F := Ideal) v176 v177 (ix2 t j)) μ j) (k0_pay2_apply v176 v177 j)

theorem kernel_mean_eq (h : Fin 178 → Fin 1500 → EReal)
    (hy : ∀ t j, k0_pay1 (F := Ideal) v176 v177 (ix2 t j) = h t j) (j : Fin 1500) :
    k0_pay3 (F := Ideal) v176 v177 (ix3 (0 : Fin 1) (0 : Fin 1) j) = poolMean h j :=
  (k0_pay3_apply v176 v177 j).trans (congrArg (fun g => poolMean g j) (funext fun t => funext fun j => hy t j))

theorem kernel_std_eq (h : Fin 178 → Fin 1500 → EReal)
    (hy : ∀ t j, k0_pay1 (F := Ideal) v176 v177 (ix2 t j) = h t j) (j : Fin 1500) :
    k0_pay4 (F := Ideal) v176 v177 (ix3 (0 : Fin 1) (0 : Fin 1) j) = poolStd h j :=
  (k0_pay4_apply v176 v177 j).trans (congrArg (fun g => poolStd g j) (funext fun t => funext fun j => hy t j))

end Kernel

section Reference

open Cert.ReferenceIdeal Cert.ReferenceIdeal.Gen

variable (v : Vec Ideal S1x178x1500 .f32)

theorem ref_mean_core (hsc3 : S1x178x1500.ShapeCasts S178x1500) (hred : S178x1500.Reduces [0] S1500)
    (hφ : FKind.Formats .f32) (hacc : (0x00000000#32 : BitVec 32) = FKind.add.neutral .f32 hφ)
    (hsc : S1500.ShapeCasts S1x1500) (j : Fin 1500) :
    mulf (shapeCast S1x1500 (multiReduction .add [0] S1500 (shapeCast S178x1500 v hsc3) 0x00000000#32 hred hφ hacc) hsc)
        (broadcast S1x1500 (Scalar.ofBits .f32 0x3BB81703#32 : Ideal .f32)) (ix2 (0 : Fin 1) j)
      = poolMean (fun t j => v (ix3 (0 : Fin 1) t j)) j :=
  (pooled_mean_apply (shapeCast S178x1500 v hsc3) hred hφ hacc hsc j).trans
    (congrArg (fun g => poolMean g j) (funext fun t => funext fun j => shapeCast_1ab_ab_apply v hsc3 t j))

theorem ref_std_core (hsc3 : S1x178x1500.ShapeCasts S178x1500) (hred : S178x1500.Reduces [0] S1500)
    (hφ : FKind.Formats .f32) (hacc : (0x00000000#32 : BitVec 32) = FKind.add.neutral .f32 hφ)
    (hsc : S1500.ShapeCasts S1x1500) (hbc : S1x1500.Broadcasts S178x1500) (j : Fin 1500) :
    sqrt (mulf (shapeCast S1x1500 (multiReduction .add [0] S1500
          (mulf (subf (shapeCast S178x1500 v hsc3) (broadcastTo S178x1500
              (mulf (shapeCast S1x1500 (multiReduction .add [0] S1500 (shapeCast S178x1500 v hsc3) 0x00000000#32 hred hφ hacc) hsc)
                (broadcast S1x1500 (Scalar.ofBits .f32 0x3BB81703#32 : Ideal .f32))) hbc))
            (subf (shapeCast S178x1500 v hsc3) (broadcastTo S178x1500
              (mulf (shapeCast S1x1500 (multiReduction .add [0] S1500 (shapeCast S178x1500 v hsc3) 0x00000000#32 hred hφ hacc) hsc)
                (broadcast S1x1500 (Scalar.ofBits .f32 0x3BB81703#32 : Ideal .f32))) hbc)))
          0x00000000#32 hred hφ hacc) hsc)
        (broadcast S1x1500 (Scalar.ofBits .f32 0x3BB92144#32 : Ideal .f32))) (ix2 (0 : Fin 1) j)
      = poolStd (fun t j => v (ix3 (0 : Fin 1) t j)) j :=
  (pooled_std_apply (shapeCast S178x1500 v hsc3) hred hφ hacc hsc hbc j).trans
    (congrArg (fun g => poolStd g j) (funext fun t => funext fun j => shapeCast_1ab_ab_apply v hsc3 t j))

theorem refMean_0 (j : Fin 1500) :
    k10_pay3 (F := Ideal) v (ix2 (0 : Fin 1) j) = poolMean (fun t j => v (ix3 (0 : Fin 1) t j)) j := by
  unfold k10_pay3 k10_pay2; exact ref_mean_core v _ _ _ _ _ j
theorem refStd_0 (j : Fin 1500) :
    k10_pay4 (F := Ideal) v (ix2 (0 : Fin 1) j) = poolStd (fun t j => v (ix3 (0 : Fin 1) t j)) j := by
  unfold k10_pay4 k10_pay3 k10_pay2; exact ref_std_core v _ _ _ _ _ _ j

theorem refMean_1 (j : Fin 1500) :
    k10_pay6 (F := Ideal) v (ix2 (0 : Fin 1) j) = poolMean (fun t j => v (ix3 (0 : Fin 1) t j)) j := by
  unfold k10_pay6 k10_pay5; exact ref_mean_core v _ _ _ _ _ j
theorem refStd_1 (j : Fin 1500) :
    k10_pay7 (F := Ideal) v (ix2 (0 : Fin 1) j) = poolStd (fun t j => v (ix3 (0 : Fin 1) t j)) j := by
  unfold k10_pay7 k10_pay6 k10_pay5; exact ref_std_core v _ _ _ _ _ _ j

theorem refMean_2 (j : Fin 1500) :
    k10_pay9 (F := Ideal) v (ix2 (0 : Fin 1) j) = poolMean (fun t j => v (ix3 (0 : Fin 1) t j)) j := by
  unfold k10_pay9 k10_pay8; exact ref_mean_core v _ _ _ _ _ j

theorem refStd_2 (j : Fin 1500) :
    k10_pay11 (F := Ideal) (k10_pay10 (F := Ideal) v) (Scalar.ofBits .f32 0x3BB92144#32 : Ideal .f32) (ix2 (0 : Fin 1) j)
      = poolStd (fun t j => v (ix3 (0 : Fin 1) t j)) j := by
  unfold k10_pay11 k10_pay10 k10_pay9 k10_pay8; exact ref_std_core v _ _ _ _ _ _ j

theorem refMean_3 (j : Fin 1500) :
    k10_pay13 (F := Ideal) v (ix2 (0 : Fin 1) j) = poolMean (fun t j => v (ix3 (0 : Fin 1) t j)) j := by
  unfold k10_pay13 k10_pay12; exact ref_mean_core v _ _ _ _ _ j
theorem refStd_3 (j : Fin 1500) :
    k10_pay14 (F := Ideal) v (ix2 (0 : Fin 1) j) = poolStd (fun t j => v (ix3 (0 : Fin 1) t j)) j := by
  unfold k10_pay14 k10_pay13 k10_pay12; exact ref_std_core v _ _ _ _ _ _ j

theorem refMean_4 (j : Fin 1500) :
    k10_pay16 (F := Ideal) v (ix2 (0 : Fin 1) j) = poolMean (fun t j => v (ix3 (0 : Fin 1) t j)) j := by
  unfold k10_pay16 k10_pay15; exact ref_mean_core v _ _ _ _ _ j
theorem refStd_4 (j : Fin 1500) :
    k10_pay17 (F := Ideal) v (ix2 (0 : Fin 1) j) = poolStd (fun t j => v (ix3 (0 : Fin 1) t j)) j := by
  unfold k10_pay17 k10_pay16 k10_pay15; exact ref_std_core v _ _ _ _ _ _ j

theorem refMean_5 (j : Fin 1500) :
    k10_pay19 (F := Ideal) v (ix2 (0 : Fin 1) j) = poolMean (fun t j => v (ix3 (0 : Fin 1) t j)) j := by
  unfold k10_pay19 k10_pay18; exact ref_mean_core v _ _ _ _ _ j

theorem refStd_5 (j : Fin 1500) :
    k10_pay21 (F := Ideal) (k10_pay20 (F := Ideal) v) (ix2 (0 : Fin 1) j)
      = poolStd (fun t j => v (ix3 (0 : Fin 1) t j)) j := by
  unfold k10_pay21 k10_pay20 k10_pay19 k10_pay18; exact ref_std_core v _ _ _ _ _ _ j

theorem refMean_6 (j : Fin 1500) :
    k10_pay23 (F := Ideal) v (ix2 (0 : Fin 1) j) = poolMean (fun t j => v (ix3 (0 : Fin 1) t j)) j := by
  unfold k10_pay23 k10_pay22; exact ref_mean_core v _ _ _ _ _ j
theorem refStd_6 (j : Fin 1500) :
    k10_pay24 (F := Ideal) v (ix2 (0 : Fin 1) j) = poolStd (fun t j => v (ix3 (0 : Fin 1) t j)) j := by
  unfold k10_pay24 k10_pay23 k10_pay22; exact ref_std_core v _ _ _ _ _ _ j

theorem refMean_7 (j : Fin 1500) :
    k10_pay26 (F := Ideal) v (ix2 (0 : Fin 1) j) = poolMean (fun t j => v (ix3 (0 : Fin 1) t j)) j := by
  unfold k10_pay26 k10_pay25; exact ref_mean_core v _ _ _ _ _ j
theorem refStd_7 (j : Fin 1500) :
    k10_pay27 (F := Ideal) v (ix2 (0 : Fin 1) j) = poolStd (fun t j => v (ix3 (0 : Fin 1) t j)) j := by
  unfold k10_pay27 k10_pay26 k10_pay25; exact ref_std_core v _ _ _ _ _ _ j

theorem refMean_8 (j : Fin 1500) :
    k10_pay29 (F := Ideal) v (ix2 (0 : Fin 1) j) = poolMean (fun t j => v (ix3 (0 : Fin 1) t j)) j := by
  unfold k10_pay29 k10_pay28; exact ref_mean_core v _ _ _ _ _ j

theorem refStd_8 (j : Fin 1500) :
    k10_pay31 (F := Ideal) (k10_pay28 (F := Ideal) v) (k10_pay30 (F := Ideal) v) (ix2 (0 : Fin 1) j)
      = poolStd (fun t j => v (ix3 (0 : Fin 1) t j)) j := by
  unfold k10_pay31 k10_pay30 k10_pay29 k10_pay28; exact ref_std_core v _ _ _ _ _ _ j

theorem refMean_9 (j : Fin 1500) :
    k10_pay33 (F := Ideal) v (ix2 (0 : Fin 1) j) = poolMean (fun t j => v (ix3 (0 : Fin 1) t j)) j := by
  unfold k10_pay33 k10_pay32; exact ref_mean_core v _ _ _ _ _ j
theorem refStd_9 (j : Fin 1500) :
    k10_pay34 (F := Ideal) v (ix2 (0 : Fin 1) j) = poolStd (fun t j => v (ix3 (0 : Fin 1) t j)) j := by
  unfold k10_pay34 k10_pay33 k10_pay32; exact ref_std_core v _ _ _ _ _ _ j

theorem refMean_10 (j : Fin 1500) :
    k10_pay36 (F := Ideal) v (ix2 (0 : Fin 1) j) = poolMean (fun t j => v (ix3 (0 : Fin 1) t j)) j := by
  unfold k10_pay36 k10_pay35; exact ref_mean_core v _ _ _ _ _ j
theorem refStd_10 (j : Fin 1500) :
    k10_pay37 (F := Ideal) v (ix2 (0 : Fin 1) j) = poolStd (fun t j => v (ix3 (0 : Fin 1) t j)) j := by
  unfold k10_pay37 k10_pay36 k10_pay35; exact ref_std_core v _ _ _ _ _ _ j

theorem refMean_11 (j : Fin 1500) :
    k10_pay40 (F := Ideal) (k10_pay39 (F := Ideal) v) (Scalar.ofBits .f32 0x3BB81703#32 : Ideal .f32) (ix2 (0 : Fin 1) j)
      = poolMean (fun t j => v (ix3 (0 : Fin 1) t j)) j := by
  unfold k10_pay40 k10_pay39 k10_pay38; exact ref_mean_core v _ _ _ _ _ j

theorem refStd_11 (j : Fin 1500) :
    k10_pay41 (F := Ideal) (k10_pay38 (F := Ideal) v) (k10_pay39 (F := Ideal) v) (Scalar.ofBits .f32 0x3BB81703#32 : Ideal .f32)
        (ix2 (0 : Fin 1) j)
      = poolStd (fun t j => v (ix3 (0 : Fin 1) t j)) j := by
  unfold k10_pay41 k10_pay40 k10_pay39 k10_pay38; exact ref_std_core v _ _ _ _ _ _ j

theorem refMean_12 (j : Fin 1500) :
    k10_pay43 (F := Ideal) v (ix2 (0 : Fin 1) j) = poolMean (fun t j => v (ix3 (0 : Fin 1) t j)) j := by
  unfold k10_pay43 k10_pay42; exact ref_mean_core v _ _ _ _ _ j
theorem refStd_12 (j : Fin 1500) :
    k10_pay44 (F := Ideal) v (ix2 (0 : Fin 1) j) = poolStd (fun t j => v (ix3 (0 : Fin 1) t j)) j := by
  unfold k10_pay44 k10_pay43 k10_pay42; exact ref_std_core v _ _ _ _ _ _ j

theorem refMean_13 (j : Fin 1500) :
    k10_pay46 (F := Ideal) v (ix2 (0 : Fin 1) j) = poolMean (fun t j => v (ix3 (0 : Fin 1) t j)) j := by
  unfold k10_pay46 k10_pay45; exact ref_mean_core v _ _ _ _ _ j
theorem refStd_13 (j : Fin 1500) :
    k10_pay47 (F := Ideal) v (ix2 (0 : Fin 1) j) = poolStd (fun t j => v (ix3 (0 : Fin 1) t j)) j := by
  unfold k10_pay47 k10_pay46 k10_pay45; exact ref_std_core v _ _ _ _ _ _ j

theorem refSlab_14_apply (t : Fin 178) (j : Fin 1500) :
    k10_pay48 (F := Ideal) v (ix2 t j) = v (ix3 (0 : Fin 1) t j) := by
  unfold k10_pay48; exact shapeCast_1ab_ab_apply v _ t j

end Reference

end Cert.Math

end
-- ==== Proof.KI.Pooled.lean ====
import proofs.«169142_g2000501041679005_pallasbulk_208_6_alg».proof.Proof.KI.Chain
import proofs.«169142_g2000501041679005_pallasbulk_208_6_alg».proof.Proof.Math.Pool

set_option maxRecDepth 16384

noncomputable section

namespace Cert.KernelIdeal.Hand

open Cert.KernelIdeal Cert.KernelIdeal.Gen Cert.Math
open Idealize.ShloMosaic Idealize.ShloMosaic.ValueIdx

theorem out0_21_pooled (x0 : Vec Ideal S1x200x30 .f32) (x1 : Vec Ideal S150x512 .bf16) (x2 : Vec Ideal S512x512 .bf16) (x3 : Vec Ideal S1536x512 .bf16) (x4 : Vec Ideal S512x512 .bf16) (x5 : Vec Ideal S1536x512 .bf16) (x6 : Vec Ideal S512x512 .bf16) (x7 : Vec Ideal S1536x512 .bf16) (x8 : Vec Ideal S512x512 .bf16) (x9 : Vec Ideal S512x512 .bf16) (x10 : Vec Ideal S512x1500 .bf16) (x11 : Vec Ideal S3x512 .f32) (x12 : Vec Ideal S3x512 .f32) (x13 : Vec Ideal S3x512 .f32) (x14 : Vec Ideal S3x512 .f32) (x15 : Vec Ideal S3x512 .f32) (x16 : Vec Ideal S3x512 .f32) (x17 : Vec Ideal S3x512 .f32) (x18 : Vec Ideal S3x512 .f32) (x19 : Vec Ideal S3x512 .f32) (x20 : Vec Ideal S3x1500 .f32)
    (h : Fin 178 → Fin 1500 → EReal)
    (hT : ∀ (t : Fin 178) (j : Fin 1500), T9 (frames x0) x1 x11 x2 x12 x3 x13 x4 x14 x5 x15 x6 x16 x7 x17 x8 x18 x9 x19 x10 x20 (ix2 t j) = h t j) (j : Fin 1500) :
    out0_21 x0 x1 x2 x3 x4 x5 x6 x7 x8 x9 x10 x11 x12 x13 x14 x15 x16 x17 x18 x19 x20 (ix3 (0 : Fin 1) (0 : Fin 1) j) = poolMean h j :=
  (congrFun (out0_21_eq x0 x1 x2 x3 x4 x5 x6 x7 x8 x9 x10 x11 x12 x13 x14 x15 x16 x17 x18 x19 x20) (ix3 (0 : Fin 1) (0 : Fin 1) j)).trans
    (kernel_mean_eq (act0 x0 x1 x2 x3 x4 x5 x6 x7 x8 x9 x10 x11 x12 x13 x14 x15 x16 x17 x18 x19) (View.ld x20 r0_6) h
      (fun t j => (congrFun (pooled_eq_layers' x0 x1 x2 x3 x4 x5 x6 x7 x8 x9 x10 x11 x12 x13 x14 x15 x16 x17 x18 x19 x20) (ix2 t j)).trans (hT t j)) j)

theorem out0_22_pooled (x0 : Vec Ideal S1x200x30 .f32) (x1 : Vec Ideal S150x512 .bf16) (x2 : Vec Ideal S512x512 .bf16) (x3 : Vec Ideal S1536x512 .bf16) (x4 : Vec Ideal S512x512 .bf16) (x5 : Vec Ideal S1536x512 .bf16) (x6 : Vec Ideal S512x512 .bf16) (x7 : Vec Ideal S1536x512 .bf16) (x8 : Vec Ideal S512x512 .bf16) (x9 : Vec Ideal S512x512 .bf16) (x10 : Vec Ideal S512x1500 .bf16) (x11 : Vec Ideal S3x512 .f32) (x12 : Vec Ideal S3x512 .f32) (x13 : Vec Ideal S3x512 .f32) (x14 : Vec Ideal S3x512 .f32) (x15 : Vec Ideal S3x512 .f32) (x16 : Vec Ideal S3x512 .f32) (x17 : Vec Ideal S3x512 .f32) (x18 : Vec Ideal S3x512 .f32) (x19 : Vec Ideal S3x512 .f32) (x20 : Vec Ideal S3x1500 .f32)
    (h : Fin 178 → Fin 1500 → EReal)
    (hT : ∀ (t : Fin 178) (j : Fin 1500), T9 (frames x0) x1 x11 x2 x12 x3 x13 x4 x14 x5 x15 x6 x16 x7 x17 x8 x18 x9 x19 x10 x20 (ix2 t j) = h t j) (j : Fin 1500) :
    out0_22 x0 x1 x2 x3 x4 x5 x6 x7 x8 x9 x10 x11 x12 x13 x14 x15 x16 x17 x18 x19 x20 (ix3 (0 : Fin 1) (0 : Fin 1) j) = poolStd h j :=
  (congrFun (out0_22_eq x0 x1 x2 x3 x4 x5 x6 x7 x8 x9 x10 x11 x12 x13 x14 x15 x16 x17 x18 x19 x20) (ix3 (0 : Fin 1) (0 : Fin 1) j)).trans
    (kernel_std_eq (act0 x0 x1 x2 x3 x4 x5 x6 x7 x8 x9 x10 x11 x12 x13 x14 x15 x16 x17 x18 x19) (View.ld x20 r0_6) h
      (fun t j => (congrFun (pooled_eq_layers' x0 x1 x2 x3 x4 x5 x6 x7 x8 x9 x10 x11 x12 x13 x14 x15 x16 x17 x18 x19 x20) (ix2 t j)).trans (hT t j)) j)

end Cert.KernelIdeal.Hand

end
-- ==== Proof.Math.LayerLib.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Math

open Idealize.ShloMosaic Idealize.ShloMosaic.ValueIdx

section Layout
variable {α : Type}

theorem slice_rows_apply {T T' D : Nat} (o : Nat) (x : (⟨2, ![T, D]⟩ : Shape).Idx → α)
    (h : (⟨2, ![T, D]⟩ : Shape).Slices ![o, 0] ⟨2, ![T', D]⟩) (t : Fin T') (a : Fin D) (t' : Fin T)
    (ht : t'.val = o + t.val) :
    extractStridedSlice ⟨2, ![T', D]⟩ ![o, 0] x h (ix2 t a) = x (ix2 t' a) :=
  extractStridedSlice_apply ![o, 0] x h (ix2 t a) (ix2 t' a) fun ax => by
    match ax with
    | ⟨0, _⟩ => exact ht
    | ⟨1, _⟩ => show a.val = 0 + a.val; omega

theorem concat3_apply {T D K : Nat} (y0 y1 y2 : (⟨2, ![T, D]⟩ : Shape).Idx → α)
    (h : Shape.Concatenates ([⟨⟨2, ![T, D]⟩, y0⟩, ⟨⟨2, ![T, D]⟩, y1⟩, ⟨⟨2, ![T, D]⟩, y2⟩].map
      (fun p : (s : Shape) × (s.Idx → α) => p.1)) ⟨2, ![T, K]⟩ 1)
    (t : Fin T) (c : Fin K) (a : Fin D) :
    (c.val = a.val → concatenate ⟨2, ![T, K]⟩ 1 [⟨⟨2, ![T, D]⟩, y0⟩, ⟨⟨2, ![T, D]⟩, y1⟩, ⟨⟨2, ![T, D]⟩, y2⟩] h (ix2 t c) = y0 (ix2 t a))
    ∧ (c.val = D + a.val → concatenate ⟨2, ![T, K]⟩ 1 [⟨⟨2, ![T, D]⟩, y0⟩, ⟨⟨2, ![T, D]⟩, y1⟩, ⟨⟨2, ![T, D]⟩, y2⟩] h (ix2 t c) = y1 (ix2 t a))
    ∧ (c.val = D + D + a.val → concatenate ⟨2, ![T, K]⟩ 1 [⟨⟨2, ![T, D]⟩, y0⟩, ⟨⟨2, ![T, D]⟩, y1⟩, ⟨⟨2, ![T, D]⟩, y2⟩] h (ix2 t c) = y2 (ix2 t a)) := by
  refine ⟨fun hc => ?_, fun hc => ?_, fun hc => ?_⟩
  · refine concatenate_apply_piece 1 _ h (ix2 t c) 0 (by show 0 < 3; omega) _ y0 rfl rfl 0 rfl (ix2 t a) (fun b hb => ?_) ?_
    · match b with
      | ⟨0, _⟩ => rfl
      | ⟨1, _⟩ => exact absurd rfl hb
    · show 0 + a.val = c.val; omega
  · refine concatenate_apply_piece 1 _ h (ix2 t c) 1 (by show 1 < 3; omega) _ y1 rfl rfl D (by simp) (ix2 t a) (fun b hb => ?_) ?_
    · match b with
      | ⟨0, _⟩ => rfl
      | ⟨1, _⟩ => exact absurd rfl hb
    · show D + a.val = c.val; omega
  · refine concatenate_apply_piece 1 _ h (ix2 t c) 2 (by show 2 < 3; omega) _ y2 rfl rfl (D + D) (by simp) (ix2 t a) (fun b hb => ?_) ?_
    · match b with
      | ⟨0, _⟩ => rfl
      | ⟨1, _⟩ => exact absurd rfl hb
    · show D + D + a.val = c.val; omega

theorem concat5_apply {T D K : Nat} (y0 y1 y2 y3 y4 : (⟨2, ![T, D]⟩ : Shape).Idx → α)
    (h : Shape.Concatenates ([⟨⟨2, ![T, D]⟩, y0⟩, ⟨⟨2, ![T, D]⟩, y1⟩, ⟨⟨2, ![T, D]⟩, y2⟩, ⟨⟨2, ![T, D]⟩, y3⟩, ⟨⟨2, ![T, D]⟩, y4⟩].map
      (fun p : (s : Shape) × (s.Idx → α) => p.1)) ⟨2, ![T, K]⟩ 1)
    (t : Fin T) (c : Fin K) (a : Fin D) :
    (c.val = a.val → concatenate ⟨2, ![T, K]⟩ 1 [⟨⟨2, ![T, D]⟩, y0⟩, ⟨⟨2, ![T, D]⟩, y1⟩, ⟨⟨2, ![T, D]⟩, y2⟩, ⟨⟨2, ![T, D]⟩, y3⟩, ⟨⟨2, ![T, D]⟩, y4⟩] h (ix2 t c) = y0 (ix2 t a))
    ∧ (c.val = D + a.val → concatenate ⟨2, ![T, K]⟩ 1 [⟨⟨2, ![T, D]⟩, y0⟩, ⟨⟨2, ![T, D]⟩, y1⟩, ⟨⟨2, ![T, D]⟩, y2⟩, ⟨⟨2, ![T, D]⟩, y3⟩, ⟨⟨2, ![T, D]⟩, y4⟩] h (ix2 t c) = y1 (ix2 t a))
    ∧ (c.val = D + D + a.val → concatenate ⟨2, ![T, K]⟩ 1 [⟨⟨2, ![T, D]⟩, y0⟩, ⟨⟨2, ![T, D]⟩, y1⟩, ⟨⟨2, ![T, D]⟩, y2⟩, ⟨⟨2, ![T, D]⟩, y3⟩, ⟨⟨2, ![T, D]⟩, y4⟩] h (ix2 t c) = y2 (ix2 t a))
    ∧ (c.val = D + D + D + a.val → concatenate ⟨2, ![T, K]⟩ 1 [⟨⟨2, ![T, D]⟩, y0⟩, ⟨⟨2, ![T, D]⟩, y1⟩, ⟨⟨2, ![T, D]⟩, y2⟩, ⟨⟨2, ![T, D]⟩, y3⟩, ⟨⟨2, ![T, D]⟩, y4⟩] h (ix2 t c) = y3 (ix2 t a))
    ∧ (c.val = D + D + D + D + a.val → concatenate ⟨2, ![T, K]⟩ 1 [⟨⟨2, ![T, D]⟩, y0⟩, ⟨⟨2, ![T, D]⟩, y1⟩, ⟨⟨2, ![T, D]⟩, y2⟩, ⟨⟨2, ![T, D]⟩, y3⟩, ⟨⟨2, ![T, D]⟩, y4⟩] h (ix2 t c) = y4 (ix2 t a)) := by
  refine ⟨fun hc => ?_, fun hc => ?_, fun hc => ?_, fun hc => ?_, fun hc => ?_⟩
  · refine concatenate_apply_piece 1 _ h (ix2 t c) 0 (by show 0 < 5; omega) _ y0 rfl rfl 0 rfl (ix2 t a) (fun b hb => ?_) ?_
    · match b with
      | ⟨0, _⟩ => rfl
      | ⟨1, _⟩ => exact absurd rfl hb
    · show 0 + a.val = c.val; omega
  · refine concatenate_apply_piece 1 _ h (ix2 t c) 1 (by show 1 < 5; omega) _ y1 rfl rfl D (by simp) (ix2 t a) (fun b hb => ?_) ?_
    · match b with
      | ⟨0, _⟩ => rfl
      | ⟨1, _⟩ => exact absurd rfl hb
    · show D + a.val = c.val; omega
  · refine concatenate_apply_piece 1 _ h (ix2 t c) 2 (by show 2 < 5; omega) _ y2 rfl rfl (D + D) (by simp) (ix2 t a) (fun b hb => ?_) ?_
    · match b with
      | ⟨0, _⟩ => rfl
      | ⟨1, _⟩ => exact absurd rfl hb
    · show D + D + a.val = c.val; omega
  · refine concatenate_apply_piece 1 _ h (ix2 t c) 3 (by show 3 < 5; omega) _ y3 rfl rfl (D + D + D) (by simp [Nat.add_assoc]) (ix2 t a) (fun b hb => ?_) ?_
    · match b with
      | ⟨0, _⟩ => rfl
      | ⟨1, _⟩ => exact absurd rfl hb
    · show D + D + D + a.val = c.val; omega
  · refine concatenate_apply_piece 1 _ h (ix2 t c) 4 (by show 4 < 5; omega) _ y4 rfl rfl (D + D + D + D) (by simp [Nat.add_assoc]) (ix2 t a) (fun b hb => ?_) ?_
    · match b with
      | ⟨0, _⟩ => rfl
      | ⟨1, _⟩ => exact absurd rfl hb
    · show D + D + D + D + a.val = c.val; omega

end Layout

section Sums

theorem sum_blocks {M : Type*} [AddCommMonoid M] (n D : Nat) (f : Fin (n * D) → M) :
    ∑ c : Fin (n * D), f c = ∑ i : Fin n, ∑ a : Fin D, f (finProdFinEquiv (i, a)) := by
  rw [← Equiv.sum_comp finProdFinEquiv f, Fintype.sum_prod_type]

theorem matmul_plain_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply prec A B a b

end Sums

section Accumulators
variable {T T' D K N : Nat} {φ₁ φ₁' φ₂ φ₂' : FTy}

theorem ctx3_acc_eq (hK : K = 3 * D) (o1 o2 : Nat) (ho1 : o1 + T' ≤ T) (ho2 : o2 + T' ≤ T)
    (x2 : FVec Ideal ⟨2, ![T, D]⟩ φ₁) (x3 : FVec Ideal ⟨3, ![1, T, D]⟩ φ₁')
    (w : FVec Ideal ⟨2, ![K, N]⟩ φ₂) (w0 w1 w2 : FVec Ideal ⟨2, ![D, N]⟩ φ₂')
    (hx : ∀ (t : Fin T) (a : Fin D), x2 (ix2 t a) = x3 (ix3 0 t a))
    (hw0 : ∀ (a : Fin D) (j : Fin N) (c : Fin K), c.val = a.val → w (ix2 c j) = w0 (ix2 a j))
    (hw1 : ∀ (a : Fin D) (j : Fin N) (c : Fin K), c.val = D + a.val → w (ix2 c j) = w1 (ix2 a j))
    (hw2 : ∀ (a : Fin D) (j : Fin N) (c : Fin K), c.val = D + D + a.val → w (ix2 c j) = w2 (ix2 a j))
    (hs0 : (⟨2, ![T, D]⟩ : Shape).Slices ![0, 0] ⟨2, ![T', D]⟩)
    (hs1 : (⟨2, ![T, D]⟩ : Shape).Slices ![o1, 0] ⟨2, ![T', D]⟩)
    (hs2 : (⟨2, ![T, D]⟩ : Shape).Slices ![o2, 0] ⟨2, ![T', D]⟩)
    (hcat : Shape.Concatenates [⟨2, ![T', D]⟩, ⟨2, ![T', D]⟩, ⟨2, ![T', D]⟩] ⟨2, ![T', K]⟩ 1)
    (hcw : (⟨2, ![K, N]⟩ : Shape).ShapeCasts ⟨2, ![K, N]⟩)
    (d : DotDims ⟨2, ![T', K]⟩ ⟨2, ![K, N]⟩ ⟨2, ![T', N]⟩) (hd : d = DotDims.plain T' K N)
    (hcx : (⟨3, ![1, T, D]⟩ : Shape).ShapeCasts ⟨2, ![T, D]⟩)
    (d' : DotDims ⟨2, ![T', D]⟩ ⟨2, ![D, N]⟩ ⟨2, ![T', N]⟩) (hd' : d' = DotDims.plain T' D N)
    (t : Fin T') (j : Fin N) :
    matmul d none
        (concatenate ⟨2, ![T', K]⟩ 1
          [⟨⟨2, ![T', D]⟩, extractStridedSlice ⟨2, ![T', D]⟩ ![0, 0] x2 hs0⟩,
           ⟨⟨2, ![T', D]⟩, extractStridedSlice ⟨2, ![T', D]⟩ ![o1, 0] x2 hs1⟩,
           ⟨⟨2, ![T', D]⟩, extractStridedSlice ⟨2, ![T', D]⟩ ![o2, 0] x2 hs2⟩] hcat)
        (shapeCast ⟨2, ![K, N]⟩ w hcw) (constant (F := Ideal) ⟨2, ![T', N]⟩ .f32 0x00000000#32) (ix2 t j)
      = addf (addf
          (matmul d' none (extractStridedSlice ⟨2, ![T', D]⟩ ![0, 0] (shapeCast ⟨2, ![T, D]⟩ x3 hcx) hs0) w0
            (constant (F := Ideal) ⟨2, ![T', N]⟩ .f32 0x00000000#32))
          (matmul d' none (extractStridedSlice ⟨2, ![T', D]⟩ ![o1, 0] (shapeCast ⟨2, ![T, D]⟩ x3 hcx) hs1) w1
            (constant (F := Ideal) ⟨2, ![T', N]⟩ .f32 0x00000000#32)))
          (matmul d' none (extractStridedSlice ⟨2, ![T', D]⟩ ![o2, 0] (shapeCast ⟨2, ![T, D]⟩ x3 hcx) hs2) w2
            (constant (F := Ideal) ⟨2, ![T', N]⟩ .f32 0x00000000#32)) (ix2 t j) := by
  subst hK
  rw [matmul_plain_apply d hd, shapeCast_self]
  show _ = matmul d' none _ w0 _ (ix2 t j) + matmul d' none _ w1 _ (ix2 t j) + matmul d' none _ w2 _ (ix2 t j)
  rw [matmul_plain_apply d' hd', matmul_plain_apply d' hd', matmul_plain_apply d' hd', sum_blocks 3 D, Fin.sum_univ_three]
  refine congrArg₂ (· + ·) (congrArg₂ (· + ·) (Finset.sum_congr rfl fun a _ => ?_) (Finset.sum_congr rfl fun a _ => ?_))
    (Finset.sum_congr rfl fun a _ => ?_)
  · have hc : (finProdFinEquiv ((0 : Fin 3), a)).val = a.val := by show a.val + D * 0 = a.val; omega
    rw [(concat3_apply _ _ _ hcat t _ a).1 hc, hw0 a j _ hc,
      slice_rows_apply 0 x2 hs0 t a ⟨t.val, by omega⟩ (by show t.val = 0 + t.val; omega),
      slice_rows_apply 0 _ hs0 t a ⟨t.val, by omega⟩ (by show t.val = 0 + t.val; omega), shapeCast_1ab_ab_apply, hx]
  · have hc : (finProdFinEquiv ((1 : Fin 3), a)).val = D + a.val := by show a.val + D * 1 = D + a.val; omega
    rw [(concat3_apply _ _ _ hcat t _ a).2.1 hc, hw1 a j _ hc,
      slice_rows_apply o1 x2 hs1 t a ⟨o1 + t.val, by omega⟩ rfl,
      slice_rows_apply o1 _ hs1 t a ⟨o1 + t.val, by omega⟩ rfl, shapeCast_1ab_ab_apply, hx]
  · have hc : (finProdFinEquiv ((2 : Fin 3), a)).val = D + D + a.val := by show a.val + D * 2 = D + D + a.val; omega
    rw [(concat3_apply _ _ _ hcat t _ a).2.2 hc, hw2 a j _ hc,
      slice_rows_apply o2 x2 hs2 t a ⟨o2 + t.val, by omega⟩ rfl,
      slice_rows_apply o2 _ hs2 t a ⟨o2 + t.val, by omega⟩ rfl, shapeCast_1ab_ab_apply, hx]

theorem ctx5_acc_eq (hK : K = 5 * D) (o1 o2 o3 o4 : Nat) (ho1 : o1 + T' ≤ T) (ho2 : o2 + T' ≤ T)
    (ho3 : o3 + T' ≤ T) (ho4 : o4 + T' ≤ T)
    (x2 : FVec Ideal ⟨2, ![T, D]⟩ φ₁) (x3 : FVec Ideal ⟨3, ![1, T, D]⟩ φ₁')
    (w : FVec Ideal ⟨2, ![K, N]⟩ φ₂) (w0 w1 w2 w3 w4 : FVec Ideal ⟨2, ![D, N]⟩ φ₂')
    (hx : ∀ (t : Fin T) (a : Fin D), x2 (ix2 t a) = x3 (ix3 0 t a))
    (hw0 : ∀ (a : Fin D) (j : Fin N) (c : Fin K), c.val = a.val → w (ix2 c j) = w0 (ix2 a j))
    (hw1 : ∀ (a : Fin D) (j : Fin N) (c : Fin K), c.val = D + a.val → w (ix2 c j) = w1 (ix2 a j))
    (hw2 : ∀ (a : Fin D) (j : Fin N) (c : Fin K), c.val = D + D + a.val → w (ix2 c j) = w2 (ix2 a j))
    (hw3 : ∀ (a : Fin D) (j : Fin N) (c : Fin K), c.val = D + D + D + a.val → w (ix2 c j) = w3 (ix2 a j))
    (hw4 : ∀ (a : Fin D) (j : Fin N) (c : Fin K), c.val = D + D + D + D + a.val → w (ix2 c j) = w4 (ix2 a j))
    (hs0 : (⟨2, ![T, D]⟩ : Shape).Slices ![0, 0] ⟨2, ![T', D]⟩)
    (hs1 : (⟨2, ![T, D]⟩ : Shape).Slices ![o1, 0] ⟨2, ![T', D]⟩)
    (hs2 : (⟨2, ![T, D]⟩ : Shape).Slices ![o2, 0] ⟨2, ![T', D]⟩)
    (hs3 : (⟨2, ![T, D]⟩ : Shape).Slices ![o3, 0] ⟨2, ![T', D]⟩)
    (hs4 : (⟨2, ![T, D]⟩ : Shape).Slices ![o4, 0] ⟨2, ![T', D]⟩)
    (hcat : Shape.Concatenates [⟨2, ![T', D]⟩, ⟨2, ![T', D]⟩, ⟨2, ![T', D]⟩, ⟨2, ![T', D]⟩, ⟨2, ![T', D]⟩] ⟨2, ![T', K]⟩ 1)
    (hcw : (⟨2, ![K, N]⟩ : Shape).ShapeCasts ⟨2, ![K, N]⟩)
    (d : DotDims ⟨2, ![T', K]⟩ ⟨2, ![K, N]⟩ ⟨2, ![T', N]⟩) (hd : d = DotDims.plain T' K N)
    (hcx : (⟨3, ![1, T, D]⟩ : Shape).ShapeCasts ⟨2, ![T, D]⟩)
    (d' : DotDims ⟨2, ![T', D]⟩ ⟨2, ![D, N]⟩ ⟨2, ![T', N]⟩) (hd' : d' = DotDims.plain T' D N)
    (t : Fin T') (j : Fin N) :
    matmul d none
        (concatenate ⟨2, ![T', K]⟩ 1
          [⟨⟨2, ![T', D]⟩, extractStridedSlice ⟨2, ![T', D]⟩ ![0, 0] x2 hs0⟩,
           ⟨⟨2, ![T', D]⟩, extractStridedSlice ⟨2, ![T', D]⟩ ![o1, 0] x2 hs1⟩,
           ⟨⟨2, ![T', D]⟩, extractStridedSlice ⟨2, ![T', D]⟩ ![o2, 0] x2 hs2⟩,
           ⟨⟨2, ![T', D]⟩, extractStridedSlice ⟨2, ![T', D]⟩ ![o3, 0] x2 hs3⟩,
           ⟨⟨2, ![T', D]⟩, extractStridedSlice ⟨2, ![T', D]⟩ ![o4, 0] x2 hs4⟩] hcat)
        (shapeCast ⟨2, ![K, N]⟩ w hcw) (constant (F := Ideal) ⟨2, ![T', N]⟩ .f32 0x00000000#32) (ix2 t j)
      = addf (addf (addf (addf
          (matmul d' none (extractStridedSlice ⟨2, ![T', D]⟩ ![0, 0] (shapeCast ⟨2, ![T, D]⟩ x3 hcx) hs0) w0
            (constant (F := Ideal) ⟨2, ![T', N]⟩ .f32 0x00000000#32))
          (matmul d' none (extractStridedSlice ⟨2, ![T', D]⟩ ![o1, 0] (shapeCast ⟨2, ![T, D]⟩ x3 hcx) hs1) w1
            (constant (F := Ideal) ⟨2, ![T', N]⟩ .f32 0x00000000#32)))
          (matmul d' none (extractStridedSlice ⟨2, ![T', D]⟩ ![o2, 0] (shapeCast ⟨2, ![T, D]⟩ x3 hcx) hs2) w2
            (constant (F := Ideal) ⟨2, ![T', N]⟩ .f32 0x00000000#32)))
          (matmul d' none (extractStridedSlice ⟨2, ![T', D]⟩ ![o3, 0] (shapeCast ⟨2, ![T, D]⟩ x3 hcx) hs3) w3
            (constant (F := Ideal) ⟨2, ![T', N]⟩ .f32 0x00000000#32)))
          (matmul d' none (extractStridedSlice ⟨2, ![T', D]⟩ ![o4, 0] (shapeCast ⟨2, ![T, D]⟩ x3 hcx) hs4) w4
            (constant (F := Ideal) ⟨2, ![T', N]⟩ .f32 0x00000000#32)) (ix2 t j) := by
  subst hK
  rw [matmul_plain_apply d hd, shapeCast_self]
  show _ = matmul d' none _ w0 _ (ix2 t j) + matmul d' none _ w1 _ (ix2 t j) + matmul d' none _ w2 _ (ix2 t j)
    + matmul d' none _ w3 _ (ix2 t j) + matmul d' none _ w4 _ (ix2 t j)
  rw [matmul_plain_apply d' hd', matmul_plain_apply d' hd', matmul_plain_apply d' hd', matmul_plain_apply d' hd',
    matmul_plain_apply d' hd', sum_blocks 5 D, Fin.sum_univ_five]
  refine congrArg₂ (· + ·) (congrArg₂ (· + ·) (congrArg₂ (· + ·) (congrArg₂ (· + ·)
    (Finset.sum_congr rfl fun a _ => ?_) (Finset.sum_congr rfl fun a _ => ?_))
    (Finset.sum_congr rfl fun a _ => ?_)) (Finset.sum_congr rfl fun a _ => ?_)) (Finset.sum_congr rfl fun a _ => ?_)
  · have hc : (finProdFinEquiv ((0 : Fin 5), a)).val = a.val := by show a.val + D * 0 = a.val; omega
    rw [(concat5_apply _ _ _ _ _ hcat t _ a).1 hc, hw0 a j _ hc,
      slice_rows_apply 0 x2 hs0 t a ⟨t.val, by omega⟩ (by show t.val = 0 + t.val; omega),
      slice_rows_apply 0 _ hs0 t a ⟨t.val, by omega⟩ (by show t.val = 0 + t.val; omega), shapeCast_1ab_ab_apply, hx]
  · have hc : (finProdFinEquiv ((1 : Fin 5), a)).val = D + a.val := by show a.val + D * 1 = D + a.val; omega
    rw [(concat5_apply _ _ _ _ _ hcat t _ a).2.1 hc, hw1 a j _ hc,
      slice_rows_apply o1 x2 hs1 t a ⟨o1 + t.val, by omega⟩ rfl,
      slice_rows_apply o1 _ hs1 t a ⟨o1 + t.val, by omega⟩ rfl, shapeCast_1ab_ab_apply, hx]
  · have hc : (finProdFinEquiv ((2 : Fin 5), a)).val = D + D + a.val := by show a.val + D * 2 = D + D + a.val; omega
    rw [(concat5_apply _ _ _ _ _ hcat t _ a).2.2.1 hc, hw2 a j _ hc,
      slice_rows_apply o2 x2 hs2 t a ⟨o2 + t.val, by omega⟩ rfl,
      slice_rows_apply o2 _ hs2 t a ⟨o2 + t.val, by omega⟩ rfl, shapeCast_1ab_ab_apply, hx]
  · have hc : (finProdFinEquiv ((3 : Fin 5), a)).val = D + D + D + a.val := by show a.val + D * 3 = D + D + D + a.val; omega
    rw [(concat5_apply _ _ _ _ _ hcat t _ a).2.2.2.1 hc, hw3 a j _ hc,
      slice_rows_apply o3 x2 hs3 t a ⟨o3 + t.val, by omega⟩ rfl,
      slice_rows_apply o3 _ hs3 t a ⟨o3 + t.val, by omega⟩ rfl, shapeCast_1ab_ab_apply, hx]
  · have hc : (finProdFinEquiv ((4 : Fin 5), a)).val = D + D + D + D + a.val := by
      show a.val + D * 4 = D + D + D + D + a.val; omega
    rw [(concat5_apply _ _ _ _ _ hcat t _ a).2.2.2.2 hc, hw4 a j _ hc,
      slice_rows_apply o4 x2 hs4 t a ⟨o4 + t.val, by omega⟩ rfl,
      slice_rows_apply o4 _ hs4 t a ⟨o4 + t.val, by omega⟩ rfl, shapeCast_1ab_ab_apply, hx]

end Accumulators

section Tails
variable {T D : Nat}

theorem kernel_tail_apply (acc : FVec Ideal ⟨2, ![T, D]⟩ .f32) (p : FVec Ideal ⟨2, ![3, D]⟩ .f32)
    (hc : (⟨2, ![3, D]⟩ : Shape).ShapeCasts ⟨2, ![3, D]⟩)
    (h0 : (⟨2, ![3, D]⟩ : Shape).Slices ![0, 0] ⟨2, ![1, D]⟩)
    (h1 : (⟨2, ![3, D]⟩ : Shape).Slices ![1, 0] ⟨2, ![1, D]⟩)
    (h2 : (⟨2, ![3, D]⟩ : Shape).Slices ![2, 0] ⟨2, ![1, D]⟩)
    (hb : (⟨2, ![1, D]⟩ : Shape).Broadcasts ⟨2, ![T, D]⟩) (z : Ideal .f32) (t : Fin T) (j : Fin D) :
    subf (mulf (maximumf (addf acc
        (broadcastTo ⟨2, ![T, D]⟩ (extractStridedSlice ⟨2, ![1, D]⟩ ![0, 0] (shapeCast ⟨2, ![3, D]⟩ p hc) h0) hb))
        (broadcast ⟨2, ![T, D]⟩ z))
        (broadcastTo ⟨2, ![T, D]⟩ (extractStridedSlice ⟨2, ![1, D]⟩ ![1, 0] (shapeCast ⟨2, ![3, D]⟩ p hc) h1) hb))
        (broadcastTo ⟨2, ![T, D]⟩ (extractStridedSlice ⟨2, ![1, D]⟩ ![2, 0] (shapeCast ⟨2, ![3, D]⟩ p hc) h2) hb) (ix2 t j)
      = max (acc (ix2 t j) + p (ix2 0 j)) z * p (ix2 1 j) - p (ix2 2 j) := by
  rw [shapeCast_self]
  show max (acc (ix2 t j) + broadcastTo _ _ hb (ix2 t j)) z * broadcastTo _ _ hb (ix2 t j) - broadcastTo _ _ hb (ix2 t j) = _
  rw [broadcastTo_1b_ab_apply, broadcastTo_1b_ab_apply, broadcastTo_1b_ab_apply,
    slice_rows_apply 0 p h0 0 j 0 rfl, slice_rows_apply 1 p h1 0 j 1 rfl, slice_rows_apply 2 p h2 0 j 2 rfl]

theorem reference_tail_apply (acc : FVec Ideal ⟨2, ![T, D]⟩ .f32) (b mean var : FVec Ideal ⟨2, ![1, D]⟩ .f32)
    (hc : (⟨2, ![1, D]⟩ : Shape).ShapeCasts ⟨2, ![1, D]⟩)
    (hb : (⟨2, ![1, D]⟩ : Shape).Broadcasts ⟨2, ![T, D]⟩)
    (ho : (⟨2, ![T, D]⟩ : Shape).ShapeCasts ⟨3, ![1, T, D]⟩) (z e : Ideal .f32) (t : Fin T) (j : Fin D) :
    shapeCast ⟨3, ![1, T, D]⟩ (mulf (subf (maximumf (addf acc
        (broadcastTo ⟨2, ![T, D]⟩ (shapeCast ⟨2, ![1, D]⟩ b hc) hb))
        (broadcast ⟨2, ![T, D]⟩ z))
        (broadcastTo ⟨2, ![T, D]⟩ (shapeCast ⟨2, ![1, D]⟩ mean hc) hb))
        (broadcastTo ⟨2, ![T, D]⟩ (rsqrt (addf (shapeCast ⟨2, ![1, D]⟩ var hc) (broadcast ⟨2, ![1, D]⟩ e))) hb)) ho (ix3 0 t j)
      = (max (acc (ix2 t j) + b (ix2 0 j)) z - mean (ix2 0 j)) * Ideal.rsqrt (var (ix2 0 j) + e) := by
  rw [shapeCast_ab_1ab_apply, shapeCast_self, shapeCast_self, shapeCast_self]
  show (max (acc (ix2 t j) + broadcastTo _ _ hb (ix2 t j)) z - broadcastTo _ _ hb (ix2 t j)) * broadcastTo _ _ hb (ix2 t j) = _
  rw [broadcastTo_1b_ab_apply, broadcastTo_1b_ab_apply, broadcastTo_1b_ab_apply]
  rfl

theorem tails_agree (a bk br sk mk μ v e : EReal) (s : ℝ) (hs : 0 ≤ s) (hS : Ideal.rsqrt (v + e) = (s : EReal))
    (hμ : ∃ r : ℝ, μ = (r : EReal)) (hb : bk = br) (hsk : sk = Ideal.rsqrt (v + e)) (hmk : mk = μ * Ideal.rsqrt (v + e))
    (z : EReal) :
    max (a + bk) z * sk - mk = (max (a + br) z - μ) * Ideal.rsqrt (v + e) := by
  obtain ⟨r, rfl⟩ := hμ
  rw [hb, hsk, hmk, hS]
  exact (EReal.sub_mul_of_nonneg_of_ne_top (EReal.coe_nonneg.2 hs) (EReal.coe_ne_top s)).symm

end Tails

end Cert.Math

end
-- ==== Proof.Math.BnLaw.lean ====
import Idealize.ShloMosaic.PureOps.Ideal
import Idealize.ShloMosaic.PureOps.Ideal.Laws

noncomputable section

namespace Cert.Math

open Idealize.ShloMosaic

theorem sub_mul_coe (a : EReal) (μ s : ℝ) (hs : 0 ≤ s) :
    (a - (μ : EReal)) * (s : EReal) = a * (s : EReal) - (μ : EReal) * (s : EReal) :=
  EReal.sub_mul_of_nonneg_of_ne_top (EReal.coe_nonneg.2 hs) (EReal.coe_ne_top s)

theorem eps_real : ∃ e : ℝ, 0 < e ∧ Ideal.ofBits .f32 0x3727C5AC#32 = (e : EReal) := by
  refine ⟨((1 : ℝ) * ((2 ^ 23 + 2606508 : ℕ) : ℝ) * (2 : ℝ) ^ ((110 : ℤ) - (2 ^ (8 - 1) - 1) - 23)), by positivity, ?_⟩
  simp [Ideal.ofBits, Ideal.ieee, -EReal.coe_mul]

theorem rsqrt_real (v : ℝ) (hv : 0 ≤ v) :
    ∃ s : ℝ, 0 ≤ s ∧ Ideal.rsqrt ((v : EReal) + Ideal.ofBits .f32 0x3727C5AC#32) = (s : EReal) := by
  obtain ⟨e, he, hE⟩ := eps_real
  have hpos : 0 < v + e := by linarith
  refine ⟨(Real.sqrt (v + e))⁻¹, inv_nonneg.2 (Real.sqrt_nonneg _), ?_⟩
  rw [hE, ← EReal.coe_add, Ideal.rsqrt_coe, if_neg (not_lt.2 hpos.le), if_neg hpos.ne']

end Cert.Math
-- ==== Proof.Math.LayerK0.lean ====
import proofs.«169142_g2000501041679005_pallasbulk_208_6_alg».proof.KernelIdeal
import proofs.«169142_g2000501041679005_pallasbulk_208_6_alg».proof.Proof.Gen.KernelIdeal
import proofs.«169142_g2000501041679005_pallasbulk_208_6_alg».proof.Proof.Gen.ReferenceIdeal.Skeleton
import proofs.«169142_g2000501041679005_pallasbulk_208_6_alg».proof.Proof.Math.LayerDefsH
import proofs.«169142_g2000501041679005_pallasbulk_208_6_alg».proof.Proof.Math.LayerLib
import proofs.«169142_g2000501041679005_pallasbulk_208_6_alg».proof.Proof.Math.BnLaw

set_option maxRecDepth 16384

noncomputable section

namespace Cert.Math

open Idealize.ShloMosaic Idealize.ShloMosaic.ValueIdx
open Cert.KernelIdeal

theorem layer0_eq (x2 : FVec Ideal S200x30 .bf16) (x3 : Vec Ideal S1x200x30 .f32)
    (w : FVec Ideal S150x512 .bf16) (w0 w1 w2 w3 w4 : Vec Ideal Cert.ReferenceIdeal.S30x512 .f32)
    (p : FVec Ideal S3x512 .f32) (b mean var : Vec Ideal S1x512 .f32)
    (hx : ∀ (t : Fin 200) (a : Fin 30), x2 (ix2 t a) = x3 (ix3 0 t a))
    (hw0 : ∀ (a : Fin 30) (j : Fin 512) (c : Fin 150), c.val = a.val → w (ix2 c j) = w0 (ix2 a j))
    (hw1 : ∀ (a : Fin 30) (j : Fin 512) (c : Fin 150), c.val = 30 + a.val → w (ix2 c j) = w1 (ix2 a j))
    (hw2 : ∀ (a : Fin 30) (j : Fin 512) (c : Fin 150), c.val = 30 + 30 + a.val → w (ix2 c j) = w2 (ix2 a j))
    (hw3 : ∀ (a : Fin 30) (j : Fin 512) (c : Fin 150), c.val = 30 + 30 + 30 + a.val → w (ix2 c j) = w3 (ix2 a j))
    (hw4 : ∀ (a : Fin 30) (j : Fin 512) (c : Fin 150), c.val = 30 + 30 + 30 + 30 + a.val → w (ix2 c j) = w4 (ix2 a j))
    (hp0 : ∀ j : Fin 512, p (ix2 0 j) = b (ix2 0 j))
    (hp1 : ∀ j : Fin 512, p (ix2 1 j) = Ideal.rsqrt (var (ix2 0 j) + Ideal.ofBits .f32 0x3727C5AC#32))
    (hp2 : ∀ j : Fin 512, p (ix2 2 j) = mean (ix2 0 j) * Ideal.rsqrt (var (ix2 0 j) + Ideal.ofBits .f32 0x3727C5AC#32))
    (hmean : ∀ j : Fin 512, ∃ r : ℝ, mean (ix2 0 j) = (r : EReal))
    (hvar : ∀ j : Fin 512, ∃ r : ℝ, 0 ≤ r ∧ var (ix2 0 j) = (r : EReal)) :
    ∀ (t : Fin 196) (j : Fin 512),
      KL0 x2 w p (ix2 t j) = Cert.ReferenceIdeal.Gen.k0_pay1 (Cert.ReferenceIdeal.Gen.k0_pay2 x3 w0 w1 w2 w3 w4 b mean)
        (Cert.ReferenceIdeal.Gen.k0_pay3 var) (Scalar.ofBits .f32 0x3727C5AC#32) (ix3 0 t j) := by
  intro t j
  obtain ⟨r, hr0, hr⟩ := hvar j
  obtain ⟨s, hs0, hs⟩ := rsqrt_real r hr0
  rw [← hr] at hs
  refine (kernel_tail_apply _ p _ _ _ _ _ _ t j).trans ?_
  refine Eq.trans ?_ (reference_tail_apply _ b mean var _ _ _ _ _ t j).symm
  rw [ctx5_acc_eq rfl 1 2 3 4 (by decide) (by decide) (by decide) (by decide) x2 x3 w w0 w1 w2 w3 w4 hx hw0 hw1 hw2 hw3 hw4
    _ _ _ _ _ _ _
    dot_S196x150_S150x512_S196x512_1_0_0_1_n_n rfl _ Cert.ReferenceIdeal.dot_S196x30_S30x512_S196x512_1_0_0_1_n_n rfl t j]
  exact tails_agree _ _ _ _ _ _ _ _ s hs0 hs (hmean j) (hp0 j) (hp1 j) (hp2 j) _

end Cert.Math

end
-- ==== Proof.Math.Ctx1.lean ====
import proofs.«169142_g2000501041679005_pallasbulk_208_6_alg».proof.Proof.Math.BnLaw
import Idealize.ShloMosaic.Lib.ValueIdx
import Idealize.ShloMosaic.Lib.ValueLayout
import Idealize.ShloMosaic.Lib.Pipeline.Value

noncomputable section

namespace Cert.Math

open Idealize.ShloMosaic Idealize.ShloMosaic.ValueIdx

theorem bn_point (acc pb ps pm b mean var : EReal)
    (hpb : pb = b) (hps : ps = Ideal.rsqrt (var + Ideal.ofBits .f32 0x3727C5AC#32))
    (hpm : pm = mean * Ideal.rsqrt (var + Ideal.ofBits .f32 0x3727C5AC#32))
    (hmean : ∃ r : ℝ, mean = (r : EReal)) (hvar : ∃ r : ℝ, 0 ≤ r ∧ var = (r : EReal)) :
    max (acc + pb) 0 * ps - pm
      = (max (acc + b) 0 - mean) * Ideal.rsqrt (var + Ideal.ofBits .f32 0x3727C5AC#32) := by
  obtain ⟨μ, rfl⟩ := hmean
  obtain ⟨v, hv, rfl⟩ := hvar
  obtain ⟨s, hs, hS⟩ := rsqrt_real v hv
  rw [hpb, hps, hpm, hS]
  exact (sub_mul_coe _ μ s hs).symm

section Layer
variable {T K D : ℕ}

theorem ctx1_layer
    (dk dr : DotDims ⟨2, ![T, K]⟩ ⟨2, ![K, D]⟩ ⟨2, ![T, D]⟩) (hd : dk = dr)
    (x2 : FVec Ideal ⟨2, ![T, K]⟩ .bf16) (x3 : FVec Ideal ⟨3, ![1, T, K]⟩ .f32)
    (w : FVec Ideal ⟨2, ![K, D]⟩ .bf16) (w' : FVec Ideal ⟨2, ![K, D]⟩ .f32)
    (p : FVec Ideal ⟨2, ![3, D]⟩ .f32) (b mean var : FVec Ideal ⟨2, ![1, D]⟩ .f32)
    (hscw : (⟨2, ![K, D]⟩ : Shape).ShapeCasts ⟨2, ![K, D]⟩)
    (hscp : (⟨2, ![3, D]⟩ : Shape).ShapeCasts ⟨2, ![3, D]⟩)
    (hsl0 : (⟨2, ![3, D]⟩ : Shape).Slices ![0, 0] ⟨2, ![1, D]⟩)
    (hsl1 : (⟨2, ![3, D]⟩ : Shape).Slices ![1, 0] ⟨2, ![1, D]⟩)
    (hsl2 : (⟨2, ![3, D]⟩ : Shape).Slices ![2, 0] ⟨2, ![1, D]⟩)
    (hbc : (⟨2, ![1, D]⟩ : Shape).Broadcasts ⟨2, ![T, D]⟩)
    (hscx : (⟨3, ![1, T, K]⟩ : Shape).ShapeCasts ⟨2, ![T, K]⟩)
    (hsc1 : (⟨2, ![1, D]⟩ : Shape).ShapeCasts ⟨2, ![1, D]⟩)
    (hout : (⟨2, ![T, D]⟩ : Shape).ShapeCasts ⟨3, ![1, T, D]⟩)
    (hx : ∀ (t : Fin T) (k : Fin K), x2 (ix2 t k) = x3 (ix3 (0 : Fin 1) t k))
    (hw : ∀ (k : Fin K) (j : Fin D), w (ix2 k j) = w' (ix2 k j))
    (hp0 : ∀ j : Fin D, p (ix2 (0 : Fin 3) j) = b (ix2 (0 : Fin 1) j))
    (hp1 : ∀ j : Fin D, p (ix2 (1 : Fin 3) j)
      = Ideal.rsqrt (var (ix2 (0 : Fin 1) j) + Ideal.ofBits .f32 0x3727C5AC#32))
    (hp2 : ∀ j : Fin D, p (ix2 (2 : Fin 3) j)
      = mean (ix2 (0 : Fin 1) j) * Ideal.rsqrt (var (ix2 (0 : Fin 1) j) + Ideal.ofBits .f32 0x3727C5AC#32))
    (hmean : ∀ j : Fin D, ∃ r : ℝ, mean (ix2 (0 : Fin 1) j) = (r : EReal))
    (hvar : ∀ j : Fin D, ∃ r : ℝ, 0 ≤ r ∧ var (ix2 (0 : Fin 1) j) = (r : EReal))
    (t : Fin T) (j : Fin D) :
    (subf (mulf (maximumf (addf
          (matmul dk none x2 (shapeCast ⟨2, ![K, D]⟩ w hscw) (constant ⟨2, ![T, D]⟩ .f32 0x00000000#32))
          (broadcastTo ⟨2, ![T, D]⟩ (extractStridedSlice ⟨2, ![1, D]⟩ ![0, 0] (shapeCast ⟨2, ![3, D]⟩ p hscp) hsl0) hbc))
          (broadcast ⟨2, ![T, D]⟩ (Scalar.ofBits .f32 0x00000000#32)))
          (broadcastTo ⟨2, ![T, D]⟩ (extractStridedSlice ⟨2, ![1, D]⟩ ![1, 0] (shapeCast ⟨2, ![3, D]⟩ p hscp) hsl1) hbc))
          (broadcastTo ⟨2, ![T, D]⟩ (extractStridedSlice ⟨2, ![1, D]⟩ ![2, 0] (shapeCast ⟨2, ![3, D]⟩ p hscp) hsl2) hbc)
        : FVec Ideal ⟨2, ![T, D]⟩ .f32) (ix2 t j)
      = (shapeCast ⟨3, ![1, T, D]⟩
          (mulf (subf (maximumf (addf
            (matmul dr none (shapeCast ⟨2, ![T, K]⟩ x3 hscx) w' (constant ⟨2, ![T, D]⟩ .f32 0x00000000#32))
            (broadcastTo ⟨2, ![T, D]⟩ (shapeCast ⟨2, ![1, D]⟩ b hsc1) hbc))
            (broadcast ⟨2, ![T, D]⟩ (Scalar.ofBits .f32 0x00000000#32)))
            (broadcastTo ⟨2, ![T, D]⟩ (shapeCast ⟨2, ![1, D]⟩ mean hsc1) hbc))
            (broadcastTo ⟨2, ![T, D]⟩
              (rsqrt (addf (shapeCast ⟨2, ![1, D]⟩ var hsc1)
                (broadcast ⟨2, ![1, D]⟩ (Scalar.ofBits .f32 0x3727C5AC#32)))) hbc)
            : FVec Ideal ⟨2, ![T, D]⟩ .f32) hout) (ix3 (0 : Fin 1) t j) := by
  subst hd
  rw [shapeCast_ab_1ab_apply]

  have hx' : ∀ i : (⟨2, ![T, K]⟩ : Shape).Idx, x2 i = shapeCast ⟨2, ![T, K]⟩ x3 hscx i := fun i => by
    obtain ⟨a, c, rfl⟩ : ∃ (a : Fin T) (c : Fin K), i = ix2 a c := ⟨i 0, i 1, eq_ix2 i⟩
    rw [shapeCast_1ab_ab_apply]; exact hx a c
  have hw' : ∀ i : (⟨2, ![K, D]⟩ : Shape).Idx, shapeCast ⟨2, ![K, D]⟩ w hscw i = w' i := fun i => by
    obtain ⟨a, c, rfl⟩ : ∃ (a : Fin K) (c : Fin D), i = ix2 a c := ⟨i 0, i 1, eq_ix2 i⟩
    rw [shapeCast_self]; exact hw a c
  have hacc : (matmul dk none x2 (shapeCast ⟨2, ![K, D]⟩ w hscw) (constant ⟨2, ![T, D]⟩ .f32 0x00000000#32)
        : FVec Ideal ⟨2, ![T, D]⟩ .f32) (ix2 t j)
      = (matmul dk none (shapeCast ⟨2, ![T, K]⟩ x3 hscx) w' (constant ⟨2, ![T, D]⟩ .f32 0x00000000#32)
        : FVec Ideal ⟨2, ![T, D]⟩ .f32) (ix2 t j) := by
    refine (Ideal.matmul_constant_zero_apply dk none _ _ _).trans ?_
    refine Eq.trans ?_ (Ideal.matmul_constant_zero_apply dk none _ _ _).symm
    exact Finset.sum_congr rfl fun k _ => by rw [hx', hw']

  have hr0 : broadcastTo ⟨2, ![T, D]⟩ (extractStridedSlice ⟨2, ![1, D]⟩ ![0, 0] (shapeCast ⟨2, ![3, D]⟩ p hscp) hsl0) hbc (ix2 t j)
      = p (ix2 (0 : Fin 3) j) := by
    rw [broadcastTo_1b_ab_apply, slice2_axis0_apply 0 _ hsl0 (0 : Fin 1) j (0 : Fin 3) rfl, shapeCast_self]
  have hr1 : broadcastTo ⟨2, ![T, D]⟩ (extractStridedSlice ⟨2, ![1, D]⟩ ![1, 0] (shapeCast ⟨2, ![3, D]⟩ p hscp) hsl1) hbc (ix2 t j)
      = p (ix2 (1 : Fin 3) j) := by
    rw [broadcastTo_1b_ab_apply, slice2_axis0_apply 1 _ hsl1 (0 : Fin 1) j (1 : Fin 3) rfl, shapeCast_self]
  have hr2 : broadcastTo ⟨2, ![T, D]⟩ (extractStridedSlice ⟨2, ![1, D]⟩ ![2, 0] (shapeCast ⟨2, ![3, D]⟩ p hscp) hsl2) hbc (ix2 t j)
      = p (ix2 (2 : Fin 3) j) := by
    rw [broadcastTo_1b_ab_apply, slice2_axis0_apply 2 _ hsl2 (0 : Fin 1) j (2 : Fin 3) rfl, shapeCast_self]
  rw [subf_apply, mulf_apply, maximumf_apply, addf_apply, hacc, hr0, hr1, hr2,
    mulf_apply, subf_apply, maximumf_apply, addf_apply]
  rw [broadcastTo_1b_ab_apply, broadcastTo_1b_ab_apply, broadcastTo_1b_ab_apply,
    shapeCast_self, shapeCast_self, shapeCast_self]
  show max (_ + p (ix2 (0 : Fin 3) j)) (Ideal.ofBits .f32 0x00000000#32) * p (ix2 (1 : Fin 3) j) - p (ix2 (2 : Fin 3) j)
    = (max (_ + b (ix2 (0 : Fin 1) j)) (Ideal.ofBits .f32 0x00000000#32) - mean (ix2 (0 : Fin 1) j))
        * Ideal.rsqrt (var (ix2 (0 : Fin 1) j) + Ideal.ofBits .f32 0x3727C5AC#32)
  rw [Ideal.ofBits_zero_f32]
  exact bn_point _ _ _ _ _ _ _ (hp0 j) (hp1 j) (hp2 j) (hmean j) (hvar j)

end Layer

end Cert.Math
-- ==== Proof.Math.LayerK1.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer1_eq
    (x2 : FVec Ideal S196x512 .bf16) (x3 : Vec Ideal Cert.ReferenceIdeal.S1x196x512 .f32)
    (w : FVec Ideal S512x512 .bf16) (w' : Vec Ideal Cert.ReferenceIdeal.S512x512 .f32)
    (p : FVec Ideal S3x512 .f32) (b mean var : Vec Ideal Cert.ReferenceIdeal.S1x512 .f32)
    (hx : ∀ (t : Fin 196) (k : Fin 512), x2 (ix2 t k) = x3 (ix3 (0 : Fin 1) t k))
    (hw : ∀ (k : Fin 512) (j : Fin 512), w (ix2 k j) = w' (ix2 k j))
    (hp0 : ∀ j : Fin 512, p (ix2 (0 : Fin 3) j) = b (ix2 (0 : Fin 1) j))
    (hp1 : ∀ j : Fin 512, p (ix2 (1 : Fin 3) j)
      = Ideal.rsqrt (var (ix2 (0 : Fin 1) j) + Ideal.ofBits .f32 0x3727C5AC#32))
    (hp2 : ∀ j : Fin 512, p (ix2 (2 : Fin 3) j)
      = mean (ix2 (0 : Fin 1) j) * Ideal.rsqrt (var (ix2 (0 : Fin 1) j) + Ideal.ofBits .f32 0x3727C5AC#32))
    (hmean : ∀ j : Fin 512, ∃ r : ℝ, mean (ix2 (0 : Fin 1) j) = (r : EReal))
    (hvar : ∀ j : Fin 512, ∃ r : ℝ, 0 ≤ r ∧ var (ix2 (0 : Fin 1) j) = (r : EReal))
    (t : Fin 196) (j : Fin 512) :
    KL1 x2 w p (ix2 t j) = Cert.ReferenceIdeal.Gen.k1_pay1 x3 w' b mean var (ix3 (0 : Fin 1) t j) :=
  ctx1_layer dot_S196x512_S512x512_S196x512_1_0_0_1_n_n Cert.ReferenceIdeal.dot_S196x512_S512x512_S196x512_1_0_0_1_n_n rfl
    x2 x3 w w' p b mean var
    shapeCasts_S512x512_S512x512 shapeCasts_S3x512_S3x512
    slices_S3x512_o0_0_S1x512 slices_S3x512_o1_0_S1x512 slices_S3x512_o2_0_S1x512
    broadcasts_S1x512_S196x512 Cert.ReferenceIdeal.Gen.shapeCasts_S1x196x512_S196x512
    Cert.ReferenceIdeal.Gen.shapeCasts_S1x512_S1x512 Cert.ReferenceIdeal.Gen.shapeCasts_S196x512_S1x196x512
    hx hw hp0 hp1 hp2 hmean hvar t j

end Cert.Math
-- ==== Proof.Math.LayerK2.lean ====
import proofs.«169142_g2000501041679005_pallasbulk_208_6_alg».proof.KernelIdeal
import proofs.«169142_g2000501041679005_pallasbulk_208_6_alg».proof.Proof.Gen.KernelIdeal
import proofs.«169142_g2000501041679005_pallasbulk_208_6_alg».proof.Proof.Gen.ReferenceIdeal.Skeleton
import proofs.«169142_g2000501041679005_pallasbulk_208_6_alg».proof.Proof.Math.LayerDefsH
import proofs.«169142_g2000501041679005_pallasbulk_208_6_alg».proof.Proof.Math.LayerLib
import proofs.«169142_g2000501041679005_pallasbulk_208_6_alg».proof.Proof.Math.BnLaw

set_option maxRecDepth 16384

noncomputable section

namespace Cert.Math

open Idealize.ShloMosaic Idealize.ShloMosaic.ValueIdx
open Cert.KernelIdeal

theorem layer2_eq (x2 : FVec Ideal S196x512 .bf16) (x3 : Vec Ideal Cert.ReferenceIdeal.S1x196x512 .f32)
    (w : FVec Ideal S1536x512 .bf16) (w0 w1 w2 : Vec Ideal S512x512 .f32) (p : FVec Ideal S3x512 .f32)
    (b mean var : Vec Ideal S1x512 .f32)
    (hx : ∀ (t : Fin 196) (a : Fin 512), x2 (ix2 t a) = x3 (ix3 0 t a))
    (hw0 : ∀ (a : Fin 512) (j : Fin 512) (c : Fin 1536), c.val = a.val → w (ix2 c j) = w0 (ix2 a j))
    (hw1 : ∀ (a : Fin 512) (j : Fin 512) (c : Fin 1536), c.val = 512 + a.val → w (ix2 c j) = w1 (ix2 a j))
    (hw2 : ∀ (a : Fin 512) (j : Fin 512) (c : Fin 1536), c.val = 512 + 512 + a.val → w (ix2 c j) = w2 (ix2 a j))
    (hp0 : ∀ j : Fin 512, p (ix2 0 j) = b (ix2 0 j))
    (hp1 : ∀ j : Fin 512, p (ix2 1 j) = Ideal.rsqrt (var (ix2 0 j) + Ideal.ofBits .f32 0x3727C5AC#32))
    (hp2 : ∀ j : Fin 512, p (ix2 2 j) = mean (ix2 0 j) * Ideal.rsqrt (var (ix2 0 j) + Ideal.ofBits .f32 0x3727C5AC#32))
    (hmean : ∀ j : Fin 512, ∃ r : ℝ, mean (ix2 0 j) = (r : EReal))
    (hvar : ∀ j : Fin 512, ∃ r : ℝ, 0 ≤ r ∧ var (ix2 0 j) = (r : EReal)) :
    ∀ (t : Fin 192) (j : Fin 512),
      KL2 x2 w p (ix2 t j) = Cert.ReferenceIdeal.Gen.k2_pay1 x3 w0 w1 w2 b mean var (ix3 0 t j) := by
  intro t j
  obtain ⟨r, hr0, hr⟩ := hvar j
  obtain ⟨s, hs0, hs⟩ := rsqrt_real r hr0
  rw [← hr] at hs
  refine (kernel_tail_apply _ p _ _ _ _ _ _ t j).trans ?_
  refine Eq.trans ?_ (reference_tail_apply _ b mean var _ _ _ _ _ t j).symm
  rw [ctx3_acc_eq rfl 2 4 (by decide) (by decide) x2 x3 w w0 w1 w2 hx hw0 hw1 hw2 _ _ _ _ _
    dot_S192x1536_S1536x512_S192x512_1_0_0_1_n_n rfl _ Cert.ReferenceIdeal.dot_S192x512_S512x512_S192x512_1_0_0_1_n_n rfl t j]
  exact tails_agree _ _ _ _ _ _ _ _ s hs0 hs (hmean j) (hp0 j) (hp1 j) (hp2 j) _

end Cert.Math

end
-- ==== Proof.Math.LayerK3.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer3_eq
    (x2 : FVec Ideal S192x512 .bf16) (x3 : Vec Ideal Cert.ReferenceIdeal.S1x192x512 .f32)
    (w : FVec Ideal S512x512 .bf16) (w' : Vec Ideal Cert.ReferenceIdeal.S512x512 .f32)
    (p : FVec Ideal S3x512 .f32) (b mean var : Vec Ideal Cert.ReferenceIdeal.S1x512 .f32)
    (hx : ∀ (t : Fin 192) (k : Fin 512), x2 (ix2 t k) = x3 (ix3 (0 : Fin 1) t k))
    (hw : ∀ (k : Fin 512) (j : Fin 512), w (ix2 k j) = w' (ix2 k j))
    (hp0 : ∀ j : Fin 512, p (ix2 (0 : Fin 3) j) = b (ix2 (0 : Fin 1) j))
    (hp1 : ∀ j : Fin 512, p (ix2 (1 : Fin 3) j)
      = Ideal.rsqrt (var (ix2 (0 : Fin 1) j) + Ideal.ofBits .f32 0x3727C5AC#32))
    (hp2 : ∀ j : Fin 512, p (ix2 (2 : Fin 3) j)
      = mean (ix2 (0 : Fin 1) j) * Ideal.rsqrt (var (ix2 (0 : Fin 1) j) + Ideal.ofBits .f32 0x3727C5AC#32))
    (hmean : ∀ j : Fin 512, ∃ r : ℝ, mean (ix2 (0 : Fin 1) j) = (r : EReal))
    (hvar : ∀ j : Fin 512, ∃ r : ℝ, 0 ≤ r ∧ var (ix2 (0 : Fin 1) j) = (r : EReal))
    (t : Fin 192) (j : Fin 512) :
    KL3 x2 w p (ix2 t j) = Cert.ReferenceIdeal.Gen.k3_pay1 x3 w' b mean var (ix3 (0 : Fin 1) t j) :=
  ctx1_layer dot_S192x512_S512x512_S192x512_1_0_0_1_n_n Cert.ReferenceIdeal.dot_S192x512_S512x512_S192x512_1_0_0_1_n_n rfl
    x2 x3 w w' p b mean var
    shapeCasts_S512x512_S512x512 shapeCasts_S3x512_S3x512
    slices_S3x512_o0_0_S1x512 slices_S3x512_o1_0_S1x512 slices_S3x512_o2_0_S1x512
    broadcasts_S1x512_S192x512 Cert.ReferenceIdeal.Gen.shapeCasts_S1x192x512_S192x512
    Cert.ReferenceIdeal.Gen.shapeCasts_S1x512_S1x512 Cert.ReferenceIdeal.Gen.shapeCasts_S192x512_S1x192x512
    hx hw hp0 hp1 hp2 hmean hvar t j

end Cert.Math
-- ==== Proof.Math.LayerK4.lean ====
import proofs.«169142_g2000501041679005_pallasbulk_208_6_alg».proof.KernelIdeal
import proofs.«169142_g2000501041679005_pallasbulk_208_6_alg».proof.Proof.Gen.KernelIdeal
import proofs.«169142_g2000501041679005_pallasbulk_208_6_alg».proof.Proof.Gen.ReferenceIdeal.Skeleton
import proofs.«169142_g2000501041679005_pallasbulk_208_6_alg».proof.Proof.Math.LayerDefsH
import proofs.«169142_g2000501041679005_pallasbulk_208_6_alg».proof.Proof.Math.LayerLib
import proofs.«169142_g2000501041679005_pallasbulk_208_6_alg».proof.Proof.Math.BnLaw

set_option maxRecDepth 16384

noncomputable section

namespace Cert.Math

open Idealize.ShloMosaic Idealize.ShloMosaic.ValueIdx
open Cert.KernelIdeal

theorem layer4_eq (x2 : FVec Ideal S192x512 .bf16) (x3 : Vec Ideal Cert.ReferenceIdeal.S1x192x512 .f32)
    (w : FVec Ideal S1536x512 .bf16) (w0 w1 w2 : Vec Ideal S512x512 .f32) (p : FVec Ideal S3x512 .f32)
    (b mean var : Vec Ideal S1x512 .f32)
    (hx : ∀ (t : Fin 192) (a : Fin 512), x2 (ix2 t a) = x3 (ix3 0 t a))
    (hw0 : ∀ (a : Fin 512) (j : Fin 512) (c : Fin 1536), c.val = a.val → w (ix2 c j) = w0 (ix2 a j))
    (hw1 : ∀ (a : Fin 512) (j : Fin 512) (c : Fin 1536), c.val = 512 + a.val → w (ix2 c j) = w1 (ix2 a j))
    (hw2 : ∀ (a : Fin 512) (j : Fin 512) (c : Fin 1536), c.val = 512 + 512 + a.val → w (ix2 c j) = w2 (ix2 a j))
    (hp0 : ∀ j : Fin 512, p (ix2 0 j) = b (ix2 0 j))
    (hp1 : ∀ j : Fin 512, p (ix2 1 j) = Ideal.rsqrt (var (ix2 0 j) + Ideal.ofBits .f32 0x3727C5AC#32))
    (hp2 : ∀ j : Fin 512, p (ix2 2 j) = mean (ix2 0 j) * Ideal.rsqrt (var (ix2 0 j) + Ideal.ofBits .f32 0x3727C5AC#32))
    (hmean : ∀ j : Fin 512, ∃ r : ℝ, mean (ix2 0 j) = (r : EReal))
    (hvar : ∀ j : Fin 512, ∃ r : ℝ, 0 ≤ r ∧ var (ix2 0 j) = (r : EReal)) :
    ∀ (t : Fin 186) (j : Fin 512),
      KL4 x2 w p (ix2 t j) = Cert.ReferenceIdeal.Gen.k4_pay1 x3 w0 w1 w2 b mean var (ix3 0 t j) := by
  intro t j
  obtain ⟨r, hr0, hr⟩ := hvar j
  obtain ⟨s, hs0, hs⟩ := rsqrt_real r hr0
  rw [← hr] at hs
  refine (kernel_tail_apply _ p _ _ _ _ _ _ t j).trans ?_
  refine Eq.trans ?_ (reference_tail_apply _ b mean var _ _ _ _ _ t j).symm
  rw [ctx3_acc_eq rfl 3 6 (by decide) (by decide) x2 x3 w w0 w1 w2 hx hw0 hw1 hw2 _ _ _ _ _
    dot_S186x1536_S1536x512_S186x512_1_0_0_1_n_n rfl _ Cert.ReferenceIdeal.dot_S186x512_S512x512_S186x512_1_0_0_1_n_n rfl t j]
  exact tails_agree _ _ _ _ _ _ _ _ s hs0 hs (hmean j) (hp0 j) (hp1 j) (hp2 j) _

end Cert.Math

end
-- ==== Proof.Math.LayerK5.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer5_eq
    (x2 : FVec Ideal S186x512 .bf16) (x3 : Vec Ideal Cert.ReferenceIdeal.S1x186x512 .f32)
    (w : FVec Ideal S512x512 .bf16) (w' : Vec Ideal Cert.ReferenceIdeal.S512x512 .f32)
    (p : FVec Ideal S3x512 .f32) (b mean var : Vec Ideal Cert.ReferenceIdeal.S1x512 .f32)
    (hx : ∀ (t : Fin 186) (k : Fin 512), x2 (ix2 t k) = x3 (ix3 (0 : Fin 1) t k))
    (hw : ∀ (k : Fin 512) (j : Fin 512), w (ix2 k j) = w' (ix2 k j))
    (hp0 : ∀ j : Fin 512, p (ix2 (0 : Fin 3) j) = b (ix2 (0 : Fin 1) j))
    (hp1 : ∀ j : Fin 512, p (ix2 (1 : Fin 3) j)
      = Ideal.rsqrt (var (ix2 (0 : Fin 1) j) + Ideal.ofBits .f32 0x3727C5AC#32))
    (hp2 : ∀ j : Fin 512, p (ix2 (2 : Fin 3) j)
      = mean (ix2 (0 : Fin 1) j) * Ideal.rsqrt (var (ix2 (0 : Fin 1) j) + Ideal.ofBits .f32 0x3727C5AC#32))
    (hmean : ∀ j : Fin 512, ∃ r : ℝ, mean (ix2 (0 : Fin 1) j) = (r : EReal))
    (hvar : ∀ j : Fin 512, ∃ r : ℝ, 0 ≤ r ∧ var (ix2 (0 : Fin 1) j) = (r : EReal))
    (t : Fin 186) (j : Fin 512) :
    KL5 x2 w p (ix2 t j) = Cert.ReferenceIdeal.Gen.k5_pay1 x3 w' b mean var (ix3 (0 : Fin 1) t j) :=
  ctx1_layer dot_S186x512_S512x512_S186x512_1_0_0_1_n_n Cert.ReferenceIdeal.dot_S186x512_S512x512_S186x512_1_0_0_1_n_n rfl
    x2 x3 w w' p b mean var
    shapeCasts_S512x512_S512x512 shapeCasts_S3x512_S3x512
    slices_S3x512_o0_0_S1x512 slices_S3x512_o1_0_S1x512 slices_S3x512_o2_0_S1x512
    broadcasts_S1x512_S186x512 Cert.ReferenceIdeal.Gen.shapeCasts_S1x186x512_S186x512
    Cert.ReferenceIdeal.Gen.shapeCasts_S1x512_S1x512 Cert.ReferenceIdeal.Gen.shapeCasts_S186x512_S1x186x512
    hx hw hp0 hp1 hp2 hmean hvar t j

end Cert.Math
-- ==== Proof.Math.LayerK6.lean ====
import proofs.«169142_g2000501041679005_pallasbulk_208_6_alg».proof.KernelIdeal
import proofs.«169142_g2000501041679005_pallasbulk_208_6_alg».proof.Proof.Gen.KernelIdeal
import proofs.«169142_g2000501041679005_pallasbulk_208_6_alg».proof.Proof.Gen.ReferenceIdeal.Skeleton
import proofs.«169142_g2000501041679005_pallasbulk_208_6_alg».proof.Proof.Math.LayerDefsH
import proofs.«169142_g2000501041679005_pallasbulk_208_6_alg».proof.Proof.Math.LayerLib
import proofs.«169142_g2000501041679005_pallasbulk_208_6_alg».proof.Proof.Math.BnLaw

set_option maxRecDepth 16384

noncomputable section

namespace Cert.Math

open Idealize.ShloMosaic Idealize.ShloMosaic.ValueIdx
open Cert.KernelIdeal

theorem layer6_eq (x2 : FVec Ideal S186x512 .bf16) (x3 : Vec Ideal Cert.ReferenceIdeal.S1x186x512 .f32)
    (w : FVec Ideal S1536x512 .bf16) (w0 w1 w2 : Vec Ideal S512x512 .f32) (p : FVec Ideal S3x512 .f32)
    (b mean var : Vec Ideal S1x512 .f32)
    (hx : ∀ (t : Fin 186) (a : Fin 512), x2 (ix2 t a) = x3 (ix3 0 t a))
    (hw0 : ∀ (a : Fin 512) (j : Fin 512) (c : Fin 1536), c.val = a.val → w (ix2 c j) = w0 (ix2 a j))
    (hw1 : ∀ (a : Fin 512) (j : Fin 512) (c : Fin 1536), c.val = 512 + a.val → w (ix2 c j) = w1 (ix2 a j))
    (hw2 : ∀ (a : Fin 512) (j : Fin 512) (c : Fin 1536), c.val = 512 + 512 + a.val → w (ix2 c j) = w2 (ix2 a j))
    (hp0 : ∀ j : Fin 512, p (ix2 0 j) = b (ix2 0 j))
    (hp1 : ∀ j : Fin 512, p (ix2 1 j) = Ideal.rsqrt (var (ix2 0 j) + Ideal.ofBits .f32 0x3727C5AC#32))
    (hp2 : ∀ j : Fin 512, p (ix2 2 j) = mean (ix2 0 j) * Ideal.rsqrt (var (ix2 0 j) + Ideal.ofBits .f32 0x3727C5AC#32))
    (hmean : ∀ j : Fin 512, ∃ r : ℝ, mean (ix2 0 j) = (r : EReal))
    (hvar : ∀ j : Fin 512, ∃ r : ℝ, 0 ≤ r ∧ var (ix2 0 j) = (r : EReal)) :
    ∀ (t : Fin 178) (j : Fin 512),
      KL6 x2 w p (ix2 t j) = Cert.ReferenceIdeal.Gen.k6_pay1 x3 w0 w1 w2 b mean var (ix3 0 t j) := by
  intro t j
  obtain ⟨r, hr0, hr⟩ := hvar j
  obtain ⟨s, hs0, hs⟩ := rsqrt_real r hr0
  rw [← hr] at hs
  refine (kernel_tail_apply _ p _ _ _ _ _ _ t j).trans ?_
  refine Eq.trans ?_ (reference_tail_apply _ b mean var _ _ _ _ _ t j).symm
  rw [ctx3_acc_eq rfl 4 8 (by decide) (by decide) x2 x3 w w0 w1 w2 hx hw0 hw1 hw2 _ _ _ _ _
    dot_S178x1536_S1536x512_S178x512_1_0_0_1_n_n rfl _ Cert.ReferenceIdeal.dot_S178x512_S512x512_S178x512_1_0_0_1_n_n rfl t j]
  exact tails_agree _ _ _ _ _ _ _ _ s hs0 hs (hmean j) (hp0 j) (hp1 j) (hp2 j) _

end Cert.Math

end
-- ==== Proof.Math.LayerK7.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer7_eq
    (x2 : FVec Ideal S178x512 .bf16) (x3 : Vec Ideal Cert.ReferenceIdeal.S1x178x512 .f32)
    (w : FVec Ideal S512x512 .bf16) (w' : Vec Ideal Cert.ReferenceIdeal.S512x512 .f32)
    (p : FVec Ideal S3x512 .f32) (b mean var : Vec Ideal Cert.ReferenceIdeal.S1x512 .f32)
    (hx : ∀ (t : Fin 178) (k : Fin 512), x2 (ix2 t k) = x3 (ix3 (0 : Fin 1) t k))
    (hw : ∀ (k : Fin 512) (j : Fin 512), w (ix2 k j) = w' (ix2 k j))
    (hp0 : ∀ j : Fin 512, p (ix2 (0 : Fin 3) j) = b (ix2 (0 : Fin 1) j))
    (hp1 : ∀ j : Fin 512, p (ix2 (1 : Fin 3) j)
      = Ideal.rsqrt (var (ix2 (0 : Fin 1) j) + Ideal.ofBits .f32 0x3727C5AC#32))
    (hp2 : ∀ j : Fin 512, p (ix2 (2 : Fin 3) j)
      = mean (ix2 (0 : Fin 1) j) * Ideal.rsqrt (var (ix2 (0 : Fin 1) j) + Ideal.ofBits .f32 0x3727C5AC#32))
    (hmean : ∀ j : Fin 512, ∃ r : ℝ, mean (ix2 (0 : Fin 1) j) = (r : EReal))
    (hvar : ∀ j : Fin 512, ∃ r : ℝ, 0 ≤ r ∧ var (ix2 (0 : Fin 1) j) = (r : EReal))
    (t : Fin 178) (j : Fin 512) :
    KL7 x2 w p (ix2 t j) = Cert.ReferenceIdeal.Gen.k7_pay1 x3 w' b mean var (ix3 (0 : Fin 1) t j) :=
  ctx1_layer dot_S178x512_S512x512_S178x512_1_0_0_1_n_n Cert.ReferenceIdeal.dot_S178x512_S512x512_S178x512_1_0_0_1_n_n rfl
    x2 x3 w w' p b mean var
    shapeCasts_S512x512_S512x512 shapeCasts_S3x512_S3x512
    slices_S3x512_o0_0_S1x512 slices_S3x512_o1_0_S1x512 slices_S3x512_o2_0_S1x512
    broadcasts_S1x512_S178x512 Cert.ReferenceIdeal.Gen.shapeCasts_S1x178x512_S178x512
    Cert.ReferenceIdeal.Gen.shapeCasts_S1x512_S1x512 Cert.ReferenceIdeal.Gen.shapeCasts_S178x512_S1x178x512
    hx hw hp0 hp1 hp2 hmean hvar t j

end Cert.Math
-- ==== Proof.Math.LayerK8.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer8_eq
    (x2 : FVec Ideal S178x512 .bf16) (x3 : Vec Ideal Cert.ReferenceIdeal.S1x178x512 .f32)
    (w : FVec Ideal S512x512 .bf16) (w' : Vec Ideal Cert.ReferenceIdeal.S512x512 .f32)
    (p : FVec Ideal S3x512 .f32) (b mean var : Vec Ideal Cert.ReferenceIdeal.S1x512 .f32)
    (hx : ∀ (t : Fin 178) (k : Fin 512), x2 (ix2 t k) = x3 (ix3 (0 : Fin 1) t k))
    (hw : ∀ (k : Fin 512) (j : Fin 512), w (ix2 k j) = w' (ix2 k j))
    (hp0 : ∀ j : Fin 512, p (ix2 (0 : Fin 3) j) = b (ix2 (0 : Fin 1) j))
    (hp1 : ∀ j : Fin 512, p (ix2 (1 : Fin 3) j)
      = Ideal.rsqrt (var (ix2 (0 : Fin 1) j) + Ideal.ofBits .f32 0x3727C5AC#32))
    (hp2 : ∀ j : Fin 512, p (ix2 (2 : Fin 3) j)
      = mean (ix2 (0 : Fin 1) j) * Ideal.rsqrt (var (ix2 (0 : Fin 1) j) + Ideal.ofBits .f32 0x3727C5AC#32))
    (hmean : ∀ j : Fin 512, ∃ r : ℝ, mean (ix2 (0 : Fin 1) j) = (r : EReal))
    (hvar : ∀ j : Fin 512, ∃ r : ℝ, 0 ≤ r ∧ var (ix2 (0 : Fin 1) j) = (r : EReal))
    (t : Fin 178) (j : Fin 512) :
    KL8 x2 w p (ix2 t j) = Cert.ReferenceIdeal.Gen.k8_pay1 x3 w' b mean var (ix3 (0 : Fin 1) t j) :=
  ctx1_layer dot_S178x512_S512x512_S178x512_1_0_0_1_n_n Cert.ReferenceIdeal.dot_S178x512_S512x512_S178x512_1_0_0_1_n_n rfl
    x2 x3 w w' p b mean var
    shapeCasts_S512x512_S512x512 shapeCasts_S3x512_S3x512
    slices_S3x512_o0_0_S1x512 slices_S3x512_o1_0_S1x512 slices_S3x512_o2_0_S1x512
    broadcasts_S1x512_S178x512 Cert.ReferenceIdeal.Gen.shapeCasts_S1x178x512_S178x512
    Cert.ReferenceIdeal.Gen.shapeCasts_S1x512_S1x512 Cert.ReferenceIdeal.Gen.shapeCasts_S178x512_S1x178x512
    hx hw hp0 hp1 hp2 hmean hvar t j

end Cert.Math
-- ==== Proof.Math.LayerK9.lean ====
import proofs.«169142_g2000501041679005_pallasbulk_208_6_alg».proof.KernelIdeal
import proofs.«169142_g2000501041679005_pallasbulk_208_6_alg».proof.Proof.Gen.KernelIdeal.Skeleton
import proofs.«169142_g2000501041679005_pallasbulk_208_6_alg».proof.Proof.Gen.ReferenceIdeal.Skeleton
import proofs.«169142_g2000501041679005_pallasbulk_208_6_alg».proof.Proof.Math.LayerDefsCtx1
import proofs.«169142_g2000501041679005_pallasbulk_208_6_alg».proof.Proof.Math.Ctx1

set_option maxRecDepth 16384

noncomputable section

namespace Cert.Math

open Idealize.ShloMosaic Idealize.ShloMosaic.ValueIdx
open Cert.KernelIdeal Cert.KernelIdeal.Gen

theorem layer9_eq
    (x2 : FVec Ideal S178x512 .bf16) (x3 : Vec Ideal Cert.ReferenceIdeal.S1x178x512 .f32)
    (w : FVec Ideal S512x1500 .bf16) (w' : Vec Ideal Cert.ReferenceIdeal.S512x1500 .f32)
    (p : FVec Ideal S3x1500 .f32) (b mean var : Vec Ideal Cert.ReferenceIdeal.S1x1500 .f32)
    (hx : ∀ (t : Fin 178) (k : Fin 512), x2 (ix2 t k) = x3 (ix3 (0 : Fin 1) t k))
    (hw : ∀ (k : Fin 512) (j : Fin 1500), w (ix2 k j) = w' (ix2 k j))
    (hp0 : ∀ j : Fin 1500, p (ix2 (0 : Fin 3) j) = b (ix2 (0 : Fin 1) j))
    (hp1 : ∀ j : Fin 1500, p (ix2 (1 : Fin 3) j)
      = Ideal.rsqrt (var (ix2 (0 : Fin 1) j) + Ideal.ofBits .f32 0x3727C5AC#32))
    (hp2 : ∀ j : Fin 1500, p (ix2 (2 : Fin 3) j)
      = mean (ix2 (0 : Fin 1) j) * Ideal.rsqrt (var (ix2 (0 : Fin 1) j) + Ideal.ofBits .f32 0x3727C5AC#32))
    (hmean : ∀ j : Fin 1500, ∃ r : ℝ, mean (ix2 (0 : Fin 1) j) = (r : EReal))
    (hvar : ∀ j : Fin 1500, ∃ r : ℝ, 0 ≤ r ∧ var (ix2 (0 : Fin 1) j) = (r : EReal))
    (t : Fin 178) (j : Fin 1500) :
    KL9 x2 w p (ix2 t j) = Cert.ReferenceIdeal.Gen.k9_pay1 x3 w' b mean var (ix3 (0 : Fin 1) t j) :=
  ctx1_layer dot_S178x512_S512x1500_S178x1500_1_0_0_1_n_n Cert.ReferenceIdeal.dot_S178x512_S512x1500_S178x1500_1_0_0_1_n_n rfl
    x2 x3 w w' p b mean var
    shapeCasts_S512x1500_S512x1500 shapeCasts_S3x1500_S3x1500
    slices_S3x1500_o0_0_S1x1500 slices_S3x1500_o1_0_S1x1500 slices_S3x1500_o2_0_S1x1500
    broadcasts_S1x1500_S178x1500 Cert.ReferenceIdeal.Gen.shapeCasts_S1x178x512_S178x512
    Cert.ReferenceIdeal.Gen.shapeCasts_S1x1500_S1x1500 Cert.ReferenceIdeal.Gen.shapeCasts_S178x1500_S1x178x1500
    hx hw hp0 hp1 hp2 hmean hvar t j

end Cert.Math
-- ==== Proof.Math.Trunk.lean ====
import proofs.«169142_g2000501041679005_pallasbulk_208_6_alg».proof.Proof.Math.TrunkDefs
import proofs.«169142_g2000501041679005_pallasbulk_208_6_alg».proof.Proof.Math.LayerK0
import proofs.«169142_g2000501041679005_pallasbulk_208_6_alg».proof.Proof.Math.LayerK1
import proofs.«169142_g2000501041679005_pallasbulk_208_6_alg».proof.Proof.Math.LayerK2
import proofs.«169142_g2000501041679005_pallasbulk_208_6_alg».proof.Proof.Math.LayerK3
import proofs.«169142_g2000501041679005_pallasbulk_208_6_alg».proof.Proof.Math.LayerK4
import proofs.«169142_g2000501041679005_pallasbulk_208_6_alg».proof.Proof.Math.LayerK5
import proofs.«169142_g2000501041679005_pallasbulk_208_6_alg».proof.Proof.Math.LayerK6
import proofs.«169142_g2000501041679005_pallasbulk_208_6_alg».proof.Proof.Math.LayerK7
import proofs.«169142_g2000501041679005_pallasbulk_208_6_alg».proof.Proof.Math.LayerK8
import proofs.«169142_g2000501041679005_pallasbulk_208_6_alg».proof.Proof.Math.LayerK9

set_option maxRecDepth 16384

noncomputable section

namespace Cert.Math

open Cert.KernelIdeal Cert.KernelIdeal.Gen
open Idealize.ShloMosaic Idealize.ShloMosaic.ValueIdx

abbrev utt {T d : Nat} (u : Fin 16) (A : Vec Ideal ⟨3, ![16, T, d]⟩ .f32) : Vec Ideal ⟨3, ![1, T, d]⟩ .f32 :=
  fun y => A (ix3 u (y 1) (y 2))

theorem trunk_eq (u : Fin 16)
    (a : FVec Ideal S200x30 .bf16) (A0 : Vec Ideal Cert.ReferenceIdeal.S16x200x30 .f32)
    (hx : ∀ (t : Fin 200) (f : Fin 30), a (ix2 t f) = A0 (ix3 u t f))

    (w0 : FVec Ideal S150x512 .bf16) (p0 : FVec Ideal S3x512 .f32)
    (wr0a wr0b wr0c wr0d wr0e : Vec Ideal Cert.ReferenceIdeal.S30x512 .f32)
    (b0 mu0 var0 : Vec Ideal Cert.ReferenceIdeal.S1x512 .f32)
    (A1 : Vec Ideal Cert.ReferenceIdeal.S16x196x512 .f32)
    (hA1 : ∀ (t : Fin 196) (j : Fin 512), A1 (ix3 u t j)
      = Cert.ReferenceIdeal.Gen.k0_pay1
          (Cert.ReferenceIdeal.Gen.k0_pay2 (utt u A0) wr0a wr0b wr0c wr0d wr0e b0 mu0)
          (Cert.ReferenceIdeal.Gen.k0_pay3 var0) (Scalar.ofBits .f32 0x3727C5AC#32) (ix3 (0 : Fin 1) t j))
    (hw0a : ∀ (a : Fin 30) (j : Fin 512) (c : Fin 150), c.val = a.val → w0 (ix2 c j) = wr0a (ix2 a j))
    (hw0b : ∀ (a : Fin 30) (j : Fin 512) (c : Fin 150), c.val = 30 + a.val → w0 (ix2 c j) = wr0b (ix2 a j))
    (hw0c : ∀ (a : Fin 30) (j : Fin 512) (c : Fin 150), c.val = 30 + 30 + a.val → w0 (ix2 c j) = wr0c (ix2 a j))
    (hw0d : ∀ (a : Fin 30) (j : Fin 512) (c : Fin 150), c.val = 30 + 30 + 30 + a.val → w0 (ix2 c j) = wr0d (ix2 a j))
    (hw0e : ∀ (a : Fin 30) (j : Fin 512) (c : Fin 150), c.val = 30 + 30 + 30 + 30 + a.val → w0 (ix2 c j) = wr0e (ix2 a j))
    (hb0 : ∀ j : Fin 512, p0 (ix2 (0 : Fin 3) j) = b0 (ix2 (0 : Fin 1) j))
    (hs0 : ∀ j : Fin 512, p0 (ix2 (1 : Fin 3) j) = Ideal.rsqrt (var0 (ix2 (0 : Fin 1) j) + Ideal.ofBits .f32 0x3727C5AC#32))
    (hm0 : ∀ j : Fin 512, p0 (ix2 (2 : Fin 3) j)
      = mu0 (ix2 (0 : Fin 1) j) * Ideal.rsqrt (var0 (ix2 (0 : Fin 1) j) + Ideal.ofBits .f32 0x3727C5AC#32))
    (hmu0 : ∀ j : Fin 512, ∃ r : ℝ, mu0 (ix2 (0 : Fin 1) j) = (r : EReal))
    (hvar0 : ∀ j : Fin 512, ∃ r : ℝ, 0 ≤ r ∧ var0 (ix2 (0 : Fin 1) j) = (r : EReal))

    (w1 : FVec Ideal S512x512 .bf16) (p1 : FVec Ideal S3x512 .f32)
    (wr1 : Vec Ideal Cert.ReferenceIdeal.S512x512 .f32) (b1 mu1 var1 : Vec Ideal Cert.ReferenceIdeal.S1x512 .f32)
    (A2 : Vec Ideal Cert.ReferenceIdeal.S16x196x512 .f32)
    (hA2 : ∀ (t : Fin 196) (j : Fin 512), A2 (ix3 u t j)
      = Cert.ReferenceIdeal.Gen.k1_pay1 (utt u A1) wr1 b1 mu1 var1 (ix3 (0 : Fin 1) t j))
    (hw1 : ∀ (k : Fin 512) (j : Fin 512), w1 (ix2 k j) = wr1 (ix2 k j))
    (hb1 : ∀ j : Fin 512, p1 (ix2 (0 : Fin 3) j) = b1 (ix2 (0 : Fin 1) j))
    (hs1 : ∀ j : Fin 512, p1 (ix2 (1 : Fin 3) j) = Ideal.rsqrt (var1 (ix2 (0 : Fin 1) j) + Ideal.ofBits .f32 0x3727C5AC#32))
    (hm1 : ∀ j : Fin 512, p1 (ix2 (2 : Fin 3) j)
      = mu1 (ix2 (0 : Fin 1) j) * Ideal.rsqrt (var1 (ix2 (0 : Fin 1) j) + Ideal.ofBits .f32 0x3727C5AC#32))
    (hmu1 : ∀ j : Fin 512, ∃ r : ℝ, mu1 (ix2 (0 : Fin 1) j) = (r : EReal))
    (hvar1 : ∀ j : Fin 512, ∃ r : ℝ, 0 ≤ r ∧ var1 (ix2 (0 : Fin 1) j) = (r : EReal))

    (w2 : FVec Ideal S1536x512 .bf16) (p2 : FVec Ideal S3x512 .f32)
    (wr2a wr2b wr2c : Vec Ideal Cert.ReferenceIdeal.S512x512 .f32) (b2 mu2 var2 : Vec Ideal Cert.ReferenceIdeal.S1x512 .f32)
    (A3 : Vec Ideal Cert.ReferenceIdeal.S16x192x512 .f32)
    (hA3 : ∀ (t : Fin 192) (j : Fin 512), A3 (ix3 u t j)
      = Cert.ReferenceIdeal.Gen.k2_pay1 (utt u A2) wr2a wr2b wr2c b2 mu2 var2 (ix3 (0 : Fin 1) t j))
    (hw2a : ∀ (a : Fin 512) (j : Fin 512) (c : Fin 1536), c.val = a.val → w2 (ix2 c j) = wr2a (ix2 a j))
    (hw2b : ∀ (a : Fin 512) (j : Fin 512) (c : Fin 1536), c.val = 512 + a.val → w2 (ix2 c j) = wr2b (ix2 a j))
    (hw2c : ∀ (a : Fin 512) (j : Fin 512) (c : Fin 1536), c.val = 512 + 512 + a.val → w2 (ix2 c j) = wr2c (ix2 a j))
    (hb2 : ∀ j : Fin 512, p2 (ix2 (0 : Fin 3) j) = b2 (ix2 (0 : Fin 1) j))
    (hs2 : ∀ j : Fin 512, p2 (ix2 (1 : Fin 3) j) = Ideal.rsqrt (var2 (ix2 (0 : Fin 1) j) + Ideal.ofBits .f32 0x3727C5AC#32))
    (hm2 : ∀ j : Fin 512, p2 (ix2 (2 : Fin 3) j)
      = mu2 (ix2 (0 : Fin 1) j) * Ideal.rsqrt (var2 (ix2 (0 : Fin 1) j) + Ideal.ofBits .f32 0x3727C5AC#32))
    (hmu2 : ∀ j : Fin 512, ∃ r : ℝ, mu2 (ix2 (0 : Fin 1) j) = (r : EReal))
    (hvar2 : ∀ j : Fin 512, ∃ r : ℝ, 0 ≤ r ∧ var2 (ix2 (0 : Fin 1) j) = (r : EReal))

    (w3 : FVec Ideal S512x512 .bf16) (p3 : FVec Ideal S3x512 .f32)
    (wr3 : Vec Ideal Cert.ReferenceIdeal.S512x512 .f32) (b3 mu3 var3 : Vec Ideal Cert.ReferenceIdeal.S1x512 .f32)
    (A4 : Vec Ideal Cert.ReferenceIdeal.S16x192x512 .f32)
    (hA4 : ∀ (t : Fin 192) (j : Fin 512), A4 (ix3 u t j)
      = Cert.ReferenceIdeal.Gen.k3_pay1 (utt u A3) wr3 b3 mu3 var3 (ix3 (0 : Fin 1) t j))
    (hw3 : ∀ (k : Fin 512) (j : Fin 512), w3 (ix2 k j) = wr3 (ix2 k j))
    (hb3 : ∀ j : Fin 512, p3 (ix2 (0 : Fin 3) j) = b3 (ix2 (0 : Fin 1) j))
    (hs3 : ∀ j : Fin 512, p3 (ix2 (1 : Fin 3) j) = Ideal.rsqrt (var3 (ix2 (0 : Fin 1) j) + Ideal.ofBits .f32 0x3727C5AC#32))
    (hm3 : ∀ j : Fin 512, p3 (ix2 (2 : Fin 3) j)
      = mu3 (ix2 (0 : Fin 1) j) * Ideal.rsqrt (var3 (ix2 (0 : Fin 1) j) + Ideal.ofBits .f32 0x3727C5AC#32))
    (hmu3 : ∀ j : Fin 512, ∃ r : ℝ, mu3 (ix2 (0 : Fin 1) j) = (r : EReal))
    (hvar3 : ∀ j : Fin 512, ∃ r : ℝ, 0 ≤ r ∧ var3 (ix2 (0 : Fin 1) j) = (r : EReal))

    (w4 : FVec Ideal S1536x512 .bf16) (p4 : FVec Ideal S3x512 .f32)
    (wr4a wr4b wr4c : Vec Ideal Cert.ReferenceIdeal.S512x512 .f32) (b4 mu4 var4 : Vec Ideal Cert.ReferenceIdeal.S1x512 .f32)
    (A5 : Vec Ideal Cert.ReferenceIdeal.S16x186x512 .f32)
    (hA5 : ∀ (t : Fin 186) (j : Fin 512), A5 (ix3 u t j)
      = Cert.ReferenceIdeal.Gen.k4_pay1 (utt u A4) wr4a wr4b wr4c b4 mu4 var4 (ix3 (0 : Fin 1) t j))
    (hw4a : ∀ (a : Fin 512) (j : Fin 512) (c : Fin 1536), c.val = a.val → w4 (ix2 c j) = wr4a (ix2 a j))
    (hw4b : ∀ (a : Fin 512) (j : Fin 512) (c : Fin 1536), c.val = 512 + a.val → w4 (ix2 c j) = wr4b (ix2 a j))
    (hw4c : ∀ (a : Fin 512) (j : Fin 512) (c : Fin 1536), c.val = 512 + 512 + a.val → w4 (ix2 c j) = wr4c (ix2 a j))
    (hb4 : ∀ j : Fin 512, p4 (ix2 (0 : Fin 3) j) = b4 (ix2 (0 : Fin 1) j))
    (hs4 : ∀ j : Fin 512, p4 (ix2 (1 : Fin 3) j) = Ideal.rsqrt (var4 (ix2 (0 : Fin 1) j) + Ideal.ofBits .f32 0x3727C5AC#32))
    (hm4 : ∀ j : Fin 512, p4 (ix2 (2 : Fin 3) j)
      = mu4 (ix2 (0 : Fin 1) j) * Ideal.rsqrt (var4 (ix2 (0 : Fin 1) j) + Ideal.ofBits .f32 0x3727C5AC#32))
    (hmu4 : ∀ j : Fin 512, ∃ r : ℝ, mu4 (ix2 (0 : Fin 1) j) = (r : EReal))
    (hvar4 : ∀ j : Fin 512, ∃ r : ℝ, 0 ≤ r ∧ var4 (ix2 (0 : Fin 1) j) = (r : EReal))

    (w5 : FVec Ideal S512x512 .bf16) (p5 : FVec Ideal S3x512 .f32)
    (wr5 : Vec Ideal Cert.ReferenceIdeal.S512x512 .f32) (b5 mu5 var5 : Vec Ideal Cert.ReferenceIdeal.S1x512 .f32)
    (A6 : Vec Ideal Cert.ReferenceIdeal.S16x186x512 .f32)
    (hA6 : ∀ (t : Fin 186) (j : Fin 512), A6 (ix3 u t j)
      = Cert.ReferenceIdeal.Gen.k5_pay1 (utt u A5) wr5 b5 mu5 var5 (ix3 (0 : Fin 1) t j))
    (hw5 : ∀ (k : Fin 512) (j : Fin 512), w5 (ix2 k j) = wr5 (ix2 k j))
    (hb5 : ∀ j : Fin 512, p5 (ix2 (0 : Fin 3) j) = b5 (ix2 (0 : Fin 1) j))
    (hs5 : ∀ j : Fin 512, p5 (ix2 (1 : Fin 3) j) = Ideal.rsqrt (var5 (ix2 (0 : Fin 1) j) + Ideal.ofBits .f32 0x3727C5AC#32))
    (hm5 : ∀ j : Fin 512, p5 (ix2 (2 : Fin 3) j)
      = mu5 (ix2 (0 : Fin 1) j) * Ideal.rsqrt (var5 (ix2 (0 : Fin 1) j) + Ideal.ofBits .f32 0x3727C5AC#32))
    (hmu5 : ∀ j : Fin 512, ∃ r : ℝ, mu5 (ix2 (0 : Fin 1) j) = (r : EReal))
    (hvar5 : ∀ j : Fin 512, ∃ r : ℝ, 0 ≤ r ∧ var5 (ix2 (0 : Fin 1) j) = (r : EReal))

    (w6 : FVec Ideal S1536x512 .bf16) (p6 : FVec Ideal S3x512 .f32)
    (wr6a wr6b wr6c : Vec Ideal Cert.ReferenceIdeal.S512x512 .f32) (b6 mu6 var6 : Vec Ideal Cert.ReferenceIdeal.S1x512 .f32)
    (A7 : Vec Ideal Cert.ReferenceIdeal.S16x178x512 .f32)
    (hA7 : ∀ (t : Fin 178) (j : Fin 512), A7 (ix3 u t j)
      = Cert.ReferenceIdeal.Gen.k6_pay1 (utt u A6) wr6a wr6b wr6c b6 mu6 var6 (ix3 (0 : Fin 1) t j))
    (hw6a : ∀ (a : Fin 512) (j : Fin 512) (c : Fin 1536), c.val = a.val → w6 (ix2 c j) = wr6a (ix2 a j))
    (hw6b : ∀ (a : Fin 512) (j : Fin 512) (c : Fin 1536), c.val = 512 + a.val → w6 (ix2 c j) = wr6b (ix2 a j))
    (hw6c : ∀ (a : Fin 512) (j : Fin 512) (c : Fin 1536), c.val = 512 + 512 + a.val → w6 (ix2 c j) = wr6c (ix2 a j))
    (hb6 : ∀ j : Fin 512, p6 (ix2 (0 : Fin 3) j) = b6 (ix2 (0 : Fin 1) j))
    (hs6 : ∀ j : Fin 512, p6 (ix2 (1 : Fin 3) j) = Ideal.rsqrt (var6 (ix2 (0 : Fin 1) j) + Ideal.ofBits .f32 0x3727C5AC#32))
    (hm6 : ∀ j : Fin 512, p6 (ix2 (2 : Fin 3) j)
      = mu6 (ix2 (0 : Fin 1) j) * Ideal.rsqrt (var6 (ix2 (0 : Fin 1) j) + Ideal.ofBits .f32 0x3727C5AC#32))
    (hmu6 : ∀ j : Fin 512, ∃ r : ℝ, mu6 (ix2 (0 : Fin 1) j) = (r : EReal))
    (hvar6 : ∀ j : Fin 512, ∃ r : ℝ, 0 ≤ r ∧ var6 (ix2 (0 : Fin 1) j) = (r : EReal))

    (w7 : FVec Ideal S512x512 .bf16) (p7 : FVec Ideal S3x512 .f32)
    (wr7 : Vec Ideal Cert.ReferenceIdeal.S512x512 .f32) (b7 mu7 var7 : Vec Ideal Cert.ReferenceIdeal.S1x512 .f32)
    (A8 : Vec Ideal Cert.ReferenceIdeal.S16x178x512 .f32)
    (hA8 : ∀ (t : Fin 178) (j : Fin 512), A8 (ix3 u t j)
      = Cert.ReferenceIdeal.Gen.k7_pay1 (utt u A7) wr7 b7 mu7 var7 (ix3 (0 : Fin 1) t j))
    (hw7 : ∀ (k : Fin 512) (j : Fin 512), w7 (ix2 k j) = wr7 (ix2 k j))
    (hb7 : ∀ j : Fin 512, p7 (ix2 (0 : Fin 3) j) = b7 (ix2 (0 : Fin 1) j))
    (hs7 : ∀ j : Fin 512, p7 (ix2 (1 : Fin 3) j) = Ideal.rsqrt (var7 (ix2 (0 : Fin 1) j) + Ideal.ofBits .f32 0x3727C5AC#32))
    (hm7 : ∀ j : Fin 512, p7 (ix2 (2 : Fin 3) j)
      = mu7 (ix2 (0 : Fin 1) j) * Ideal.rsqrt (var7 (ix2 (0 : Fin 1) j) + Ideal.ofBits .f32 0x3727C5AC#32))
    (hmu7 : ∀ j : Fin 512, ∃ r : ℝ, mu7 (ix2 (0 : Fin 1) j) = (r : EReal))
    (hvar7 : ∀ j : Fin 512, ∃ r : ℝ, 0 ≤ r ∧ var7 (ix2 (0 : Fin 1) j) = (r : EReal))

    (w8 : FVec Ideal S512x512 .bf16) (p8 : FVec Ideal S3x512 .f32)
    (wr8 : Vec Ideal Cert.ReferenceIdeal.S512x512 .f32) (b8 mu8 var8 : Vec Ideal Cert.ReferenceIdeal.S1x512 .f32)
    (A9 : Vec Ideal Cert.ReferenceIdeal.S16x178x512 .f32)
    (hA9 : ∀ (t : Fin 178) (j : Fin 512), A9 (ix3 u t j)
      = Cert.ReferenceIdeal.Gen.k8_pay1 (utt u A8) wr8 b8 mu8 var8 (ix3 (0 : Fin 1) t j))
    (hw8 : ∀ (k : Fin 512) (j : Fin 512), w8 (ix2 k j) = wr8 (ix2 k j))
    (hb8 : ∀ j : Fin 512, p8 (ix2 (0 : Fin 3) j) = b8 (ix2 (0 : Fin 1) j))
    (hs8 : ∀ j : Fin 512, p8 (ix2 (1 : Fin 3) j) = Ideal.rsqrt (var8 (ix2 (0 : Fin 1) j) + Ideal.ofBits .f32 0x3727C5AC#32))
    (hm8 : ∀ j : Fin 512, p8 (ix2 (2 : Fin 3) j)
      = mu8 (ix2 (0 : Fin 1) j) * Ideal.rsqrt (var8 (ix2 (0 : Fin 1) j) + Ideal.ofBits .f32 0x3727C5AC#32))
    (hmu8 : ∀ j : Fin 512, ∃ r : ℝ, mu8 (ix2 (0 : Fin 1) j) = (r : EReal))
    (hvar8 : ∀ j : Fin 512, ∃ r : ℝ, 0 ≤ r ∧ var8 (ix2 (0 : Fin 1) j) = (r : EReal))

    (w9 : FVec Ideal S512x1500 .bf16) (p9 : FVec Ideal S3x1500 .f32)
    (wr9 : Vec Ideal Cert.ReferenceIdeal.S512x1500 .f32) (b9 mu9 var9 : Vec Ideal Cert.ReferenceIdeal.S1x1500 .f32)
    (A10 : Vec Ideal Cert.ReferenceIdeal.S16x178x1500 .f32)
    (hA10 : ∀ (t : Fin 178) (j : Fin 1500), A10 (ix3 u t j)
      = Cert.ReferenceIdeal.Gen.k9_pay1 (utt u A9) wr9 b9 mu9 var9 (ix3 (0 : Fin 1) t j))
    (hw9 : ∀ (k : Fin 512) (j : Fin 1500), w9 (ix2 k j) = wr9 (ix2 k j))
    (hb9 : ∀ j : Fin 1500, p9 (ix2 (0 : Fin 3) j) = b9 (ix2 (0 : Fin 1) j))
    (hs9 : ∀ j : Fin 1500, p9 (ix2 (1 : Fin 3) j) = Ideal.rsqrt (var9 (ix2 (0 : Fin 1) j) + Ideal.ofBits .f32 0x3727C5AC#32))
    (hm9 : ∀ j : Fin 1500, p9 (ix2 (2 : Fin 3) j)
      = mu9 (ix2 (0 : Fin 1) j) * Ideal.rsqrt (var9 (ix2 (0 : Fin 1) j) + Ideal.ofBits .f32 0x3727C5AC#32))
    (hmu9 : ∀ j : Fin 1500, ∃ r : ℝ, mu9 (ix2 (0 : Fin 1) j) = (r : EReal))
    (hvar9 : ∀ j : Fin 1500, ∃ r : ℝ, 0 ≤ r ∧ var9 (ix2 (0 : Fin 1) j) = (r : EReal)) :
    ∀ (t : Fin 178) (j : Fin 1500),
      T9 a w0 p0 w1 p1 w2 p2 w3 p3 w4 p4 w5 p5 w6 p6 w7 p7 w8 p8 w9 p9 (ix2 t j) = A10 (ix3 u t j) := by

  have h0 : ∀ (t : Fin 196) (j : Fin 512), T0 a w0 p0 (ix2 t j) = A1 (ix3 u t j) := fun t j =>
    (layer0_eq (x2 := a) (x3 := utt u A0) (w := w0) (w0 := wr0a) (w1 := wr0b) (w2 := wr0c) (w3 := wr0d) (w4 := wr0e)
      (p := p0) (b := b0) (mean := mu0) (var := var0) (hx := fun t f => hx t f)
      (hw0 := hw0a) (hw1 := hw0b) (hw2 := hw0c) (hw3 := hw0d) (hw4 := hw0e)
      (hp0 := hb0) (hp1 := hs0) (hp2 := hm0) (hmean := hmu0) (hvar := hvar0) t j).trans (hA1 t j).symm
  have h1 : ∀ (t : Fin 196) (j : Fin 512), T1 a w0 p0 w1 p1 (ix2 t j) = A2 (ix3 u t j) := fun t j =>
    (layer1_eq (x2 := toOperand (T0 a w0 p0)) (x3 := utt u A1) (w := w1) (w' := wr1) (p := p1) (b := b1) (mean := mu1)
      (var := var1) (hx := fun t k => h0 t k) (hw := hw1) (hp0 := hb1) (hp1 := hs1) (hp2 := hm1) (hmean := hmu1)
      (hvar := hvar1) t j).trans (hA2 t j).symm
  have h2 : ∀ (t : Fin 192) (j : Fin 512), T2 a w0 p0 w1 p1 w2 p2 (ix2 t j) = A3 (ix3 u t j) := fun t j =>
    (layer2_eq (x2 := toOperand (T1 a w0 p0 w1 p1)) (x3 := utt u A2) (w := w2) (w0 := wr2a) (w1 := wr2b) (w2 := wr2c)
      (p := p2) (b := b2) (mean := mu2) (var := var2) (hx := fun t k => h1 t k) (hw0 := hw2a) (hw1 := hw2b) (hw2 := hw2c)
      (hp0 := hb2) (hp1 := hs2) (hp2 := hm2) (hmean := hmu2) (hvar := hvar2) t j).trans (hA3 t j).symm
  have h3 : ∀ (t : Fin 192) (j : Fin 512), T3 a w0 p0 w1 p1 w2 p2 w3 p3 (ix2 t j) = A4 (ix3 u t j) := fun t j =>
    (layer3_eq (x2 := toOperand (T2 a w0 p0 w1 p1 w2 p2)) (x3 := utt u A3) (w := w3) (w' := wr3) (p := p3) (b := b3)
      (mean := mu3) (var := var3) (hx := fun t k => h2 t k) (hw := hw3) (hp0 := hb3) (hp1 := hs3) (hp2 := hm3)
      (hmean := hmu3) (hvar := hvar3) t j).trans (hA4 t j).symm
  have h4 : ∀ (t : Fin 186) (j : Fin 512), T4 a w0 p0 w1 p1 w2 p2 w3 p3 w4 p4 (ix2 t j) = A5 (ix3 u t j) := fun t j =>
    (layer4_eq (x2 := toOperand (T3 a w0 p0 w1 p1 w2 p2 w3 p3)) (x3 := utt u A4) (w := w4) (w0 := wr4a) (w1 := wr4b)
      (w2 := wr4c) (p := p4) (b := b4) (mean := mu4) (var := var4) (hx := fun t k => h3 t k) (hw0 := hw4a) (hw1 := hw4b)
      (hw2 := hw4c) (hp0 := hb4) (hp1 := hs4) (hp2 := hm4) (hmean := hmu4) (hvar := hvar4) t j).trans (hA5 t j).symm
  have h5 : ∀ (t : Fin 186) (j : Fin 512), T5 a w0 p0 w1 p1 w2 p2 w3 p3 w4 p4 w5 p5 (ix2 t j) = A6 (ix3 u t j) := fun t j =>
    (layer5_eq (x2 := toOperand (T4 a w0 p0 w1 p1 w2 p2 w3 p3 w4 p4)) (x3 := utt u A5) (w := w5) (w' := wr5) (p := p5)
      (b := b5) (mean := mu5) (var := var5) (hx := fun t k => h4 t k) (hw := hw5) (hp0 := hb5) (hp1 := hs5) (hp2 := hm5)
      (hmean := hmu5) (hvar := hvar5) t j).trans (hA6 t j).symm
  have h6 : ∀ (t : Fin 178) (j : Fin 512), T6 a w0 p0 w1 p1 w2 p2 w3 p3 w4 p4 w5 p5 w6 p6 (ix2 t j) = A7 (ix3 u t j) :=
    fun t j =>
    (layer6_eq (x2 := toOperand (T5 a w0 p0 w1 p1 w2 p2 w3 p3 w4 p4 w5 p5)) (x3 := utt u A6) (w := w6) (w0 := wr6a)
      (w1 := wr6b) (w2 := wr6c) (p := p6) (b := b6) (mean := mu6) (var := var6) (hx := fun t k => h5 t k) (hw0 := hw6a)
      (hw1 := hw6b) (hw2 := hw6c) (hp0 := hb6) (hp1 := hs6) (hp2 := hm6) (hmean := hmu6) (hvar := hvar6) t j).trans
      (hA7 t j).symm
  have h7 : ∀ (t : Fin 178) (j : Fin 512), T7 a w0 p0 w1 p1 w2 p2 w3 p3 w4 p4 w5 p5 w6 p6 w7 p7 (ix2 t j) = A8 (ix3 u t j) :=
    fun t j =>
    (layer7_eq (x2 := toOperand (T6 a w0 p0 w1 p1 w2 p2 w3 p3 w4 p4 w5 p5 w6 p6)) (x3 := utt u A7) (w := w7) (w' := wr7)
      (p := p7) (b := b7) (mean := mu7) (var := var7) (hx := fun t k => h6 t k) (hw := hw7) (hp0 := hb7) (hp1 := hs7)
      (hp2 := hm7) (hmean := hmu7) (hvar := hvar7) t j).trans (hA8 t j).symm
  have h8 : ∀ (t : Fin 178) (j : Fin 512),
      T8 a w0 p0 w1 p1 w2 p2 w3 p3 w4 p4 w5 p5 w6 p6 w7 p7 w8 p8 (ix2 t j) = A9 (ix3 u t j) := fun t j =>
    (layer8_eq (x2 := toOperand (T7 a w0 p0 w1 p1 w2 p2 w3 p3 w4 p4 w5 p5 w6 p6 w7 p7)) (x3 := utt u A8) (w := w8)
      (w' := wr8) (p := p8) (b := b8) (mean := mu8) (var := var8) (hx := fun t k => h7 t k) (hw := hw8) (hp0 := hb8)
      (hp1 := hs8) (hp2 := hm8) (hmean := hmu8) (hvar := hvar8) t j).trans (hA9 t j).symm
  exact fun t j =>
    (layer9_eq (x2 := toOperand (T8 a w0 p0 w1 p1 w2 p2 w3 p3 w4 p4 w5 p5 w6 p6 w7 p7 w8 p8)) (x3 := utt u A9) (w := w9)
      (w' := wr9) (p := p9) (b := b9) (mean := mu9) (var := var9) (hx := fun t k => h8 t k) (hw := hw9) (hp0 := hb9)
      (hp1 := hs9) (hp2 := hm9) (hmean := hmu9) (hvar := hvar9) t j).trans (hA10 t j).symm

end Cert.Math

end
-- ==== Proof.R.Out.lean ====
import proofs.«169142_g2000501041679005_pallasbulk_208_6_alg».proof.Proof.RF.Reg0
import proofs.«169142_g2000501041679005_pallasbulk_208_6_alg».proof.Proof.RF.Reg1
import proofs.«169142_g2000501041679005_pallasbulk_208_6_alg».proof.Proof.RF.Reg2
import proofs.«169142_g2000501041679005_pallasbulk_208_6_alg».proof.Proof.RF.Reg3
import proofs.«169142_g2000501041679005_pallasbulk_208_6_alg».proof.Proof.RF.Reg4
import proofs.«169142_g2000501041679005_pallasbulk_208_6_alg».proof.Proof.RF.Reg5
import proofs.«169142_g2000501041679005_pallasbulk_208_6_alg».proof.Proof.RF.Reg6
import proofs.«169142_g2000501041679005_pallasbulk_208_6_alg».proof.Proof.RF.Reg7
import proofs.«169142_g2000501041679005_pallasbulk_208_6_alg».proof.Proof.RF.Reg8
import proofs.«169142_g2000501041679005_pallasbulk_208_6_alg».proof.Proof.RF.Reg9
import proofs.«169142_g2000501041679005_pallasbulk_208_6_alg».proof.Proof.RF.Reg10
import Idealize.ShloMosaic.Lib.Pipeline.Value
import Idealize.ShloMosaic.Lib.ValueIdx

set_option maxRecDepth 16384

noncomputable section

namespace Cert.ReferenceIdeal.Val

open Cert.ReferenceIdeal Cert.ReferenceIdeal.Gen
open Idealize.ShloMosaic Idealize.ShloMosaic.ValueIdx

variable {F : FTy → Type} [FloatOps F]

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

theorem ld_rows {R C r : Nat} (W : Vec F (⟨2, ![R, C]⟩ : Shape) .f32) (off : Nat)
    (inb : ∀ a, (![off, 0] : Fin 2 → Nat) a + (⟨2, ![r, C]⟩ : Shape).size a ≤ (⟨2, ![R, C]⟩ : Shape).size a)
    (a : Fin r) (j : Fin C) (c : Fin R) (hc : c.val = off + a.val) :
    View.ld W (Rect.unit (s := ⟨2, ![R, C]⟩) ![off, 0] (⟨2, ![r, C]⟩ : Shape).size inb) (ix2 a j) = W (ix2 c j) := by
  show W ((Rect.unit (s := ⟨2, ![R, C]⟩) ![off, 0] (⟨2, ![r, C]⟩ : Shape).size inb).emb (ix2 a j)) = W (ix2 c j)
  refine congrArg W ?_
  funext d; apply Fin.ext
  match d with
  | ⟨0, _⟩ => show off + 1 * a.val = c.val; omega
  | ⟨1, _⟩ => show 0 + 1 * j.val = j.val; omega

theorem ld_slab {U T D : Nat} (X : Vec F (⟨3, ![U, T, D]⟩ : Shape) .f32) (u : Fin U)
    (inb : ∀ a, (![u.val, 0, 0] : Fin 3 → Nat) a + (⟨3, ![1, T, D]⟩ : Shape).size a ≤ (⟨3, ![U, T, D]⟩ : Shape).size a)
    (z : Fin 1) (t : Fin T) (j : Fin D) :
    View.ld X (Rect.unit (s := ⟨3, ![U, T, D]⟩) ![u.val, 0, 0] (⟨3, ![1, T, D]⟩ : Shape).size inb) (ix3 z t j) = X (ix3 u t j) := by
  show X ((Rect.unit (s := ⟨3, ![U, T, D]⟩) ![u.val, 0, 0] (⟨3, ![1, T, D]⟩ : Shape).size inb).emb (ix3 z t j)) = X (ix3 u t j)
  refine congrArg X ?_
  funext d; apply Fin.ext
  have hz : z.val = 0 := by omega
  match d with
  | ⟨0, _⟩ => show u.val + 1 * z.val = u.val; omega
  | ⟨1, _⟩ => show 0 + 1 * t.val = t.val; omega
  | ⟨2, _⟩ => show 0 + 1 * j.val = j.val; omega

theorem out0_5_eq (x0 : Vec F S1x200x30 .f32) (x1 : Vec F S150x512 .f32) (x2 x3 x4 : Vec F S1x512 .f32) :
    out0_5 x0 x1 x2 x3 x4
      = k0_pay1 (k0_pay2 x0 (View.ld x1 r0_1) (View.ld x1 r0_2) (View.ld x1 r0_3) (View.ld x1 r0_4) (View.ld x1 r0_5) x2 x3)
          (k0_pay3 x4) (Scalar.ofBits .f32 0x3727C5AC#32) := by
  unfold out0_5
  rw [View.canon_unit_zero hz3]
  simp only [View.ld_unit_zero (S := S1x200x30) hz3, View.ld_unit_zero (S := S1x512) hz2]

theorem w0_piece0 (W : Vec F S150x512 .f32) (a : Fin 30) (j : Fin 512) (c : Fin 150) (hc : c.val = 0 + a.val) :
    View.ld W r0_1 (ix2 a j) = W (ix2 c j) := ld_rows W 0 _ a j c hc

theorem w0_piece1 (W : Vec F S150x512 .f32) (a : Fin 30) (j : Fin 512) (c : Fin 150) (hc : c.val = 30 + a.val) :
    View.ld W r0_2 (ix2 a j) = W (ix2 c j) := ld_rows W 30 _ a j c hc

theorem w0_piece2 (W : Vec F S150x512 .f32) (a : Fin 30) (j : Fin 512) (c : Fin 150) (hc : c.val = 60 + a.val) :
    View.ld W r0_3 (ix2 a j) = W (ix2 c j) := ld_rows W 60 _ a j c hc

theorem w0_piece3 (W : Vec F S150x512 .f32) (a : Fin 30) (j : Fin 512) (c : Fin 150) (hc : c.val = 90 + a.val) :
    View.ld W r0_4 (ix2 a j) = W (ix2 c j) := ld_rows W 90 _ a j c hc

theorem w0_piece4 (W : Vec F S150x512 .f32) (a : Fin 30) (j : Fin 512) (c : Fin 150) (hc : c.val = 120 + a.val) :
    View.ld W r0_5 (ix2 a j) = W (ix2 c j) := ld_rows W 120 _ a j c hc

theorem out1_5_eq (x0 : Vec F S1x196x512 .f32) (x1 : Vec F S512x512 .f32) (x2 x3 x4 : Vec F S1x512 .f32) :
    out1_5 x0 x1 x2 x3 x4 = k1_pay1 x0 x1 x2 x3 x4 := by
  unfold out1_5
  rw [View.canon_unit_zero hz3]
  simp only [View.ld_unit_zero (S := S1x196x512) hz3, View.ld_unit_zero (S := S512x512) hz2, View.ld_unit_zero (S := S1x512) hz2]

theorem out2_5_eq (x0 : Vec F S1x196x512 .f32) (x1 : Vec F S1536x512 .f32) (x2 x3 x4 : Vec F S1x512 .f32) :
    out2_5 x0 x1 x2 x3 x4 = k2_pay1 x0 (View.ld x1 r2_1) (View.ld x1 r2_2) (View.ld x1 r2_3) x2 x3 x4 := by
  unfold out2_5
  rw [View.canon_unit_zero hz3]
  simp only [View.ld_unit_zero (S := S1x196x512) hz3, View.ld_unit_zero (S := S1x512) hz2]

theorem w2_piece0 (W : Vec F S1536x512 .f32) (a : Fin 512) (j : Fin 512) (c : Fin 1536) (hc : c.val = 0 + a.val) :
    View.ld W r2_1 (ix2 a j) = W (ix2 c j) := ld_rows W 0 _ a j c hc

theorem w2_piece1 (W : Vec F S1536x512 .f32) (a : Fin 512) (j : Fin 512) (c : Fin 1536) (hc : c.val = 512 + a.val) :
    View.ld W r2_2 (ix2 a j) = W (ix2 c j) := ld_rows W 512 _ a j c hc

theorem w2_piece2 (W : Vec F S1536x512 .f32) (a : Fin 512) (j : Fin 512) (c : Fin 1536) (hc : c.val = 1024 + a.val) :
    View.ld W r2_3 (ix2 a j) = W (ix2 c j) := ld_rows W 1024 _ a j c hc

theorem out3_5_eq (x0 : Vec F S1x192x512 .f32) (x1 : Vec F S512x512 .f32) (x2 x3 x4 : Vec F S1x512 .f32) :
    out3_5 x0 x1 x2 x3 x4 = k3_pay1 x0 x1 x2 x3 x4 := by
  unfold out3_5
  rw [View.canon_unit_zero hz3]
  simp only [View.ld_unit_zero (S := S1x192x512) hz3, View.ld_unit_zero (S := S512x512) hz2, View.ld_unit_zero (S := S1x512) hz2]

theorem out4_5_eq (x0 : Vec F S1x192x512 .f32) (x1 : Vec F S1536x512 .f32) (x2 x3 x4 : Vec F S1x512 .f32) :
    out4_5 x0 x1 x2 x3 x4 = k4_pay1 x0 (View.ld x1 r4_1) (View.ld x1 r4_2) (View.ld x1 r4_3) x2 x3 x4 := by
  unfold out4_5
  rw [View.canon_unit_zero hz3]
  simp only [View.ld_unit_zero (S := S1x192x512) hz3, View.ld_unit_zero (S := S1x512) hz2]

theorem w4_piece0 (W : Vec F S1536x512 .f32) (a : Fin 512) (j : Fin 512) (c : Fin 1536) (hc : c.val = 0 + a.val) :
    View.ld W r4_1 (ix2 a j) = W (ix2 c j) := ld_rows W 0 _ a j c hc

theorem w4_piece1 (W : Vec F S1536x512 .f32) (a : Fin 512) (j : Fin 512) (c : Fin 1536) (hc : c.val = 512 + a.val) :
    View.ld W r4_2 (ix2 a j) = W (ix2 c j) := ld_rows W 512 _ a j c hc

theorem w4_piece2 (W : Vec F S1536x512 .f32) (a : Fin 512) (j : Fin 512) (c : Fin 1536) (hc : c.val = 1024 + a.val) :
    View.ld W r4_3 (ix2 a j) = W (ix2 c j) := ld_rows W 1024 _ a j c hc

theorem out5_5_eq (x0 : Vec F S1x186x512 .f32) (x1 : Vec F S512x512 .f32) (x2 x3 x4 : Vec F S1x512 .f32) :
    out5_5 x0 x1 x2 x3 x4 = k5_pay1 x0 x1 x2 x3 x4 := by
  unfold out5_5
  rw [View.canon_unit_zero hz3]
  simp only [View.ld_unit_zero (S := S1x186x512) hz3, View.ld_unit_zero (S := S512x512) hz2, View.ld_unit_zero (S := S1x512) hz2]

theorem out6_5_eq (x0 : Vec F S1x186x512 .f32) (x1 : Vec F S1536x512 .f32) (x2 x3 x4 : Vec F S1x512 .f32) :
    out6_5 x0 x1 x2 x3 x4 = k6_pay1 x0 (View.ld x1 r6_1) (View.ld x1 r6_2) (View.ld x1 r6_3) x2 x3 x4 := by
  unfold out6_5
  rw [View.canon_unit_zero hz3]
  simp only [View.ld_unit_zero (S := S1x186x512) hz3, View.ld_unit_zero (S := S1x512) hz2]

theorem w6_piece0 (W : Vec F S1536x512 .f32) (a : Fin 512) (j : Fin 512) (c : Fin 1536) (hc : c.val = 0 + a.val) :
    View.ld W r6_1 (ix2 a j) = W (ix2 c j) := ld_rows W 0 _ a j c hc

theorem w6_piece1 (W : Vec F S1536x512 .f32) (a : Fin 512) (j : Fin 512) (c : Fin 1536) (hc : c.val = 512 + a.val) :
    View.ld W r6_2 (ix2 a j) = W (ix2 c j) := ld_rows W 512 _ a j c hc

theorem w6_piece2 (W : Vec F S1536x512 .f32) (a : Fin 512) (j : Fin 512) (c : Fin 1536) (hc : c.val = 1024 + a.val) :
    View.ld W r6_3 (ix2 a j) = W (ix2 c j) := ld_rows W 1024 _ a j c hc

theorem out7_5_eq (x0 : Vec F S1x178x512 .f32) (x1 : Vec F S512x512 .f32) (x2 x3 x4 : Vec F S1x512 .f32) :
    out7_5 x0 x1 x2 x3 x4 = k7_pay1 x0 x1 x2 x3 x4 := by
  unfold out7_5
  rw [View.canon_unit_zero hz3]
  simp only [View.ld_unit_zero (S := S1x178x512) hz3, View.ld_unit_zero (S := S512x512) hz2, View.ld_unit_zero (S := S1x512) hz2]

theorem out8_5_eq (x0 : Vec F S1x178x512 .f32) (x1 : Vec F S512x512 .f32) (x2 x3 x4 : Vec F S1x512 .f32) :
    out8_5 x0 x1 x2 x3 x4 = k8_pay1 x0 x1 x2 x3 x4 := by
  unfold out8_5
  rw [View.canon_unit_zero hz3]
  simp only [View.ld_unit_zero (S := S1x178x512) hz3, View.ld_unit_zero (S := S512x512) hz2, View.ld_unit_zero (S := S1x512) hz2]

theorem out9_5_eq (x0 : Vec F S1x178x512 .f32) (x1 : Vec F S512x1500 .f32) (x2 x3 x4 : Vec F S1x1500 .f32) :
    out9_5 x0 x1 x2 x3 x4 = k9_pay1 x0 x1 x2 x3 x4 := by
  unfold out9_5
  rw [View.canon_unit_zero hz3]
  simp only [View.ld_unit_zero (S := S1x178x512) hz3, View.ld_unit_zero (S := S512x1500) hz2, View.ld_unit_zero (S := S1x1500) hz2]

end Cert.ReferenceIdeal.Val

end
-- ==== Proof.R.Arr0.lean ====
import proofs.«169142_g2000501041679005_pallasbulk_208_6_alg».proof.Proof.RF.Reg0
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N0 : cfg0.N = 16 := N_0

def pt0 (u : Fin 16) : Fin cfg0.N := ⟨u.val, by rw [N0]; exact u.isLt⟩

theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem idx_inj0 (t t' : Fin cfg0.N) (h : win0_5.index t = win0_5.index t') : t = t' := by
  obtain ⟨-, -, -, -, -, -, -, -, -, -, -, e, -, -⟩ := idx0 t
  obtain ⟨-, -, -, -, -, -, -, -, -, -, -, e', -, -⟩ := idx0 t'
  have h0 : win0_5.index t (0 : Fin 3) = win0_5.index t' (0 : Fin 3) := congrFun h (0 : Fin 3)
  exact Fin.ext (by omega)

theorem disjoint0 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj0 t t' h)

theorem blk0 (c : Dev nD) (t : Fin cfg0.N) :
    ((cfg0.win 5).blk t).view.read (Elt F) ((dat0 V c).arrAt 5 cfg0.N)
      = out0_5 (iblk0 V c 0 t) (iblk0 V c 1 t) (iblk0 V c 2 t) (iblk0 V c 3 t) (iblk0 V c 4 t) :=
  ((dat0 V c).read_blk_arrAt_eq_flushed 5 disjoint0 cfg0.N t t.isLt (flush0_5 t)).trans (by
    show (cfg0.win 5).cut (grid0.coords t) ((dat0 V c).after 5 t) = _
    rw [after0_5]; rfl)

theorem iblk0_0 (c : Dev nD) (u : Fin 16) (t : Fin 200) (j : Fin 30) :
    iblk0 V c 0 (pt0 u) (ix3 0 t j) = V c (Pipeline.arrRef spec0 0) (ix3 u t j) := by
  show V c (Pipeline.arrRef spec0 0) (((cfg0.win 0).blk (pt0 u)).view.emb (ix3 0 t j)) = V c (Pipeline.arrRef spec0 0) (ix3 u t j)
  refine congrArg (V c (Pipeline.arrRef spec0 0)) ?_
  obtain ⟨e0, e1, e2, -⟩ := idx0 (pt0 u)
  have hv : (pt0 u).val = u.val := rfl
  funext a; apply Fin.ext
  match a with
  | ⟨0, _⟩ => show win0_0.index (pt0 u) (0 : Fin 3) * 1 + 1 * 0 = u.val; omega
  | ⟨1, _⟩ => show win0_0.index (pt0 u) (1 : Fin 3) * 200 + 1 * t.val = t.val; omega
  | ⟨2, _⟩ => show win0_0.index (pt0 u) (2 : Fin 3) * 30 + 1 * j.val = j.val; omega

theorem iblk0_1 (c : Dev nD) (t : Fin cfg0.N) : iblk0 V c 1 t = V c (Pipeline.arrRef spec0 1) := by
  funext i
  show V c (Pipeline.arrRef spec0 1) (((cfg0.win 1).blk t).view.emb i) = V c (Pipeline.arrRef spec0 1) i
  refine congrArg (V c (Pipeline.arrRef spec0 1)) ?_
  obtain ⟨-, -, -, e0, e1, -⟩ := idx0 t
  funext a; apply Fin.ext
  match a with
  | ⟨0, _⟩ => show win0_1.index t (0 : Fin 2) * 150 + 1 * (i 0).val = (i 0).val; omega
  | ⟨1, _⟩ => show win0_1.index t (1 : Fin 2) * 512 + 1 * (i 1).val = (i 1).val; omega

theorem iblk0_2 (c : Dev nD) (t : Fin cfg0.N) : iblk0 V c 2 t = V c (Pipeline.arrRef spec0 2) := by
  funext i
  show V c (Pipeline.arrRef spec0 2) (((cfg0.win 2).blk t).view.emb i) = V c (Pipeline.arrRef spec0 2) i
  refine congrArg (V c (Pipeline.arrRef spec0 2)) ?_
  obtain ⟨-, -, -, -, -, e0, e1, -⟩ := idx0 t
  funext a; apply Fin.ext
  match a with
  | ⟨0, _⟩ => show win0_2.index t (0 : Fin 2) * 1 + 1 * (i 0).val = (i 0).val; omega
  | ⟨1, _⟩ => show win0_2.index t (1 : Fin 2) * 512 + 1 * (i 1).val = (i 1).val; omega

theorem iblk0_3 (c : Dev nD) (t : Fin cfg0.N) : iblk0 V c 3 t = V c (Pipeline.arrRef spec0 3) := by
  funext i
  show V c (Pipeline.arrRef spec0 3) (((cfg0.win 3).blk t).view.emb i) = V c (Pipeline.arrRef spec0 3) i
  refine congrArg (V c (Pipeline.arrRef spec0 3)) ?_
  obtain ⟨-, -, -, -, -, -, -, e0, e1, -⟩ := idx0 t
  funext a; apply Fin.ext
  match a with
  | ⟨0, _⟩ => show win0_3.index t (0 : Fin 2) * 1 + 1 * (i 0).val = (i 0).val; omega
  | ⟨1, _⟩ => show win0_3.index t (1 : Fin 2) * 512 + 1 * (i 1).val = (i 1).val; omega

theorem iblk0_4 (c : Dev nD) (t : Fin cfg0.N) : iblk0 V c 4 t = V c (Pipeline.arrRef spec0 4) := by
  funext i
  show V c (Pipeline.arrRef spec0 4) (((cfg0.win 4).blk t).view.emb i) = V c (Pipeline.arrRef spec0 4) i
  refine congrArg (V c (Pipeline.arrRef spec0 4)) ?_
  obtain ⟨-, -, -, -, -, -, -, -, -, e0, e1, -⟩ := idx0 t
  funext a; apply Fin.ext
  match a with
  | ⟨0, _⟩ => show win0_4.index t (0 : Fin 2) * 1 + 1 * (i 0).val = (i 0).val; omega
  | ⟨1, _⟩ => show win0_4.index t (1 : Fin 2) * 512 + 1 * (i 1).val = (i 1).val; omega

theorem arr0 (c : Dev nD) (u : Fin 16) (t : Fin 196) (j : Fin 512) :
    (dat0 V c).arrAt 5 cfg0.N (ix3 u t j)
      = out0_5 (iblk0 V c 0 (pt0 u)) (V c (Pipeline.arrRef spec0 1)) (V c (Pipeline.arrRef spec0 2))
          (V c (Pipeline.arrRef spec0 3)) (V c (Pipeline.arrRef spec0 4)) (ix3 0 t j) := by
  rw [← iblk0_1 V c (pt0 u), ← iblk0_2 V c (pt0 u), ← iblk0_3 V c (pt0 u), ← iblk0_4 V c (pt0 u)]
  refine Eq.trans ?_ (congrFun (blk0 V c (pt0 u)) (ix3 0 t j))
  show (dat0 V c).arrAt 5 cfg0.N (ix3 u t j) = (dat0 V c).arrAt 5 cfg0.N (((cfg0.win 5).blk (pt0 u)).view.emb (ix3 0 t j))
  refine congrArg ((dat0 V c).arrAt 5 cfg0.N) ?_
  obtain ⟨-, -, -, -, -, -, -, -, -, -, -, e0, e1, e2⟩ := idx0 (pt0 u)
  have hv : (pt0 u).val = u.val := rfl
  funext a; apply Fin.ext
  match a with
  | ⟨0, _⟩ => show u.val = win0_5.index (pt0 u) (0 : Fin 3) * 1 + 1 * 0; omega
  | ⟨1, _⟩ => show t.val = win0_5.index (pt0 u) (1 : Fin 3) * 196 + 1 * t.val; omega
  | ⟨2, _⟩ => show j.val = win0_5.index (pt0 u) (2 : Fin 3) * 512 + 1 * j.val; omega

theorem hzero0_3 : (![0, 0, 0] : Fin 3 → Nat) = fun _ => 0 := funext fun a => by fin_cases a <;> rfl
theorem hzero0_2 : (![0, 0] : Fin 2 → Nat) = fun _ => 0 := funext fun a => by fin_cases a <;> rfl

theorem out0_5_eq (x0 : Vec F S1x200x30 .f32) (x1 : Vec F S150x512 .f32) (x2 x3 x4 : Vec F S1x512 .f32) :
    out0_5 x0 x1 x2 x3 x4
      = k0_pay1 (k0_pay2 x0 (View.ld x1 r0_1) (View.ld x1 r0_2) (View.ld x1 r0_3) (View.ld x1 r0_4) (View.ld x1 r0_5) x2 x3)
          (k0_pay3 x4) (Scalar.ofBits .f32 0x3727C5AC#32) := by
  unfold out0_5
  rw [View.canon_unit_zero hzero0_3]
  simp only [View.ld_unit_zero (S := S1x200x30) hzero0_3, View.ld_unit_zero (S := S1x512) hzero0_2]

end Cert.ReferenceIdeal.Hand

end
-- ==== Proof.R.Arr1.lean ====
import proofs.«169142_g2000501041679005_pallasbulk_208_6_alg».proof.Proof.RF.Reg1
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N1 : cfg1.N = 16 := N_1

def pt1 (u : Fin 16) : Fin cfg1.N := ⟨u.val, by rw [N1]; exact u.isLt⟩

theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

theorem idx_inj1 (t t' : Fin cfg1.N) (h : win1_5.index t = win1_5.index t') : t = t' := by
  obtain ⟨-, -, -, -, -, -, -, -, -, -, -, e, -, -⟩ := idx1 t
  obtain ⟨-, -, -, -, -, -, -, -, -, -, -, e', -, -⟩ := idx1 t'
  have h0 : win1_5.index t (0 : Fin 3) = win1_5.index t' (0 : Fin 3) := congrFun h (0 : Fin 3)
  exact Fin.ext (by omega)

theorem disjoint1 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (idx_inj1 t t' h)

theorem blk1 (c : Dev nD) (t : Fin cfg1.N) :
    ((cfg1.win 5).blk t).view.read (Elt F) ((dat1 V c).arrAt 5 cfg1.N)
      = out1_5 (iblk1 V c 0 t) (iblk1 V c 1 t) (iblk1 V c 2 t) (iblk1 V c 3 t) (iblk1 V c 4 t) :=
  ((dat1 V c).read_blk_arrAt_eq_flushed 5 disjoint1 cfg1.N t t.isLt (flush1_5 t)).trans (by
    show (cfg1.win 5).cut (grid1.coords t) ((dat1 V c).after 5 t) = _
    rw [after1_5]; rfl)

theorem iblk1_0 (c : Dev nD) (u : Fin 16) (t : Fin 196) (j : Fin 512) :
    iblk1 V c 0 (pt1 u) (ix3 0 t j) = V c (Pipeline.arrRef spec1 0) (ix3 u t j) := by
  show V c (Pipeline.arrRef spec1 0) (((cfg1.win 0).blk (pt1 u)).view.emb (ix3 0 t j)) = V c (Pipeline.arrRef spec1 0) (ix3 u t j)
  refine congrArg (V c (Pipeline.arrRef spec1 0)) ?_
  obtain ⟨e0, e1, e2, -⟩ := idx1 (pt1 u)
  have hv : (pt1 u).val = u.val := rfl
  funext a; apply Fin.ext
  match a with
  | ⟨0, _⟩ => show win1_0.index (pt1 u) (0 : Fin 3) * 1 + 1 * 0 = u.val; omega
  | ⟨1, _⟩ => show win1_0.index (pt1 u) (1 : Fin 3) * 196 + 1 * t.val = t.val; omega
  | ⟨2, _⟩ => show win1_0.index (pt1 u) (2 : Fin 3) * 512 + 1 * j.val = j.val; omega

theorem iblk1_1 (c : Dev nD) (t : Fin cfg1.N) : iblk1 V c 1 t = V c (Pipeline.arrRef spec1 1) := by
  funext i
  show V c (Pipeline.arrRef spec1 1) (((cfg1.win 1).blk t).view.emb i) = V c (Pipeline.arrRef spec1 1) i
  refine congrArg (V c (Pipeline.arrRef spec1 1)) ?_
  obtain ⟨-, -, -, e0, e1, -⟩ := idx1 t
  funext a; apply Fin.ext
  match a with
  | ⟨0, _⟩ => show win1_1.index t (0 : Fin 2) * 512 + 1 * (i 0).val = (i 0).val; omega
  | ⟨1, _⟩ => show win1_1.index t (1 : Fin 2) * 512 + 1 * (i 1).val = (i 1).val; omega

theorem iblk1_2 (c : Dev nD) (t : Fin cfg1.N) : iblk1 V c 2 t = V c (Pipeline.arrRef spec1 2) := by
  funext i
  show V c (Pipeline.arrRef spec1 2) (((cfg1.win 2).blk t).view.emb i) = V c (Pipeline.arrRef spec1 2) i
  refine congrArg (V c (Pipeline.arrRef spec1 2)) ?_
  obtain ⟨-, -, -, -, -, e0, e1, -⟩ := idx1 t
  funext a; apply Fin.ext
  match a with
  | ⟨0, _⟩ => show win1_2.index t (0 : Fin 2) * 1 + 1 * (i 0).val = (i 0).val; omega
  | ⟨1, _⟩ => show win1_2.index t (1 : Fin 2) * 512 + 1 * (i 1).val = (i 1).val; omega

theorem iblk1_3 (c : Dev nD) (t : Fin cfg1.N) : iblk1 V c 3 t = V c (Pipeline.arrRef spec1 3) := by
  funext i
  show V c (Pipeline.arrRef spec1 3) (((cfg1.win 3).blk t).view.emb i) = V c (Pipeline.arrRef spec1 3) i
  refine congrArg (V c (Pipeline.arrRef spec1 3)) ?_
  obtain ⟨-, -, -, -, -, -, -, e0, e1, -⟩ := idx1 t
  funext a; apply Fin.ext
  match a with
  | ⟨0, _⟩ => show win1_3.index t (0 : Fin 2) * 1 + 1 * (i 0).val = (i 0).val; omega
  | ⟨1, _⟩ => show win1_3.index t (1 : Fin 2) * 512 + 1 * (i 1).val = (i 1).val; omega

theorem iblk1_4 (c : Dev nD) (t : Fin cfg1.N) : iblk1 V c 4 t = V c (Pipeline.arrRef spec1 4) := by
  funext i
  show V c (Pipeline.arrRef spec1 4) (((cfg1.win 4).blk t).view.emb i) = V c (Pipeline.arrRef spec1 4) i
  refine congrArg (V c (Pipeline.arrRef spec1 4)) ?_
  obtain ⟨-, -, -, -, -, -, -, -, -, e0, e1, -⟩ := idx1 t
  funext a; apply Fin.ext
  match a with
  | ⟨0, _⟩ => show win1_4.index t (0 : Fin 2) * 1 + 1 * (i 0).val = (i 0).val; omega
  | ⟨1, _⟩ => show win1_4.index t (1 : Fin 2) * 512 + 1 * (i 1).val = (i 1).val; omega

theorem arr1 (c : Dev nD) (u : Fin 16) (t : Fin 196) (j : Fin 512) :
    (dat1 V c).arrAt 5 cfg1.N (ix3 u t j)
      = out1_5 (iblk1 V c 0 (pt1 u)) (V c (Pipeline.arrRef spec1 1)) (V c (Pipeline.arrRef spec1 2))
          (V c (Pipeline.arrRef spec1 3)) (V c (Pipeline.arrRef spec1 4)) (ix3 0 t j) := by
  rw [← iblk1_1 V c (pt1 u), ← iblk1_2 V c (pt1 u), ← iblk1_3 V c (pt1 u), ← iblk1_4 V c (pt1 u)]
  refine Eq.trans ?_ (congrFun (blk1 V c (pt1 u)) (ix3 0 t j))
  show (dat1 V c).arrAt 5 cfg1.N (ix3 u t j) = (dat1 V c).arrAt 5 cfg1.N (((cfg1.win 5).blk (pt1 u)).view.emb (ix3 0 t j))
  refine congrArg ((dat1 V c).arrAt 5 cfg1.N) ?_
  obtain ⟨-, -, -, -, -, -, -, -, -, -, -, e0, e1, e2⟩ := idx1 (pt1 u)
  have hv : (pt1 u).val = u.val := rfl
  funext a; apply Fin.ext
  match a with
  | ⟨0, _⟩ => show u.val = win1_5.index (pt1 u) (0 : Fin 3) * 1 + 1 * 0; omega
  | ⟨1, _⟩ => show t.val = win1_5.index (pt1 u) (1 : Fin 3) * 196 + 1 * t.val; omega
  | ⟨2, _⟩ => show j.val = win1_5.index (pt1 u) (2 : Fin 3) * 512 + 1 * j.val; omega

theorem hzero1_3 : (![0, 0, 0] : Fin 3 → Nat) = fun _ => 0 := funext fun a => by fin_cases a <;> rfl
theorem hzero1_2 : (![0, 0] : Fin 2 → Nat) = fun _ => 0 := funext fun a => by fin_cases a <;> rfl

theorem out1_5_eq (x0 : Vec F S1x196x512 .f32) (x1 : Vec F S512x512 .f32) (x2 x3 x4 : Vec F S1x512 .f32) :
    out1_5 x0 x1 x2 x3 x4 = k1_pay1 x0 x1 x2 x3 x4 := by
  unfold out1_5
  rw [View.canon_unit_zero hzero1_3]
  simp only [View.ld_unit_zero (S := S1x196x512) hzero1_3, View.ld_unit_zero (S := S512x512) hzero1_2, View.ld_unit_zero (S := S1x512) hzero1_2]

end Cert.ReferenceIdeal.Hand

end
-- ==== Proof.R.Arr2.lean ====
import proofs.«169142_g2000501041679005_pallasbulk_208_6_alg».proof.Proof.RF.Reg2
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N2 : cfg2.N = 16 := N_2

def pt2 (u : Fin 16) : Fin cfg2.N := ⟨u.val, by rw [N2]; exact u.isLt⟩

theorem idx2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

theorem idx_inj2 (t t' : Fin cfg2.N) (h : win2_5.index t = win2_5.index t') : t = t' := by
  obtain ⟨-, -, -, -, -, -, -, -, -, -, -, e, -, -⟩ := idx2 t
  obtain ⟨-, -, -, -, -, -, -, -, -, -, -, e', -, -⟩ := idx2 t'
  have h0 : win2_5.index t (0 : Fin 3) = win2_5.index t' (0 : Fin 3) := congrFun h (0 : Fin 3)
  exact Fin.ext (by omega)

theorem disjoint2 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (idx_inj2 t t' h)

theorem blk2 (c : Dev nD) (t : Fin cfg2.N) :
    ((cfg2.win 5).blk t).view.read (Elt F) ((dat2 V c).arrAt 5 cfg2.N)
      = out2_5 (iblk2 V c 0 t) (iblk2 V c 1 t) (iblk2 V c 2 t) (iblk2 V c 3 t) (iblk2 V c 4 t) :=
  ((dat2 V c).read_blk_arrAt_eq_flushed 5 disjoint2 cfg2.N t t.isLt (flush2_5 t)).trans (by
    show (cfg2.win 5).cut (grid2.coords t) ((dat2 V c).after 5 t) = _
    rw [after2_5]; rfl)

theorem iblk2_0 (c : Dev nD) (u : Fin 16) (t : Fin 196) (j : Fin 512) :
    iblk2 V c 0 (pt2 u) (ix3 0 t j) = V c (Pipeline.arrRef spec2 0) (ix3 u t j) := by
  show V c (Pipeline.arrRef spec2 0) (((cfg2.win 0).blk (pt2 u)).view.emb (ix3 0 t j)) = V c (Pipeline.arrRef spec2 0) (ix3 u t j)
  refine congrArg (V c (Pipeline.arrRef spec2 0)) ?_
  obtain ⟨e0, e1, e2, -⟩ := idx2 (pt2 u)
  have hv : (pt2 u).val = u.val := rfl
  funext a; apply Fin.ext
  match a with
  | ⟨0, _⟩ => show win2_0.index (pt2 u) (0 : Fin 3) * 1 + 1 * 0 = u.val; omega
  | ⟨1, _⟩ => show win2_0.index (pt2 u) (1 : Fin 3) * 196 + 1 * t.val = t.val; omega
  | ⟨2, _⟩ => show win2_0.index (pt2 u) (2 : Fin 3) * 512 + 1 * j.val = j.val; omega

theorem iblk2_1 (c : Dev nD) (t : Fin cfg2.N) : iblk2 V c 1 t = V c (Pipeline.arrRef spec2 1) := by
  funext i
  show V c (Pipeline.arrRef spec2 1) (((cfg2.win 1).blk t).view.emb i) = V c (Pipeline.arrRef spec2 1) i
  refine congrArg (V c (Pipeline.arrRef spec2 1)) ?_
  obtain ⟨-, -, -, e0, e1, -⟩ := idx2 t
  funext a; apply Fin.ext
  match a with
  | ⟨0, _⟩ => show win2_1.index t (0 : Fin 2) * 1536 + 1 * (i 0).val = (i 0).val; omega
  | ⟨1, _⟩ => show win2_1.index t (1 : Fin 2) * 512 + 1 * (i 1).val = (i 1).val; omega

theorem iblk2_2 (c : Dev nD) (t : Fin cfg2.N) : iblk2 V c 2 t = V c (Pipeline.arrRef spec2 2) := by
  funext i
  show V c (Pipeline.arrRef spec2 2) (((cfg2.win 2).blk t).view.emb i) = V c (Pipeline.arrRef spec2 2) i
  refine congrArg (V c (Pipeline.arrRef spec2 2)) ?_
  obtain ⟨-, -, -, -, -, e0, e1, -⟩ := idx2 t
  funext a; apply Fin.ext
  match a with
  | ⟨0, _⟩ => show win2_2.index t (0 : Fin 2) * 1 + 1 * (i 0).val = (i 0).val; omega
  | ⟨1, _⟩ => show win2_2.index t (1 : Fin 2) * 512 + 1 * (i 1).val = (i 1).val; omega

theorem iblk2_3 (c : Dev nD) (t : Fin cfg2.N) : iblk2 V c 3 t = V c (Pipeline.arrRef spec2 3) := by
  funext i
  show V c (Pipeline.arrRef spec2 3) (((cfg2.win 3).blk t).view.emb i) = V c (Pipeline.arrRef spec2 3) i
  refine congrArg (V c (Pipeline.arrRef spec2 3)) ?_
  obtain ⟨-, -, -, -, -, -, -, e0, e1, -⟩ := idx2 t
  funext a; apply Fin.ext
  match a with
  | ⟨0, _⟩ => show win2_3.index t (0 : Fin 2) * 1 + 1 * (i 0).val = (i 0).val; omega
  | ⟨1, _⟩ => show win2_3.index t (1 : Fin 2) * 512 + 1 * (i 1).val = (i 1).val; omega

theorem iblk2_4 (c : Dev nD) (t : Fin cfg2.N) : iblk2 V c 4 t = V c (Pipeline.arrRef spec2 4) := by
  funext i
  show V c (Pipeline.arrRef spec2 4) (((cfg2.win 4).blk t).view.emb i) = V c (Pipeline.arrRef spec2 4) i
  refine congrArg (V c (Pipeline.arrRef spec2 4)) ?_
  obtain ⟨-, -, -, -, -, -, -, -, -, e0, e1, -⟩ := idx2 t
  funext a; apply Fin.ext
  match a with
  | ⟨0, _⟩ => show win2_4.index t (0 : Fin 2) * 1 + 1 * (i 0).val = (i 0).val; omega
  | ⟨1, _⟩ => show win2_4.index t (1 : Fin 2) * 512 + 1 * (i 1).val = (i 1).val; omega

theorem arr2 (c : Dev nD) (u : Fin 16) (t : Fin 192) (j : Fin 512) :
    (dat2 V c).arrAt 5 cfg2.N (ix3 u t j)
      = out2_5 (iblk2 V c 0 (pt2 u)) (V c (Pipeline.arrRef spec2 1)) (V c (Pipeline.arrRef spec2 2))
          (V c (Pipeline.arrRef spec2 3)) (V c (Pipeline.arrRef spec2 4)) (ix3 0 t j) := by
  rw [← iblk2_1 V c (pt2 u), ← iblk2_2 V c (pt2 u), ← iblk2_3 V c (pt2 u), ← iblk2_4 V c (pt2 u)]
  refine Eq.trans ?_ (congrFun (blk2 V c (pt2 u)) (ix3 0 t j))
  show (dat2 V c).arrAt 5 cfg2.N (ix3 u t j) = (dat2 V c).arrAt 5 cfg2.N (((cfg2.win 5).blk (pt2 u)).view.emb (ix3 0 t j))
  refine congrArg ((dat2 V c).arrAt 5 cfg2.N) ?_
  obtain ⟨-, -, -, -, -, -, -, -, -, -, -, e0, e1, e2⟩ := idx2 (pt2 u)
  have hv : (pt2 u).val = u.val := rfl
  funext a; apply Fin.ext
  match a with
  | ⟨0, _⟩ => show u.val = win2_5.index (pt2 u) (0 : Fin 3) * 1 + 1 * 0; omega
  | ⟨1, _⟩ => show t.val = win2_5.index (pt2 u) (1 : Fin 3) * 192 + 1 * t.val; omega
  | ⟨2, _⟩ => show j.val = win2_5.index (pt2 u) (2 : Fin 3) * 512 + 1 * j.val; omega

theorem hzero2_3 : (![0, 0, 0] : Fin 3 → Nat) = fun _ => 0 := funext fun a => by fin_cases a <;> rfl
theorem hzero2_2 : (![0, 0] : Fin 2 → Nat) = fun _ => 0 := funext fun a => by fin_cases a <;> rfl

theorem out2_5_eq (x0 : Vec F S1x196x512 .f32) (x1 : Vec F S1536x512 .f32) (x2 x3 x4 : Vec F S1x512 .f32) :
    out2_5 x0 x1 x2 x3 x4 = k2_pay1 x0 (View.ld x1 r2_1) (View.ld x1 r2_2) (View.ld x1 r2_3) x2 x3 x4 := by
  unfold out2_5
  rw [View.canon_unit_zero hzero2_3]
  simp only [View.ld_unit_zero (S := S1x196x512) hzero2_3, View.ld_unit_zero (S := S1x512) hzero2_2]

end Cert.ReferenceIdeal.Hand

end
-- ==== Proof.R.Arr3.lean ====
import proofs.«169142_g2000501041679005_pallasbulk_208_6_alg».proof.Proof.RF.Reg3
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N3 : cfg3.N = 16 := N_3

def pt3 (u : Fin 16) : Fin cfg3.N := ⟨u.val, by rw [N3]; exact u.isLt⟩

theorem idx3 : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 3) = t.val ∧ win3_5.index t (1 : Fin 3) = 0 ∧ win3_5.index t (2 : Fin 3) = 0 :=
  (by decide +kernel : ∀ t : Fin grid3.N, _)

theorem idx_inj3 (t t' : Fin cfg3.N) (h : win3_5.index t = win3_5.index t') : t = t' := by
  obtain ⟨-, -, -, -, -, -, -, -, -, -, -, e, -, -⟩ := idx3 t
  obtain ⟨-, -, -, -, -, -, -, -, -, -, -, e', -, -⟩ := idx3 t'
  have h0 : win3_5.index t (0 : Fin 3) = win3_5.index t' (0 : Fin 3) := congrFun h (0 : Fin 3)
  exact Fin.ext (by omega)

theorem disjoint3 : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (idx_inj3 t t' h)

theorem blk3 (c : Dev nD) (t : Fin cfg3.N) :
    ((cfg3.win 5).blk t).view.read (Elt F) ((dat3 V c).arrAt 5 cfg3.N)
      = out3_5 (iblk3 V c 0 t) (iblk3 V c 1 t) (iblk3 V c 2 t) (iblk3 V c 3 t) (iblk3 V c 4 t) :=
  ((dat3 V c).read_blk_arrAt_eq_flushed 5 disjoint3 cfg3.N t t.isLt (flush3_5 t)).trans (by
    show (cfg3.win 5).cut (grid3.coords t) ((dat3 V c).after 5 t) = _
    rw [after3_5]; rfl)

theorem iblk3_0 (c : Dev nD) (u : Fin 16) (t : Fin 192) (j : Fin 512) :
    iblk3 V c 0 (pt3 u) (ix3 0 t j) = V c (Pipeline.arrRef spec3 0) (ix3 u t j) := by
  show V c (Pipeline.arrRef spec3 0) (((cfg3.win 0).blk (pt3 u)).view.emb (ix3 0 t j)) = V c (Pipeline.arrRef spec3 0) (ix3 u t j)
  refine congrArg (V c (Pipeline.arrRef spec3 0)) ?_
  obtain ⟨e0, e1, e2, -⟩ := idx3 (pt3 u)
  have hv : (pt3 u).val = u.val := rfl
  funext a; apply Fin.ext
  match a with
  | ⟨0, _⟩ => show win3_0.index (pt3 u) (0 : Fin 3) * 1 + 1 * 0 = u.val; omega
  | ⟨1, _⟩ => show win3_0.index (pt3 u) (1 : Fin 3) * 192 + 1 * t.val = t.val; omega
  | ⟨2, _⟩ => show win3_0.index (pt3 u) (2 : Fin 3) * 512 + 1 * j.val = j.val; omega

theorem iblk3_1 (c : Dev nD) (t : Fin cfg3.N) : iblk3 V c 1 t = V c (Pipeline.arrRef spec3 1) := by
  funext i
  show V c (Pipeline.arrRef spec3 1) (((cfg3.win 1).blk t).view.emb i) = V c (Pipeline.arrRef spec3 1) i
  refine congrArg (V c (Pipeline.arrRef spec3 1)) ?_
  obtain ⟨-, -, -, e0, e1, -⟩ := idx3 t
  funext a; apply Fin.ext
  match a with
  | ⟨0, _⟩ => show win3_1.index t (0 : Fin 2) * 512 + 1 * (i 0).val = (i 0).val; omega
  | ⟨1, _⟩ => show win3_1.index t (1 : Fin 2) * 512 + 1 * (i 1).val = (i 1).val; omega

theorem iblk3_2 (c : Dev nD) (t : Fin cfg3.N) : iblk3 V c 2 t = V c (Pipeline.arrRef spec3 2) := by
  funext i
  show V c (Pipeline.arrRef spec3 2) (((cfg3.win 2).blk t).view.emb i) = V c (Pipeline.arrRef spec3 2) i
  refine congrArg (V c (Pipeline.arrRef spec3 2)) ?_
  obtain ⟨-, -, -, -, -, e0, e1, -⟩ := idx3 t
  funext a; apply Fin.ext
  match a with
  | ⟨0, _⟩ => show win3_2.index t (0 : Fin 2) * 1 + 1 * (i 0).val = (i 0).val; omega
  | ⟨1, _⟩ => show win3_2.index t (1 : Fin 2) * 512 + 1 * (i 1).val = (i 1).val; omega

theorem iblk3_3 (c : Dev nD) (t : Fin cfg3.N) : iblk3 V c 3 t = V c (Pipeline.arrRef spec3 3) := by
  funext i
  show V c (Pipeline.arrRef spec3 3) (((cfg3.win 3).blk t).view.emb i) = V c (Pipeline.arrRef spec3 3) i
  refine congrArg (V c (Pipeline.arrRef spec3 3)) ?_
  obtain ⟨-, -, -, -, -, -, -, e0, e1, -⟩ := idx3 t
  funext a; apply Fin.ext
  match a with
  | ⟨0, _⟩ => show win3_3.index t (0 : Fin 2) * 1 + 1 * (i 0).val = (i 0).val; omega
  | ⟨1, _⟩ => show win3_3.index t (1 : Fin 2) * 512 + 1 * (i 1).val = (i 1).val; omega

theorem iblk3_4 (c : Dev nD) (t : Fin cfg3.N) : iblk3 V c 4 t = V c (Pipeline.arrRef spec3 4) := by
  funext i
  show V c (Pipeline.arrRef spec3 4) (((cfg3.win 4).blk t).view.emb i) = V c (Pipeline.arrRef spec3 4) i
  refine congrArg (V c (Pipeline.arrRef spec3 4)) ?_
  obtain ⟨-, -, -, -, -, -, -, -, -, e0, e1, -⟩ := idx3 t
  funext a; apply Fin.ext
  match a with
  | ⟨0, _⟩ => show win3_4.index t (0 : Fin 2) * 1 + 1 * (i 0).val = (i 0).val; omega
  | ⟨1, _⟩ => show win3_4.index t (1 : Fin 2) * 512 + 1 * (i 1).val = (i 1).val; omega

theorem arr3 (c : Dev nD) (u : Fin 16) (t : Fin 192) (j : Fin 512) :
    (dat3 V c).arrAt 5 cfg3.N (ix3 u t j)
      = out3_5 (iblk3 V c 0 (pt3 u)) (V c (Pipeline.arrRef spec3 1)) (V c (Pipeline.arrRef spec3 2))
          (V c (Pipeline.arrRef spec3 3)) (V c (Pipeline.arrRef spec3 4)) (ix3 0 t j) := by
  rw [← iblk3_1 V c (pt3 u), ← iblk3_2 V c (pt3 u), ← iblk3_3 V c (pt3 u), ← iblk3_4 V c (pt3 u)]
  refine Eq.trans ?_ (congrFun (blk3 V c (pt3 u)) (ix3 0 t j))
  show (dat3 V c).arrAt 5 cfg3.N (ix3 u t j) = (dat3 V c).arrAt 5 cfg3.N (((cfg3.win 5).blk (pt3 u)).view.emb (ix3 0 t j))
  refine congrArg ((dat3 V c).arrAt 5 cfg3.N) ?_
  obtain ⟨-, -, -, -, -, -, -, -, -, -, -, e0, e1, e2⟩ := idx3 (pt3 u)
  have hv : (pt3 u).val = u.val := rfl
  funext a; apply Fin.ext
  match a with
  | ⟨0, _⟩ => show u.val = win3_5.index (pt3 u) (0 : Fin 3) * 1 + 1 * 0; omega
  | ⟨1, _⟩ => show t.val = win3_5.index (pt3 u) (1 : Fin 3) * 192 + 1 * t.val; omega
  | ⟨2, _⟩ => show j.val = win3_5.index (pt3 u) (2 : Fin 3) * 512 + 1 * j.val; omega

theorem hzero3_3 : (![0, 0, 0] : Fin 3 → Nat) = fun _ => 0 := funext fun a => by fin_cases a <;> rfl
theorem hzero3_2 : (![0, 0] : Fin 2 → Nat) = fun _ => 0 := funext fun a => by fin_cases a <;> rfl

theorem out3_5_eq (x0 : Vec F S1x192x512 .f32) (x1 : Vec F S512x512 .f32) (x2 x3 x4 : Vec F S1x512 .f32) :
    out3_5 x0 x1 x2 x3 x4 = k3_pay1 x0 x1 x2 x3 x4 := by
  unfold out3_5
  rw [View.canon_unit_zero hzero3_3]
  simp only [View.ld_unit_zero (S := S1x192x512) hzero3_3, View.ld_unit_zero (S := S512x512) hzero3_2, View.ld_unit_zero (S := S1x512) hzero3_2]

end Cert.ReferenceIdeal.Hand

end
-- ==== Proof.R.Arr4.lean ====
import proofs.«169142_g2000501041679005_pallasbulk_208_6_alg».proof.Proof.RF.Reg4
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N4 : cfg4.N = 16 := N_4

def pt4 (u : Fin 16) : Fin cfg4.N := ⟨u.val, by rw [N4]; exact u.isLt⟩

theorem idx4 : ∀ t : Fin cfg4.N,
    win4_0.index t (0 : Fin 3) = t.val ∧ win4_0.index t (1 : Fin 3) = 0 ∧ win4_0.index t (2 : Fin 3) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 3) = t.val ∧ win4_5.index t (1 : Fin 3) = 0 ∧ win4_5.index t (2 : Fin 3) = 0 :=
  (by decide +kernel : ∀ t : Fin grid4.N, _)

theorem idx_inj4 (t t' : Fin cfg4.N) (h : win4_5.index t = win4_5.index t') : t = t' := by
  obtain ⟨-, -, -, -, -, -, -, -, -, -, -, e, -, -⟩ := idx4 t
  obtain ⟨-, -, -, -, -, -, -, -, -, -, -, e', -, -⟩ := idx4 t'
  have h0 : win4_5.index t (0 : Fin 3) = win4_5.index t' (0 : Fin 3) := congrFun h (0 : Fin 3)
  exact Fin.ext (by omega)

theorem disjoint4 : ∀ t t' : Fin cfg4.N, (cfg4.win 5).flush t = true → (cfg4.win 5).flush t' = true → t ≠ t' →
    Disjoint ((cfg4.win 5).blk t).view.set ((cfg4.win 5).blk t').view.set :=
  fun t t' _ _ hne => (cfg4.win 5).disjoint_blk fun h => hne (idx_inj4 t t' h)

theorem blk4 (c : Dev nD) (t : Fin cfg4.N) :
    ((cfg4.win 5).blk t).view.read (Elt F) ((dat4 V c).arrAt 5 cfg4.N)
      = out4_5 (iblk4 V c 0 t) (iblk4 V c 1 t) (iblk4 V c 2 t) (iblk4 V c 3 t) (iblk4 V c 4 t) :=
  ((dat4 V c).read_blk_arrAt_eq_flushed 5 disjoint4 cfg4.N t t.isLt (flush4_5 t)).trans (by
    show (cfg4.win 5).cut (grid4.coords t) ((dat4 V c).after 5 t) = _
    rw [after4_5]; rfl)

theorem iblk4_0 (c : Dev nD) (u : Fin 16) (t : Fin 192) (j : Fin 512) :
    iblk4 V c 0 (pt4 u) (ix3 0 t j) = V c (Pipeline.arrRef spec4 0) (ix3 u t j) := by
  show V c (Pipeline.arrRef spec4 0) (((cfg4.win 0).blk (pt4 u)).view.emb (ix3 0 t j)) = V c (Pipeline.arrRef spec4 0) (ix3 u t j)
  refine congrArg (V c (Pipeline.arrRef spec4 0)) ?_
  obtain ⟨e0, e1, e2, -⟩ := idx4 (pt4 u)
  have hv : (pt4 u).val = u.val := rfl
  funext a; apply Fin.ext
  match a with
  | ⟨0, _⟩ => show win4_0.index (pt4 u) (0 : Fin 3) * 1 + 1 * 0 = u.val; omega
  | ⟨1, _⟩ => show win4_0.index (pt4 u) (1 : Fin 3) * 192 + 1 * t.val = t.val; omega
  | ⟨2, _⟩ => show win4_0.index (pt4 u) (2 : Fin 3) * 512 + 1 * j.val = j.val; omega

theorem iblk4_1 (c : Dev nD) (t : Fin cfg4.N) : iblk4 V c 1 t = V c (Pipeline.arrRef spec4 1) := by
  funext i
  show V c (Pipeline.arrRef spec4 1) (((cfg4.win 1).blk t).view.emb i) = V c (Pipeline.arrRef spec4 1) i
  refine congrArg (V c (Pipeline.arrRef spec4 1)) ?_
  obtain ⟨-, -, -, e0, e1, -⟩ := idx4 t
  funext a; apply Fin.ext
  match a with
  | ⟨0, _⟩ => show win4_1.index t (0 : Fin 2) * 1536 + 1 * (i 0).val = (i 0).val; omega
  | ⟨1, _⟩ => show win4_1.index t (1 : Fin 2) * 512 + 1 * (i 1).val = (i 1).val; omega

theorem iblk4_2 (c : Dev nD) (t : Fin cfg4.N) : iblk4 V c 2 t = V c (Pipeline.arrRef spec4 2) := by
  funext i
  show V c (Pipeline.arrRef spec4 2) (((cfg4.win 2).blk t).view.emb i) = V c (Pipeline.arrRef spec4 2) i
  refine congrArg (V c (Pipeline.arrRef spec4 2)) ?_
  obtain ⟨-, -, -, -, -, e0, e1, -⟩ := idx4 t
  funext a; apply Fin.ext
  match a with
  | ⟨0, _⟩ => show win4_2.index t (0 : Fin 2) * 1 + 1 * (i 0).val = (i 0).val; omega
  | ⟨1, _⟩ => show win4_2.index t (1 : Fin 2) * 512 + 1 * (i 1).val = (i 1).val; omega

theorem iblk4_3 (c : Dev nD) (t : Fin cfg4.N) : iblk4 V c 3 t = V c (Pipeline.arrRef spec4 3) := by
  funext i
  show V c (Pipeline.arrRef spec4 3) (((cfg4.win 3).blk t).view.emb i) = V c (Pipeline.arrRef spec4 3) i
  refine congrArg (V c (Pipeline.arrRef spec4 3)) ?_
  obtain ⟨-, -, -, -, -, -, -, e0, e1, -⟩ := idx4 t
  funext a; apply Fin.ext
  match a with
  | ⟨0, _⟩ => show win4_3.index t (0 : Fin 2) * 1 + 1 * (i 0).val = (i 0).val; omega
  | ⟨1, _⟩ => show win4_3.index t (1 : Fin 2) * 512 + 1 * (i 1).val = (i 1).val; omega

theorem iblk4_4 (c : Dev nD) (t : Fin cfg4.N) : iblk4 V c 4 t = V c (Pipeline.arrRef spec4 4) := by
  funext i
  show V c (Pipeline.arrRef spec4 4) (((cfg4.win 4).blk t).view.emb i) = V c (Pipeline.arrRef spec4 4) i
  refine congrArg (V c (Pipeline.arrRef spec4 4)) ?_
  obtain ⟨-, -, -, -, -, -, -, -, -, e0, e1, -⟩ := idx4 t
  funext a; apply Fin.ext
  match a with
  | ⟨0, _⟩ => show win4_4.index t (0 : Fin 2) * 1 + 1 * (i 0).val = (i 0).val; omega
  | ⟨1, _⟩ => show win4_4.index t (1 : Fin 2) * 512 + 1 * (i 1).val = (i 1).val; omega

theorem arr4 (c : Dev nD) (u : Fin 16) (t : Fin 186) (j : Fin 512) :
    (dat4 V c).arrAt 5 cfg4.N (ix3 u t j)
      = out4_5 (iblk4 V c 0 (pt4 u)) (V c (Pipeline.arrRef spec4 1)) (V c (Pipeline.arrRef spec4 2))
          (V c (Pipeline.arrRef spec4 3)) (V c (Pipeline.arrRef spec4 4)) (ix3 0 t j) := by
  rw [← iblk4_1 V c (pt4 u), ← iblk4_2 V c (pt4 u), ← iblk4_3 V c (pt4 u), ← iblk4_4 V c (pt4 u)]
  refine Eq.trans ?_ (congrFun (blk4 V c (pt4 u)) (ix3 0 t j))
  show (dat4 V c).arrAt 5 cfg4.N (ix3 u t j) = (dat4 V c).arrAt 5 cfg4.N (((cfg4.win 5).blk (pt4 u)).view.emb (ix3 0 t j))
  refine congrArg ((dat4 V c).arrAt 5 cfg4.N) ?_
  obtain ⟨-, -, -, -, -, -, -, -, -, -, -, e0, e1, e2⟩ := idx4 (pt4 u)
  have hv : (pt4 u).val = u.val := rfl
  funext a; apply Fin.ext
  match a with
  | ⟨0, _⟩ => show u.val = win4_5.index (pt4 u) (0 : Fin 3) * 1 + 1 * 0; omega
  | ⟨1, _⟩ => show t.val = win4_5.index (pt4 u) (1 : Fin 3) * 186 + 1 * t.val; omega
  | ⟨2, _⟩ => show j.val = win4_5.index (pt4 u) (2 : Fin 3) * 512 + 1 * j.val; omega

theorem hzero4_3 : (![0, 0, 0] : Fin 3 → Nat) = fun _ => 0 := funext fun a => by fin_cases a <;> rfl
theorem hzero4_2 : (![0, 0] : Fin 2 → Nat) = fun _ => 0 := funext fun a => by fin_cases a <;> rfl

theorem out4_5_eq (x0 : Vec F S1x192x512 .f32) (x1 : Vec F S1536x512 .f32) (x2 x3 x4 : Vec F S1x512 .f32) :
    out4_5 x0 x1 x2 x3 x4 = k4_pay1 x0 (View.ld x1 r4_1) (View.ld x1 r4_2) (View.ld x1 r4_3) x2 x3 x4 := by
  unfold out4_5
  rw [View.canon_unit_zero hzero4_3]
  simp only [View.ld_unit_zero (S := S1x192x512) hzero4_3, View.ld_unit_zero (S := S1x512) hzero4_2]

end Cert.ReferenceIdeal.Hand

end
-- ==== Proof.R.Arr5.lean ====
import proofs.«169142_g2000501041679005_pallasbulk_208_6_alg».proof.Proof.RF.Reg5
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N5 : cfg5.N = 16 := N_5

def pt5 (u : Fin 16) : Fin cfg5.N := ⟨u.val, by rw [N5]; exact u.isLt⟩

theorem idx5 : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 3) = t.val ∧ win5_5.index t (1 : Fin 3) = 0 ∧ win5_5.index t (2 : Fin 3) = 0 :=
  (by decide +kernel : ∀ t : Fin grid5.N, _)

theorem idx_inj5 (t t' : Fin cfg5.N) (h : win5_5.index t = win5_5.index t') : t = t' := by
  obtain ⟨-, -, -, -, -, -, -, -, -, -, -, e, -, -⟩ := idx5 t
  obtain ⟨-, -, -, -, -, -, -, -, -, -, -, e', -, -⟩ := idx5 t'
  have h0 : win5_5.index t (0 : Fin 3) = win5_5.index t' (0 : Fin 3) := congrFun h (0 : Fin 3)
  exact Fin.ext (by omega)

theorem disjoint5 : ∀ t t' : Fin cfg5.N, (cfg5.win 5).flush t = true → (cfg5.win 5).flush t' = true → t ≠ t' →
    Disjoint ((cfg5.win 5).blk t).view.set ((cfg5.win 5).blk t').view.set :=
  fun t t' _ _ hne => (cfg5.win 5).disjoint_blk fun h => hne (idx_inj5 t t' h)

theorem blk5 (c : Dev nD) (t : Fin cfg5.N) :
    ((cfg5.win 5).blk t).view.read (Elt F) ((dat5 V c).arrAt 5 cfg5.N)
      = out5_5 (iblk5 V c 0 t) (iblk5 V c 1 t) (iblk5 V c 2 t) (iblk5 V c 3 t) (iblk5 V c 4 t) :=
  ((dat5 V c).read_blk_arrAt_eq_flushed 5 disjoint5 cfg5.N t t.isLt (flush5_5 t)).trans (by
    show (cfg5.win 5).cut (grid5.coords t) ((dat5 V c).after 5 t) = _
    rw [after5_5]; rfl)

theorem iblk5_0 (c : Dev nD) (u : Fin 16) (t : Fin 186) (j : Fin 512) :
    iblk5 V c 0 (pt5 u) (ix3 0 t j) = V c (Pipeline.arrRef spec5 0) (ix3 u t j) := by
  show V c (Pipeline.arrRef spec5 0) (((cfg5.win 0).blk (pt5 u)).view.emb (ix3 0 t j)) = V c (Pipeline.arrRef spec5 0) (ix3 u t j)
  refine congrArg (V c (Pipeline.arrRef spec5 0)) ?_
  obtain ⟨e0, e1, e2, -⟩ := idx5 (pt5 u)
  have hv : (pt5 u).val = u.val := rfl
  funext a; apply Fin.ext
  match a with
  | ⟨0, _⟩ => show win5_0.index (pt5 u) (0 : Fin 3) * 1 + 1 * 0 = u.val; omega
  | ⟨1, _⟩ => show win5_0.index (pt5 u) (1 : Fin 3) * 186 + 1 * t.val = t.val; omega
  | ⟨2, _⟩ => show win5_0.index (pt5 u) (2 : Fin 3) * 512 + 1 * j.val = j.val; omega

theorem iblk5_1 (c : Dev nD) (t : Fin cfg5.N) : iblk5 V c 1 t = V c (Pipeline.arrRef spec5 1) := by
  funext i
  show V c (Pipeline.arrRef spec5 1) (((cfg5.win 1).blk t).view.emb i) = V c (Pipeline.arrRef spec5 1) i
  refine congrArg (V c (Pipeline.arrRef spec5 1)) ?_
  obtain ⟨-, -, -, e0, e1, -⟩ := idx5 t
  funext a; apply Fin.ext
  match a with
  | ⟨0, _⟩ => show win5_1.index t (0 : Fin 2) * 512 + 1 * (i 0).val = (i 0).val; omega
  | ⟨1, _⟩ => show win5_1.index t (1 : Fin 2) * 512 + 1 * (i 1).val = (i 1).val; omega

theorem iblk5_2 (c : Dev nD) (t : Fin cfg5.N) : iblk5 V c 2 t = V c (Pipeline.arrRef spec5 2) := by
  funext i
  show V c (Pipeline.arrRef spec5 2) (((cfg5.win 2).blk t).view.emb i) = V c (Pipeline.arrRef spec5 2) i
  refine congrArg (V c (Pipeline.arrRef spec5 2)) ?_
  obtain ⟨-, -, -, -, -, e0, e1, -⟩ := idx5 t
  funext a; apply Fin.ext
  match a with
  | ⟨0, _⟩ => show win5_2.index t (0 : Fin 2) * 1 + 1 * (i 0).val = (i 0).val; omega
  | ⟨1, _⟩ => show win5_2.index t (1 : Fin 2) * 512 + 1 * (i 1).val = (i 1).val; omega

theorem iblk5_3 (c : Dev nD) (t : Fin cfg5.N) : iblk5 V c 3 t = V c (Pipeline.arrRef spec5 3) := by
  funext i
  show V c (Pipeline.arrRef spec5 3) (((cfg5.win 3).blk t).view.emb i) = V c (Pipeline.arrRef spec5 3) i
  refine congrArg (V c (Pipeline.arrRef spec5 3)) ?_
  obtain ⟨-, -, -, -, -, -, -, e0, e1, -⟩ := idx5 t
  funext a; apply Fin.ext
  match a with
  | ⟨0, _⟩ => show win5_3.index t (0 : Fin 2) * 1 + 1 * (i 0).val = (i 0).val; omega
  | ⟨1, _⟩ => show win5_3.index t (1 : Fin 2) * 512 + 1 * (i 1).val = (i 1).val; omega

theorem iblk5_4 (c : Dev nD) (t : Fin cfg5.N) : iblk5 V c 4 t = V c (Pipeline.arrRef spec5 4) := by
  funext i
  show V c (Pipeline.arrRef spec5 4) (((cfg5.win 4).blk t).view.emb i) = V c (Pipeline.arrRef spec5 4) i
  refine congrArg (V c (Pipeline.arrRef spec5 4)) ?_
  obtain ⟨-, -, -, -, -, -, -, -, -, e0, e1, -⟩ := idx5 t
  funext a; apply Fin.ext
  match a with
  | ⟨0, _⟩ => show win5_4.index t (0 : Fin 2) * 1 + 1 * (i 0).val = (i 0).val; omega
  | ⟨1, _⟩ => show win5_4.index t (1 : Fin 2) * 512 + 1 * (i 1).val = (i 1).val; omega

theorem arr5 (c : Dev nD) (u : Fin 16) (t : Fin 186) (j : Fin 512) :
    (dat5 V c).arrAt 5 cfg5.N (ix3 u t j)
      = out5_5 (iblk5 V c 0 (pt5 u)) (V c (Pipeline.arrRef spec5 1)) (V c (Pipeline.arrRef spec5 2))
          (V c (Pipeline.arrRef spec5 3)) (V c (Pipeline.arrRef spec5 4)) (ix3 0 t j) := by
  rw [← iblk5_1 V c (pt5 u), ← iblk5_2 V c (pt5 u), ← iblk5_3 V c (pt5 u), ← iblk5_4 V c (pt5 u)]
  refine Eq.trans ?_ (congrFun (blk5 V c (pt5 u)) (ix3 0 t j))
  show (dat5 V c).arrAt 5 cfg5.N (ix3 u t j) = (dat5 V c).arrAt 5 cfg5.N (((cfg5.win 5).blk (pt5 u)).view.emb (ix3 0 t j))
  refine congrArg ((dat5 V c).arrAt 5 cfg5.N) ?_
  obtain ⟨-, -, -, -, -, -, -, -, -, -, -, e0, e1, e2⟩ := idx5 (pt5 u)
  have hv : (pt5 u).val = u.val := rfl
  funext a; apply Fin.ext
  match a with
  | ⟨0, _⟩ => show u.val = win5_5.index (pt5 u) (0 : Fin 3) * 1 + 1 * 0; omega
  | ⟨1, _⟩ => show t.val = win5_5.index (pt5 u) (1 : Fin 3) * 186 + 1 * t.val; omega
  | ⟨2, _⟩ => show j.val = win5_5.index (pt5 u) (2 : Fin 3) * 512 + 1 * j.val; omega

theorem hzero5_3 : (![0, 0, 0] : Fin 3 → Nat) = fun _ => 0 := funext fun a => by fin_cases a <;> rfl
theorem hzero5_2 : (![0, 0] : Fin 2 → Nat) = fun _ => 0 := funext fun a => by fin_cases a <;> rfl

theorem out5_5_eq (x0 : Vec F S1x186x512 .f32) (x1 : Vec F S512x512 .f32) (x2 x3 x4 : Vec F S1x512 .f32) :
    out5_5 x0 x1 x2 x3 x4 = k5_pay1 x0 x1 x2 x3 x4 := by
  unfold out5_5
  rw [View.canon_unit_zero hzero5_3]
  simp only [View.ld_unit_zero (S := S1x186x512) hzero5_3, View.ld_unit_zero (S := S512x512) hzero5_2, View.ld_unit_zero (S := S1x512) hzero5_2]

end Cert.ReferenceIdeal.Hand

end
-- ==== Proof.R.Arr6.lean ====
import proofs.«169142_g2000501041679005_pallasbulk_208_6_alg».proof.Proof.RF.Reg6
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N6 : cfg6.N = 16 := N_6

def pt6 (u : Fin 16) : Fin cfg6.N := ⟨u.val, by rw [N6]; exact u.isLt⟩

theorem idx6 : ∀ t : Fin cfg6.N,
    win6_0.index t (0 : Fin 3) = t.val ∧ win6_0.index t (1 : Fin 3) = 0 ∧ win6_0.index t (2 : Fin 3) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 3) = t.val ∧ win6_5.index t (1 : Fin 3) = 0 ∧ win6_5.index t (2 : Fin 3) = 0 :=
  (by decide +kernel : ∀ t : Fin grid6.N, _)

theorem idx_inj6 (t t' : Fin cfg6.N) (h : win6_5.index t = win6_5.index t') : t = t' := by
  obtain ⟨-, -, -, -, -, -, -, -, -, -, -, e, -, -⟩ := idx6 t
  obtain ⟨-, -, -, -, -, -, -, -, -, -, -, e', -, -⟩ := idx6 t'
  have h0 : win6_5.index t (0 : Fin 3) = win6_5.index t' (0 : Fin 3) := congrFun h (0 : Fin 3)
  exact Fin.ext (by omega)

theorem disjoint6 : ∀ t t' : Fin cfg6.N, (cfg6.win 5).flush t = true → (cfg6.win 5).flush t' = true → t ≠ t' →
    Disjoint ((cfg6.win 5).blk t).view.set ((cfg6.win 5).blk t').view.set :=
  fun t t' _ _ hne => (cfg6.win 5).disjoint_blk fun h => hne (idx_inj6 t t' h)

theorem blk6 (c : Dev nD) (t : Fin cfg6.N) :
    ((cfg6.win 5).blk t).view.read (Elt F) ((dat6 V c).arrAt 5 cfg6.N)
      = out6_5 (iblk6 V c 0 t) (iblk6 V c 1 t) (iblk6 V c 2 t) (iblk6 V c 3 t) (iblk6 V c 4 t) :=
  ((dat6 V c).read_blk_arrAt_eq_flushed 5 disjoint6 cfg6.N t t.isLt (flush6_5 t)).trans (by
    show (cfg6.win 5).cut (grid6.coords t) ((dat6 V c).after 5 t) = _
    rw [after6_5]; rfl)

theorem iblk6_0 (c : Dev nD) (u : Fin 16) (t : Fin 186) (j : Fin 512) :
    iblk6 V c 0 (pt6 u) (ix3 0 t j) = V c (Pipeline.arrRef spec6 0) (ix3 u t j) := by
  show V c (Pipeline.arrRef spec6 0) (((cfg6.win 0).blk (pt6 u)).view.emb (ix3 0 t j)) = V c (Pipeline.arrRef spec6 0) (ix3 u t j)
  refine congrArg (V c (Pipeline.arrRef spec6 0)) ?_
  obtain ⟨e0, e1, e2, -⟩ := idx6 (pt6 u)
  have hv : (pt6 u).val = u.val := rfl
  funext a; apply Fin.ext
  match a with
  | ⟨0, _⟩ => show win6_0.index (pt6 u) (0 : Fin 3) * 1 + 1 * 0 = u.val; omega
  | ⟨1, _⟩ => show win6_0.index (pt6 u) (1 : Fin 3) * 186 + 1 * t.val = t.val; omega
  | ⟨2, _⟩ => show win6_0.index (pt6 u) (2 : Fin 3) * 512 + 1 * j.val = j.val; omega

theorem iblk6_1 (c : Dev nD) (t : Fin cfg6.N) : iblk6 V c 1 t = V c (Pipeline.arrRef spec6 1) := by
  funext i
  show V c (Pipeline.arrRef spec6 1) (((cfg6.win 1).blk t).view.emb i) = V c (Pipeline.arrRef spec6 1) i
  refine congrArg (V c (Pipeline.arrRef spec6 1)) ?_
  obtain ⟨-, -, -, e0, e1, -⟩ := idx6 t
  funext a; apply Fin.ext
  match a with
  | ⟨0, _⟩ => show win6_1.index t (0 : Fin 2) * 1536 + 1 * (i 0).val = (i 0).val; omega
  | ⟨1, _⟩ => show win6_1.index t (1 : Fin 2) * 512 + 1 * (i 1).val = (i 1).val; omega

theorem iblk6_2 (c : Dev nD) (t : Fin cfg6.N) : iblk6 V c 2 t = V c (Pipeline.arrRef spec6 2) := by
  funext i
  show V c (Pipeline.arrRef spec6 2) (((cfg6.win 2).blk t).view.emb i) = V c (Pipeline.arrRef spec6 2) i
  refine congrArg (V c (Pipeline.arrRef spec6 2)) ?_
  obtain ⟨-, -, -, -, -, e0, e1, -⟩ := idx6 t
  funext a; apply Fin.ext
  match a with
  | ⟨0, _⟩ => show win6_2.index t (0 : Fin 2) * 1 + 1 * (i 0).val = (i 0).val; omega
  | ⟨1, _⟩ => show win6_2.index t (1 : Fin 2) * 512 + 1 * (i 1).val = (i 1).val; omega

theorem iblk6_3 (c : Dev nD) (t : Fin cfg6.N) : iblk6 V c 3 t = V c (Pipeline.arrRef spec6 3) := by
  funext i
  show V c (Pipeline.arrRef spec6 3) (((cfg6.win 3).blk t).view.emb i) = V c (Pipeline.arrRef spec6 3) i
  refine congrArg (V c (Pipeline.arrRef spec6 3)) ?_
  obtain ⟨-, -, -, -, -, -, -, e0, e1, -⟩ := idx6 t
  funext a; apply Fin.ext
  match a with
  | ⟨0, _⟩ => show win6_3.index t (0 : Fin 2) * 1 + 1 * (i 0).val = (i 0).val; omega
  | ⟨1, _⟩ => show win6_3.index t (1 : Fin 2) * 512 + 1 * (i 1).val = (i 1).val; omega

theorem iblk6_4 (c : Dev nD) (t : Fin cfg6.N) : iblk6 V c 4 t = V c (Pipeline.arrRef spec6 4) := by
  funext i
  show V c (Pipeline.arrRef spec6 4) (((cfg6.win 4).blk t).view.emb i) = V c (Pipeline.arrRef spec6 4) i
  refine congrArg (V c (Pipeline.arrRef spec6 4)) ?_
  obtain ⟨-, -, -, -, -, -, -, -, -, e0, e1, -⟩ := idx6 t
  funext a; apply Fin.ext
  match a with
  | ⟨0, _⟩ => show win6_4.index t (0 : Fin 2) * 1 + 1 * (i 0).val = (i 0).val; omega
  | ⟨1, _⟩ => show win6_4.index t (1 : Fin 2) * 512 + 1 * (i 1).val = (i 1).val; omega

theorem arr6 (c : Dev nD) (u : Fin 16) (t : Fin 178) (j : Fin 512) :
    (dat6 V c).arrAt 5 cfg6.N (ix3 u t j)
      = out6_5 (iblk6 V c 0 (pt6 u)) (V c (Pipeline.arrRef spec6 1)) (V c (Pipeline.arrRef spec6 2))
          (V c (Pipeline.arrRef spec6 3)) (V c (Pipeline.arrRef spec6 4)) (ix3 0 t j) := by
  rw [← iblk6_1 V c (pt6 u), ← iblk6_2 V c (pt6 u), ← iblk6_3 V c (pt6 u), ← iblk6_4 V c (pt6 u)]
  refine Eq.trans ?_ (congrFun (blk6 V c (pt6 u)) (ix3 0 t j))
  show (dat6 V c).arrAt 5 cfg6.N (ix3 u t j) = (dat6 V c).arrAt 5 cfg6.N (((cfg6.win 5).blk (pt6 u)).view.emb (ix3 0 t j))
  refine congrArg ((dat6 V c).arrAt 5 cfg6.N) ?_
  obtain ⟨-, -, -, -, -, -, -, -, -, -, -, e0, e1, e2⟩ := idx6 (pt6 u)
  have hv : (pt6 u).val = u.val := rfl
  funext a; apply Fin.ext
  match a with
  | ⟨0, _⟩ => show u.val = win6_5.index (pt6 u) (0 : Fin 3) * 1 + 1 * 0; omega
  | ⟨1, _⟩ => show t.val = win6_5.index (pt6 u) (1 : Fin 3) * 178 + 1 * t.val; omega
  | ⟨2, _⟩ => show j.val = win6_5.index (pt6 u) (2 : Fin 3) * 512 + 1 * j.val; omega

theorem hzero6_3 : (![0, 0, 0] : Fin 3 → Nat) = fun _ => 0 := funext fun a => by fin_cases a <;> rfl
theorem hzero6_2 : (![0, 0] : Fin 2 → Nat) = fun _ => 0 := funext fun a => by fin_cases a <;> rfl

theorem out6_5_eq (x0 : Vec F S1x186x512 .f32) (x1 : Vec F S1536x512 .f32) (x2 x3 x4 : Vec F S1x512 .f32) :
    out6_5 x0 x1 x2 x3 x4 = k6_pay1 x0 (View.ld x1 r6_1) (View.ld x1 r6_2) (View.ld x1 r6_3) x2 x3 x4 := by
  unfold out6_5
  rw [View.canon_unit_zero hzero6_3]
  simp only [View.ld_unit_zero (S := S1x186x512) hzero6_3, View.ld_unit_zero (S := S1x512) hzero6_2]

end Cert.ReferenceIdeal.Hand

end
-- ==== Proof.R.Arr7.lean ====
import proofs.«169142_g2000501041679005_pallasbulk_208_6_alg».proof.Proof.RF.Reg7
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N7 : cfg7.N = 16 := N_7

def pt7 (u : Fin 16) : Fin cfg7.N := ⟨u.val, by rw [N7]; exact u.isLt⟩

theorem idx7 : ∀ t : Fin cfg7.N,
    win7_0.index t (0 : Fin 3) = t.val ∧ win7_0.index t (1 : Fin 3) = 0 ∧ win7_0.index t (2 : Fin 3) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 3) = t.val ∧ win7_5.index t (1 : Fin 3) = 0 ∧ win7_5.index t (2 : Fin 3) = 0 :=
  (by decide +kernel : ∀ t : Fin grid7.N, _)

theorem idx_inj7 (t t' : Fin cfg7.N) (h : win7_5.index t = win7_5.index t') : t = t' := by
  obtain ⟨-, -, -, -, -, -, -, -, -, -, -, e, -, -⟩ := idx7 t
  obtain ⟨-, -, -, -, -, -, -, -, -, -, -, e', -, -⟩ := idx7 t'
  have h0 : win7_5.index t (0 : Fin 3) = win7_5.index t' (0 : Fin 3) := congrFun h (0 : Fin 3)
  exact Fin.ext (by omega)

theorem disjoint7 : ∀ t t' : Fin cfg7.N, (cfg7.win 5).flush t = true → (cfg7.win 5).flush t' = true → t ≠ t' →
    Disjoint ((cfg7.win 5).blk t).view.set ((cfg7.win 5).blk t').view.set :=
  fun t t' _ _ hne => (cfg7.win 5).disjoint_blk fun h => hne (idx_inj7 t t' h)

theorem blk7 (c : Dev nD) (t : Fin cfg7.N) :
    ((cfg7.win 5).blk t).view.read (Elt F) ((dat7 V c).arrAt 5 cfg7.N)
      = out7_5 (iblk7 V c 0 t) (iblk7 V c 1 t) (iblk7 V c 2 t) (iblk7 V c 3 t) (iblk7 V c 4 t) :=
  ((dat7 V c).read_blk_arrAt_eq_flushed 5 disjoint7 cfg7.N t t.isLt (flush7_5 t)).trans (by
    show (cfg7.win 5).cut (grid7.coords t) ((dat7 V c).after 5 t) = _
    rw [after7_5]; rfl)

theorem iblk7_0 (c : Dev nD) (u : Fin 16) (t : Fin 178) (j : Fin 512) :
    iblk7 V c 0 (pt7 u) (ix3 0 t j) = V c (Pipeline.arrRef spec7 0) (ix3 u t j) := by
  show V c (Pipeline.arrRef spec7 0) (((cfg7.win 0).blk (pt7 u)).view.emb (ix3 0 t j)) = V c (Pipeline.arrRef spec7 0) (ix3 u t j)
  refine congrArg (V c (Pipeline.arrRef spec7 0)) ?_
  obtain ⟨e0, e1, e2, -⟩ := idx7 (pt7 u)
  have hv : (pt7 u).val = u.val := rfl
  funext a; apply Fin.ext
  match a with
  | ⟨0, _⟩ => show win7_0.index (pt7 u) (0 : Fin 3) * 1 + 1 * 0 = u.val; omega
  | ⟨1, _⟩ => show win7_0.index (pt7 u) (1 : Fin 3) * 178 + 1 * t.val = t.val; omega
  | ⟨2, _⟩ => show win7_0.index (pt7 u) (2 : Fin 3) * 512 + 1 * j.val = j.val; omega

theorem iblk7_1 (c : Dev nD) (t : Fin cfg7.N) : iblk7 V c 1 t = V c (Pipeline.arrRef spec7 1) := by
  funext i
  show V c (Pipeline.arrRef spec7 1) (((cfg7.win 1).blk t).view.emb i) = V c (Pipeline.arrRef spec7 1) i
  refine congrArg (V c (Pipeline.arrRef spec7 1)) ?_
  obtain ⟨-, -, -, e0, e1, -⟩ := idx7 t
  funext a; apply Fin.ext
  match a with
  | ⟨0, _⟩ => show win7_1.index t (0 : Fin 2) * 512 + 1 * (i 0).val = (i 0).val; omega
  | ⟨1, _⟩ => show win7_1.index t (1 : Fin 2) * 512 + 1 * (i 1).val = (i 1).val; omega

theorem iblk7_2 (c : Dev nD) (t : Fin cfg7.N) : iblk7 V c 2 t = V c (Pipeline.arrRef spec7 2) := by
  funext i
  show V c (Pipeline.arrRef spec7 2) (((cfg7.win 2).blk t).view.emb i) = V c (Pipeline.arrRef spec7 2) i
  refine congrArg (V c (Pipeline.arrRef spec7 2)) ?_
  obtain ⟨-, -, -, -, -, e0, e1, -⟩ := idx7 t
  funext a; apply Fin.ext
  match a with
  | ⟨0, _⟩ => show win7_2.index t (0 : Fin 2) * 1 + 1 * (i 0).val = (i 0).val; omega
  | ⟨1, _⟩ => show win7_2.index t (1 : Fin 2) * 512 + 1 * (i 1).val = (i 1).val; omega

theorem iblk7_3 (c : Dev nD) (t : Fin cfg7.N) : iblk7 V c 3 t = V c (Pipeline.arrRef spec7 3) := by
  funext i
  show V c (Pipeline.arrRef spec7 3) (((cfg7.win 3).blk t).view.emb i) = V c (Pipeline.arrRef spec7 3) i
  refine congrArg (V c (Pipeline.arrRef spec7 3)) ?_
  obtain ⟨-, -, -, -, -, -, -, e0, e1, -⟩ := idx7 t
  funext a; apply Fin.ext
  match a with
  | ⟨0, _⟩ => show win7_3.index t (0 : Fin 2) * 1 + 1 * (i 0).val = (i 0).val; omega
  | ⟨1, _⟩ => show win7_3.index t (1 : Fin 2) * 512 + 1 * (i 1).val = (i 1).val; omega

theorem iblk7_4 (c : Dev nD) (t : Fin cfg7.N) : iblk7 V c 4 t = V c (Pipeline.arrRef spec7 4) := by
  funext i
  show V c (Pipeline.arrRef spec7 4) (((cfg7.win 4).blk t).view.emb i) = V c (Pipeline.arrRef spec7 4) i
  refine congrArg (V c (Pipeline.arrRef spec7 4)) ?_
  obtain ⟨-, -, -, -, -, -, -, -, -, e0, e1, -⟩ := idx7 t
  funext a; apply Fin.ext
  match a with
  | ⟨0, _⟩ => show win7_4.index t (0 : Fin 2) * 1 + 1 * (i 0).val = (i 0).val; omega
  | ⟨1, _⟩ => show win7_4.index t (1 : Fin 2) * 512 + 1 * (i 1).val = (i 1).val; omega

theorem arr7 (c : Dev nD) (u : Fin 16) (t : Fin 178) (j : Fin 512) :
    (dat7 V c).arrAt 5 cfg7.N (ix3 u t j)
      = out7_5 (iblk7 V c 0 (pt7 u)) (V c (Pipeline.arrRef spec7 1)) (V c (Pipeline.arrRef spec7 2))
          (V c (Pipeline.arrRef spec7 3)) (V c (Pipeline.arrRef spec7 4)) (ix3 0 t j) := by
  rw [← iblk7_1 V c (pt7 u), ← iblk7_2 V c (pt7 u), ← iblk7_3 V c (pt7 u), ← iblk7_4 V c (pt7 u)]
  refine Eq.trans ?_ (congrFun (blk7 V c (pt7 u)) (ix3 0 t j))
  show (dat7 V c).arrAt 5 cfg7.N (ix3 u t j) = (dat7 V c).arrAt 5 cfg7.N (((cfg7.win 5).blk (pt7 u)).view.emb (ix3 0 t j))
  refine congrArg ((dat7 V c).arrAt 5 cfg7.N) ?_
  obtain ⟨-, -, -, -, -, -, -, -, -, -, -, e0, e1, e2⟩ := idx7 (pt7 u)
  have hv : (pt7 u).val = u.val := rfl
  funext a; apply Fin.ext
  match a with
  | ⟨0, _⟩ => show u.val = win7_5.index (pt7 u) (0 : Fin 3) * 1 + 1 * 0; omega
  | ⟨1, _⟩ => show t.val = win7_5.index (pt7 u) (1 : Fin 3) * 178 + 1 * t.val; omega
  | ⟨2, _⟩ => show j.val = win7_5.index (pt7 u) (2 : Fin 3) * 512 + 1 * j.val; omega

theorem hzero7_3 : (![0, 0, 0] : Fin 3 → Nat) = fun _ => 0 := funext fun a => by fin_cases a <;> rfl
theorem hzero7_2 : (![0, 0] : Fin 2 → Nat) = fun _ => 0 := funext fun a => by fin_cases a <;> rfl

theorem out7_5_eq (x0 : Vec F S1x178x512 .f32) (x1 : Vec F S512x512 .f32) (x2 x3 x4 : Vec F S1x512 .f32) :
    out7_5 x0 x1 x2 x3 x4 = k7_pay1 x0 x1 x2 x3 x4 := by
  unfold out7_5
  rw [View.canon_unit_zero hzero7_3]
  simp only [View.ld_unit_zero (S := S1x178x512) hzero7_3, View.ld_unit_zero (S := S512x512) hzero7_2, View.ld_unit_zero (S := S1x512) hzero7_2]

end Cert.ReferenceIdeal.Hand

end
-- ==== Proof.R.Arr8.lean ====
import proofs.«169142_g2000501041679005_pallasbulk_208_6_alg».proof.Proof.RF.Reg8
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N8 : cfg8.N = 16 := N_8

def pt8 (u : Fin 16) : Fin cfg8.N := ⟨u.val, by rw [N8]; exact u.isLt⟩

theorem idx8 : ∀ t : Fin cfg8.N,
    win8_0.index t (0 : Fin 3) = t.val ∧ win8_0.index t (1 : Fin 3) = 0 ∧ win8_0.index t (2 : Fin 3) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 3) = t.val ∧ win8_5.index t (1 : Fin 3) = 0 ∧ win8_5.index t (2 : Fin 3) = 0 :=
  (by decide +kernel : ∀ t : Fin grid8.N, _)

theorem idx_inj8 (t t' : Fin cfg8.N) (h : win8_5.index t = win8_5.index t') : t = t' := by
  obtain ⟨-, -, -, -, -, -, -, -, -, -, -, e, -, -⟩ := idx8 t
  obtain ⟨-, -, -, -, -, -, -, -, -, -, -, e', -, -⟩ := idx8 t'
  have h0 : win8_5.index t (0 : Fin 3) = win8_5.index t' (0 : Fin 3) := congrFun h (0 : Fin 3)
  exact Fin.ext (by omega)

theorem disjoint8 : ∀ t t' : Fin cfg8.N, (cfg8.win 5).flush t = true → (cfg8.win 5).flush t' = true → t ≠ t' →
    Disjoint ((cfg8.win 5).blk t).view.set ((cfg8.win 5).blk t').view.set :=
  fun t t' _ _ hne => (cfg8.win 5).disjoint_blk fun h => hne (idx_inj8 t t' h)

theorem blk8 (c : Dev nD) (t : Fin cfg8.N) :
    ((cfg8.win 5).blk t).view.read (Elt F) ((dat8 V c).arrAt 5 cfg8.N)
      = out8_5 (iblk8 V c 0 t) (iblk8 V c 1 t) (iblk8 V c 2 t) (iblk8 V c 3 t) (iblk8 V c 4 t) :=
  ((dat8 V c).read_blk_arrAt_eq_flushed 5 disjoint8 cfg8.N t t.isLt (flush8_5 t)).trans (by
    show (cfg8.win 5).cut (grid8.coords t) ((dat8 V c).after 5 t) = _
    rw [after8_5]; rfl)

theorem iblk8_0 (c : Dev nD) (u : Fin 16) (t : Fin 178) (j : Fin 512) :
    iblk8 V c 0 (pt8 u) (ix3 0 t j) = V c (Pipeline.arrRef spec8 0) (ix3 u t j) := by
  show V c (Pipeline.arrRef spec8 0) (((cfg8.win 0).blk (pt8 u)).view.emb (ix3 0 t j)) = V c (Pipeline.arrRef spec8 0) (ix3 u t j)
  refine congrArg (V c (Pipeline.arrRef spec8 0)) ?_
  obtain ⟨e0, e1, e2, -⟩ := idx8 (pt8 u)
  have hv : (pt8 u).val = u.val := rfl
  funext a; apply Fin.ext
  match a with
  | ⟨0, _⟩ => show win8_0.index (pt8 u) (0 : Fin 3) * 1 + 1 * 0 = u.val; omega
  | ⟨1, _⟩ => show win8_0.index (pt8 u) (1 : Fin 3) * 178 + 1 * t.val = t.val; omega
  | ⟨2, _⟩ => show win8_0.index (pt8 u) (2 : Fin 3) * 512 + 1 * j.val = j.val; omega

theorem iblk8_1 (c : Dev nD) (t : Fin cfg8.N) : iblk8 V c 1 t = V c (Pipeline.arrRef spec8 1) := by
  funext i
  show V c (Pipeline.arrRef spec8 1) (((cfg8.win 1).blk t).view.emb i) = V c (Pipeline.arrRef spec8 1) i
  refine congrArg (V c (Pipeline.arrRef spec8 1)) ?_
  obtain ⟨-, -, -, e0, e1, -⟩ := idx8 t
  funext a; apply Fin.ext
  match a with
  | ⟨0, _⟩ => show win8_1.index t (0 : Fin 2) * 512 + 1 * (i 0).val = (i 0).val; omega
  | ⟨1, _⟩ => show win8_1.index t (1 : Fin 2) * 512 + 1 * (i 1).val = (i 1).val; omega

theorem iblk8_2 (c : Dev nD) (t : Fin cfg8.N) : iblk8 V c 2 t = V c (Pipeline.arrRef spec8 2) := by
  funext i
  show V c (Pipeline.arrRef spec8 2) (((cfg8.win 2).blk t).view.emb i) = V c (Pipeline.arrRef spec8 2) i
  refine congrArg (V c (Pipeline.arrRef spec8 2)) ?_
  obtain ⟨-, -, -, -, -, e0, e1, -⟩ := idx8 t
  funext a; apply Fin.ext
  match a with
  | ⟨0, _⟩ => show win8_2.index t (0 : Fin 2) * 1 + 1 * (i 0).val = (i 0).val; omega
  | ⟨1, _⟩ => show win8_2.index t (1 : Fin 2) * 512 + 1 * (i 1).val = (i 1).val; omega

theorem iblk8_3 (c : Dev nD) (t : Fin cfg8.N) : iblk8 V c 3 t = V c (Pipeline.arrRef spec8 3) := by
  funext i
  show V c (Pipeline.arrRef spec8 3) (((cfg8.win 3).blk t).view.emb i) = V c (Pipeline.arrRef spec8 3) i
  refine congrArg (V c (Pipeline.arrRef spec8 3)) ?_
  obtain ⟨-, -, -, -, -, -, -, e0, e1, -⟩ := idx8 t
  funext a; apply Fin.ext
  match a with
  | ⟨0, _⟩ => show win8_3.index t (0 : Fin 2) * 1 + 1 * (i 0).val = (i 0).val; omega
  | ⟨1, _⟩ => show win8_3.index t (1 : Fin 2) * 512 + 1 * (i 1).val = (i 1).val; omega

theorem iblk8_4 (c : Dev nD) (t : Fin cfg8.N) : iblk8 V c 4 t = V c (Pipeline.arrRef spec8 4) := by
  funext i
  show V c (Pipeline.arrRef spec8 4) (((cfg8.win 4).blk t).view.emb i) = V c (Pipeline.arrRef spec8 4) i
  refine congrArg (V c (Pipeline.arrRef spec8 4)) ?_
  obtain ⟨-, -, -, -, -, -, -, -, -, e0, e1, -⟩ := idx8 t
  funext a; apply Fin.ext
  match a with
  | ⟨0, _⟩ => show win8_4.index t (0 : Fin 2) * 1 + 1 * (i 0).val = (i 0).val; omega
  | ⟨1, _⟩ => show win8_4.index t (1 : Fin 2) * 512 + 1 * (i 1).val = (i 1).val; omega

theorem arr8 (c : Dev nD) (u : Fin 16) (t : Fin 178) (j : Fin 512) :
    (dat8 V c).arrAt 5 cfg8.N (ix3 u t j)
      = out8_5 (iblk8 V c 0 (pt8 u)) (V c (Pipeline.arrRef spec8 1)) (V c (Pipeline.arrRef spec8 2))
          (V c (Pipeline.arrRef spec8 3)) (V c (Pipeline.arrRef spec8 4)) (ix3 0 t j) := by
  rw [← iblk8_1 V c (pt8 u), ← iblk8_2 V c (pt8 u), ← iblk8_3 V c (pt8 u), ← iblk8_4 V c (pt8 u)]
  refine Eq.trans ?_ (congrFun (blk8 V c (pt8 u)) (ix3 0 t j))
  show (dat8 V c).arrAt 5 cfg8.N (ix3 u t j) = (dat8 V c).arrAt 5 cfg8.N (((cfg8.win 5).blk (pt8 u)).view.emb (ix3 0 t j))
  refine congrArg ((dat8 V c).arrAt 5 cfg8.N) ?_
  obtain ⟨-, -, -, -, -, -, -, -, -, -, -, e0, e1, e2⟩ := idx8 (pt8 u)
  have hv : (pt8 u).val = u.val := rfl
  funext a; apply Fin.ext
  match a with
  | ⟨0, _⟩ => show u.val = win8_5.index (pt8 u) (0 : Fin 3) * 1 + 1 * 0; omega
  | ⟨1, _⟩ => show t.val = win8_5.index (pt8 u) (1 : Fin 3) * 178 + 1 * t.val; omega
  | ⟨2, _⟩ => show j.val = win8_5.index (pt8 u) (2 : Fin 3) * 512 + 1 * j.val; omega

theorem hzero8_3 : (![0, 0, 0] : Fin 3 → Nat) = fun _ => 0 := funext fun a => by fin_cases a <;> rfl
theorem hzero8_2 : (![0, 0] : Fin 2 → Nat) = fun _ => 0 := funext fun a => by fin_cases a <;> rfl

theorem out8_5_eq (x0 : Vec F S1x178x512 .f32) (x1 : Vec F S512x512 .f32) (x2 x3 x4 : Vec F S1x512 .f32) :
    out8_5 x0 x1 x2 x3 x4 = k8_pay1 x0 x1 x2 x3 x4 := by
  unfold out8_5
  rw [View.canon_unit_zero hzero8_3]
  simp only [View.ld_unit_zero (S := S1x178x512) hzero8_3, View.ld_unit_zero (S := S512x512) hzero8_2, View.ld_unit_zero (S := S1x512) hzero8_2]

end Cert.ReferenceIdeal.Hand

end
-- ==== Proof.R.Arr9.lean ====
import proofs.«169142_g2000501041679005_pallasbulk_208_6_alg».proof.Proof.RF.Reg9
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N9 : cfg9.N = 16 := N_9

def pt9 (u : Fin 16) : Fin cfg9.N := ⟨u.val, by rw [N9]; exact u.isLt⟩

theorem idx9 : ∀ t : Fin cfg9.N,
    win9_0.index t (0 : Fin 3) = t.val ∧ win9_0.index t (1 : Fin 3) = 0 ∧ win9_0.index t (2 : Fin 3) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 3) = t.val ∧ win9_5.index t (1 : Fin 3) = 0 ∧ win9_5.index t (2 : Fin 3) = 0 :=
  (by decide +kernel : ∀ t : Fin grid9.N, _)

theorem idx_inj9 (t t' : Fin cfg9.N) (h : win9_5.index t = win9_5.index t') : t = t' := by
  obtain ⟨-, -, -, -, -, -, -, -, -, -, -, e, -, -⟩ := idx9 t
  obtain ⟨-, -, -, -, -, -, -, -, -, -, -, e', -, -⟩ := idx9 t'
  have h0 : win9_5.index t (0 : Fin 3) = win9_5.index t' (0 : Fin 3) := congrFun h (0 : Fin 3)
  exact Fin.ext (by omega)

theorem disjoint9 : ∀ t t' : Fin cfg9.N, (cfg9.win 5).flush t = true → (cfg9.win 5).flush t' = true → t ≠ t' →
    Disjoint ((cfg9.win 5).blk t).view.set ((cfg9.win 5).blk t').view.set :=
  fun t t' _ _ hne => (cfg9.win 5).disjoint_blk fun h => hne (idx_inj9 t t' h)

theorem blk9 (c : Dev nD) (t : Fin cfg9.N) :
    ((cfg9.win 5).blk t).view.read (Elt F) ((dat9 V c).arrAt 5 cfg9.N)
      = out9_5 (iblk9 V c 0 t) (iblk9 V c 1 t) (iblk9 V c 2 t) (iblk9 V c 3 t) (iblk9 V c 4 t) :=
  ((dat9 V c).read_blk_arrAt_eq_flushed 5 disjoint9 cfg9.N t t.isLt (flush9_5 t)).trans (by
    show (cfg9.win 5).cut (grid9.coords t) ((dat9 V c).after 5 t) = _
    rw [after9_5]; rfl)

theorem iblk9_0 (c : Dev nD) (u : Fin 16) (t : Fin 178) (j : Fin 512) :
    iblk9 V c 0 (pt9 u) (ix3 0 t j) = V c (Pipeline.arrRef spec9 0) (ix3 u t j) := by
  show V c (Pipeline.arrRef spec9 0) (((cfg9.win 0).blk (pt9 u)).view.emb (ix3 0 t j)) = V c (Pipeline.arrRef spec9 0) (ix3 u t j)
  refine congrArg (V c (Pipeline.arrRef spec9 0)) ?_
  obtain ⟨e0, e1, e2, -⟩ := idx9 (pt9 u)
  have hv : (pt9 u).val = u.val := rfl
  funext a; apply Fin.ext
  match a with
  | ⟨0, _⟩ => show win9_0.index (pt9 u) (0 : Fin 3) * 1 + 1 * 0 = u.val; omega
  | ⟨1, _⟩ => show win9_0.index (pt9 u) (1 : Fin 3) * 178 + 1 * t.val = t.val; omega
  | ⟨2, _⟩ => show win9_0.index (pt9 u) (2 : Fin 3) * 512 + 1 * j.val = j.val; omega

theorem iblk9_1 (c : Dev nD) (t : Fin cfg9.N) : iblk9 V c 1 t = V c (Pipeline.arrRef spec9 1) := by
  funext i
  show V c (Pipeline.arrRef spec9 1) (((cfg9.win 1).blk t).view.emb i) = V c (Pipeline.arrRef spec9 1) i
  refine congrArg (V c (Pipeline.arrRef spec9 1)) ?_
  obtain ⟨-, -, -, e0, e1, -⟩ := idx9 t
  funext a; apply Fin.ext
  match a with
  | ⟨0, _⟩ => show win9_1.index t (0 : Fin 2) * 512 + 1 * (i 0).val = (i 0).val; omega
  | ⟨1, _⟩ => show win9_1.index t (1 : Fin 2) * 1500 + 1 * (i 1).val = (i 1).val; omega

theorem iblk9_2 (c : Dev nD) (t : Fin cfg9.N) : iblk9 V c 2 t = V c (Pipeline.arrRef spec9 2) := by
  funext i
  show V c (Pipeline.arrRef spec9 2) (((cfg9.win 2).blk t).view.emb i) = V c (Pipeline.arrRef spec9 2) i
  refine congrArg (V c (Pipeline.arrRef spec9 2)) ?_
  obtain ⟨-, -, -, -, -, e0, e1, -⟩ := idx9 t
  funext a; apply Fin.ext
  match a with
  | ⟨0, _⟩ => show win9_2.index t (0 : Fin 2) * 1 + 1 * (i 0).val = (i 0).val; omega
  | ⟨1, _⟩ => show win9_2.index t (1 : Fin 2) * 1500 + 1 * (i 1).val = (i 1).val; omega

theorem iblk9_3 (c : Dev nD) (t : Fin cfg9.N) : iblk9 V c 3 t = V c (Pipeline.arrRef spec9 3) := by
  funext i
  show V c (Pipeline.arrRef spec9 3) (((cfg9.win 3).blk t).view.emb i) = V c (Pipeline.arrRef spec9 3) i
  refine congrArg (V c (Pipeline.arrRef spec9 3)) ?_
  obtain ⟨-, -, -, -, -, -, -, e0, e1, -⟩ := idx9 t
  funext a; apply Fin.ext
  match a with
  | ⟨0, _⟩ => show win9_3.index t (0 : Fin 2) * 1 + 1 * (i 0).val = (i 0).val; omega
  | ⟨1, _⟩ => show win9_3.index t (1 : Fin 2) * 1500 + 1 * (i 1).val = (i 1).val; omega

theorem iblk9_4 (c : Dev nD) (t : Fin cfg9.N) : iblk9 V c 4 t = V c (Pipeline.arrRef spec9 4) := by
  funext i
  show V c (Pipeline.arrRef spec9 4) (((cfg9.win 4).blk t).view.emb i) = V c (Pipeline.arrRef spec9 4) i
  refine congrArg (V c (Pipeline.arrRef spec9 4)) ?_
  obtain ⟨-, -, -, -, -, -, -, -, -, e0, e1, -⟩ := idx9 t
  funext a; apply Fin.ext
  match a with
  | ⟨0, _⟩ => show win9_4.index t (0 : Fin 2) * 1 + 1 * (i 0).val = (i 0).val; omega
  | ⟨1, _⟩ => show win9_4.index t (1 : Fin 2) * 1500 + 1 * (i 1).val = (i 1).val; omega

theorem arr9 (c : Dev nD) (u : Fin 16) (t : Fin 178) (j : Fin 1500) :
    (dat9 V c).arrAt 5 cfg9.N (ix3 u t j)
      = out9_5 (iblk9 V c 0 (pt9 u)) (V c (Pipeline.arrRef spec9 1)) (V c (Pipeline.arrRef spec9 2))
          (V c (Pipeline.arrRef spec9 3)) (V c (Pipeline.arrRef spec9 4)) (ix3 0 t j) := by
  rw [← iblk9_1 V c (pt9 u), ← iblk9_2 V c (pt9 u), ← iblk9_3 V c (pt9 u), ← iblk9_4 V c (pt9 u)]
  refine Eq.trans ?_ (congrFun (blk9 V c (pt9 u)) (ix3 0 t j))
  show (dat9 V c).arrAt 5 cfg9.N (ix3 u t j) = (dat9 V c).arrAt 5 cfg9.N (((cfg9.win 5).blk (pt9 u)).view.emb (ix3 0 t j))
  refine congrArg ((dat9 V c).arrAt 5 cfg9.N) ?_
  obtain ⟨-, -, -, -, -, -, -, -, -, -, -, e0, e1, e2⟩ := idx9 (pt9 u)
  have hv : (pt9 u).val = u.val := rfl
  funext a; apply Fin.ext
  match a with
  | ⟨0, _⟩ => show u.val = win9_5.index (pt9 u) (0 : Fin 3) * 1 + 1 * 0; omega
  | ⟨1, _⟩ => show t.val = win9_5.index (pt9 u) (1 : Fin 3) * 178 + 1 * t.val; omega
  | ⟨2, _⟩ => show j.val = win9_5.index (pt9 u) (2 : Fin 3) * 1500 + 1 * j.val; omega

theorem hzero9_3 : (![0, 0, 0] : Fin 3 → Nat) = fun _ => 0 := funext fun a => by fin_cases a <;> rfl
theorem hzero9_2 : (![0, 0] : Fin 2 → Nat) = fun _ => 0 := funext fun a => by fin_cases a <;> rfl

theorem out9_5_eq (x0 : Vec F S1x178x512 .f32) (x1 : Vec F S512x1500 .f32) (x2 x3 x4 : Vec F S1x1500 .f32) :
    out9_5 x0 x1 x2 x3 x4 = k9_pay1 x0 x1 x2 x3 x4 := by
  unfold out9_5
  rw [View.canon_unit_zero hzero9_3]
  simp only [View.ld_unit_zero (S := S1x178x512) hzero9_3, View.ld_unit_zero (S := S512x1500) hzero9_2, View.ld_unit_zero (S := S1x1500) hzero9_2]

end Cert.ReferenceIdeal.Hand

end
-- ==== Proof.R.Arr10.lean ====
import proofs.«169142_g2000501041679005_pallasbulk_208_6_alg».proof.Proof.RF.Reg10
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

theorem N10 : cfg10.N = 1 := N_10

def t10 : Fin cfg10.N := ⟨0, by rw [N10]; exact Nat.zero_lt_one⟩

theorem disjoint10 : ∀ t t' : Fin cfg10.N, (cfg10.win 10).flush t = true → (cfg10.win 10).flush t' = true → t ≠ t' →
    Disjoint ((cfg10.win 10).blk t).view.set ((cfg10.win 10).blk t').view.set :=
  fun t t' _ _ hne => absurd (Fin.ext (by have h := t.isLt; have h' := t'.isLt; have hN := N10; omega)) hne

theorem blk10 (c : Dev nD) (t : Fin cfg10.N) :
    ((cfg10.win 10).blk t).view.read (Elt F) ((dat10 V c).arrAt 10 cfg10.N)
      = out10_10 (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t) :=
  ((dat10 V c).read_blk_arrAt_eq_flushed 10 disjoint10 cfg10.N t t.isLt (flush10_10 t)).trans (by
    show (cfg10.win 10).cut (grid10.coords t) ((dat10 V c).after 10 t) = _
    rw [after10_10]; rfl)

theorem iblk10_0 (c : Dev nD) (t : Fin cfg10.N) : iblk10 V c 0 t = V c (Pipeline.arrRef spec10 0) := by
  funext i
  show V c (Pipeline.arrRef spec10 0) (((cfg10.win 0).blk t).view.emb i) = V c (Pipeline.arrRef spec10 0) i
  refine congrArg (V c (Pipeline.arrRef spec10 0)) ?_
  funext a; apply Fin.ext
  match a with
  | ⟨0, _⟩ => show win10_0.index t (0 : Fin 3) * 16 + 1 * (i 0).val = (i 0).val; have h0 : win10_0.index t (0 : Fin 3) = 0 := rfl; omega
  | ⟨1, _⟩ => show win10_0.index t (1 : Fin 3) * 178 + 1 * (i 1).val = (i 1).val; have h0 : win10_0.index t (1 : Fin 3) = 0 := rfl; omega
  | ⟨2, _⟩ => show win10_0.index t (2 : Fin 3) * 1500 + 1 * (i 2).val = (i 2).val; have h0 : win10_0.index t (2 : Fin 3) = 0 := rfl; omega

theorem iblk10_1 (c : Dev nD) (t : Fin cfg10.N) : iblk10 V c 1 t = V c (Pipeline.arrRef spec10 1) := by
  funext i
  show V c (Pipeline.arrRef spec10 1) (((cfg10.win 1).blk t).view.emb i) = V c (Pipeline.arrRef spec10 1) i
  refine congrArg (V c (Pipeline.arrRef spec10 1)) ?_
  funext a; apply Fin.ext
  match a with
  | ⟨0, _⟩ => show win10_1.index t (0 : Fin 2) * 1500 + 1 * (i 0).val = (i 0).val; have h0 : win10_1.index t (0 : Fin 2) = 0 := rfl; omega
  | ⟨1, _⟩ => show win10_1.index t (1 : Fin 2) * 512 + 1 * (i 1).val = (i 1).val; have h0 : win10_1.index t (1 : Fin 2) = 0 := rfl; omega

theorem iblk10_2 (c : Dev nD) (t : Fin cfg10.N) : iblk10 V c 2 t = V c (Pipeline.arrRef spec10 2) := by
  funext i
  show V c (Pipeline.arrRef spec10 2) (((cfg10.win 2).blk t).view.emb i) = V c (Pipeline.arrRef spec10 2) i
  refine congrArg (V c (Pipeline.arrRef spec10 2)) ?_
  funext a; apply Fin.ext
  match a with
  | ⟨0, _⟩ => show win10_2.index t (0 : Fin 2) * 1500 + 1 * (i 0).val = (i 0).val; have h0 : win10_2.index t (0 : Fin 2) = 0 := rfl; omega
  | ⟨1, _⟩ => show win10_2.index t (1 : Fin 2) * 512 + 1 * (i 1).val = (i 1).val; have h0 : win10_2.index t (1 : Fin 2) = 0 := rfl; omega

theorem iblk10_3 (c : Dev nD) (t : Fin cfg10.N) : iblk10 V c 3 t = V c (Pipeline.arrRef spec10 3) := by
  funext i
  show V c (Pipeline.arrRef spec10 3) (((cfg10.win 3).blk t).view.emb i) = V c (Pipeline.arrRef spec10 3) i
  refine congrArg (V c (Pipeline.arrRef spec10 3)) ?_
  funext a; apply Fin.ext
  match a with
  | ⟨0, _⟩ => show win10_3.index t (0 : Fin 2) * 1 + 1 * (i 0).val = (i 0).val; have h0 : win10_3.index t (0 : Fin 2) = 0 := rfl; omega
  | ⟨1, _⟩ => show win10_3.index t (1 : Fin 2) * 512 + 1 * (i 1).val = (i 1).val; have h0 : win10_3.index t (1 : Fin 2) = 0 := rfl; omega

theorem iblk10_4 (c : Dev nD) (t : Fin cfg10.N) : iblk10 V c 4 t = V c (Pipeline.arrRef spec10 4) := by
  funext i
  show V c (Pipeline.arrRef spec10 4) (((cfg10.win 4).blk t).view.emb i) = V c (Pipeline.arrRef spec10 4) i
  refine congrArg (V c (Pipeline.arrRef spec10 4)) ?_
  funext a; apply Fin.ext
  match a with
  | ⟨0, _⟩ => show win10_4.index t (0 : Fin 2) * 512 + 1 * (i 0).val = (i 0).val; have h0 : win10_4.index t (0 : Fin 2) = 0 := rfl; omega
  | ⟨1, _⟩ => show win10_4.index t (1 : Fin 2) * 128 + 1 * (i 1).val = (i 1).val; have h0 : win10_4.index t (1 : Fin 2) = 0 := rfl; omega

theorem iblk10_5 (c : Dev nD) (t : Fin cfg10.N) : iblk10 V c 5 t = V c (Pipeline.arrRef spec10 5) := by
  funext i
  show V c (Pipeline.arrRef spec10 5) (((cfg10.win 5).blk t).view.emb i) = V c (Pipeline.arrRef spec10 5) i
  refine congrArg (V c (Pipeline.arrRef spec10 5)) ?_
  funext a; apply Fin.ext
  match a with
  | ⟨0, _⟩ => show win10_5.index t (0 : Fin 2) * 1 + 1 * (i 0).val = (i 0).val; have h0 : win10_5.index t (0 : Fin 2) = 0 := rfl; omega
  | ⟨1, _⟩ => show win10_5.index t (1 : Fin 2) * 128 + 1 * (i 1).val = (i 1).val; have h0 : win10_5.index t (1 : Fin 2) = 0 := rfl; omega

theorem iblk10_6 (c : Dev nD) (t : Fin cfg10.N) : iblk10 V c 6 t = V c (Pipeline.arrRef spec10 6) := by
  funext i
  show V c (Pipeline.arrRef spec10 6) (((cfg10.win 6).blk t).view.emb i) = V c (Pipeline.arrRef spec10 6) i
  refine congrArg (V c (Pipeline.arrRef spec10 6)) ?_
  funext a; apply Fin.ext
  match a with
  | ⟨0, _⟩ => show win10_6.index t (0 : Fin 2) * 128 + 1 * (i 0).val = (i 0).val; have h0 : win10_6.index t (0 : Fin 2) = 0 := rfl; omega
  | ⟨1, _⟩ => show win10_6.index t (1 : Fin 2) * 128 + 1 * (i 1).val = (i 1).val; have h0 : win10_6.index t (1 : Fin 2) = 0 := rfl; omega

theorem iblk10_7 (c : Dev nD) (t : Fin cfg10.N) : iblk10 V c 7 t = V c (Pipeline.arrRef spec10 7) := by
  funext i
  show V c (Pipeline.arrRef spec10 7) (((cfg10.win 7).blk t).view.emb i) = V c (Pipeline.arrRef spec10 7) i
  refine congrArg (V c (Pipeline.arrRef spec10 7)) ?_
  funext a; apply Fin.ext
  match a with
  | ⟨0, _⟩ => show win10_7.index t (0 : Fin 2) * 1 + 1 * (i 0).val = (i 0).val; have h0 : win10_7.index t (0 : Fin 2) = 0 := rfl; omega
  | ⟨1, _⟩ => show win10_7.index t (1 : Fin 2) * 128 + 1 * (i 1).val = (i 1).val; have h0 : win10_7.index t (1 : Fin 2) = 0 := rfl; omega

theorem iblk10_8 (c : Dev nD) (t : Fin cfg10.N) : iblk10 V c 8 t = V c (Pipeline.arrRef spec10 8) := by
  funext i
  show V c (Pipeline.arrRef spec10 8) (((cfg10.win 8).blk t).view.emb i) = V c (Pipeline.arrRef spec10 8) i
  refine congrArg (V c (Pipeline.arrRef spec10 8)) ?_
  funext a; apply Fin.ext
  match a with
  | ⟨0, _⟩ => show win10_8.index t (0 : Fin 2) * 128 + 1 * (i 0).val = (i 0).val; have h0 : win10_8.index t (0 : Fin 2) = 0 := rfl; omega
  | ⟨1, _⟩ => show win10_8.index t (1 : Fin 2) * 1 + 1 * (i 1).val = (i 1).val; have h0 : win10_8.index t (1 : Fin 2) = 0 := rfl; omega

theorem iblk10_9 (c : Dev nD) (t : Fin cfg10.N) : iblk10 V c 9 t = V c (Pipeline.arrRef spec10 9) := by
  funext i
  show V c (Pipeline.arrRef spec10 9) (((cfg10.win 9).blk t).view.emb i) = V c (Pipeline.arrRef spec10 9) i
  refine congrArg (V c (Pipeline.arrRef spec10 9)) ?_
  funext a; apply Fin.ext
  match a with
  | ⟨0, _⟩ => show win10_9.index t (0 : Fin 2) * 128 + 1 * (i 0).val = (i 0).val; have h0 : win10_9.index t (0 : Fin 2) = 0 := rfl; omega
  | ⟨1, _⟩ => show win10_9.index t (1 : Fin 2) * 1 + 1 * (i 1).val = (i 1).val; have h0 : win10_9.index t (1 : Fin 2) = 0 := rfl; omega

theorem out10_blocks (c : Dev nD) (t : Fin cfg10.N) :
    out10_10 (iblk10 V c 0 t) (iblk10 V c 1 t) (iblk10 V c 2 t) (iblk10 V c 3 t) (iblk10 V c 4 t) (iblk10 V c 5 t) (iblk10 V c 6 t) (iblk10 V c 7 t) (iblk10 V c 8 t) (iblk10 V c 9 t)
      = out10_10 (V c (Pipeline.arrRef spec10 0))
        (V c (Pipeline.arrRef spec10 1))
        (V c (Pipeline.arrRef spec10 2))
        (V c (Pipeline.arrRef spec10 3))
        (V c (Pipeline.arrRef spec10 4))
        (V c (Pipeline.arrRef spec10 5))
        (V c (Pipeline.arrRef spec10 6))
        (V c (Pipeline.arrRef spec10 7))
        (V c (Pipeline.arrRef spec10 8))
        (V c (Pipeline.arrRef spec10 9)) := by
  simp only [iblk10_0 V c t, iblk10_1 V c t, iblk10_2 V c t, iblk10_3 V c t, iblk10_4 V c t, iblk10_5 V c t, iblk10_6 V c t, iblk10_7 V c t, iblk10_8 V c t, iblk10_9 V c t]

theorem read10 (A : Vec F S1x8 .f32) (n : Fin 8) :
    ((cfg10.win 10).blk t10).view.read (Elt F) A (ix2 0 n) = A (ix2 0 n) := by
  show A (((cfg10.win 10).blk t10).view.emb (ix2 0 n)) = A (ix2 0 n)
  refine congrArg A ?_
  funext a; apply Fin.ext
  match a with
  | ⟨0, _⟩ => show win10_10.index t10 (0 : Fin 2) * 1 + 1 * 0 = 0; have h0 : win10_10.index t10 (0 : Fin 2) = 0 := rfl; omega
  | ⟨1, _⟩ => show win10_10.index t10 (1 : Fin 2) * 8 + 1 * n.val = n.val; have h0 : win10_10.index t10 (1 : Fin 2) = 0 := rfl; omega

theorem arr10_blocks (c : Dev nD) (n : Fin 8) :
    (dat10 V c).arrAt 10 cfg10.N (ix2 0 n) = out10_10 (iblk10 V c 0 t10) (iblk10 V c 1 t10) (iblk10 V c 2 t10) (iblk10 V c 3 t10) (iblk10 V c 4 t10) (iblk10 V c 5 t10) (iblk10 V c 6 t10) (iblk10 V c 7 t10) (iblk10 V c 8 t10) (iblk10 V c 9 t10) (ix2 0 n) :=
  (read10 ((dat10 V c).arrAt 10 cfg10.N) n).symm.trans (congrFun (blk10 V c t10) (ix2 0 n))

theorem arr10 (c : Dev nD) (n : Fin 8) :
    (dat10 V c).arrAt 10 cfg10.N (ix2 0 n)
      = out10_10 (V c (Pipeline.arrRef spec10 0))
        (V c (Pipeline.arrRef spec10 1))
        (V c (Pipeline.arrRef spec10 2))
        (V c (Pipeline.arrRef spec10 3))
        (V c (Pipeline.arrRef spec10 4))
        (V c (Pipeline.arrRef spec10 5))
        (V c (Pipeline.arrRef spec10 6))
        (V c (Pipeline.arrRef spec10 7))
        (V c (Pipeline.arrRef spec10 8))
        (V c (Pipeline.arrRef spec10 9)) (ix2 0 n) :=
  (arr10_blocks V c n).trans (congrFun (out10_blocks V c t10) (ix2 0 n))

end Cert.ReferenceIdeal.Hand

end
-- ==== Proof.R.Value.lean ====
import proofs.«169142_g2000501041679005_pallasbulk_208_6_alg».proof.Proof.R.Out
import proofs.«169142_g2000501041679005_pallasbulk_208_6_alg».proof.Proof.R.Host
import proofs.«169142_g2000501041679005_pallasbulk_208_6_alg».proof.Proof.R.Arr0
import proofs.«169142_g2000501041679005_pallasbulk_208_6_alg».proof.Proof.R.Arr1
import proofs.«169142_g2000501041679005_pallasbulk_208_6_alg».proof.Proof.R.Arr2
import proofs.«169142_g2000501041679005_pallasbulk_208_6_alg».proof.Proof.R.Arr3
import proofs.«169142_g2000501041679005_pallasbulk_208_6_alg».proof.Proof.R.Arr4
import proofs.«169142_g2000501041679005_pallasbulk_208_6_alg».proof.Proof.R.Arr5
import proofs.«169142_g2000501041679005_pallasbulk_208_6_alg».proof.Proof.R.Arr6
import proofs.«169142_g2000501041679005_pallasbulk_208_6_alg».proof.Proof.R.Arr7
import proofs.«169142_g2000501041679005_pallasbulk_208_6_alg».proof.Proof.R.Arr8
import proofs.«169142_g2000501041679005_pallasbulk_208_6_alg».proof.Proof.R.Arr9
import proofs.«169142_g2000501041679005_pallasbulk_208_6_alg».proof.Proof.R.Arr10

set_option maxRecDepth 16384

noncomputable section

namespace Cert.ReferenceIdeal.Val

open Cert.ReferenceIdeal Cert.ReferenceIdeal.Gen Cert.ReferenceIdeal.Hand Cert.ReferenceIdeal.Host
open Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

def A0 (c : Dev nD) : Vec F S16x200x30 .f32 := V1 m ρ c main_v1

def A1 (c : Dev nD) : Vec F S16x196x512 .f32 := (dat0 (V1 m ρ) c).arrAt 5 cfg0.N

def A2 (c : Dev nD) : Vec F S16x196x512 .f32 := (dat1 (V3 m ρ) c).arrAt 5 cfg1.N

def A3 (c : Dev nD) : Vec F S16x192x512 .f32 := (dat2 (V5 m ρ) c).arrAt 5 cfg2.N

def A4 (c : Dev nD) : Vec F S16x192x512 .f32 := (dat3 (V7 m ρ) c).arrAt 5 cfg3.N

def A5 (c : Dev nD) : Vec F S16x186x512 .f32 := (dat4 (V9 m ρ) c).arrAt 5 cfg4.N

def A6 (c : Dev nD) : Vec F S16x186x512 .f32 := (dat5 (V11 m ρ) c).arrAt 5 cfg5.N

def A7 (c : Dev nD) : Vec F S16x178x512 .f32 := (dat6 (V13 m ρ) c).arrAt 5 cfg6.N

def A8 (c : Dev nD) : Vec F S16x178x512 .f32 := (dat7 (V15 m ρ) c).arrAt 5 cfg7.N

def A9 (c : Dev nD) : Vec F S16x178x512 .f32 := (dat8 (V17 m ρ) c).arrAt 5 cfg8.N

def A10 (c : Dev nD) : Vec F S16x178x1500 .f32 := (dat9 (V19 m ρ) c).arrAt 5 cfg9.N

theorem A0_eq (c : Dev nD) : A0 m ρ c
    = transpose S16x200x30 [0, 2, 1] (concatenate S16x30x200 0 [⟨S8x30x200, (m ((c : Thread nD τ).loc main_arg0) : Vec F S8x30x200 .f32)⟩,
        ⟨S8x30x200, (m ((c : Thread nD τ).loc main_arg1) : Vec F S8x30x200 .f32)⟩] concatenates_S8x30x200_S8x30x200_S16x30x200_d0)
        transposes_S16x30x200_S16x200x30_0_2_1 := x_in0 m ρ c

theorem block0 (c : Dev nD) (u : Fin 16) :
    @Eq (Vec F S1x200x30 .f32) (iblk0 (V1 m ρ) c 0 (pt0 u)) (fun y => A0 m ρ c (ix3 u (y 1) (y 2))) := by
  funext y
  obtain ⟨a, t, f, rfl⟩ : ∃ (a : Fin 1) (t : Fin 200) (f : Fin 30), y = ix3 a t f := ⟨y 0, y 1, y 2, eq_ix3 y⟩
  obtain rfl : a = 0 := Subsingleton.elim _ _
  exact iblk0_0 (V1 m ρ) c u t f

theorem block1 (c : Dev nD) (u : Fin 16) :
    @Eq (Vec F S1x196x512 .f32) (iblk1 (V3 m ρ) c 0 (pt1 u)) (fun y => A1 m ρ c (ix3 u (y 1) (y 2))) := by
  funext y
  obtain ⟨a, t, f, rfl⟩ : ∃ (a : Fin 1) (t : Fin 196) (f : Fin 512), y = ix3 a t f := ⟨y 0, y 1, y 2, eq_ix3 y⟩
  obtain rfl : a = 0 := Subsingleton.elim _ _
  exact (iblk1_0 (V3 m ρ) c u t f).trans (congrFun (x_in1 m ρ c) (ix3 u t f))

theorem block2 (c : Dev nD) (u : Fin 16) :
    @Eq (Vec F S1x196x512 .f32) (iblk2 (V5 m ρ) c 0 (pt2 u)) (fun y => A2 m ρ c (ix3 u (y 1) (y 2))) := by
  funext y
  obtain ⟨a, t, f, rfl⟩ : ∃ (a : Fin 1) (t : Fin 196) (f : Fin 512), y = ix3 a t f := ⟨y 0, y 1, y 2, eq_ix3 y⟩
  obtain rfl : a = 0 := Subsingleton.elim _ _
  exact (iblk2_0 (V5 m ρ) c u t f).trans (congrFun (x_in2 m ρ c) (ix3 u t f))

theorem block3 (c : Dev nD) (u : Fin 16) :
    @Eq (Vec F S1x192x512 .f32) (iblk3 (V7 m ρ) c 0 (pt3 u)) (fun y => A3 m ρ c (ix3 u (y 1) (y 2))) := by
  funext y
  obtain ⟨a, t, f, rfl⟩ : ∃ (a : Fin 1) (t : Fin 192) (f : Fin 512), y = ix3 a t f := ⟨y 0, y 1, y 2, eq_ix3 y⟩
  obtain rfl : a = 0 := Subsingleton.elim _ _
  exact (iblk3_0 (V7 m ρ) c u t f).trans (congrFun (x_in3 m ρ c) (ix3 u t f))

theorem block4 (c : Dev nD) (u : Fin 16) :
    @Eq (Vec F S1x192x512 .f32) (iblk4 (V9 m ρ) c 0 (pt4 u)) (fun y => A4 m ρ c (ix3 u (y 1) (y 2))) := by
  funext y
  obtain ⟨a, t, f, rfl⟩ : ∃ (a : Fin 1) (t : Fin 192) (f : Fin 512), y = ix3 a t f := ⟨y 0, y 1, y 2, eq_ix3 y⟩
  obtain rfl : a = 0 := Subsingleton.elim _ _
  exact (iblk4_0 (V9 m ρ) c u t f).trans (congrFun (x_in4 m ρ c) (ix3 u t f))

theorem block5 (c : Dev nD) (u : Fin 16) :
    @Eq (Vec F S1x186x512 .f32) (iblk5 (V11 m ρ) c 0 (pt5 u)) (fun y => A5 m ρ c (ix3 u (y 1) (y 2))) := by
  funext y
  obtain ⟨a, t, f, rfl⟩ : ∃ (a : Fin 1) (t : Fin 186) (f : Fin 512), y = ix3 a t f := ⟨y 0, y 1, y 2, eq_ix3 y⟩
  obtain rfl : a = 0 := Subsingleton.elim _ _
  exact (iblk5_0 (V11 m ρ) c u t f).trans (congrFun (x_in5 m ρ c) (ix3 u t f))

theorem block6 (c : Dev nD) (u : Fin 16) :
    @Eq (Vec F S1x186x512 .f32) (iblk6 (V13 m ρ) c 0 (pt6 u)) (fun y => A6 m ρ c (ix3 u (y 1) (y 2))) := by
  funext y
  obtain ⟨a, t, f, rfl⟩ : ∃ (a : Fin 1) (t : Fin 186) (f : Fin 512), y = ix3 a t f := ⟨y 0, y 1, y 2, eq_ix3 y⟩
  obtain rfl : a = 0 := Subsingleton.elim _ _
  exact (iblk6_0 (V13 m ρ) c u t f).trans (congrFun (x_in6 m ρ c) (ix3 u t f))

theorem block7 (c : Dev nD) (u : Fin 16) :
    @Eq (Vec F S1x178x512 .f32) (iblk7 (V15 m ρ) c 0 (pt7 u)) (fun y => A7 m ρ c (ix3 u (y 1) (y 2))) := by
  funext y
  obtain ⟨a, t, f, rfl⟩ : ∃ (a : Fin 1) (t : Fin 178) (f : Fin 512), y = ix3 a t f := ⟨y 0, y 1, y 2, eq_ix3 y⟩
  obtain rfl : a = 0 := Subsingleton.elim _ _
  exact (iblk7_0 (V15 m ρ) c u t f).trans (congrFun (x_in7 m ρ c) (ix3 u t f))

theorem block8 (c : Dev nD) (u : Fin 16) :
    @Eq (Vec F S1x178x512 .f32) (iblk8 (V17 m ρ) c 0 (pt8 u)) (fun y => A8 m ρ c (ix3 u (y 1) (y 2))) := by
  funext y
  obtain ⟨a, t, f, rfl⟩ : ∃ (a : Fin 1) (t : Fin 178) (f : Fin 512), y = ix3 a t f := ⟨y 0, y 1, y 2, eq_ix3 y⟩
  obtain rfl : a = 0 := Subsingleton.elim _ _
  exact (iblk8_0 (V17 m ρ) c u t f).trans (congrFun (x_in8 m ρ c) (ix3 u t f))

theorem block9 (c : Dev nD) (u : Fin 16) :
    @Eq (Vec F S1x178x512 .f32) (iblk9 (V19 m ρ) c 0 (pt9 u)) (fun y => A9 m ρ c (ix3 u (y 1) (y 2))) := by
  funext y
  obtain ⟨a, t, f, rfl⟩ : ∃ (a : Fin 1) (t : Fin 178) (f : Fin 512), y = ix3 a t f := ⟨y 0, y 1, y 2, eq_ix3 y⟩
  obtain rfl : a = 0 := Subsingleton.elim _ _
  exact (iblk9_0 (V19 m ρ) c u t f).trans (congrFun (x_in9 m ρ c) (ix3 u t f))

theorem act1 (c : Dev nD) (u : Fin 16) (t : Fin 196) (j : Fin 512) :
    A1 m ρ c (ix3 u t j)
      = k0_pay1 (k0_pay2 (fun y : S1x200x30.Idx => A0 m ρ c (ix3 u (y 1) (y 2)))
          (View.ld (m ((c : Thread nD τ).loc main_arg2) : Vec F S150x512 .f32) r0_1)
          (View.ld (m ((c : Thread nD τ).loc main_arg2) : Vec F S150x512 .f32) r0_2)
          (View.ld (m ((c : Thread nD τ).loc main_arg2) : Vec F S150x512 .f32) r0_3)
          (View.ld (m ((c : Thread nD τ).loc main_arg2) : Vec F S150x512 .f32) r0_4)
          (View.ld (m ((c : Thread nD τ).loc main_arg2) : Vec F S150x512 .f32) r0_5)
          (shapeCast S1x512 (m ((c : Thread nD τ).loc main_arg3) : Vec F S512 .f32) shapeCasts_S512_S1x512) (shapeCast S1x512 (m ((c : Thread nD τ).loc main_arg4) : Vec F S512 .f32) shapeCasts_S512_S1x512))
          (k0_pay3 (shapeCast S1x512 (m ((c : Thread nD τ).loc main_arg5) : Vec F S512 .f32) shapeCasts_S512_S1x512)) (Scalar.ofBits .f32 0x3727C5AC#32) (ix3 0 t j) := by
  refine (arr0 (V1 m ρ) c u t j).trans ?_
  rw [out0_5_eq, block0 m ρ c u]
  show k0_pay1 (k0_pay2 _ (View.ld (V1 m ρ c main_arg2) r0_1) (View.ld (V1 m ρ c main_arg2) r0_2) (View.ld (V1 m ρ c main_arg2) r0_3) (View.ld (V1 m ρ c main_arg2) r0_4) (View.ld (V1 m ρ c main_arg2) r0_5) (V1 m ρ c main_v2) (V1 m ρ c main_v3)) (k0_pay3 (V1 m ρ c main_v4)) (Scalar.ofBits .f32 0x3727C5AC#32) (ix3 0 t j) = _
  rw [w_in0, b_in0, mean_in0, var_in0]

theorem act2 (c : Dev nD) (u : Fin 16) (t : Fin 196) (j : Fin 512) :
    A2 m ρ c (ix3 u t j)
      = k1_pay1 (fun y : S1x196x512.Idx => A1 m ρ c (ix3 u (y 1) (y 2)))
          (m ((c : Thread nD τ).loc main_arg6) : Vec F S512x512 .f32)
          (shapeCast S1x512 (m ((c : Thread nD τ).loc main_arg7) : Vec F S512 .f32) shapeCasts_S512_S1x512) (shapeCast S1x512 (m ((c : Thread nD τ).loc main_arg8) : Vec F S512 .f32) shapeCasts_S512_S1x512) (shapeCast S1x512 (m ((c : Thread nD τ).loc main_arg9) : Vec F S512 .f32) shapeCasts_S512_S1x512) (ix3 0 t j) := by
  refine (arr1 (V3 m ρ) c u t j).trans ?_
  rw [out1_5_eq, block1 m ρ c u]
  show k1_pay1 _ (V3 m ρ c main_arg6) (V3 m ρ c main_v6) (V3 m ρ c main_v7) (V3 m ρ c main_v8) (ix3 0 t j) = _
  rw [w_in1, b_in1, mean_in1, var_in1]

theorem act3 (c : Dev nD) (u : Fin 16) (t : Fin 192) (j : Fin 512) :
    A3 m ρ c (ix3 u t j)
      = k2_pay1 (fun y : S1x196x512.Idx => A2 m ρ c (ix3 u (y 1) (y 2)))
          (View.ld (m ((c : Thread nD τ).loc main_arg10) : Vec F S1536x512 .f32) r2_1)
          (View.ld (m ((c : Thread nD τ).loc main_arg10) : Vec F S1536x512 .f32) r2_2)
          (View.ld (m ((c : Thread nD τ).loc main_arg10) : Vec F S1536x512 .f32) r2_3)
          (shapeCast S1x512 (m ((c : Thread nD τ).loc main_arg11) : Vec F S512 .f32) shapeCasts_S512_S1x512) (shapeCast S1x512 (m ((c : Thread nD τ).loc main_arg12) : Vec F S512 .f32) shapeCasts_S512_S1x512) (shapeCast S1x512 (m ((c : Thread nD τ).loc main_arg13) : Vec F S512 .f32) shapeCasts_S512_S1x512) (ix3 0 t j) := by
  refine (arr2 (V5 m ρ) c u t j).trans ?_
  rw [out2_5_eq, block2 m ρ c u]
  show k2_pay1 _ (View.ld (V5 m ρ c main_arg10) r2_1) (View.ld (V5 m ρ c main_arg10) r2_2) (View.ld (V5 m ρ c main_arg10) r2_3) (V5 m ρ c main_v10) (V5 m ρ c main_v11) (V5 m ρ c main_v12) (ix3 0 t j) = _
  rw [w_in2, b_in2, mean_in2, var_in2]

theorem act4 (c : Dev nD) (u : Fin 16) (t : Fin 192) (j : Fin 512) :
    A4 m ρ c (ix3 u t j)
      = k3_pay1 (fun y : S1x192x512.Idx => A3 m ρ c (ix3 u (y 1) (y 2)))
          (m ((c : Thread nD τ).loc main_arg14) : Vec F S512x512 .f32)
          (shapeCast S1x512 (m ((c : Thread nD τ).loc main_arg15) : Vec F S512 .f32) shapeCasts_S512_S1x512) (shapeCast S1x512 (m ((c : Thread nD τ).loc main_arg16) : Vec F S512 .f32) shapeCasts_S512_S1x512) (shapeCast S1x512 (m ((c : Thread nD τ).loc main_arg17) : Vec F S512 .f32) shapeCasts_S512_S1x512) (ix3 0 t j) := by
  refine (arr3 (V7 m ρ) c u t j).trans ?_
  rw [out3_5_eq, block3 m ρ c u]
  show k3_pay1 _ (V7 m ρ c main_arg14) (V7 m ρ c main_v14) (V7 m ρ c main_v15) (V7 m ρ c main_v16) (ix3 0 t j) = _
  rw [w_in3, b_in3, mean_in3, var_in3]

theorem act5 (c : Dev nD) (u : Fin 16) (t : Fin 186) (j : Fin 512) :
    A5 m ρ c (ix3 u t j)
      = k4_pay1 (fun y : S1x192x512.Idx => A4 m ρ c (ix3 u (y 1) (y 2)))
          (View.ld (m ((c : Thread nD τ).loc main_arg18) : Vec F S1536x512 .f32) r4_1)
          (View.ld (m ((c : Thread nD τ).loc main_arg18) : Vec F S1536x512 .f32) r4_2)
          (View.ld (m ((c : Thread nD τ).loc main_arg18) : Vec F S1536x512 .f32) r4_3)
          (shapeCast S1x512 (m ((c : Thread nD τ).loc main_arg19) : Vec F S512 .f32) shapeCasts_S512_S1x512) (shapeCast S1x512 (m ((c : Thread nD τ).loc main_arg20) : Vec F S512 .f32) shapeCasts_S512_S1x512) (shapeCast S1x512 (m ((c : Thread nD τ).loc main_arg21) : Vec F S512 .f32) shapeCasts_S512_S1x512) (ix3 0 t j) := by
  refine (arr4 (V9 m ρ) c u t j).trans ?_
  rw [out4_5_eq, block4 m ρ c u]
  show k4_pay1 _ (View.ld (V9 m ρ c main_arg18) r4_1) (View.ld (V9 m ρ c main_arg18) r4_2) (View.ld (V9 m ρ c main_arg18) r4_3) (V9 m ρ c main_v18) (V9 m ρ c main_v19) (V9 m ρ c main_v20) (ix3 0 t j) = _
  rw [w_in4, b_in4, mean_in4, var_in4]

theorem act6 (c : Dev nD) (u : Fin 16) (t : Fin 186) (j : Fin 512) :
    A6 m ρ c (ix3 u t j)
      = k5_pay1 (fun y : S1x186x512.Idx => A5 m ρ c (ix3 u (y 1) (y 2)))
          (m ((c : Thread nD τ).loc main_arg22) : Vec F S512x512 .f32)
          (shapeCast S1x512 (m ((c : Thread nD τ).loc main_arg23) : Vec F S512 .f32) shapeCasts_S512_S1x512) (shapeCast S1x512 (m ((c : Thread nD τ).loc main_arg24) : Vec F S512 .f32) shapeCasts_S512_S1x512) (shapeCast S1x512 (m ((c : Thread nD τ).loc main_arg25) : Vec F S512 .f32) shapeCasts_S512_S1x512) (ix3 0 t j) := by
  refine (arr5 (V11 m ρ) c u t j).trans ?_
  rw [out5_5_eq, block5 m ρ c u]
  show k5_pay1 _ (V11 m ρ c main_arg22) (V11 m ρ c main_v22) (V11 m ρ c main_v23) (V11 m ρ c main_v24) (ix3 0 t j) = _
  rw [w_in5, b_in5, mean_in5, var_in5]

theorem act7 (c : Dev nD) (u : Fin 16) (t : Fin 178) (j : Fin 512) :
    A7 m ρ c (ix3 u t j)
      = k6_pay1 (fun y : S1x186x512.Idx => A6 m ρ c (ix3 u (y 1) (y 2)))
          (View.ld (m ((c : Thread nD τ).loc main_arg26) : Vec F S1536x512 .f32) r6_1)
          (View.ld (m ((c : Thread nD τ).loc main_arg26) : Vec F S1536x512 .f32) r6_2)
          (View.ld (m ((c : Thread nD τ).loc main_arg26) : Vec F S1536x512 .f32) r6_3)
          (shapeCast S1x512 (m ((c : Thread nD τ).loc main_arg27) : Vec F S512 .f32) shapeCasts_S512_S1x512) (shapeCast S1x512 (m ((c : Thread nD τ).loc main_arg28) : Vec F S512 .f32) shapeCasts_S512_S1x512) (shapeCast S1x512 (m ((c : Thread nD τ).loc main_arg29) : Vec F S512 .f32) shapeCasts_S512_S1x512) (ix3 0 t j) := by
  refine (arr6 (V13 m ρ) c u t j).trans ?_
  rw [out6_5_eq, block6 m ρ c u]
  show k6_pay1 _ (View.ld (V13 m ρ c main_arg26) r6_1) (View.ld (V13 m ρ c main_arg26) r6_2) (View.ld (V13 m ρ c main_arg26) r6_3) (V13 m ρ c main_v26) (V13 m ρ c main_v27) (V13 m ρ c main_v28) (ix3 0 t j) = _
  rw [w_in6, b_in6, mean_in6, var_in6]

theorem act8 (c : Dev nD) (u : Fin 16) (t : Fin 178) (j : Fin 512) :
    A8 m ρ c (ix3 u t j)
      = k7_pay1 (fun y : S1x178x512.Idx => A7 m ρ c (ix3 u (y 1) (y 2)))
          (m ((c : Thread nD τ).loc main_arg30) : Vec F S512x512 .f32)
          (shapeCast S1x512 (m ((c : Thread nD τ).loc main_arg31) : Vec F S512 .f32) shapeCasts_S512_S1x512) (shapeCast S1x512 (m ((c : Thread nD τ).loc main_arg32) : Vec F S512 .f32) shapeCasts_S512_S1x512) (shapeCast S1x512 (m ((c : Thread nD τ).loc main_arg33) : Vec F S512 .f32) shapeCasts_S512_S1x512) (ix3 0 t j) := by
  refine (arr7 (V15 m ρ) c u t j).trans ?_
  rw [out7_5_eq, block7 m ρ c u]
  show k7_pay1 _ (V15 m ρ c main_arg30) (V15 m ρ c main_v30) (V15 m ρ c main_v31) (V15 m ρ c main_v32) (ix3 0 t j) = _
  rw [w_in7, b_in7, mean_in7, var_in7]

theorem act9 (c : Dev nD) (u : Fin 16) (t : Fin 178) (j : Fin 512) :
    A9 m ρ c (ix3 u t j)
      = k8_pay1 (fun y : S1x178x512.Idx => A8 m ρ c (ix3 u (y 1) (y 2)))
          (m ((c : Thread nD τ).loc main_arg34) : Vec F S512x512 .f32)
          (shapeCast S1x512 (m ((c : Thread nD τ).loc main_arg35) : Vec F S512 .f32) shapeCasts_S512_S1x512) (shapeCast S1x512 (m ((c : Thread nD τ).loc main_arg36) : Vec F S512 .f32) shapeCasts_S512_S1x512) (shapeCast S1x512 (m ((c : Thread nD τ).loc main_arg37) : Vec F S512 .f32) shapeCasts_S512_S1x512) (ix3 0 t j) := by
  refine (arr8 (V17 m ρ) c u t j).trans ?_
  rw [out8_5_eq, block8 m ρ c u]
  show k8_pay1 _ (V17 m ρ c main_arg34) (V17 m ρ c main_v34) (V17 m ρ c main_v35) (V17 m ρ c main_v36) (ix3 0 t j) = _
  rw [w_in8, b_in8, mean_in8, var_in8]

theorem act10 (c : Dev nD) (u : Fin 16) (t : Fin 178) (j : Fin 1500) :
    A10 m ρ c (ix3 u t j)
      = k9_pay1 (fun y : S1x178x512.Idx => A9 m ρ c (ix3 u (y 1) (y 2)))
          (m ((c : Thread nD τ).loc main_arg38) : Vec F S512x1500 .f32)
          (shapeCast S1x1500 (m ((c : Thread nD τ).loc main_arg39) : Vec F S1500 .f32) shapeCasts_S1500_S1x1500) (shapeCast S1x1500 (m ((c : Thread nD τ).loc main_arg40) : Vec F S1500 .f32) shapeCasts_S1500_S1x1500) (shapeCast S1x1500 (m ((c : Thread nD τ).loc main_arg41) : Vec F S1500 .f32) shapeCasts_S1500_S1x1500) (ix3 0 t j) := by
  refine (arr9 (V19 m ρ) c u t j).trans ?_
  rw [out9_5_eq, block9 m ρ c u]
  show k9_pay1 _ (V19 m ρ c main_arg38) (V19 m ρ c main_v38) (V19 m ρ c main_v39) (V19 m ρ c main_v40) (ix3 0 t j) = _
  rw [w_in9, b_in9, mean_in9, var_in9]

theorem result (c : Dev nD) (n : Fin 8) :
    (W23 m ρ c (Proc.devRef .tc main_v50) : Vec F S8 .f32) (ix1 n)
      = out10_10 (A10 m ρ c)
          (extractStridedSlice S1500x512 ![0, 0] (m ((c : Thread nD τ).loc main_arg42) : Vec F S3000x512 .f32) slices_S3000x512_S1500x512_0_0)
          (extractStridedSlice S1500x512 ![1500, 0] (m ((c : Thread nD τ).loc main_arg42) : Vec F S3000x512 .f32) slices_S3000x512_S1500x512_1500_0)
          (shapeCast S1x512 (m ((c : Thread nD τ).loc main_arg43) : Vec F S512 .f32) shapeCasts_S512_S1x512)
          (m ((c : Thread nD τ).loc main_arg44))
          (shapeCast S1x128 (m ((c : Thread nD τ).loc main_arg45) : Vec F S128 .f32) shapeCasts_S128_S1x128)
          (m ((c : Thread nD τ).loc main_arg46))
          (shapeCast S1x128 (m ((c : Thread nD τ).loc main_arg47) : Vec F S128 .f32) shapeCasts_S128_S1x128)
          (shapeCast S128x1 (m ((c : Thread nD τ).loc main_arg48) : Vec F S128 .f32) shapeCasts_S128_S128x1)
          (shapeCast S128x1 (m ((c : Thread nD τ).loc main_arg49) : Vec F S128 .f32) shapeCasts_S128_S128x1) (ix2 0 n) := by
  refine (result_apply m ρ c n).trans ?_
  refine (arr10 (V21 m ρ) c n).trans ?_
  show out10_10 (V21 m ρ c main_v41) (V21 m ρ c main_v42) (V21 m ρ c main_v43) (V21 m ρ c main_v44) (V21 m ρ c main_arg44)
      (V21 m ρ c main_v45) (V21 m ρ c main_arg46) (V21 m ρ c main_v46) (V21 m ρ c main_v47) (V21 m ρ c main_v48) (ix2 0 n) = _
  rw [x_in10, w11a_in, w11b_in, b11_in, wlda_in, blda_in, wplda_in, bplda_in, psqrt_in, q_in]
  all_goals rfl

end Cert.ReferenceIdeal.Val

end
-- ==== Proof.Pre.Decode.lean ====
import proofs.«169142_g2000501041679005_pallasbulk_208_6_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre

open Idealize.ShloMosaic Idealize.ShloMosaic.ValueIdx
open Cert.Pre_finite_inputs

abbrev S0 : Shape := ⟨0, ![]⟩

instance : Subsingleton S0.Idx := ⟨fun a b => funext fun d => d.elim0⟩

theorem ofBits_inf : Ideal.ofBits .f32 0x7F800000#32 = ⊤ := by simp [Ideal.ofBits, Ideal.ieee]

theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

theorem nonneg_of_ge_zero (x : EReal) (h : Ideal.cmp .oge x (Ideal.ofBits .f32 0x00000000#32) = 1#1) : 0 ≤ x := by
  rw [Ideal.ofBits_zero_f32] at h
  by_contra hx
  simp [Ideal.cmp, hx] at h

theorem finite_of_all {s : Shape} {axes : List (Fin s.rank)} (a : FVec Ideal s .f32)
    (hb : S0.BroadcastsInDim s (![] : Fin 0 → Fin s.rank)) (hr : s.ReducesTo axes S0) (hu : 0 < S0.numel)
    (e : Host.reduce IntOp.andi (cmpf .olt (Host.absf a) (broadcastInDim s ![] hb (constant (F := Ideal) S0 .f32 0x7F800000#32)))
          (constantI S0 1 1#1) hr hu ix0 = 1#1)
    (i : s.Idx) : ∃ r : ℝ, a i = (r : EReal) :=
  real_of_abs_lt_top (a i) (Host.reduce_andi_all _ _ hr hu ix0 e i)

theorem nonneg_of_all {s : Shape} {axes : List (Fin s.rank)} (a : FVec Ideal s .f32)
    (hb : S0.BroadcastsInDim s (![] : Fin 0 → Fin s.rank)) (hr : s.ReducesTo axes S0) (hu : 0 < S0.numel)
    (e : Host.reduce IntOp.andi (cmpf .oge a (broadcastInDim s ![] hb (constant (F := Ideal) S0 .f32 0x00000000#32)))
          (constantI S0 1 1#1) hr hu ix0 = 1#1)
    (i : s.Idx) : 0 ≤ a i :=
  nonneg_of_ge_zero (a i) (Host.reduce_andi_all _ _ hr hu ix0 e i)

theorem nonneg_real {x : EReal} (hf : ∃ r : ℝ, x = (r : EReal)) (h0 : 0 ≤ x) : ∃ r : ℝ, 0 ≤ r ∧ x = (r : EReal) := by
  obtain ⟨r, rfl⟩ := hf
  exact ⟨r, EReal.coe_nonneg.1 h0, rfl⟩

theorem and_split (x y : IVec S0 1) (h : andi x y ix0 = 1#1) : x ix0 = 1#1 ∧ y ix0 = 1#1 := IntOp.andi_eq_one.1 h

variable [Cert.Pre_finite_inputs.Facts]

structure Decoded (a0 : FVec Ideal S8x30x200 .f32) (a1 : FVec Ideal S8x30x200 .f32) (a2 : FVec Ideal S150x512 .f32) (a3 : FVec Ideal S512 .f32) (a4 : FVec Ideal S512 .f32) (a5 : FVec Ideal S512 .f32) (a6 : FVec Ideal S512x512 .f32) (a7 : FVec Ideal S512 .f32) (a8 : FVec Ideal S512 .f32) (a9 : FVec Ideal S512 .f32) (a10 : FVec Ideal S1536x512 .f32) (a11 : FVec Ideal S512 .f32) (a12 : FVec Ideal S512 .f32) (a13 : FVec Ideal S512 .f32) (a14 : FVec Ideal S512x512 .f32) (a15 : FVec Ideal S512 .f32) (a16 : FVec Ideal S512 .f32) (a17 : FVec Ideal S512 .f32) (a18 : FVec Ideal S1536x512 .f32) (a19 : FVec Ideal S512 .f32) (a20 : FVec Ideal S512 .f32) (a21 : FVec Ideal S512 .f32) (a22 : FVec Ideal S512x512 .f32) (a23 : FVec Ideal S512 .f32) (a24 : FVec Ideal S512 .f32) (a25 : FVec Ideal S512 .f32) (a26 : FVec Ideal S1536x512 .f32) (a27 : FVec Ideal S512 .f32) (a28 : FVec Ideal S512 .f32) (a29 : FVec Ideal S512 .f32) (a30 : FVec Ideal S512x512 .f32) (a31 : FVec Ideal S512 .f32) (a32 : FVec Ideal S512 .f32) (a33 : FVec Ideal S512 .f32) (a34 : FVec Ideal S512x512 .f32) (a35 : FVec Ideal S512 .f32) (a36 : FVec Ideal S512 .f32) (a37 : FVec Ideal S512 .f32) (a38 : FVec Ideal S512x1500 .f32) (a39 : FVec Ideal S1500 .f32) (a40 : FVec Ideal S1500 .f32) (a41 : FVec Ideal S1500 .f32) (a42 : FVec Ideal S3000x512 .f32) (a43 : FVec Ideal S512 .f32) (a44 : FVec Ideal S512x128 .f32) (a45 : FVec Ideal S128 .f32) (a46 : FVec Ideal S128x128 .f32) (a47 : FVec Ideal S128 .f32) (a48 : FVec Ideal S128 .f32) (a49 : FVec Ideal S128 .f32) : Prop where
  fin0 : ∀ i : S8x30x200.Idx, ∃ r : ℝ, a0 i = (r : EReal)
  fin1 : ∀ i : S8x30x200.Idx, ∃ r : ℝ, a1 i = (r : EReal)
  fin2 : ∀ i : S150x512.Idx, ∃ r : ℝ, a2 i = (r : EReal)
  fin3 : ∀ i : S512.Idx, ∃ r : ℝ, a3 i = (r : EReal)
  fin4 : ∀ i : S512.Idx, ∃ r : ℝ, a4 i = (r : EReal)
  fin5 : ∀ i : S512.Idx, ∃ r : ℝ, a5 i = (r : EReal)
  fin6 : ∀ i : S512x512.Idx, ∃ r : ℝ, a6 i = (r : EReal)
  fin7 : ∀ i : S512.Idx, ∃ r : ℝ, a7 i = (r : EReal)
  fin8 : ∀ i : S512.Idx, ∃ r : ℝ, a8 i = (r : EReal)
  fin9 : ∀ i : S512.Idx, ∃ r : ℝ, a9 i = (r : EReal)
  fin10 : ∀ i : S1536x512.Idx, ∃ r : ℝ, a10 i = (r : EReal)
  fin11 : ∀ i : S512.Idx, ∃ r : ℝ, a11 i = (r : EReal)
  fin12 : ∀ i : S512.Idx, ∃ r : ℝ, a12 i = (r : EReal)
  fin13 : ∀ i : S512.Idx, ∃ r : ℝ, a13 i = (r : EReal)
  fin14 : ∀ i : S512x512.Idx, ∃ r : ℝ, a14 i = (r : EReal)
  fin15 : ∀ i : S512.Idx, ∃ r : ℝ, a15 i = (r : EReal)
  fin16 : ∀ i : S512.Idx, ∃ r : ℝ, a16 i = (r : EReal)
  fin17 : ∀ i : S512.Idx, ∃ r : ℝ, a17 i = (r : EReal)
  fin18 : ∀ i : S1536x512.Idx, ∃ r : ℝ, a18 i = (r : EReal)
  fin19 : ∀ i : S512.Idx, ∃ r : ℝ, a19 i = (r : EReal)
  fin20 : ∀ i : S512.Idx, ∃ r : ℝ, a20 i = (r : EReal)
  fin21 : ∀ i : S512.Idx, ∃ r : ℝ, a21 i = (r : EReal)
  fin22 : ∀ i : S512x512.Idx, ∃ r : ℝ, a22 i = (r : EReal)
  fin23 : ∀ i : S512.Idx, ∃ r : ℝ, a23 i = (r : EReal)
  fin24 : ∀ i : S512.Idx, ∃ r : ℝ, a24 i = (r : EReal)
  fin25 : ∀ i : S512.Idx, ∃ r : ℝ, a25 i = (r : EReal)
  fin26 : ∀ i : S1536x512.Idx, ∃ r : ℝ, a26 i = (r : EReal)
  fin27 : ∀ i : S512.Idx, ∃ r : ℝ, a27 i = (r : EReal)
  fin28 : ∀ i : S512.Idx, ∃ r : ℝ, a28 i = (r : EReal)
  fin29 : ∀ i : S512.Idx, ∃ r : ℝ, a29 i = (r : EReal)
  fin30 : ∀ i : S512x512.Idx, ∃ r : ℝ, a30 i = (r : EReal)
  fin31 : ∀ i : S512.Idx, ∃ r : ℝ, a31 i = (r : EReal)
  fin32 : ∀ i : S512.Idx, ∃ r : ℝ, a32 i = (r : EReal)
  fin33 : ∀ i : S512.Idx, ∃ r : ℝ, a33 i = (r : EReal)
  fin34 : ∀ i : S512x512.Idx, ∃ r : ℝ, a34 i = (r : EReal)
  fin35 : ∀ i : S512.Idx, ∃ r : ℝ, a35 i = (r : EReal)
  fin36 : ∀ i : S512.Idx, ∃ r : ℝ, a36 i = (r : EReal)
  fin37 : ∀ i : S512.Idx, ∃ r : ℝ, a37 i = (r : EReal)
  fin38 : ∀ i : S512x1500.Idx, ∃ r : ℝ, a38 i = (r : EReal)
  fin39 : ∀ i : S1500.Idx, ∃ r : ℝ, a39 i = (r : EReal)
  fin40 : ∀ i : S1500.Idx, ∃ r : ℝ, a40 i = (r : EReal)
  fin41 : ∀ i : S1500.Idx, ∃ r : ℝ, a41 i = (r : EReal)
  fin42 : ∀ i : S3000x512.Idx, ∃ r : ℝ, a42 i = (r : EReal)
  fin43 : ∀ i : S512.Idx, ∃ r : ℝ, a43 i = (r : EReal)
  fin44 : ∀ i : S512x128.Idx, ∃ r : ℝ, a44 i = (r : EReal)
  fin45 : ∀ i : S128.Idx, ∃ r : ℝ, a45 i = (r : EReal)
  fin46 : ∀ i : S128x128.Idx, ∃ r : ℝ, a46 i = (r : EReal)
  fin47 : ∀ i : S128.Idx, ∃ r : ℝ, a47 i = (r : EReal)
  fin48 : ∀ i : S128.Idx, ∃ r : ℝ, a48 i = (r : EReal)
  fin49 : ∀ i : S128.Idx, ∃ r : ℝ, a49 i = (r : EReal)
  nn5 : ∀ i : S512.Idx, 0 ≤ a5 i
  nn9 : ∀ i : S512.Idx, 0 ≤ a9 i
  nn13 : ∀ i : S512.Idx, 0 ≤ a13 i
  nn17 : ∀ i : S512.Idx, 0 ≤ a17 i
  nn21 : ∀ i : S512.Idx, 0 ≤ a21 i
  nn25 : ∀ i : S512.Idx, 0 ≤ a25 i
  nn29 : ∀ i : S512.Idx, 0 ≤ a29 i
  nn33 : ∀ i : S512.Idx, 0 ≤ a33 i
  nn37 : ∀ i : S512.Idx, 0 ≤ a37 i
  nn41 : ∀ i : S1500.Idx, 0 ≤ a41 i

theorem decode (a0 : FVec Ideal S8x30x200 .f32) (a1 : FVec Ideal S8x30x200 .f32) (a2 : FVec Ideal S150x512 .f32) (a3 : FVec Ideal S512 .f32) (a4 : FVec Ideal S512 .f32) (a5 : FVec Ideal S512 .f32) (a6 : FVec Ideal S512x512 .f32) (a7 : FVec Ideal S512 .f32) (a8 : FVec Ideal S512 .f32) (a9 : FVec Ideal S512 .f32) (a10 : FVec Ideal S1536x512 .f32) (a11 : FVec Ideal S512 .f32) (a12 : FVec Ideal S512 .f32) (a13 : FVec Ideal S512 .f32) (a14 : FVec Ideal S512x512 .f32) (a15 : FVec Ideal S512 .f32) (a16 : FVec Ideal S512 .f32) (a17 : FVec Ideal S512 .f32) (a18 : FVec Ideal S1536x512 .f32) (a19 : FVec Ideal S512 .f32) (a20 : FVec Ideal S512 .f32) (a21 : FVec Ideal S512 .f32) (a22 : FVec Ideal S512x512 .f32) (a23 : FVec Ideal S512 .f32) (a24 : FVec Ideal S512 .f32) (a25 : FVec Ideal S512 .f32) (a26 : FVec Ideal S1536x512 .f32) (a27 : FVec Ideal S512 .f32) (a28 : FVec Ideal S512 .f32) (a29 : FVec Ideal S512 .f32) (a30 : FVec Ideal S512x512 .f32) (a31 : FVec Ideal S512 .f32) (a32 : FVec Ideal S512 .f32) (a33 : FVec Ideal S512 .f32) (a34 : FVec Ideal S512x512 .f32) (a35 : FVec Ideal S512 .f32) (a36 : FVec Ideal S512 .f32) (a37 : FVec Ideal S512 .f32) (a38 : FVec Ideal S512x1500 .f32) (a39 : FVec Ideal S1500 .f32) (a40 : FVec Ideal S1500 .f32) (a41 : FVec Ideal S1500 .f32) (a42 : FVec Ideal S3000x512 .f32) (a43 : FVec Ideal S512 .f32) (a44 : FVec Ideal S512x128 .f32) (a45 : FVec Ideal S128 .f32) (a46 : FVec Ideal S128x128 .f32) (a47 : FVec Ideal S128 .f32) (a48 : FVec Ideal S128 .f32) (a49 : FVec Ideal S128 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 = fun _ => 1#1) :
    Decoded a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 := by
  have h := congrFun h ix0
  unfold Cert.Pre_finite_inputs.fn Cert.Pre_finite_inputs.fn_part1 Cert.Pre_finite_inputs.fn_part2 Cert.Pre_finite_inputs.fn_part3 Cert.Pre_finite_inputs.fn_part4 Cert.Pre_finite_inputs.fn_part5 Cert.Pre_finite_inputs.fn_part6 Cert.Pre_finite_inputs.fn_part7 Cert.Pre_finite_inputs.fn_part8 Cert.Pre_finite_inputs.fn_part9 Cert.Pre_finite_inputs.fn_part10 Cert.Pre_finite_inputs.fn_part11 Cert.Pre_finite_inputs.fn_part12 Cert.Pre_finite_inputs.fn_part13 Cert.Pre_finite_inputs.fn_part14 Cert.Pre_finite_inputs.fn_part15 Cert.Pre_finite_inputs.fn_part16 Cert.Pre_finite_inputs.fn_part17 at h
  dsimp only at h
  obtain ⟨h, c60⟩ := and_split _ _ h
  obtain ⟨h, c59⟩ := and_split _ _ h
  obtain ⟨h, c58⟩ := and_split _ _ h
  obtain ⟨h, c57⟩ := and_split _ _ h
  obtain ⟨h, c56⟩ := and_split _ _ h
  obtain ⟨h, c55⟩ := and_split _ _ h
  obtain ⟨h, c54⟩ := and_split _ _ h
  obtain ⟨h, c53⟩ := and_split _ _ h
  obtain ⟨h, c52⟩ := and_split _ _ h
  obtain ⟨h, c51⟩ := and_split _ _ h
  obtain ⟨h, c50⟩ := and_split _ _ h
  obtain ⟨h, c49⟩ := and_split _ _ h
  obtain ⟨h, c48⟩ := and_split _ _ h
  obtain ⟨h, c47⟩ := and_split _ _ h
  obtain ⟨h, c46⟩ := and_split _ _ h
  obtain ⟨h, c45⟩ := and_split _ _ h
  obtain ⟨h, c44⟩ := and_split _ _ h
  obtain ⟨h, c43⟩ := and_split _ _ h
  obtain ⟨h, c42⟩ := and_split _ _ h
  obtain ⟨h, c41⟩ := and_split _ _ h
  obtain ⟨h, c40⟩ := and_split _ _ h
  obtain ⟨h, c39⟩ := and_split _ _ h
  obtain ⟨h, c38⟩ := and_split _ _ h
  obtain ⟨h, c37⟩ := and_split _ _ h
  obtain ⟨h, c36⟩ := and_split _ _ h
  obtain ⟨h, c35⟩ := and_split _ _ h
  obtain ⟨h, c34⟩ := and_split _ _ h
  obtain ⟨h, c33⟩ := and_split _ _ h
  obtain ⟨h, c32⟩ := and_split _ _ h
  obtain ⟨h, c31⟩ := and_split _ _ h
  obtain ⟨h, c30⟩ := and_split _ _ h
  obtain ⟨h, c29⟩ := and_split _ _ h
  obtain ⟨h, c28⟩ := and_split _ _ h
  obtain ⟨h, c27⟩ := and_split _ _ h
  obtain ⟨h, c26⟩ := and_split _ _ h
  obtain ⟨h, c25⟩ := and_split _ _ h
  obtain ⟨h, c24⟩ := and_split _ _ h
  obtain ⟨h, c23⟩ := and_split _ _ h
  obtain ⟨h, c22⟩ := and_split _ _ h
  obtain ⟨h, c21⟩ := and_split _ _ h
  obtain ⟨h, c20⟩ := and_split _ _ h
  obtain ⟨h, c19⟩ := and_split _ _ h
  obtain ⟨h, c18⟩ := and_split _ _ h
  obtain ⟨h, c17⟩ := and_split _ _ h
  obtain ⟨h, c16⟩ := and_split _ _ h
  obtain ⟨h, c15⟩ := and_split _ _ h
  obtain ⟨h, c14⟩ := and_split _ _ h
  obtain ⟨h, c13⟩ := and_split _ _ h
  obtain ⟨h, c12⟩ := and_split _ _ h
  obtain ⟨h, c11⟩ := and_split _ _ h
  obtain ⟨h, c10⟩ := and_split _ _ h
  obtain ⟨h, c9⟩ := and_split _ _ h
  obtain ⟨h, c8⟩ := and_split _ _ h
  obtain ⟨h, c7⟩ := and_split _ _ h
  obtain ⟨h, c6⟩ := and_split _ _ h
  obtain ⟨h, c5⟩ := and_split _ _ h
  obtain ⟨h, c4⟩ := and_split _ _ h
  obtain ⟨h, c3⟩ := and_split _ _ h
  obtain ⟨c1, c2⟩ := and_split _ _ h
  exact {
    fin0 := finite_of_all a0 _ _ _ c1
    fin1 := finite_of_all a1 _ _ _ c2
    fin2 := finite_of_all a2 _ _ _ c3
    fin3 := finite_of_all a3 _ _ _ c4
    fin4 := finite_of_all a4 _ _ _ c5
    fin5 := finite_of_all a5 _ _ _ c6
    fin6 := finite_of_all a6 _ _ _ c7
    fin7 := finite_of_all a7 _ _ _ c8
    fin8 := finite_of_all a8 _ _ _ c9
    fin9 := finite_of_all a9 _ _ _ c10
    fin10 := finite_of_all a10 _ _ _ c11
    fin11 := finite_of_all a11 _ _ _ c12
    fin12 := finite_of_all a12 _ _ _ c13
    fin13 := finite_of_all a13 _ _ _ c14
    fin14 := finite_of_all a14 _ _ _ c15
    fin15 := finite_of_all a15 _ _ _ c16
    fin16 := finite_of_all a16 _ _ _ c17
    fin17 := finite_of_all a17 _ _ _ c18
    fin18 := finite_of_all a18 _ _ _ c19
    fin19 := finite_of_all a19 _ _ _ c20
    fin20 := finite_of_all a20 _ _ _ c21
    fin21 := finite_of_all a21 _ _ _ c22
    fin22 := finite_of_all a22 _ _ _ c23
    fin23 := finite_of_all a23 _ _ _ c24
    fin24 := finite_of_all a24 _ _ _ c25
    fin25 := finite_of_all a25 _ _ _ c26
    fin26 := finite_of_all a26 _ _ _ c27
    fin27 := finite_of_all a27 _ _ _ c28
    fin28 := finite_of_all a28 _ _ _ c29
    fin29 := finite_of_all a29 _ _ _ c30
    fin30 := finite_of_all a30 _ _ _ c31
    fin31 := finite_of_all a31 _ _ _ c32
    fin32 := finite_of_all a32 _ _ _ c33
    fin33 := finite_of_all a33 _ _ _ c34
    fin34 := finite_of_all a34 _ _ _ c35
    fin35 := finite_of_all a35 _ _ _ c36
    fin36 := finite_of_all a36 _ _ _ c37
    fin37 := finite_of_all a37 _ _ _ c38
    fin38 := finite_of_all a38 _ _ _ c39
    fin39 := finite_of_all a39 _ _ _ c40
    fin40 := finite_of_all a40 _ _ _ c41
    fin41 := finite_of_all a41 _ _ _ c42
    fin42 := finite_of_all a42 _ _ _ c43
    fin43 := finite_of_all a43 _ _ _ c44
    fin44 := finite_of_all a44 _ _ _ c45
    fin45 := finite_of_all a45 _ _ _ c46
    fin46 := finite_of_all a46 _ _ _ c47
    fin47 := finite_of_all a47 _ _ _ c48
    fin48 := finite_of_all a48 _ _ _ c49
    fin49 := finite_of_all a49 _ _ _ c50
    nn5 := nonneg_of_all a5 _ _ _ c51
    nn9 := nonneg_of_all a9 _ _ _ c52
    nn13 := nonneg_of_all a13 _ _ _ c53
    nn17 := nonneg_of_all a17 _ _ _ c54
    nn21 := nonneg_of_all a21 _ _ _ c55
    nn25 := nonneg_of_all a25 _ _ _ c56
    nn29 := nonneg_of_all a29 _ _ _ c57
    nn33 := nonneg_of_all a33 _ _ _ c58
    nn37 := nonneg_of_all a37 _ _ _ c59
    nn41 := nonneg_of_all a41 _ _ _ c60
  }

end Cert.Pre
-- ==== Proof.Pre.Stats.lean ====
import proofs.«169142_g2000501041679005_pallasbulk_208_6_alg».proof.Defs
import proofs.«169142_g2000501041679005_pallasbulk_208_6_alg».proof.Proof.Pre.Decode

noncomputable section

namespace Cert.Pre

open Idealize.ShloMosaic Idealize.ShloMosaic.ValueIdx

variable [Cert.Pre_finite_inputs.Facts]

theorem kernelIdeal (m : (ℓ : Loc Cert.KernelIdeal.nD Cert.KernelIdeal.τ Cert.KernelIdeal.sig) → Buf (Elt Ideal) ℓ) (h : Cert.Pre_KernelIdeal m) (c : Dev Cert.KernelIdeal.nD) :
    Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47)) (m ((c.tc : Thread Cert.KernelIdeal.nD Cert.KernelIdeal.τ).loc Cert.KernelIdeal.main_arg48)) (m ((c.tc : Thread Cert.KernelIdeal.nD Cert.KernelIdeal.τ).loc Cert.KernelIdeal.main_arg49)) :=
  decode _ _ _ _ _ _ _ _ _ _ _ _ _ _ _ _ _ _ _ _ _ _ _ _ _ _ _ _ _ _ _ _ _ _ _ _ _ _ _ _ _ _ _ _ _ _ _ _ _ _ (h c)

theorem mean_real_0 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg4)) : FVec Ideal Cert.Pre_finite_inputs.S512 .f32) (ix1 j) = (r : EReal) :=
  (kernelIdeal m h c).fin4 (ix1 j)

theorem var_real_0 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg5)) : FVec Ideal Cert.Pre_finite_inputs.S512 .f32) (ix1 j) = (r : EReal) :=
  nonneg_real ((kernelIdeal m h c).fin5 (ix1 j)) ((kernelIdeal m h c).nn5 (ix1 j))

theorem mean_real_1 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg8)) : FVec Ideal Cert.Pre_finite_inputs.S512 .f32) (ix1 j) = (r : EReal) :=
  (kernelIdeal m h c).fin8 (ix1 j)

theorem var_real_1 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg9)) : FVec Ideal Cert.Pre_finite_inputs.S512 .f32) (ix1 j) = (r : EReal) :=
  nonneg_real ((kernelIdeal m h c).fin9 (ix1 j)) ((kernelIdeal m h c).nn9 (ix1 j))

theorem mean_real_2 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg12)) : FVec Ideal Cert.Pre_finite_inputs.S512 .f32) (ix1 j) = (r : EReal) :=
  (kernelIdeal m h c).fin12 (ix1 j)

theorem var_real_2 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg13)) : FVec Ideal Cert.Pre_finite_inputs.S512 .f32) (ix1 j) = (r : EReal) :=
  nonneg_real ((kernelIdeal m h c).fin13 (ix1 j)) ((kernelIdeal m h c).nn13 (ix1 j))

theorem mean_real_3 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg16)) : FVec Ideal Cert.Pre_finite_inputs.S512 .f32) (ix1 j) = (r : EReal) :=
  (kernelIdeal m h c).fin16 (ix1 j)

theorem var_real_3 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg17)) : FVec Ideal Cert.Pre_finite_inputs.S512 .f32) (ix1 j) = (r : EReal) :=
  nonneg_real ((kernelIdeal m h c).fin17 (ix1 j)) ((kernelIdeal m h c).nn17 (ix1 j))

theorem mean_real_4 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg20)) : FVec Ideal Cert.Pre_finite_inputs.S512 .f32) (ix1 j) = (r : EReal) :=
  (kernelIdeal m h c).fin20 (ix1 j)

theorem var_real_4 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg21)) : FVec Ideal Cert.Pre_finite_inputs.S512 .f32) (ix1 j) = (r : EReal) :=
  nonneg_real ((kernelIdeal m h c).fin21 (ix1 j)) ((kernelIdeal m h c).nn21 (ix1 j))

theorem mean_real_5 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg24)) : FVec Ideal Cert.Pre_finite_inputs.S512 .f32) (ix1 j) = (r : EReal) :=
  (kernelIdeal m h c).fin24 (ix1 j)

theorem var_real_5 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg25)) : FVec Ideal Cert.Pre_finite_inputs.S512 .f32) (ix1 j) = (r : EReal) :=
  nonneg_real ((kernelIdeal m h c).fin25 (ix1 j)) ((kernelIdeal m h c).nn25 (ix1 j))

theorem mean_real_6 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg28)) : FVec Ideal Cert.Pre_finite_inputs.S512 .f32) (ix1 j) = (r : EReal) :=
  (kernelIdeal m h c).fin28 (ix1 j)

theorem var_real_6 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg29)) : FVec Ideal Cert.Pre_finite_inputs.S512 .f32) (ix1 j) = (r : EReal) :=
  nonneg_real ((kernelIdeal m h c).fin29 (ix1 j)) ((kernelIdeal m h c).nn29 (ix1 j))

theorem mean_real_7 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg32)) : FVec Ideal Cert.Pre_finite_inputs.S512 .f32) (ix1 j) = (r : EReal) :=
  (kernelIdeal m h c).fin32 (ix1 j)

theorem var_real_7 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg33)) : FVec Ideal Cert.Pre_finite_inputs.S512 .f32) (ix1 j) = (r : EReal) :=
  nonneg_real ((kernelIdeal m h c).fin33 (ix1 j)) ((kernelIdeal m h c).nn33 (ix1 j))

theorem mean_real_8 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, ((m ((c.tc : Thread Cert.KernelIdeal.nD Cert.KernelIdeal.τ).loc Cert.KernelIdeal.main_arg36)) : FVec Ideal Cert.Pre_finite_inputs.S512 .f32) (ix1 j) = (r : EReal) :=
  (kernelIdeal m h c).fin36 (ix1 j)

theorem var_real_8 (m : (ℓ : Loc Cert.KernelIdeal.nD Cert.KernelIdeal.τ Cert.KernelIdeal.sig) → Buf (Elt Ideal) ℓ) (h : Cert.Pre_KernelIdeal m) (c : Dev Cert.KernelIdeal.nD) (j : Fin 512) :
    ∃ r : ℝ, 0 ≤ r ∧ ((m ((c.tc : Thread Cert.KernelIdeal.nD Cert.KernelIdeal.τ).loc Cert.KernelIdeal.main_arg37)) : FVec Ideal Cert.Pre_finite_inputs.S512 .f32) (ix1 j) = (r : EReal) :=
  nonneg_real ((kernelIdeal m h c).fin37 (ix1 j)) ((kernelIdeal m h c).nn37 (ix1 j))

theorem mean_real_9 (m : (ℓ : Loc Cert.KernelIdeal.nD Cert.KernelIdeal.τ Cert.KernelIdeal.sig) → Buf (Elt Ideal) ℓ) (h : Cert.Pre_KernelIdeal m) (c : Dev Cert.KernelIdeal.nD) (j : Fin 1500) :
    ∃ r : ℝ, ((m ((c.tc : Thread Cert.KernelIdeal.nD Cert.KernelIdeal.τ).loc Cert.KernelIdeal.main_arg40)) : FVec Ideal Cert.Pre_finite_inputs.S1500 .f32) (ix1 j) = (r : EReal) :=
  (kernelIdeal m h c).fin40 (ix1 j)

theorem var_real_9 (m : (ℓ : Loc Cert.KernelIdeal.nD Cert.KernelIdeal.τ Cert.KernelIdeal.sig) → Buf (Elt Ideal) ℓ) (h : Cert.Pre_KernelIdeal m) (c : Dev Cert.KernelIdeal.nD) (j : Fin 1500) :
    ∃ r : ℝ, 0 ≤ r ∧ ((m ((c.tc : Thread Cert.KernelIdeal.nD Cert.KernelIdeal.τ).loc Cert.KernelIdeal.main_arg41)) : FVec Ideal Cert.Pre_finite_inputs.S1500 .f32) (ix1 j) = (r : EReal) :=
  nonneg_real ((kernelIdeal m h c).fin41 (ix1 j)) ((kernelIdeal m h c).nn41 (ix1 j))

end Cert.Pre
-- ==== Proof.Bridge.Stats.lean ====
import proofs.«169142_g2000501041679005_pallasbulk_208_6_alg».proof.Defs
import proofs.«169142_g2000501041679005_pallasbulk_208_6_alg».proof.Proof.KI.HostDefs
import proofs.«169142_g2000501041679005_pallasbulk_208_6_alg».proof.Proof.KI.Pooled
import proofs.«169142_g2000501041679005_pallasbulk_208_6_alg».proof.Proof.Math.Trunk
import proofs.«169142_g2000501041679005_pallasbulk_208_6_alg».proof.Proof.R.Value
import proofs.«169142_g2000501041679005_pallasbulk_208_6_alg».proof.Proof.Pre.Stats

set_option maxRecDepth 16384

noncomputable section

namespace Cert.Bridge

open Cert.KernelIdeal Cert.KernelIdeal.Gen Cert.KernelIdeal.Hand Cert.Math
open Idealize.ShloMosaic Idealize.ShloMosaic.ValueIdx Idealize.SL.Sem

def Agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
    ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
    ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
    ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
    ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
    ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
    ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
    ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
    ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
    ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
    ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
    ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
    ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
    ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
    ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
    ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
    ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
    ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
    ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
    ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
    ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
    ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)
    ∧ m' ((c.tc : Thread Cert.ReferenceIdeal.nD Cert.ReferenceIdeal.τ).loc Cert.ReferenceIdeal.main_arg48) = m ((c.tc : Thread Cert.KernelIdeal.nD Cert.KernelIdeal.τ).loc Cert.KernelIdeal.main_arg48)
    ∧ m' ((c.tc : Thread Cert.ReferenceIdeal.nD Cert.ReferenceIdeal.τ).loc Cert.ReferenceIdeal.main_arg49) = m ((c.tc : Thread Cert.KernelIdeal.nD Cert.KernelIdeal.τ).loc Cert.KernelIdeal.main_arg49)

theorem row_apply {α : Type} {a : ℕ} (x : (⟨1, ![a]⟩ : Shape).Idx → α)
    (h : (⟨1, ![a]⟩ : Shape).ShapeCasts ⟨2, ![1, a]⟩) (j : Fin a) :
    shapeCast ⟨2, ![1, a]⟩ x h (ix2 (0 : Fin 1) j) = x (ix1 j) :=
  (shapeCast_addUnit_apply ![a] x h (ix2 (0 : Fin 1) j)).trans
    (congrArg x (funext fun d => by match d with | ⟨0, _⟩ => rfl))

theorem table512 (b mean var : FVec Ideal S512 .f32) (b' mean' var' : Vec Ideal Cert.ReferenceIdeal.S512 .f32)
    (hsc : Cert.ReferenceIdeal.S512.ShapeCasts Cert.ReferenceIdeal.S1x512)
    (eb : b' = b) (em : mean' = mean) (ev : var' = var)
    (hmean : ∀ j : Fin 512, ∃ r : ℝ, mean (ix1 j) = (r : EReal))
    (hvar : ∀ j : Fin 512, ∃ r : ℝ, 0 ≤ r ∧ var (ix1 j) = (r : EReal)) :
    (∀ j : Fin 512, rows512 b mean var (ix2 (0 : Fin 3) j)
        = shapeCast Cert.ReferenceIdeal.S1x512 b' hsc (ix2 (0 : Fin 1) j))
    ∧ (∀ j : Fin 512, rows512 b mean var (ix2 (1 : Fin 3) j)
        = Ideal.rsqrt (shapeCast Cert.ReferenceIdeal.S1x512 var' hsc (ix2 (0 : Fin 1) j) + Ideal.ofBits .f32 0x3727C5AC#32))
    ∧ (∀ j : Fin 512, rows512 b mean var (ix2 (2 : Fin 3) j)
        = shapeCast Cert.ReferenceIdeal.S1x512 mean' hsc (ix2 (0 : Fin 1) j)
          * Ideal.rsqrt (shapeCast Cert.ReferenceIdeal.S1x512 var' hsc (ix2 (0 : Fin 1) j) + Ideal.ofBits .f32 0x3727C5AC#32))
    ∧ (∀ j : Fin 512, ∃ r : ℝ, shapeCast Cert.ReferenceIdeal.S1x512 mean' hsc (ix2 (0 : Fin 1) j) = (r : EReal))
    ∧ (∀ j : Fin 512, ∃ r : ℝ, 0 ≤ r ∧ shapeCast Cert.ReferenceIdeal.S1x512 var' hsc (ix2 (0 : Fin 1) j) = (r : EReal)) := by
  subst eb em ev
  refine ⟨fun j => ?_, fun j => ?_, fun j => ?_, fun j => ?_, fun j => ?_⟩
  · rw [row_apply]; exact rows512_bias _ _ _ j
  · rw [row_apply]; exact rows512_scale_real _ _ _ j
  · rw [row_apply, row_apply]; exact rows512_shift_real _ _ _ j
  · rw [row_apply]; exact hmean j
  · rw [row_apply]; exact hvar j

theorem table1500 (b mean var : FVec Ideal S1500 .f32) (b' mean' var' : Vec Ideal Cert.ReferenceIdeal.S1500 .f32)
    (hsc : Cert.ReferenceIdeal.S1500.ShapeCasts Cert.ReferenceIdeal.S1x1500)
    (eb : b' = b) (em : mean' = mean) (ev : var' = var)
    (hmean : ∀ j : Fin 1500, ∃ r : ℝ, mean (ix1 j) = (r : EReal))
    (hvar : ∀ j : Fin 1500, ∃ r : ℝ, 0 ≤ r ∧ var (ix1 j) = (r : EReal)) :
    (∀ j : Fin 1500, rows1500 b mean var (ix2 (0 : Fin 3) j)
        = shapeCast Cert.ReferenceIdeal.S1x1500 b' hsc (ix2 (0 : Fin 1) j))
    ∧ (∀ j : Fin 1500, rows1500 b mean var (ix2 (1 : Fin 3) j)
        = Ideal.rsqrt (shapeCast Cert.ReferenceIdeal.S1x1500 var' hsc (ix2 (0 : Fin 1) j) + Ideal.ofBits .f32 0x3727C5AC#32))
    ∧ (∀ j : Fin 1500, rows1500 b mean var (ix2 (2 : Fin 3) j)
        = shapeCast Cert.ReferenceIdeal.S1x1500 mean' hsc (ix2 (0 : Fin 1) j)
          * Ideal.rsqrt (shapeCast Cert.ReferenceIdeal.S1x1500 var' hsc (ix2 (0 : Fin 1) j) + Ideal.ofBits .f32 0x3727C5AC#32))
    ∧ (∀ j : Fin 1500, ∃ r : ℝ, shapeCast Cert.ReferenceIdeal.S1x1500 mean' hsc (ix2 (0 : Fin 1) j) = (r : EReal))
    ∧ (∀ j : Fin 1500, ∃ r : ℝ, 0 ≤ r ∧ shapeCast Cert.ReferenceIdeal.S1x1500 var' hsc (ix2 (0 : Fin 1) j) = (r : EReal)) := by
  subst eb em ev
  refine ⟨fun j => ?_, fun j => ?_, fun j => ?_, fun j => ?_, fun j => ?_⟩
  · rw [row_apply]; exact rows1500_bias _ _ _ j
  · rw [row_apply]; exact rows1500_scale_real _ _ _ j
  · rw [row_apply, row_apply]; exact rows1500_shift_real _ _ _ j
  · rw [row_apply]; exact hmean j
  · rw [row_apply]; exact hvar j

section Operands
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

abbrev kx (c : Dev nD) : FVec Ideal S16x200x30 .f32 :=
  xStack (m ((c.tc : Thread nD τ).loc main_arg0)) (m ((c.tc : Thread nD τ).loc main_arg1))

abbrev kw0 (c : Dev nD) : FVec Ideal S150x512 .bf16 :=
  truncf .bf16 (m ((c.tc : Thread nD τ).loc main_arg2) : FVec Ideal S150x512 .f32) bitsLt_bf16_f32

abbrev kp0 (c : Dev nD) : FVec Ideal S3x512 .f32 :=
  rows512 (m ((c.tc : Thread nD τ).loc main_arg3)) (m ((c.tc : Thread nD τ).loc main_arg4)) (m ((c.tc : Thread nD τ).loc main_arg5))

abbrev kw1 (c : Dev nD) : FVec Ideal S512x512 .bf16 :=
  truncf .bf16 (m ((c.tc : Thread nD τ).loc main_arg6) : FVec Ideal S512x512 .f32) bitsLt_bf16_f32

abbrev kp1 (c : Dev nD) : FVec Ideal S3x512 .f32 :=
  rows512 (m ((c.tc : Thread nD τ).loc main_arg7)) (m ((c.tc : Thread nD τ).loc main_arg8)) (m ((c.tc : Thread nD τ).loc main_arg9))

abbrev kw2 (c : Dev nD) : FVec Ideal S1536x512 .bf16 :=
  truncf .bf16 (m ((c.tc : Thread nD τ).loc main_arg10) : FVec Ideal S1536x512 .f32) bitsLt_bf16_f32

abbrev kp2 (c : Dev nD) : FVec Ideal S3x512 .f32 :=
  rows512 (m ((c.tc : Thread nD τ).loc main_arg11)) (m ((c.tc : Thread nD τ).loc main_arg12)) (m ((c.tc : Thread nD τ).loc main_arg13))

abbrev kw3 (c : Dev nD) : FVec Ideal S512x512 .bf16 :=
  truncf .bf16 (m ((c.tc : Thread nD τ).loc main_arg14) : FVec Ideal S512x512 .f32) bitsLt_bf16_f32

abbrev kp3 (c : Dev nD) : FVec Ideal S3x512 .f32 :=
  rows512 (m ((c.tc : Thread nD τ).loc main_arg15)) (m ((c.tc : Thread nD τ).loc main_arg16)) (m ((c.tc : Thread nD τ).loc main_arg17))

abbrev kw4 (c : Dev nD) : FVec Ideal S1536x512 .bf16 :=
  truncf .bf16 (m ((c.tc : Thread nD τ).loc main_arg18) : FVec Ideal S1536x512 .f32) bitsLt_bf16_f32

abbrev kp4 (c : Dev nD) : FVec Ideal S3x512 .f32 :=
  rows512 (m ((c.tc : Thread nD τ).loc main_arg19)) (m ((c.tc : Thread nD τ).loc main_arg20)) (m ((c.tc : Thread nD τ).loc main_arg21))

abbrev kw5 (c : Dev nD) : FVec Ideal S512x512 .bf16 :=
  truncf .bf16 (m ((c.tc : Thread nD τ).loc main_arg22) : FVec Ideal S512x512 .f32) bitsLt_bf16_f32

abbrev kp5 (c : Dev nD) : FVec Ideal S3x512 .f32 :=
  rows512 (m ((c.tc : Thread nD τ).loc main_arg23)) (m ((c.tc : Thread nD τ).loc main_arg24)) (m ((c.tc : Thread nD τ).loc main_arg25))

abbrev kw6 (c : Dev nD) : FVec Ideal S1536x512 .bf16 :=
  truncf .bf16 (m ((c.tc : Thread nD τ).loc main_arg26) : FVec Ideal S1536x512 .f32) bitsLt_bf16_f32

abbrev kp6 (c : Dev nD) : FVec Ideal S3x512 .f32 :=
  rows512 (m ((c.tc : Thread nD τ).loc main_arg27)) (m ((c.tc : Thread nD τ).loc main_arg28)) (m ((c.tc : Thread nD τ).loc main_arg29))

abbrev kw7 (c : Dev nD) : FVec Ideal S512x512 .bf16 :=
  truncf .bf16 (m ((c.tc : Thread nD τ).loc main_arg30) : FVec Ideal S512x512 .f32) bitsLt_bf16_f32

abbrev kp7 (c : Dev nD) : FVec Ideal S3x512 .f32 :=
  rows512 (m ((c.tc : Thread nD τ).loc main_arg31)) (m ((c.tc : Thread nD τ).loc main_arg32)) (m ((c.tc : Thread nD τ).loc main_arg33))

abbrev kw8 (c : Dev nD) : FVec Ideal S512x512 .bf16 :=
  truncf .bf16 (m ((c.tc : Thread nD τ).loc main_arg34) : FVec Ideal S512x512 .f32) bitsLt_bf16_f32

abbrev kp8 (c : Dev nD) : FVec Ideal S3x512 .f32 :=
  rows512 (m ((c.tc : Thread nD τ).loc main_arg35)) (m ((c.tc : Thread nD τ).loc main_arg36)) (m ((c.tc : Thread nD τ).loc main_arg37))

abbrev kw9 (c : Dev nD) : FVec Ideal S512x1500 .bf16 :=
  truncf .bf16 (m ((c.tc : Thread nD τ).loc main_arg38) : FVec Ideal S512x1500 .f32) bitsLt_bf16_f32

abbrev kp9 (c : Dev nD) : FVec Ideal S3x1500 .f32 :=
  rows1500 (m ((c.tc : Thread nD τ).loc main_arg39)) (m ((c.tc : Thread nD τ).loc main_arg40)) (m ((c.tc : Thread nD τ).loc main_arg41))

abbrev rw0 (c : Dev nD) : Vec Ideal Cert.ReferenceIdeal.S150x512 .f32 :=
  m' ((c.tc : Thread Cert.ReferenceIdeal.nD Cert.ReferenceIdeal.τ).loc Cert.ReferenceIdeal.main_arg2)

abbrev rb0 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg3) : Vec Ideal Cert.ReferenceIdeal.S512 .f32) Cert.ReferenceIdeal.Facts₀.shapeCasts_S512_S1x512
abbrev rmu0 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg4) : Vec Ideal Cert.ReferenceIdeal.S512 .f32) Cert.ReferenceIdeal.Facts₀.shapeCasts_S512_S1x512
abbrev rvar0 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg5) : Vec Ideal Cert.ReferenceIdeal.S512 .f32) Cert.ReferenceIdeal.Facts₀.shapeCasts_S512_S1x512

abbrev rw1 (c : Dev nD) : Vec Ideal Cert.ReferenceIdeal.S512x512 .f32 :=
  m' ((c.tc : Thread Cert.ReferenceIdeal.nD Cert.ReferenceIdeal.τ).loc Cert.ReferenceIdeal.main_arg6)

abbrev rb1 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg7) : Vec Ideal Cert.ReferenceIdeal.S512 .f32) Cert.ReferenceIdeal.Facts₀.shapeCasts_S512_S1x512
abbrev rmu1 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg8) : Vec Ideal Cert.ReferenceIdeal.S512 .f32) Cert.ReferenceIdeal.Facts₀.shapeCasts_S512_S1x512
abbrev rvar1 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg9) : Vec Ideal Cert.ReferenceIdeal.S512 .f32) Cert.ReferenceIdeal.Facts₀.shapeCasts_S512_S1x512

abbrev rw2 (c : Dev nD) : Vec Ideal Cert.ReferenceIdeal.S1536x512 .f32 :=
  m' ((c.tc : Thread Cert.ReferenceIdeal.nD Cert.ReferenceIdeal.τ).loc Cert.ReferenceIdeal.main_arg10)

abbrev rb2 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg11) : Vec Ideal Cert.ReferenceIdeal.S512 .f32) Cert.ReferenceIdeal.Facts₀.shapeCasts_S512_S1x512
abbrev rmu2 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg12) : Vec Ideal Cert.ReferenceIdeal.S512 .f32) Cert.ReferenceIdeal.Facts₀.shapeCasts_S512_S1x512
abbrev rvar2 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg13) : Vec Ideal Cert.ReferenceIdeal.S512 .f32) Cert.ReferenceIdeal.Facts₀.shapeCasts_S512_S1x512

abbrev rw3 (c : Dev nD) : Vec Ideal Cert.ReferenceIdeal.S512x512 .f32 :=
  m' ((c.tc : Thread Cert.ReferenceIdeal.nD Cert.ReferenceIdeal.τ).loc Cert.ReferenceIdeal.main_arg14)

abbrev rb3 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg15) : Vec Ideal Cert.ReferenceIdeal.S512 .f32) Cert.ReferenceIdeal.Facts₀.shapeCasts_S512_S1x512
abbrev rmu3 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg16) : Vec Ideal Cert.ReferenceIdeal.S512 .f32) Cert.ReferenceIdeal.Facts₀.shapeCasts_S512_S1x512
abbrev rvar3 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg17) : Vec Ideal Cert.ReferenceIdeal.S512 .f32) Cert.ReferenceIdeal.Facts₀.shapeCasts_S512_S1x512

abbrev rw4 (c : Dev nD) : Vec Ideal Cert.ReferenceIdeal.S1536x512 .f32 :=
  m' ((c.tc : Thread Cert.ReferenceIdeal.nD Cert.ReferenceIdeal.τ).loc Cert.ReferenceIdeal.main_arg18)

abbrev rb4 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg19) : Vec Ideal Cert.ReferenceIdeal.S512 .f32) Cert.ReferenceIdeal.Facts₀.shapeCasts_S512_S1x512
abbrev rmu4 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg20) : Vec Ideal Cert.ReferenceIdeal.S512 .f32) Cert.ReferenceIdeal.Facts₀.shapeCasts_S512_S1x512
abbrev rvar4 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg21) : Vec Ideal Cert.ReferenceIdeal.S512 .f32) Cert.ReferenceIdeal.Facts₀.shapeCasts_S512_S1x512

abbrev rw5 (c : Dev nD) : Vec Ideal Cert.ReferenceIdeal.S512x512 .f32 :=
  m' ((c.tc : Thread Cert.ReferenceIdeal.nD Cert.ReferenceIdeal.τ).loc Cert.ReferenceIdeal.main_arg22)

abbrev rb5 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg23) : Vec Ideal Cert.ReferenceIdeal.S512 .f32) Cert.ReferenceIdeal.Facts₀.shapeCasts_S512_S1x512
abbrev rmu5 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg24) : Vec Ideal Cert.ReferenceIdeal.S512 .f32) Cert.ReferenceIdeal.Facts₀.shapeCasts_S512_S1x512
abbrev rvar5 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg25) : Vec Ideal Cert.ReferenceIdeal.S512 .f32) Cert.ReferenceIdeal.Facts₀.shapeCasts_S512_S1x512

abbrev rw6 (c : Dev nD) : Vec Ideal Cert.ReferenceIdeal.S1536x512 .f32 :=
  m' ((c.tc : Thread Cert.ReferenceIdeal.nD Cert.ReferenceIdeal.τ).loc Cert.ReferenceIdeal.main_arg26)

abbrev rb6 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg27) : Vec Ideal Cert.ReferenceIdeal.S512 .f32) Cert.ReferenceIdeal.Facts₀.shapeCasts_S512_S1x512
abbrev rmu6 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg28) : Vec Ideal Cert.ReferenceIdeal.S512 .f32) Cert.ReferenceIdeal.Facts₀.shapeCasts_S512_S1x512
abbrev rvar6 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg29) : Vec Ideal Cert.ReferenceIdeal.S512 .f32) Cert.ReferenceIdeal.Facts₀.shapeCasts_S512_S1x512

abbrev rw7 (c : Dev nD) : Vec Ideal Cert.ReferenceIdeal.S512x512 .f32 :=
  m' ((c.tc : Thread Cert.ReferenceIdeal.nD Cert.ReferenceIdeal.τ).loc Cert.ReferenceIdeal.main_arg30)

abbrev rb7 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg31) : Vec Ideal Cert.ReferenceIdeal.S512 .f32) Cert.ReferenceIdeal.Facts₀.shapeCasts_S512_S1x512
abbrev rmu7 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg32) : Vec Ideal Cert.ReferenceIdeal.S512 .f32) Cert.ReferenceIdeal.Facts₀.shapeCasts_S512_S1x512
abbrev rvar7 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg33) : Vec Ideal Cert.ReferenceIdeal.S512 .f32) Cert.ReferenceIdeal.Facts₀.shapeCasts_S512_S1x512

abbrev rw8 (c : Dev nD) : Vec Ideal Cert.ReferenceIdeal.S512x512 .f32 :=
  m' ((c.tc : Thread Cert.ReferenceIdeal.nD Cert.ReferenceIdeal.τ).loc Cert.ReferenceIdeal.main_arg34)

abbrev rb8 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg35) : Vec Ideal Cert.ReferenceIdeal.S512 .f32) Cert.ReferenceIdeal.Facts₀.shapeCasts_S512_S1x512
abbrev rmu8 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg36) : Vec Ideal Cert.ReferenceIdeal.S512 .f32) Cert.ReferenceIdeal.Facts₀.shapeCasts_S512_S1x512
abbrev rvar8 (c : Dev nD) : Vec Ideal Cert.ReferenceIdeal.S1x512 .f32 :=
  shapeCast Cert.ReferenceIdeal.S1x512 (m' ((c.tc : Thread Cert.ReferenceIdeal.nD Cert.ReferenceIdeal.τ).loc Cert.ReferenceIdeal.main_arg37) : Vec Ideal Cert.ReferenceIdeal.S512 .f32) Cert.ReferenceIdeal.Facts₀.shapeCasts_S512_S1x512

abbrev rw9 (c : Dev nD) : Vec Ideal Cert.ReferenceIdeal.S512x1500 .f32 :=
  m' ((c.tc : Thread Cert.ReferenceIdeal.nD Cert.ReferenceIdeal.τ).loc Cert.ReferenceIdeal.main_arg38)

abbrev rb9 (c : Dev nD) : Vec Ideal Cert.ReferenceIdeal.S1x1500 .f32 :=
  shapeCast Cert.ReferenceIdeal.S1x1500 (m' ((c.tc : Thread Cert.ReferenceIdeal.nD Cert.ReferenceIdeal.τ).loc Cert.ReferenceIdeal.main_arg39) : Vec Ideal Cert.ReferenceIdeal.S1500 .f32) Cert.ReferenceIdeal.Facts₀.shapeCasts_S1500_S1x1500
abbrev rmu9 (c : Dev nD) : Vec Ideal Cert.ReferenceIdeal.S1x1500 .f32 :=
  shapeCast Cert.ReferenceIdeal.S1x1500 (m' ((c.tc : Thread Cert.ReferenceIdeal.nD Cert.ReferenceIdeal.τ).loc Cert.ReferenceIdeal.main_arg40) : Vec Ideal Cert.ReferenceIdeal.S1500 .f32) Cert.ReferenceIdeal.Facts₀.shapeCasts_S1500_S1x1500
abbrev rvar9 (c : Dev nD) : Vec Ideal Cert.ReferenceIdeal.S1x1500 .f32 :=
  shapeCast Cert.ReferenceIdeal.S1x1500 (m' ((c.tc : Thread Cert.ReferenceIdeal.nD Cert.ReferenceIdeal.τ).loc Cert.ReferenceIdeal.main_arg41) : Vec Ideal Cert.ReferenceIdeal.S1500 .f32) Cert.ReferenceIdeal.Facts₀.shapeCasts_S1500_S1x1500

end Operands

theorem buf_apply {s : Shape} {x y : Vec Ideal s .f32} (e : x = y) (i : s.Idx) : x i = y i := congrFun e i

section Match
variable [Cert.Pre_finite_inputs.Facts]
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (g' : Dev Cert.ReferenceIdeal.nD → PrngReg)

theorem trunk_match (hpre : Cert.Pre_KernelIdeal m) (hag : Agree m m') (c : Dev nD) (u : Fin 16) :
    ∀ (t : Fin 178) (j : Fin 1500),
      T9 (frames (utt u (kx m c))) (kw0 m c) (kp0 m c) (kw1 m c) (kp1 m c) (kw2 m c) (kp2 m c) (kw3 m c) (kp3 m c)
          (kw4 m c) (kp4 m c) (kw5 m c) (kp5 m c) (kw6 m c) (kp6 m c) (kw7 m c) (kp7 m c) (kw8 m c) (kp8 m c)
          (kw9 m c) (kp9 m c) (ix2 t j)
        = Cert.ReferenceIdeal.Val.A10 m' g' c (ix3 u t j) := by
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49⟩ := hag c
  obtain ⟨hb0, hs0, hm0, hmu0, hvar0⟩ := table512 _ _ _ _ _ _ Cert.ReferenceIdeal.Facts₀.shapeCasts_S512_S1x512 e3 e4 e5
    (Cert.Pre.mean_real_0 m hpre c) (Cert.Pre.var_real_0 m hpre c)
  obtain ⟨hb1, hs1, hm1, hmu1, hvar1⟩ := table512 _ _ _ _ _ _ Cert.ReferenceIdeal.Facts₀.shapeCasts_S512_S1x512 e7 e8 e9
    (Cert.Pre.mean_real_1 m hpre c) (Cert.Pre.var_real_1 m hpre c)
  obtain ⟨hb2, hs2, hm2, hmu2, hvar2⟩ := table512 _ _ _ _ _ _ Cert.ReferenceIdeal.Facts₀.shapeCasts_S512_S1x512 e11 e12 e13
    (Cert.Pre.mean_real_2 m hpre c) (Cert.Pre.var_real_2 m hpre c)
  obtain ⟨hb3, hs3, hm3, hmu3, hvar3⟩ := table512 _ _ _ _ _ _ Cert.ReferenceIdeal.Facts₀.shapeCasts_S512_S1x512 e15 e16 e17
    (Cert.Pre.mean_real_3 m hpre c) (Cert.Pre.var_real_3 m hpre c)
  obtain ⟨hb4, hs4, hm4, hmu4, hvar4⟩ := table512 _ _ _ _ _ _ Cert.ReferenceIdeal.Facts₀.shapeCasts_S512_S1x512 e19 e20 e21
    (Cert.Pre.mean_real_4 m hpre c) (Cert.Pre.var_real_4 m hpre c)
  obtain ⟨hb5, hs5, hm5, hmu5, hvar5⟩ := table512 _ _ _ _ _ _ Cert.ReferenceIdeal.Facts₀.shapeCasts_S512_S1x512 e23 e24 e25
    (Cert.Pre.mean_real_5 m hpre c) (Cert.Pre.var_real_5 m hpre c)
  obtain ⟨hb6, hs6, hm6, hmu6, hvar6⟩ := table512 _ _ _ _ _ _ Cert.ReferenceIdeal.Facts₀.shapeCasts_S512_S1x512 e27 e28 e29
    (Cert.Pre.mean_real_6 m hpre c) (Cert.Pre.var_real_6 m hpre c)
  obtain ⟨hb7, hs7, hm7, hmu7, hvar7⟩ := table512 _ _ _ _ _ _ Cert.ReferenceIdeal.Facts₀.shapeCasts_S512_S1x512 e31 e32 e33
    (Cert.Pre.mean_real_7 m hpre c) (Cert.Pre.var_real_7 m hpre c)
  obtain ⟨hb8, hs8, hm8, hmu8, hvar8⟩ := table512 _ _ _ _ _ _ Cert.ReferenceIdeal.Facts₀.shapeCasts_S512_S1x512 e35 e36 e37
    (Cert.Pre.mean_real_8 m hpre c) (Cert.Pre.var_real_8 m hpre c)
  obtain ⟨hb9, hs9, hm9, hmu9, hvar9⟩ := table1500 _ _ _ _ _ _ Cert.ReferenceIdeal.Facts₀.shapeCasts_S1500_S1x1500 e39 e40 e41
    (Cert.Pre.mean_real_9 m hpre c) (Cert.Pre.var_real_9 m hpre c)
  have hX : (kx m c : Vec Ideal Cert.ReferenceIdeal.S16x200x30 .f32) = Cert.ReferenceIdeal.Val.A0 m' g' c := by
    rw [Cert.ReferenceIdeal.Val.A0_eq, e0, e1]; rfl
  have hx : ∀ (t : Fin 200) (f : Fin 30), frames (utt u (kx m c)) (ix2 t f) = Cert.ReferenceIdeal.Val.A0 m' g' c (ix3 u t f) :=
    fun t f => (frames_apply (utt u (kx m c)) t f).trans (buf_apply hX (ix3 u t f))
  exact trunk_eq u (frames (utt u (kx m c))) (Cert.ReferenceIdeal.Val.A0 m' g' c) hx

    (kw0 m c) (kp0 m c)
    (View.ld (rw0 m' c) Cert.ReferenceIdeal.Gen.r0_1) (View.ld (rw0 m' c) Cert.ReferenceIdeal.Gen.r0_2) (View.ld (rw0 m' c) Cert.ReferenceIdeal.Gen.r0_3)
    (View.ld (rw0 m' c) Cert.ReferenceIdeal.Gen.r0_4) (View.ld (rw0 m' c) Cert.ReferenceIdeal.Gen.r0_5)
    (rb0 m' c) (rmu0 m' c) (rvar0 m' c) (Cert.ReferenceIdeal.Val.A1 m' g' c)
    (fun t j => Cert.ReferenceIdeal.Val.act1 m' g' c u t j)
    (fun a j c' hc => ((Cert.ReferenceIdeal.Val.w0_piece0 (rw0 m' c) a j c' (by omega)).trans (buf_apply e2 (ix2 c' j))).symm)
    (fun a j c' hc => ((Cert.ReferenceIdeal.Val.w0_piece1 (rw0 m' c) a j c' (by omega)).trans (buf_apply e2 (ix2 c' j))).symm)
    (fun a j c' hc => ((Cert.ReferenceIdeal.Val.w0_piece2 (rw0 m' c) a j c' (by omega)).trans (buf_apply e2 (ix2 c' j))).symm)
    (fun a j c' hc => ((Cert.ReferenceIdeal.Val.w0_piece3 (rw0 m' c) a j c' (by omega)).trans (buf_apply e2 (ix2 c' j))).symm)
    (fun a j c' hc => ((Cert.ReferenceIdeal.Val.w0_piece4 (rw0 m' c) a j c' (by omega)).trans (buf_apply e2 (ix2 c' j))).symm)
    hb0 hs0 hm0 hmu0 hvar0

    (kw1 m c) (kp1 m c) (rw1 m' c) (rb1 m' c) (rmu1 m' c) (rvar1 m' c) (Cert.ReferenceIdeal.Val.A2 m' g' c)
    (fun t j => Cert.ReferenceIdeal.Val.act2 m' g' c u t j)
    (fun k j => (buf_apply e6 (ix2 k j)).symm)
    hb1 hs1 hm1 hmu1 hvar1

    (kw2 m c) (kp2 m c)
    (View.ld (rw2 m' c) Cert.ReferenceIdeal.Gen.r2_1) (View.ld (rw2 m' c) Cert.ReferenceIdeal.Gen.r2_2) (View.ld (rw2 m' c) Cert.ReferenceIdeal.Gen.r2_3)
    (rb2 m' c) (rmu2 m' c) (rvar2 m' c) (Cert.ReferenceIdeal.Val.A3 m' g' c)
    (fun t j => Cert.ReferenceIdeal.Val.act3 m' g' c u t j)
    (fun a j c' hc => ((Cert.ReferenceIdeal.Val.w2_piece0 (rw2 m' c) a j c' (by omega)).trans (buf_apply e10 (ix2 c' j))).symm)
    (fun a j c' hc => ((Cert.ReferenceIdeal.Val.w2_piece1 (rw2 m' c) a j c' (by omega)).trans (buf_apply e10 (ix2 c' j))).symm)
    (fun a j c' hc => ((Cert.ReferenceIdeal.Val.w2_piece2 (rw2 m' c) a j c' (by omega)).trans (buf_apply e10 (ix2 c' j))).symm)
    hb2 hs2 hm2 hmu2 hvar2

    (kw3 m c) (kp3 m c) (rw3 m' c) (rb3 m' c) (rmu3 m' c) (rvar3 m' c) (Cert.ReferenceIdeal.Val.A4 m' g' c)
    (fun t j => Cert.ReferenceIdeal.Val.act4 m' g' c u t j)
    (fun k j => (buf_apply e14 (ix2 k j)).symm)
    hb3 hs3 hm3 hmu3 hvar3

    (kw4 m c) (kp4 m c)
    (View.ld (rw4 m' c) Cert.ReferenceIdeal.Gen.r4_1) (View.ld (rw4 m' c) Cert.ReferenceIdeal.Gen.r4_2) (View.ld (rw4 m' c) Cert.ReferenceIdeal.Gen.r4_3)
    (rb4 m' c) (rmu4 m' c) (rvar4 m' c) (Cert.ReferenceIdeal.Val.A5 m' g' c)
    (fun t j => Cert.ReferenceIdeal.Val.act5 m' g' c u t j)
    (fun a j c' hc => ((Cert.ReferenceIdeal.Val.w4_piece0 (rw4 m' c) a j c' (by omega)).trans (buf_apply e18 (ix2 c' j))).symm)
    (fun a j c' hc => ((Cert.ReferenceIdeal.Val.w4_piece1 (rw4 m' c) a j c' (by omega)).trans (buf_apply e18 (ix2 c' j))).symm)
    (fun a j c' hc => ((Cert.ReferenceIdeal.Val.w4_piece2 (rw4 m' c) a j c' (by omega)).trans (buf_apply e18 (ix2 c' j))).symm)
    hb4 hs4 hm4 hmu4 hvar4

    (kw5 m c) (kp5 m c) (rw5 m' c) (rb5 m' c) (rmu5 m' c) (rvar5 m' c) (Cert.ReferenceIdeal.Val.A6 m' g' c)
    (fun t j => Cert.ReferenceIdeal.Val.act6 m' g' c u t j)
    (fun k j => (buf_apply e22 (ix2 k j)).symm)
    hb5 hs5 hm5 hmu5 hvar5

    (kw6 m c) (kp6 m c)
    (View.ld (rw6 m' c) Cert.ReferenceIdeal.Gen.r6_1) (View.ld (rw6 m' c) Cert.ReferenceIdeal.Gen.r6_2) (View.ld (rw6 m' c) Cert.ReferenceIdeal.Gen.r6_3)
    (rb6 m' c) (rmu6 m' c) (rvar6 m' c) (Cert.ReferenceIdeal.Val.A7 m' g' c)
    (fun t j => Cert.ReferenceIdeal.Val.act7 m' g' c u t j)
    (fun a j c' hc => ((Cert.ReferenceIdeal.Val.w6_piece0 (rw6 m' c) a j c' (by omega)).trans (buf_apply e26 (ix2 c' j))).symm)
    (fun a j c' hc => ((Cert.ReferenceIdeal.Val.w6_piece1 (rw6 m' c) a j c' (by omega)).trans (buf_apply e26 (ix2 c' j))).symm)
    (fun a j c' hc => ((Cert.ReferenceIdeal.Val.w6_piece2 (rw6 m' c) a j c' (by omega)).trans (buf_apply e26 (ix2 c' j))).symm)
    hb6 hs6 hm6 hmu6 hvar6

    (kw7 m c) (kp7 m c) (rw7 m' c) (rb7 m' c) (rmu7 m' c) (rvar7 m' c) (Cert.ReferenceIdeal.Val.A8 m' g' c)
    (fun t j => Cert.ReferenceIdeal.Val.act8 m' g' c u t j)
    (fun k j => (buf_apply e30 (ix2 k j)).symm)
    hb7 hs7 hm7 hmu7 hvar7

    (kw8 m c) (kp8 m c) (rw8 m' c) (rb8 m' c) (rmu8 m' c) (rvar8 m' c) (Cert.ReferenceIdeal.Val.A9 m' g' c)
    (fun t j => Cert.ReferenceIdeal.Val.act9 m' g' c u t j)
    (fun k j => (buf_apply e34 (ix2 k j)).symm)
    hb8 hs8 hm8 hmu8 hvar8

    (kw9 m c) (kp9 m c) (rw9 m' c) (rb9 m' c) (rmu9 m' c) (rvar9 m' c) (Cert.ReferenceIdeal.Val.A10 m' g' c)
    (fun t j => Cert.ReferenceIdeal.Val.act10 m' g' c u t j)
    (fun k j => (buf_apply e38 (ix2 k j)).symm)
    hb9 hs9 hm9 hmu9 hvar9

theorem stats_match (hpre : Cert.Pre_KernelIdeal m) (hag : Agree m m') (c : Dev nD) (u : Fin 16) (j : Fin 1500) :
    out0_21 (utt u (kx m c)) (kw0 m c) (kw1 m c) (kw2 m c) (kw3 m c) (kw4 m c) (kw5 m c) (kw6 m c) (kw7 m c) (kw8 m c) (kw9 m c)
        (kp0 m c) (kp1 m c) (kp2 m c) (kp3 m c) (kp4 m c) (kp5 m c) (kp6 m c) (kp7 m c) (kp8 m c) (kp9 m c) (ix3 (0 : Fin 1) (0 : Fin 1) j)
        = poolMean (fun t j => Cert.ReferenceIdeal.Val.A10 m' g' c (ix3 u t j)) j
    ∧ out0_22 (utt u (kx m c)) (kw0 m c) (kw1 m c) (kw2 m c) (kw3 m c) (kw4 m c) (kw5 m c) (kw6 m c) (kw7 m c) (kw8 m c) (kw9 m c)
        (kp0 m c) (kp1 m c) (kp2 m c) (kp3 m c) (kp4 m c) (kp5 m c) (kp6 m c) (kp7 m c) (kp8 m c) (kp9 m c) (ix3 (0 : Fin 1) (0 : Fin 1) j)
        = poolStd (fun t j => Cert.ReferenceIdeal.Val.A10 m' g' c (ix3 u t j)) j :=
  ⟨out0_21_pooled (utt u (kx m c)) (kw0 m c) (kw1 m c) (kw2 m c) (kw3 m c) (kw4 m c) (kw5 m c) (kw6 m c) (kw7 m c) (kw8 m c) (kw9 m c)
        (kp0 m c) (kp1 m c) (kp2 m c) (kp3 m c) (kp4 m c) (kp5 m c) (kp6 m c) (kp7 m c) (kp8 m c) (kp9 m c)
      (fun t j => Cert.ReferenceIdeal.Val.A10 m' g' c (ix3 u t j)) (trunk_match m m' g' hpre hag c u) j,
   out0_22_pooled (utt u (kx m c)) (kw0 m c) (kw1 m c) (kw2 m c) (kw3 m c) (kw4 m c) (kw5 m c) (kw6 m c) (kw7 m c) (kw8 m c) (kw9 m c)
        (kp0 m c) (kp1 m c) (kp2 m c) (kp3 m c) (kp4 m c) (kp5 m c) (kp6 m c) (kp7 m c) (kp8 m c) (kp9 m c)
      (fun t j => Cert.ReferenceIdeal.Val.A10 m' g' c (ix3 u t j)) (trunk_match m m' g' hpre hag c u) j⟩

end Match

end Cert.Bridge

end
-- ==== Proof.LibNary.lean ====
import Idealize.ShloMosaic.Lib.StableHlo.Run

noncomputable section

namespace Cert.LibNary

open Idealize.ShloMosaic Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Cert.LibNary

end
-- ==== Proof.KI.Host.lean ====
import proofs.«169142_g2000501041679005_pallasbulk_208_6_alg».proof.Proof.Gen.KernelIdeal.Launch
import proofs.«169142_g2000501041679005_pallasbulk_208_6_alg».proof.Proof.KI.HostDefs
import proofs.«169142_g2000501041679005_pallasbulk_208_6_alg».proof.Proof.LibNary

set_option maxRecDepth 16384

noncomputable section

namespace Cert.KernelIdeal.Hand

open Idealize.ShloMosaic Idealize.ShloMosaic.TcCoe
open Cert.KernelIdeal Cert.KernelIdeal.Gen

variable {F : FTy → Type} [FloatOps F]

macro "host_results_simp" : tactic =>
  `(tactic| (simp (disch := decide) only [StableHlo.after_cons, StableHlo.after_nil,
      StableHlo.nullary_result', StableHlo.unary_result', StableHlo.binary_result', StableHlo.reshape_result',
      Cert.LibNary.nary3_result',
      StableHlo.nullary_result_ne', StableHlo.unary_result_ne', StableHlo.binary_result_ne', StableHlo.reshape_result_ne',
      StableHlo.nary_result_ne']))

section Stretch0
variable (X : Valuation τ sig (Elt F))

set_option maxHeartbeats 4000000 in

theorem host0_x : StableHlo.after (hostOps0 (F := F)) X (Proc.devRef .tc main_v1)
    = xStack (X (Proc.devRef .tc main_arg0)) (X (Proc.devRef .tc main_arg1)) := by
  unfold xStack; host_results_simp <;> rfl

set_option maxHeartbeats 4000000 in

theorem host0_w0 : StableHlo.after (hostOps0 (F := F)) X (Proc.devRef .tc main_v2)
    = truncf .bf16 (X (Proc.devRef .tc main_arg2)) bitsLt_bf16_f32 := by
  host_results_simp <;> rfl
set_option maxHeartbeats 4000000 in

theorem host0_w1 : StableHlo.after (hostOps0 (F := F)) X (Proc.devRef .tc main_v3)
    = truncf .bf16 (X (Proc.devRef .tc main_arg6)) bitsLt_bf16_f32 := by
  host_results_simp <;> rfl
set_option maxHeartbeats 4000000 in

theorem host0_w2 : StableHlo.after (hostOps0 (F := F)) X (Proc.devRef .tc main_v4)
    = truncf .bf16 (X (Proc.devRef .tc main_arg10)) bitsLt_bf16_f32 := by
  host_results_simp <;> rfl
set_option maxHeartbeats 4000000 in

theorem host0_w3 : StableHlo.after (hostOps0 (F := F)) X (Proc.devRef .tc main_v5)
    = truncf .bf16 (X (Proc.devRef .tc main_arg14)) bitsLt_bf16_f32 := by
  host_results_simp <;> rfl
set_option maxHeartbeats 4000000 in

theorem host0_w4 : StableHlo.after (hostOps0 (F := F)) X (Proc.devRef .tc main_v6)
    = truncf .bf16 (X (Proc.devRef .tc main_arg18)) bitsLt_bf16_f32 := by
  host_results_simp <;> rfl
set_option maxHeartbeats 4000000 in

theorem host0_w5 : StableHlo.after (hostOps0 (F := F)) X (Proc.devRef .tc main_v7)
    = truncf .bf16 (X (Proc.devRef .tc main_arg22)) bitsLt_bf16_f32 := by
  host_results_simp <;> rfl
set_option maxHeartbeats 4000000 in

theorem host0_w6 : StableHlo.after (hostOps0 (F := F)) X (Proc.devRef .tc main_v8)
    = truncf .bf16 (X (Proc.devRef .tc main_arg26)) bitsLt_bf16_f32 := by
  host_results_simp <;> rfl
set_option maxHeartbeats 4000000 in

theorem host0_w7 : StableHlo.after (hostOps0 (F := F)) X (Proc.devRef .tc main_v9)
    = truncf .bf16 (X (Proc.devRef .tc main_arg30)) bitsLt_bf16_f32 := by
  host_results_simp <;> rfl
set_option maxHeartbeats 4000000 in

theorem host0_w8 : StableHlo.after (hostOps0 (F := F)) X (Proc.devRef .tc main_v10)
    = truncf .bf16 (X (Proc.devRef .tc main_arg34)) bitsLt_bf16_f32 := by
  host_results_simp <;> rfl
set_option maxHeartbeats 4000000 in

theorem host0_w9 : StableHlo.after (hostOps0 (F := F)) X (Proc.devRef .tc main_v11)
    = truncf .bf16 (X (Proc.devRef .tc main_arg38)) bitsLt_bf16_f32 := by
  host_results_simp <;> rfl

set_option maxHeartbeats 4000000 in

theorem host0_p0 : StableHlo.after (hostOps0 (F := F)) X (Proc.devRef .tc main_v19)
    = rows512 (X (Proc.devRef .tc main_arg3)) (X (Proc.devRef .tc main_arg4)) (X (Proc.devRef .tc main_arg5)) := by
  unfold rows512 bnScale512; host_results_simp <;> rfl
set_option maxHeartbeats 4000000 in

theorem host0_p1 : StableHlo.after (hostOps0 (F := F)) X (Proc.devRef .tc main_v27)
    = rows512 (X (Proc.devRef .tc main_arg7)) (X (Proc.devRef .tc main_arg8)) (X (Proc.devRef .tc main_arg9)) := by
  unfold rows512 bnScale512; host_results_simp <;> rfl
set_option maxHeartbeats 4000000 in

theorem host0_p2 : StableHlo.after (hostOps0 (F := F)) X (Proc.devRef .tc main_v35)
    = rows512 (X (Proc.devRef .tc main_arg11)) (X (Proc.devRef .tc main_arg12)) (X (Proc.devRef .tc main_arg13)) := by
  unfold rows512 bnScale512; host_results_simp <;> rfl
set_option maxHeartbeats 4000000 in

theorem host0_p3 : StableHlo.after (hostOps0 (F := F)) X (Proc.devRef .tc main_v43)
    = rows512 (X (Proc.devRef .tc main_arg15)) (X (Proc.devRef .tc main_arg16)) (X (Proc.devRef .tc main_arg17)) := by
  unfold rows512 bnScale512; host_results_simp <;> rfl
set_option maxHeartbeats 4000000 in

theorem host0_p4 : StableHlo.after (hostOps0 (F := F)) X (Proc.devRef .tc main_v51)
    = rows512 (X (Proc.devRef .tc main_arg19)) (X (Proc.devRef .tc main_arg20)) (X (Proc.devRef .tc main_arg21)) := by
  unfold rows512 bnScale512; host_results_simp <;> rfl
set_option maxHeartbeats 4000000 in

theorem host0_p5 : StableHlo.after (hostOps0 (F := F)) X (Proc.devRef .tc main_v59)
    = rows512 (X (Proc.devRef .tc main_arg23)) (X (Proc.devRef .tc main_arg24)) (X (Proc.devRef .tc main_arg25)) := by
  unfold rows512 bnScale512; host_results_simp <;> rfl
set_option maxHeartbeats 4000000 in

theorem host0_p6 : StableHlo.after (hostOps0 (F := F)) X (Proc.devRef .tc main_v67)
    = rows512 (X (Proc.devRef .tc main_arg27)) (X (Proc.devRef .tc main_arg28)) (X (Proc.devRef .tc main_arg29)) := by
  unfold rows512 bnScale512; host_results_simp <;> rfl
set_option maxHeartbeats 4000000 in

theorem host0_p7 : StableHlo.after (hostOps0 (F := F)) X (Proc.devRef .tc main_v75)
    = rows512 (X (Proc.devRef .tc main_arg31)) (X (Proc.devRef .tc main_arg32)) (X (Proc.devRef .tc main_arg33)) := by
  unfold rows512 bnScale512; host_results_simp <;> rfl
set_option maxHeartbeats 4000000 in

theorem host0_p8 : StableHlo.after (hostOps0 (F := F)) X (Proc.devRef .tc main_v83)
    = rows512 (X (Proc.devRef .tc main_arg35)) (X (Proc.devRef .tc main_arg36)) (X (Proc.devRef .tc main_arg37)) := by
  unfold rows512 bnScale512; host_results_simp <;> rfl
set_option maxHeartbeats 4000000 in

theorem host0_p9 : StableHlo.after (hostOps0 (F := F)) X (Proc.devRef .tc main_v91)
    = rows1500 (X (Proc.devRef .tc main_arg39)) (X (Proc.devRef .tc main_arg40)) (X (Proc.devRef .tc main_arg41)) := by
  unfold rows1500 bnScale1500; host_results_simp <;> rfl

end Stretch0

section Stretch1
variable (X : Valuation τ sig (Elt F))

theorem host1_mean : StableHlo.after (hostOps1 (F := F)) X (Proc.devRef .tc main_v93)
    = shapeCast S16x1500 (X (Proc.devRef .tc main_v92_0)) shapeCasts_S16x1x1500_S16x1500 := by
  host_results_simp <;> rfl

theorem host1_std : StableHlo.after (hostOps1 (F := F)) X (Proc.devRef .tc main_v94)
    = shapeCast S16x1500 (X (Proc.devRef .tc main_v92_1)) shapeCasts_S16x1x1500_S16x1500 := by
  host_results_simp <;> rfl

theorem host1_w11a : StableHlo.after (hostOps1 (F := F)) X (Proc.devRef .tc main_v100)
    = extractStridedSlice S1500x512 ![0, 0] (truncf .bf16 (X (Proc.devRef .tc main_arg42)) bitsLt_bf16_f32) slices_S3000x512_S1500x512_0_0 := by
  host_results_simp <;> rfl

theorem host1_w11b : StableHlo.after (hostOps1 (F := F)) X (Proc.devRef .tc main_v101)
    = extractStridedSlice S1500x512 ![1500, 0] (truncf .bf16 (X (Proc.devRef .tc main_arg42)) bitsLt_bf16_f32) slices_S3000x512_S1500x512_1500_0 := by
  host_results_simp <;> rfl

theorem host1_b11 : StableHlo.after (hostOps1 (F := F)) X (Proc.devRef .tc main_v102)
    = shapeCast S1x512 (X (Proc.devRef .tc main_arg43)) shapeCasts_S512_S1x512 := by
  host_results_simp <;> rfl

theorem host1_wlda : StableHlo.after (hostOps1 (F := F)) X (Proc.devRef .tc main_v103)
    = truncf .bf16 (X (Proc.devRef .tc main_arg44)) bitsLt_bf16_f32 := by
  host_results_simp <;> rfl

theorem host1_blda : StableHlo.after (hostOps1 (F := F)) X (Proc.devRef .tc main_v104)
    = shapeCast S1x128 (X (Proc.devRef .tc main_arg45)) shapeCasts_S128_S1x128 := by
  host_results_simp <;> rfl

theorem host1_wplda : StableHlo.after (hostOps1 (F := F)) X (Proc.devRef .tc main_v105)
    = truncf .bf16 (X (Proc.devRef .tc main_arg46)) bitsLt_bf16_f32 := by
  host_results_simp <;> rfl

theorem host1_bplda : StableHlo.after (hostOps1 (F := F)) X (Proc.devRef .tc main_v106)
    = shapeCast S1x128 (X (Proc.devRef .tc main_arg47)) shapeCasts_S128_S1x128 := by
  host_results_simp <;> rfl

theorem host1_pq : StableHlo.after (hostOps1 (F := F)) X (Proc.devRef .tc main_v99)
    = pqRows (X (Proc.devRef .tc main_arg48)) (X (Proc.devRef .tc main_arg49)) := by
  unfold pqRows; host_results_simp <;> rfl

end Stretch1

theorem host2_out (X : Valuation τ sig (Elt F)) : StableHlo.after (hostOps2 (F := F)) X (Proc.devRef .tc main_v108)
    = shapeCast S8 (X (Proc.devRef .tc main_v107)) shapeCasts_S8x1_S8 := by
  host_results_simp <;> rfl

end Cert.KernelIdeal.Hand

end
-- ==== Proof.KI.ValueTrunk.lean ====
import proofs.«169142_g2000501041679005_pallasbulk_208_6_alg».proof.Proof.KI.Fold
import proofs.«169142_g2000501041679005_pallasbulk_208_6_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

abbrev vec (S : Shape) (e : EltTy) (x : Vec Ideal S e) : Vec Ideal S e := x

theorem V1_x (c : Dev nD) : (V1 m ρ c main_v1 : Vec Ideal S16x200x30 .f32)
    = xStack (F := Ideal) (m ((c : Thread nD τ).loc main_arg0) : Vec Ideal S8x30x200 .f32) (m ((c : Thread nD τ).loc main_arg1) : Vec Ideal S8x30x200 .f32) :=
  host0_x (W0 m ρ c)

theorem V1_p0 (c : Dev nD) : (V1 m ρ c main_v19 : Vec Ideal S3x512 .f32)
    = rows512 (F := Ideal) (m ((c : Thread nD τ).loc main_arg3)) (m ((c : Thread nD τ).loc main_arg4)) (m ((c : Thread nD τ).loc main_arg5)) := host0_p0 (W0 m ρ c)
theorem V1_p1 (c : Dev nD) : (V1 m ρ c main_v27 : Vec Ideal S3x512 .f32)
    = rows512 (F := Ideal) (m ((c : Thread nD τ).loc main_arg7)) (m ((c : Thread nD τ).loc main_arg8)) (m ((c : Thread nD τ).loc main_arg9)) := host0_p1 (W0 m ρ c)
theorem V1_p2 (c : Dev nD) : (V1 m ρ c main_v35 : Vec Ideal S3x512 .f32)
    = rows512 (F := Ideal) (m ((c : Thread nD τ).loc main_arg11)) (m ((c : Thread nD τ).loc main_arg12)) (m ((c : Thread nD τ).loc main_arg13)) := host0_p2 (W0 m ρ c)
theorem V1_p3 (c : Dev nD) : (V1 m ρ c main_v43 : Vec Ideal S3x512 .f32)
    = rows512 (F := Ideal) (m ((c : Thread nD τ).loc main_arg15)) (m ((c : Thread nD τ).loc main_arg16)) (m ((c : Thread nD τ).loc main_arg17)) := host0_p3 (W0 m ρ c)
theorem V1_p4 (c : Dev nD) : (V1 m ρ c main_v51 : Vec Ideal S3x512 .f32)
    = rows512 (F := Ideal) (m ((c : Thread nD τ).loc main_arg19)) (m ((c : Thread nD τ).loc main_arg20)) (m ((c : Thread nD τ).loc main_arg21)) := host0_p4 (W0 m ρ c)
theorem V1_p5 (c : Dev nD) : (V1 m ρ c main_v59 : Vec Ideal S3x512 .f32)
    = rows512 (F := Ideal) (m ((c : Thread nD τ).loc main_arg23)) (m ((c : Thread nD τ).loc main_arg24)) (m ((c : Thread nD τ).loc main_arg25)) := host0_p5 (W0 m ρ c)
theorem V1_p6 (c : Dev nD) : (V1 m ρ c main_v67 : Vec Ideal S3x512 .f32)
    = rows512 (F := Ideal) (m ((c : Thread nD τ).loc main_arg27)) (m ((c : Thread nD τ).loc main_arg28)) (m ((c : Thread nD τ).loc main_arg29)) := host0_p6 (W0 m ρ c)
theorem V1_p7 (c : Dev nD) : (V1 m ρ c main_v75 : Vec Ideal S3x512 .f32)
    = rows512 (F := Ideal) (m ((c : Thread nD τ).loc main_arg31)) (m ((c : Thread nD τ).loc main_arg32)) (m ((c : Thread nD τ).loc main_arg33)) := host0_p7 (W0 m ρ c)
theorem V1_p8 (c : Dev nD) : (V1 m ρ c main_v83 : Vec Ideal S3x512 .f32)
    = rows512 (F := Ideal) (m ((c : Thread nD τ).loc main_arg35)) (m ((c : Thread nD τ).loc main_arg36)) (m ((c : Thread nD τ).loc main_arg37)) := host0_p8 (W0 m ρ c)
theorem V1_p9 (c : Dev nD) : (V1 m ρ c main_v91 : Vec Ideal S3x1500 .f32)
    = rows1500 (F := Ideal) (m ((c : Thread nD τ).loc main_arg39)) (m ((c : Thread nD τ).loc main_arg40)) (m ((c : Thread nD τ).loc main_arg41)) := host0_p9 (W0 m ρ c)

end Cert.KernelIdeal.Hand

end
-- ==== Proof.KI.Blk0.lean ====
import proofs.«169142_g2000501041679005_pallasbulk_208_6_alg».proof.Proof.KI.Region0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

abbrev pt0 (u : Fin 16) : Fin cfg0.N := ⟨u.val, by rw [show cfg0.N = 16 from N_0]; exact u.isLt⟩

theorem idx0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem iblk0_0_apply (c : Dev nD) (u : Fin 16) (a : Fin 200) (f : Fin 30) :
    (iblk0 V c 0 (pt0 u) : Vec F S1x200x30 .f32) (ix3 0 a f) = (V c (Pipeline.arrRef spec0 0) : Vec F S16x200x30 .f32) (ix3 u a f) := by
  obtain ⟨e0, e1, e2⟩ := idx0_0 (pt0 u)
  unfold iblk0
  rw [View.read_apply]
  show V c (Pipeline.arrRef spec0 0) _ = V c (Pipeline.arrRef spec0 0) _
  refine congrArg (V c (Pipeline.arrRef spec0 0)) (funext fun d => Fin.ext ?_)
  match d with
  | ⟨0, _⟩ => show win0_0.index (pt0 u) 0 * 1 + 1 * 0 = u.val; rw [e0]; show u.val * 1 + 1 * 0 = u.val; omega
  | ⟨1, _⟩ => show win0_0.index (pt0 u) 1 * 200 + 1 * a.val = a.val; rw [e1]; omega
  | ⟨2, _⟩ => show win0_0.index (pt0 u) 2 * 30 + 1 * f.val = f.val; rw [e2]; omega

theorem idx0_1 : ∀ t : Fin cfg0.N, ∀ a : Fin 2, win0_1.index t a = 0 :=
  (by decide +kernel : ∀ t : Fin grid0.N, ∀ a : Fin 2, win0_1.index t a = 0)

theorem iblk0_1 (c : Dev nD) (t : Fin cfg0.N) : iblk0 V c 1 t = V c (Pipeline.arrRef spec0 1) := by
  unfold iblk0
  have hz' : (fun a => win0_1.index t a * main_v2.ty.shape.size a) = fun _ => 0 := funext fun a => by rw [idx0_1 t a, Nat.zero_mul]
  exact Memref.read_access_unit_zero (Elt F) main_v2 hz' (fun a => by rw [congrFun hz' a]; simp) _
theorem idx0_2 : ∀ t : Fin cfg0.N, ∀ a : Fin 2, win0_2.index t a = 0 :=
  (by decide +kernel : ∀ t : Fin grid0.N, ∀ a : Fin 2, win0_2.index t a = 0)

theorem iblk0_2 (c : Dev nD) (t : Fin cfg0.N) : iblk0 V c 2 t = V c (Pipeline.arrRef spec0 2) := by
  unfold iblk0
  have hz' : (fun a => win0_2.index t a * main_v3.ty.shape.size a) = fun _ => 0 := funext fun a => by rw [idx0_2 t a, Nat.zero_mul]
  exact Memref.read_access_unit_zero (Elt F) main_v3 hz' (fun a => by rw [congrFun hz' a]; simp) _
theorem idx0_3 : ∀ t : Fin cfg0.N, ∀ a : Fin 2, win0_3.index t a = 0 :=
  (by decide +kernel : ∀ t : Fin grid0.N, ∀ a : Fin 2, win0_3.index t a = 0)

theorem iblk0_3 (c : Dev nD) (t : Fin cfg0.N) : iblk0 V c 3 t = V c (Pipeline.arrRef spec0 3) := by
  unfold iblk0
  have hz' : (fun a => win0_3.index t a * main_v4.ty.shape.size a) = fun _ => 0 := funext fun a => by rw [idx0_3 t a, Nat.zero_mul]
  exact Memref.read_access_unit_zero (Elt F) main_v4 hz' (fun a => by rw [congrFun hz' a]; simp) _
theorem idx0_4 : ∀ t : Fin cfg0.N, ∀ a : Fin 2, win0_4.index t a = 0 :=
  (by decide +kernel : ∀ t : Fin grid0.N, ∀ a : Fin 2, win0_4.index t a = 0)

theorem iblk0_4 (c : Dev nD) (t : Fin cfg0.N) : iblk0 V c 4 t = V c (Pipeline.arrRef spec0 4) := by
  unfold iblk0
  have hz' : (fun a => win0_4.index t a * main_v5.ty.shape.size a) = fun _ => 0 := funext fun a => by rw [idx0_4 t a, Nat.zero_mul]
  exact Memref.read_access_unit_zero (Elt F) main_v5 hz' (fun a => by rw [congrFun hz' a]; simp) _
theorem idx0_5 : ∀ t : Fin cfg0.N, ∀ a : Fin 2, win0_5.index t a = 0 :=
  (by decide +kernel : ∀ t : Fin grid0.N, ∀ a : Fin 2, win0_5.index t a = 0)

theorem iblk0_5 (c : Dev nD) (t : Fin cfg0.N) : iblk0 V c 5 t = V c (Pipeline.arrRef spec0 5) := by
  unfold iblk0
  have hz' : (fun a => win0_5.index t a * main_v6.ty.shape.size a) = fun _ => 0 := funext fun a => by rw [idx0_5 t a, Nat.zero_mul]
  exact Memref.read_access_unit_zero (Elt F) main_v6 hz' (fun a => by rw [congrFun hz' a]; simp) _
theorem idx0_6 : ∀ t : Fin cfg0.N, ∀ a : Fin 2, win0_6.index t a = 0 :=
  (by decide +kernel : ∀ t : Fin grid0.N, ∀ a : Fin 2, win0_6.index t a = 0)

theorem iblk0_6 (c : Dev nD) (t : Fin cfg0.N) : iblk0 V c 6 t = V c (Pipeline.arrRef spec0 6) := by
  unfold iblk0
  have hz' : (fun a => win0_6.index t a * main_v7.ty.shape.size a) = fun _ => 0 := funext fun a => by rw [idx0_6 t a, Nat.zero_mul]
  exact Memref.read_access_unit_zero (Elt F) main_v7 hz' (fun a => by rw [congrFun hz' a]; simp) _
theorem idx0_7 : ∀ t : Fin cfg0.N, ∀ a : Fin 2, win0_7.index t a = 0 :=
  (by decide +kernel : ∀ t : Fin grid0.N, ∀ a : Fin 2, win0_7.index t a = 0)

theorem iblk0_7 (c : Dev nD) (t : Fin cfg0.N) : iblk0 V c 7 t = V c (Pipeline.arrRef spec0 7) := by
  unfold iblk0
  have hz' : (fun a => win0_7.index t a * main_v8.ty.shape.size a) = fun _ => 0 := funext fun a => by rw [idx0_7 t a, Nat.zero_mul]
  exact Memref.read_access_unit_zero (Elt F) main_v8 hz' (fun a => by rw [congrFun hz' a]; simp) _
theorem idx0_8 : ∀ t : Fin cfg0.N, ∀ a : Fin 2, win0_8.index t a = 0 :=
  (by decide +kernel : ∀ t : Fin grid0.N, ∀ a : Fin 2, win0_8.index t a = 0)

theorem iblk0_8 (c : Dev nD) (t : Fin cfg0.N) : iblk0 V c 8 t = V c (Pipeline.arrRef spec0 8) := by
  unfold iblk0
  have hz' : (fun a => win0_8.index t a * main_v9.ty.shape.size a) = fun _ => 0 := funext fun a => by rw [idx0_8 t a, Nat.zero_mul]
  exact Memref.read_access_unit_zero (Elt F) main_v9 hz' (fun a => by rw [congrFun hz' a]; simp) _
theorem idx0_9 : ∀ t : Fin cfg0.N, ∀ a : Fin 2, win0_9.index t a = 0 :=
  (by decide +kernel : ∀ t : Fin grid0.N, ∀ a : Fin 2, win0_9.index t a = 0)

theorem iblk0_9 (c : Dev nD) (t : Fin cfg0.N) : iblk0 V c 9 t = V c (Pipeline.arrRef spec0 9) := by
  unfold iblk0
  have hz' : (fun a => win0_9.index t a * main_v10.ty.shape.size a) = fun _ => 0 := funext fun a => by rw [idx0_9 t a, Nat.zero_mul]
  exact Memref.read_access_unit_zero (Elt F) main_v10 hz' (fun a => by rw [congrFun hz' a]; simp) _
theorem idx0_10 : ∀ t : Fin cfg0.N, ∀ a : Fin 2, win0_10.index t a = 0 :=
  (by decide +kernel : ∀ t : Fin grid0.N, ∀ a : Fin 2, win0_10.index t a = 0)

theorem iblk0_10 (c : Dev nD) (t : Fin cfg0.N) : iblk0 V c 10 t = V c (Pipeline.arrRef spec0 10) := by
  unfold iblk0
  have hz' : (fun a => win0_10.index t a * main_v11.ty.shape.size a) = fun _ => 0 := funext fun a => by rw [idx0_10 t a, Nat.zero_mul]
  exact Memref.read_access_unit_zero (Elt F) main_v11 hz' (fun a => by rw [congrFun hz' a]; simp) _
theorem idx0_11 : ∀ t : Fin cfg0.N, ∀ a : Fin 2, win0_11.index t a = 0 :=
  (by decide +kernel : ∀ t : Fin grid0.N, ∀ a : Fin 2, win0_11.index t a = 0)

theorem iblk0_11 (c : Dev nD) (t : Fin cfg0.N) : iblk0 V c 11 t = V c (Pipeline.arrRef spec0 11) := by
  unfold iblk0
  have hz' : (fun a => win0_11.index t a * main_v19.ty.shape.size a) = fun _ => 0 := funext fun a => by rw [idx0_11 t a, Nat.zero_mul]
  exact Memref.read_access_unit_zero (Elt F) main_v19 hz' (fun a => by rw [congrFun hz' a]; simp) _
theorem idx0_12 : ∀ t : Fin cfg0.N, ∀ a : Fin 2, win0_12.index t a = 0 :=
  (by decide +kernel : ∀ t : Fin grid0.N, ∀ a : Fin 2, win0_12.index t a = 0)

theorem iblk0_12 (c : Dev nD) (t : Fin cfg0.N) : iblk0 V c 12 t = V c (Pipeline.arrRef spec0 12) := by
  unfold iblk0
  have hz' : (fun a => win0_12.index t a * main_v27.ty.shape.size a) = fun _ => 0 := funext fun a => by rw [idx0_12 t a, Nat.zero_mul]
  exact Memref.read_access_unit_zero (Elt F) main_v27 hz' (fun a => by rw [congrFun hz' a]; simp) _
theorem idx0_13 : ∀ t : Fin cfg0.N, ∀ a : Fin 2, win0_13.index t a = 0 :=
  (by decide +kernel : ∀ t : Fin grid0.N, ∀ a : Fin 2, win0_13.index t a = 0)

theorem iblk0_13 (c : Dev nD) (t : Fin cfg0.N) : iblk0 V c 13 t = V c (Pipeline.arrRef spec0 13) := by
  unfold iblk0
  have hz' : (fun a => win0_13.index t a * main_v35.ty.shape.size a) = fun _ => 0 := funext fun a => by rw [idx0_13 t a, Nat.zero_mul]
  exact Memref.read_access_unit_zero (Elt F) main_v35 hz' (fun a => by rw [congrFun hz' a]; simp) _
theorem idx0_14 : ∀ t : Fin cfg0.N, ∀ a : Fin 2, win0_14.index t a = 0 :=
  (by decide +kernel : ∀ t : Fin grid0.N, ∀ a : Fin 2, win0_14.index t a = 0)

theorem iblk0_14 (c : Dev nD) (t : Fin cfg0.N) : iblk0 V c 14 t = V c (Pipeline.arrRef spec0 14) := by
  unfold iblk0
  have hz' : (fun a => win0_14.index t a * main_v43.ty.shape.size a) = fun _ => 0 := funext fun a => by rw [idx0_14 t a, Nat.zero_mul]
  exact Memref.read_access_unit_zero (Elt F) main_v43 hz' (fun a => by rw [congrFun hz' a]; simp) _
theorem idx0_15 : ∀ t : Fin cfg0.N, ∀ a : Fin 2, win0_15.index t a = 0 :=
  (by decide +kernel : ∀ t : Fin grid0.N, ∀ a : Fin 2, win0_15.index t a = 0)

theorem iblk0_15 (c : Dev nD) (t : Fin cfg0.N) : iblk0 V c 15 t = V c (Pipeline.arrRef spec0 15) := by
  unfold iblk0
  have hz' : (fun a => win0_15.index t a * main_v51.ty.shape.size a) = fun _ => 0 := funext fun a => by rw [idx0_15 t a, Nat.zero_mul]
  exact Memref.read_access_unit_zero (Elt F) main_v51 hz' (fun a => by rw [congrFun hz' a]; simp) _
theorem idx0_16 : ∀ t : Fin cfg0.N, ∀ a : Fin 2, win0_16.index t a = 0 :=
  (by decide +kernel : ∀ t : Fin grid0.N, ∀ a : Fin 2, win0_16.index t a = 0)

theorem iblk0_16 (c : Dev nD) (t : Fin cfg0.N) : iblk0 V c 16 t = V c (Pipeline.arrRef spec0 16) := by
  unfold iblk0
  have hz' : (fun a => win0_16.index t a * main_v59.ty.shape.size a) = fun _ => 0 := funext fun a => by rw [idx0_16 t a, Nat.zero_mul]
  exact Memref.read_access_unit_zero (Elt F) main_v59 hz' (fun a => by rw [congrFun hz' a]; simp) _
theorem idx0_17 : ∀ t : Fin cfg0.N, ∀ a : Fin 2, win0_17.index t a = 0 :=
  (by decide +kernel : ∀ t : Fin grid0.N, ∀ a : Fin 2, win0_17.index t a = 0)

theorem iblk0_17 (c : Dev nD) (t : Fin cfg0.N) : iblk0 V c 17 t = V c (Pipeline.arrRef spec0 17) := by
  unfold iblk0
  have hz' : (fun a => win0_17.index t a * main_v67.ty.shape.size a) = fun _ => 0 := funext fun a => by rw [idx0_17 t a, Nat.zero_mul]
  exact Memref.read_access_unit_zero (Elt F) main_v67 hz' (fun a => by rw [congrFun hz' a]; simp) _
theorem idx0_18 : ∀ t : Fin cfg0.N, ∀ a : Fin 2, win0_18.index t a = 0 :=
  (by decide +kernel : ∀ t : Fin grid0.N, ∀ a : Fin 2, win0_18.index t a = 0)

theorem iblk0_18 (c : Dev nD) (t : Fin cfg0.N) : iblk0 V c 18 t = V c (Pipeline.arrRef spec0 18) := by
  unfold iblk0
  have hz' : (fun a => win0_18.index t a * main_v75.ty.shape.size a) = fun _ => 0 := funext fun a => by rw [idx0_18 t a, Nat.zero_mul]
  exact Memref.read_access_unit_zero (Elt F) main_v75 hz' (fun a => by rw [congrFun hz' a]; simp) _
theorem idx0_19 : ∀ t : Fin cfg0.N, ∀ a : Fin 2, win0_19.index t a = 0 :=
  (by decide +kernel : ∀ t : Fin grid0.N, ∀ a : Fin 2, win0_19.index t a = 0)

theorem iblk0_19 (c : Dev nD) (t : Fin cfg0.N) : iblk0 V c 19 t = V c (Pipeline.arrRef spec0 19) := by
  unfold iblk0
  have hz' : (fun a => win0_19.index t a * main_v83.ty.shape.size a) = fun _ => 0 := funext fun a => by rw [idx0_19 t a, Nat.zero_mul]
  exact Memref.read_access_unit_zero (Elt F) main_v83 hz' (fun a => by rw [congrFun hz' a]; simp) _
theorem idx0_20 : ∀ t : Fin cfg0.N, ∀ a : Fin 2, win0_20.index t a = 0 :=
  (by decide +kernel : ∀ t : Fin grid0.N, ∀ a : Fin 2, win0_20.index t a = 0)

theorem iblk0_20 (c : Dev nD) (t : Fin cfg0.N) : iblk0 V c 20 t = V c (Pipeline.arrRef spec0 20) := by
  unfold iblk0
  have hz' : (fun a => win0_20.index t a * main_v91.ty.shape.size a) = fun _ => 0 := funext fun a => by rw [idx0_20 t a, Nat.zero_mul]
  exact Memref.read_access_unit_zero (Elt F) main_v91 hz' (fun a => by rw [congrFun hz' a]; simp) _

end Blocks

end Cert.KernelIdeal.Hand

end
-- ==== Proof.KI.Rows0.lean ====
import proofs.«169142_g2000501041679005_pallasbulk_208_6_alg».proof.Proof.KI.Blk0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

section Rows

noncomputable def rowsOf (g : Fin cfg0.N → Vec F S1x1x1500 .f32) : Vec F S16x1x1500 .f32 :=
  fun i => g (pt0 (i 0)) (ix3 0 0 (i 2))

theorem rowsOf_apply (g : Fin cfg0.N → Vec F S1x1x1500 .f32) (u : Fin 16) (j : Fin 1500) :
    rowsOf g (ix3 u 0 j) = g (pt0 u) (ix3 0 0 j) := rfl

theorem idx0_21 : ∀ t : Fin cfg0.N, win0_21.index t 0 = t.val ∧ win0_21.index t 1 = 0 ∧ win0_21.index t 2 = 0 :=
  (by decide +kernel : ∀ t : Fin grid0.N, win0_21.index t 0 = t.val ∧ win0_21.index t 1 = 0 ∧ win0_21.index t 2 = 0)

theorem flushed0_21_rows {c : Dev nD} (dat : Dat τ (Elt F) Unit ℕ (UR sig nD τ) ℕ cfg0 c)
    (g : Fin cfg0.N → Vec F S1x1x1500 .f32) (hafter : ∀ t, dat.after 21 t = g t) (t : Fin cfg0.N) :
    dat.flushed 21 t = ((cfg0.win 21).blk t).view.read (Elt F) (rowsOf g) := by
  show (cfg0.win 21).cut (grid0.coords t) (dat.after 21 t) = _
  rw [hafter]
  obtain ⟨e0, e1, e2⟩ := idx0_21 t
  funext y
  rw [View.read_apply]
  show g t y = rowsOf g (((cfg0.win 21).blk t).view.emb y)
  have hp : pt0 ((((cfg0.win 21).blk t).view.emb y) 0) = t :=
    Fin.ext (by show win0_21.index t 0 * 1 + 1 * (y 0).val = t.val; have : (y 0).val < 1 := (y 0).isLt; omega)
  have hy : (ix3 0 0 ((((cfg0.win 21).blk t).view.emb y) 2) : S1x1x1500.Idx) = y := by
    funext d; apply Fin.ext
    match d with
    | ⟨0, _⟩ => show 0 = (y 0).val; have : (y 0).val < 1 := (y 0).isLt; omega
    | ⟨1, _⟩ => show 0 = (y 1).val; have : (y 1).val < 1 := (y 1).isLt; omega
    | ⟨2, _⟩ => show win0_21.index t 2 * 1500 + 1 * (y 2).val = (y 2).val; rw [e2]; omega
  unfold rowsOf
  rw [hp, hy]

theorem arr0_21_rows {c : Dev nD} (dat : Dat τ (Elt F) Unit ℕ (UR sig nD τ) ℕ cfg0 c)
    (g : Fin cfg0.N → Vec F S1x1x1500 .f32) (hafter : ∀ t, dat.after 21 t = g t) :
    dat.arrAt 21 cfg0.N = rowsOf g :=
  dat.arrAt_eq_of_cover 21 (rowsOf g) (fun t _ => flushed0_21_rows dat g hafter t) fun i =>
    ⟨pt0 (i 0), flush0_21 _, by
      obtain ⟨e0, e1, e2⟩ := idx0_21 (pt0 (i 0))
      show i ∈ ((View.whole main_v92_0).slice (win0_21.rect (pt0 (i 0)))).set
      rw [View.set_slice_whole, Rect.mem_set_unit]
      intro a
      have h1 : (i 1 : Nat) < 1 := (i 1).isLt
      have h2 : (i 2 : Nat) < 1500 := (i 2).isLt
      match a with
      | ⟨0, _⟩ => show win0_21.index (pt0 (i 0)) 0 * 1 ≤ (i 0 : Nat) ∧ (i 0 : Nat) < win0_21.index (pt0 (i 0)) 0 * 1 + 1
                  rw [e0]; show (i 0 : Nat) * 1 ≤ (i 0 : Nat) ∧ (i 0 : Nat) < (i 0 : Nat) * 1 + 1; omega
      | ⟨1, _⟩ => show win0_21.index (pt0 (i 0)) 1 * 1 ≤ (i 1 : Nat) ∧ (i 1 : Nat) < win0_21.index (pt0 (i 0)) 1 * 1 + 1
                  rw [e1]; omega
      | ⟨2, _⟩ => show win0_21.index (pt0 (i 0)) 2 * 1500 ≤ (i 2 : Nat) ∧ (i 2 : Nat) < win0_21.index (pt0 (i 0)) 2 * 1500 + 1500
                  rw [e2]; omega⟩

theorem idx0_22 : ∀ t : Fin cfg0.N, win0_22.index t 0 = t.val ∧ win0_22.index t 1 = 0 ∧ win0_22.index t 2 = 0 :=
  (by decide +kernel : ∀ t : Fin grid0.N, win0_22.index t 0 = t.val ∧ win0_22.index t 1 = 0 ∧ win0_22.index t 2 = 0)

theorem flushed0_22_rows {c : Dev nD} (dat : Dat τ (Elt F) Unit ℕ (UR sig nD τ) ℕ cfg0 c)
    (g : Fin cfg0.N → Vec F S1x1x1500 .f32) (hafter : ∀ t, dat.after 22 t = g t) (t : Fin cfg0.N) :
    dat.flushed 22 t = ((cfg0.win 22).blk t).view.read (Elt F) (rowsOf g) := by
  show (cfg0.win 22).cut (grid0.coords t) (dat.after 22 t) = _
  rw [hafter]
  obtain ⟨e0, e1, e2⟩ := idx0_22 t
  funext y
  rw [View.read_apply]
  show g t y = rowsOf g (((cfg0.win 22).blk t).view.emb y)
  have hp : pt0 ((((cfg0.win 22).blk t).view.emb y) 0) = t :=
    Fin.ext (by show win0_22.index t 0 * 1 + 1 * (y 0).val = t.val; have : (y 0).val < 1 := (y 0).isLt; omega)
  have hy : (ix3 0 0 ((((cfg0.win 22).blk t).view.emb y) 2) : S1x1x1500.Idx) = y := by
    funext d; apply Fin.ext
    match d with
    | ⟨0, _⟩ => show 0 = (y 0).val; have : (y 0).val < 1 := (y 0).isLt; omega
    | ⟨1, _⟩ => show 0 = (y 1).val; have : (y 1).val < 1 := (y 1).isLt; omega
    | ⟨2, _⟩ => show win0_22.index t 2 * 1500 + 1 * (y 2).val = (y 2).val; rw [e2]; omega
  unfold rowsOf
  rw [hp, hy]

theorem arr0_22_rows {c : Dev nD} (dat : Dat τ (Elt F) Unit ℕ (UR sig nD τ) ℕ cfg0 c)
    (g : Fin cfg0.N → Vec F S1x1x1500 .f32) (hafter : ∀ t, dat.after 22 t = g t) :
    dat.arrAt 22 cfg0.N = rowsOf g :=
  dat.arrAt_eq_of_cover 22 (rowsOf g) (fun t _ => flushed0_22_rows dat g hafter t) fun i =>
    ⟨pt0 (i 0), flush0_22 _, by
      obtain ⟨e0, e1, e2⟩ := idx0_22 (pt0 (i 0))
      show i ∈ ((View.whole main_v92_1).slice (win0_22.rect (pt0 (i 0)))).set
      rw [View.set_slice_whole, Rect.mem_set_unit]
      intro a
      have h1 : (i 1 : Nat) < 1 := (i 1).isLt
      have h2 : (i 2 : Nat) < 1500 := (i 2).isLt
      match a with
      | ⟨0, _⟩ => show win0_22.index (pt0 (i 0)) 0 * 1 ≤ (i 0 : Nat) ∧ (i 0 : Nat) < win0_22.index (pt0 (i 0)) 0 * 1 + 1
                  rw [e0]; show (i 0 : Nat) * 1 ≤ (i 0 : Nat) ∧ (i 0 : Nat) < (i 0 : Nat) * 1 + 1; omega
      | ⟨1, _⟩ => show win0_22.index (pt0 (i 0)) 1 * 1 ≤ (i 1 : Nat) ∧ (i 1 : Nat) < win0_22.index (pt0 (i 0)) 1 * 1 + 1
                  rw [e1]; omega
      | ⟨2, _⟩ => show win0_22.index (pt0 (i 0)) 2 * 1500 ≤ (i 2 : Nat) ∧ (i 2 : Nat) < win0_22.index (pt0 (i 0)) 2 * 1500 + 1500
                  rw [e2]; omega⟩

end Rows

end Cert.KernelIdeal.Hand

end
-- ==== Proof.KI.Arr0.lean ====
import proofs.«169142_g2000501041679005_pallasbulk_208_6_alg».proof.Proof.KI.Rows0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

section Arr
variable (V : (c : Dev nD) → (b : Ref sig .tc) → Buf (Elt F) ((c : Thread nD τ).loc b))

noncomputable abbrev row0_21 (c : Dev nD) (t : Fin cfg0.N) : Vec F S1x1x1500 .f32 :=
  out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)

noncomputable abbrev res0_21 (c : Dev nD) : Vec F S16x1x1500 .f32 := rowsOf (row0_21 V c)

theorem arr0_21 (c : Dev nD) : (dat0 V c).arrAt 21 cfg0.N = res0_21 V c :=
  arr0_21_rows (dat0 V c) (row0_21 V c) (after0_21 V c)

theorem out0_21_congr (x0 : Vec F S1x200x30 .f32) {x1 y1 : Vec F S150x512 .bf16} {x2 y2 : Vec F S512x512 .bf16} {x3 y3 : Vec F S1536x512 .bf16} {x4 y4 : Vec F S512x512 .bf16} {x5 y5 : Vec F S1536x512 .bf16} {x6 y6 : Vec F S512x512 .bf16} {x7 y7 : Vec F S1536x512 .bf16} {x8 y8 : Vec F S512x512 .bf16} {x9 y9 : Vec F S512x512 .bf16} {x10 y10 : Vec F S512x1500 .bf16} {x11 y11 : Vec F S3x512 .f32} {x12 y12 : Vec F S3x512 .f32} {x13 y13 : Vec F S3x512 .f32} {x14 y14 : Vec F S3x512 .f32} {x15 y15 : Vec F S3x512 .f32} {x16 y16 : Vec F S3x512 .f32} {x17 y17 : Vec F S3x512 .f32} {x18 y18 : Vec F S3x512 .f32} {x19 y19 : Vec F S3x512 .f32} {x20 y20 : Vec F S3x1500 .f32}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    out0_21 x0 x1 x2 x3 x4 x5 x6 x7 x8 x9 x10 x11 x12 x13 x14 x15 x16 x17 x18 x19 x20 = out0_21 x0 y1 y2 y3 y4 y5 y6 y7 y8 y9 y10 y11 y12 y13 y14 y15 y16 y17 y18 y19 y20 := by
  subst h1 h2 h3 h4 h5 h6 h7 h8 h9 h10 h11 h12 h13 h14 h15 h16 h17 h18 h19 h20
  rfl

set_option maxHeartbeats 2000000 in

theorem arr0_21_at (c : Dev nD) (u : Fin 16) (j : Fin 1500) :
    ((dat0 V c).arrAt 21 cfg0.N : Vec F S16x1x1500 .f32) (ix3 u 0 j)
      = out0_21 (iblk0 V c 0 (pt0 u)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19)) (V c (Pipeline.arrRef spec0 20)) (ix3 0 0 j) := by
  rw [arr0_21 V c]
  exact (rowsOf_apply (row0_21 V c) u j).trans
    (congrFun (out0_21_congr (iblk0 V c 0 (pt0 u)) (iblk0_1 V c (pt0 u)) (iblk0_2 V c (pt0 u)) (iblk0_3 V c (pt0 u)) (iblk0_4 V c (pt0 u)) (iblk0_5 V c (pt0 u)) (iblk0_6 V c (pt0 u)) (iblk0_7 V c (pt0 u)) (iblk0_8 V c (pt0 u)) (iblk0_9 V c (pt0 u)) (iblk0_10 V c (pt0 u)) (iblk0_11 V c (pt0 u)) (iblk0_12 V c (pt0 u)) (iblk0_13 V c (pt0 u)) (iblk0_14 V c (pt0 u)) (iblk0_15 V c (pt0 u)) (iblk0_16 V c (pt0 u)) (iblk0_17 V c (pt0 u)) (iblk0_18 V c (pt0 u)) (iblk0_19 V c (pt0 u)) (iblk0_20 V c (pt0 u))) (ix3 0 0 j))

noncomputable abbrev row0_22 (c : Dev nD) (t : Fin cfg0.N) : Vec F S1x1x1500 .f32 :=
  out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t)

noncomputable abbrev res0_22 (c : Dev nD) : Vec F S16x1x1500 .f32 := rowsOf (row0_22 V c)

theorem arr0_22 (c : Dev nD) : (dat0 V c).arrAt 22 cfg0.N = res0_22 V c :=
  arr0_22_rows (dat0 V c) (row0_22 V c) (after0_22 V c)

theorem out0_22_congr (x0 : Vec F S1x200x30 .f32) {x1 y1 : Vec F S150x512 .bf16} {x2 y2 : Vec F S512x512 .bf16} {x3 y3 : Vec F S1536x512 .bf16} {x4 y4 : Vec F S512x512 .bf16} {x5 y5 : Vec F S1536x512 .bf16} {x6 y6 : Vec F S512x512 .bf16} {x7 y7 : Vec F S1536x512 .bf16} {x8 y8 : Vec F S512x512 .bf16} {x9 y9 : Vec F S512x512 .bf16} {x10 y10 : Vec F S512x1500 .bf16} {x11 y11 : Vec F S3x512 .f32} {x12 y12 : Vec F S3x512 .f32} {x13 y13 : Vec F S3x512 .f32} {x14 y14 : Vec F S3x512 .f32} {x15 y15 : Vec F S3x512 .f32} {x16 y16 : Vec F S3x512 .f32} {x17 y17 : Vec F S3x512 .f32} {x18 y18 : Vec F S3x512 .f32} {x19 y19 : Vec F S3x512 .f32} {x20 y20 : Vec F S3x1500 .f32}
    (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) :
    out0_22 x0 x1 x2 x3 x4 x5 x6 x7 x8 x9 x10 x11 x12 x13 x14 x15 x16 x17 x18 x19 x20 = out0_22 x0 y1 y2 y3 y4 y5 y6 y7 y8 y9 y10 y11 y12 y13 y14 y15 y16 y17 y18 y19 y20 := by
  subst h1 h2 h3 h4 h5 h6 h7 h8 h9 h10 h11 h12 h13 h14 h15 h16 h17 h18 h19 h20
  rfl

set_option maxHeartbeats 2000000 in

theorem arr0_22_at (c : Dev nD) (u : Fin 16) (j : Fin 1500) :
    ((dat0 V c).arrAt 22 cfg0.N : Vec F S16x1x1500 .f32) (ix3 u 0 j)
      = out0_22 (iblk0 V c 0 (pt0 u)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19)) (V c (Pipeline.arrRef spec0 20)) (ix3 0 0 j) := by
  rw [arr0_22 V c]
  exact (rowsOf_apply (row0_22 V c) u j).trans
    (congrFun (out0_22_congr (iblk0 V c 0 (pt0 u)) (iblk0_1 V c (pt0 u)) (iblk0_2 V c (pt0 u)) (iblk0_3 V c (pt0 u)) (iblk0_4 V c (pt0 u)) (iblk0_5 V c (pt0 u)) (iblk0_6 V c (pt0 u)) (iblk0_7 V c (pt0 u)) (iblk0_8 V c (pt0 u)) (iblk0_9 V c (pt0 u)) (iblk0_10 V c (pt0 u)) (iblk0_11 V c (pt0 u)) (iblk0_12 V c (pt0 u)) (iblk0_13 V c (pt0 u)) (iblk0_14 V c (pt0 u)) (iblk0_15 V c (pt0 u)) (iblk0_16 V c (pt0 u)) (iblk0_17 V c (pt0 u)) (iblk0_18 V c (pt0 u)) (iblk0_19 V c (pt0 u)) (iblk0_20 V c (pt0 u))) (ix3 0 0 j))

end Arr

end Cert.KernelIdeal.Hand

end
-- ==== Proof.KI.Arr1.lean ====
import proofs.«169142_g2000501041679005_pallasbulk_208_6_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arr
variable (V : (c : Dev nD) → (b : Ref sig .tc) → Buf (Elt F) ((c : Thread nD τ).loc b))

theorem iblk1_0 (c : Dev nD) (t : Fin cfg1.N) : iblk1 V c 0 t = V c (Pipeline.arrRef spec1 0) := by
  obtain rfl := fin_N1 t
  unfold iblk1
  have hz' : (fun a => win1_0.index t1_0 a * main_v93.ty.shape.size a) = fun _ => 0 := funext fun a => by fin_cases a <;> decide
  exact Memref.read_access_unit_zero (Elt F) main_v93 hz' (fun a => by rw [congrFun hz' a]; simp) _

theorem iblk1_1 (c : Dev nD) (t : Fin cfg1.N) : iblk1 V c 1 t = V c (Pipeline.arrRef spec1 1) := by
  obtain rfl := fin_N1 t
  unfold iblk1
  have hz' : (fun a => win1_1.index t1_0 a * main_v94.ty.shape.size a) = fun _ => 0 := funext fun a => by fin_cases a <;> decide
  exact Memref.read_access_unit_zero (Elt F) main_v94 hz' (fun a => by rw [congrFun hz' a]; simp) _

theorem iblk1_2 (c : Dev nD) (t : Fin cfg1.N) : iblk1 V c 2 t = V c (Pipeline.arrRef spec1 2) := by
  obtain rfl := fin_N1 t
  unfold iblk1
  have hz' : (fun a => win1_2.index t1_0 a * main_v100.ty.shape.size a) = fun _ => 0 := funext fun a => by fin_cases a <;> decide
  exact Memref.read_access_unit_zero (Elt F) main_v100 hz' (fun a => by rw [congrFun hz' a]; simp) _

theorem iblk1_3 (c : Dev nD) (t : Fin cfg1.N) : iblk1 V c 3 t = V c (Pipeline.arrRef spec1 3) := by
  obtain rfl := fin_N1 t
  unfold iblk1
  have hz' : (fun a => win1_3.index t1_0 a * main_v101.ty.shape.size a) = fun _ => 0 := funext fun a => by fin_cases a <;> decide
  exact Memref.read_access_unit_zero (Elt F) main_v101 hz' (fun a => by rw [congrFun hz' a]; simp) _

theorem iblk1_4 (c : Dev nD) (t : Fin cfg1.N) : iblk1 V c 4 t = V c (Pipeline.arrRef spec1 4) := by
  obtain rfl := fin_N1 t
  unfold iblk1
  have hz' : (fun a => win1_4.index t1_0 a * main_v102.ty.shape.size a) = fun _ => 0 := funext fun a => by fin_cases a <;> decide
  exact Memref.read_access_unit_zero (Elt F) main_v102 hz' (fun a => by rw [congrFun hz' a]; simp) _

theorem iblk1_5 (c : Dev nD) (t : Fin cfg1.N) : iblk1 V c 5 t = V c (Pipeline.arrRef spec1 5) := by
  obtain rfl := fin_N1 t
  unfold iblk1
  have hz' : (fun a => win1_5.index t1_0 a * main_v103.ty.shape.size a) = fun _ => 0 := funext fun a => by fin_cases a <;> decide
  exact Memref.read_access_unit_zero (Elt F) main_v103 hz' (fun a => by rw [congrFun hz' a]; simp) _

theorem iblk1_6 (c : Dev nD) (t : Fin cfg1.N) : iblk1 V c 6 t = V c (Pipeline.arrRef spec1 6) := by
  obtain rfl := fin_N1 t
  unfold iblk1
  have hz' : (fun a => win1_6.index t1_0 a * main_v104.ty.shape.size a) = fun _ => 0 := funext fun a => by fin_cases a <;> decide
  exact Memref.read_access_unit_zero (Elt F) main_v104 hz' (fun a => by rw [congrFun hz' a]; simp) _

theorem iblk1_7 (c : Dev nD) (t : Fin cfg1.N) : iblk1 V c 7 t = V c (Pipeline.arrRef spec1 7) := by
  obtain rfl := fin_N1 t
  unfold iblk1
  have hz' : (fun a => win1_7.index t1_0 a * main_v105.ty.shape.size a) = fun _ => 0 := funext fun a => by fin_cases a <;> decide
  exact Memref.read_access_unit_zero (Elt F) main_v105 hz' (fun a => by rw [congrFun hz' a]; simp) _

theorem iblk1_8 (c : Dev nD) (t : Fin cfg1.N) : iblk1 V c 8 t = V c (Pipeline.arrRef spec1 8) := by
  obtain rfl := fin_N1 t
  unfold iblk1
  have hz' : (fun a => win1_8.index t1_0 a * main_v106.ty.shape.size a) = fun _ => 0 := funext fun a => by fin_cases a <;> decide
  exact Memref.read_access_unit_zero (Elt F) main_v106 hz' (fun a => by rw [congrFun hz' a]; simp) _

theorem iblk1_9 (c : Dev nD) (t : Fin cfg1.N) : iblk1 V c 9 t = V c (Pipeline.arrRef spec1 9) := by
  obtain rfl := fin_N1 t
  unfold iblk1
  have hz' : (fun a => win1_9.index t1_0 a * main_v99.ty.shape.size a) = fun _ => 0 := funext fun a => by fin_cases a <;> decide
  exact Memref.read_access_unit_zero (Elt F) main_v99 hz' (fun a => by rw [congrFun hz' a]; simp) _

abbrev res1 (c : Dev nD) : Vec F S8x1 .f32 :=
  out1_10 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9))

theorem flushed1_10 (c : Dev nD) (t : Fin cfg1.N) :
    (dat1 V c).flushed 10 t = ((cfg1.win 10).blk t).view.read (Elt F) (res1 V c) := by
  show (cfg1.win 10).cut (grid1.coords t) ((dat1 V c).after 10 t) = _
  rw [after1_10, iblk1_0, iblk1_1, iblk1_2, iblk1_3, iblk1_4, iblk1_5, iblk1_6, iblk1_7, iblk1_8, iblk1_9]
  obtain rfl := fin_N1 t
  have hz' : (fun a => win1_10.index t1_0 a * main_v107.ty.shape.size a) = fun _ => 0 := funext fun a => by fin_cases a <;> decide
  exact (Memref.read_access_unit_zero (Elt F) main_v107 hz' (fun a => by rw [congrFun hz' a]; simp) (res1 V c)).symm

theorem arr1_10 (c : Dev nD) : (dat1 V c).arrAt 10 cfg1.N = res1 V c :=
  (dat1 V c).arrAt_eq_of_cover 10 (res1 V c) (fun t _ => flushed1_10 V c t) fun i =>
    ⟨t1_0, flush1_10 t1_0, by
      show i ∈ ((View.whole main_v107).slice (win1_10.rect t1_0)).set
      rw [View.set_slice_whole, Rect.mem_set_unit]
      intro a
      have h0 : (i 0 : Nat) < 8 := (i 0).isLt
      have h1 : (i 1 : Nat) < 1 := (i 1).isLt
      match a with
      | ⟨0, _⟩ => show win1_10.index t1_0 0 * win1_10.size 0 ≤ (i 0 : Nat) ∧ (i 0 : Nat) < win1_10.index t1_0 0 * win1_10.size 0 + win1_10.xsize (grid1.coords t1_0) 0
                  rw [show win1_10.index t1_0 0 * win1_10.size 0 = 0 from by decide +kernel, show win1_10.xsize (grid1.coords t1_0) 0 = 8 from by decide +kernel]; omega
      | ⟨1, _⟩ => show win1_10.index t1_0 1 * win1_10.size 1 ≤ (i 1 : Nat) ∧ (i 1 : Nat) < win1_10.index t1_0 1 * win1_10.size 1 + win1_10.xsize (grid1.coords t1_0) 1
                  rw [show win1_10.index t1_0 1 * win1_10.size 1 = 0 from by decide +kernel, show win1_10.xsize (grid1.coords t1_0) 1 = 1 from by decide +kernel]; omega⟩

end Arr

end Cert.KernelIdeal.Hand

end
-- ==== Proof.KI.Value.lean ====
import proofs.«169142_g2000501041679005_pallasbulk_208_6_alg».proof.Proof.KI.ValueTrunk
import proofs.«169142_g2000501041679005_pallasbulk_208_6_alg».proof.Proof.KI.Arr0
import proofs.«169142_g2000501041679005_pallasbulk_208_6_alg».proof.Proof.KI.Arr1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem xblock_eq (c : Dev nD) (u : Fin 16) :
    (iblk0 (V1 m ρ) c 0 (pt0 u) : Vec Ideal S1x200x30 .f32)
      = fun y => (V1 m ρ c main_v1 : Vec Ideal S16x200x30 .f32) (ix3 u (y 1) (y 2)) := by
  funext y
  obtain ⟨a0, a, f, rfl⟩ : ∃ (a0 : Fin 1) (a : Fin 200) (f : Fin 30), y = ix3 a0 a f := ⟨y 0, y 1, y 2, eq_ix3 y⟩
  obtain rfl : a0 = 0 := Subsingleton.elim _ _
  exact iblk0_0_apply (V1 m ρ) c u a f

theorem score_eq (c : Dev nD) (n : Fin 8) :
    (W5 m ρ c (Proc.devRef .tc main_v108) : Vec Ideal S8 .f32) (ix1 n)
      = out1_10 (V3 m ρ c main_v93) (V3 m ρ c main_v94) (V3 m ρ c main_v100) (V3 m ρ c main_v101) (V3 m ρ c main_v102)
          (V3 m ρ c main_v103) (V3 m ρ c main_v104) (V3 m ρ c main_v105) (V3 m ρ c main_v106) (V3 m ρ c main_v99)
          (ix2 n (0 : Fin 1)) := by
  have h1 : (W5 m ρ c (Proc.devRef .tc main_v108) : Vec Ideal S8 .f32)
      = shapeCast S8 (W4 m ρ c (Proc.devRef .tc main_v107) : Vec Ideal S8x1 .f32) shapeCasts_S8x1_S8 := host2_out (W4 m ρ c)
  have h2 : (W4 m ρ c (Proc.devRef .tc main_v107) : Vec Ideal S8x1 .f32) = res1 (V3 m ρ) c :=
    (W4_arr m ρ c 10).trans (arr1_10 (V3 m ρ) c)
  rw [h1, drop_unit_8, h2]

theorem pooled_mean_eq (c : Dev nD) (u : Fin 16) (j : Fin 1500) :
    (V3 m ρ c main_v93 : Vec Ideal S16x1500 .f32) (ix2 u j)
      = out0_21 (fun y => (V1 m ρ c main_v1 : Vec Ideal S16x200x30 .f32) (ix3 u (y 1) (y 2)))
          (V1 m ρ c main_v2) (V1 m ρ c main_v3) (V1 m ρ c main_v4) (V1 m ρ c main_v5) (V1 m ρ c main_v6)
          (V1 m ρ c main_v7) (V1 m ρ c main_v8) (V1 m ρ c main_v9) (V1 m ρ c main_v10) (V1 m ρ c main_v11)
          (V1 m ρ c main_v19) (V1 m ρ c main_v27) (V1 m ρ c main_v35) (V1 m ρ c main_v43) (V1 m ρ c main_v51)
          (V1 m ρ c main_v59) (V1 m ρ c main_v67) (V1 m ρ c main_v75) (V1 m ρ c main_v83) (V1 m ρ c main_v91)
          (ix3 (0 : Fin 1) (0 : Fin 1) j) := by
  have h1 : (V3 m ρ c main_v93 : Vec Ideal S16x1500 .f32)
      = shapeCast S16x1500 (W2 m ρ c (Proc.devRef .tc main_v92_0) : Vec Ideal S16x1x1500 .f32) shapeCasts_S16x1x1500_S16x1500 :=
    host1_mean (W2 m ρ c)
  have h2 : (W2 m ρ c (Proc.devRef .tc main_v92_0) : Vec Ideal S16x1x1500 .f32) = (dat0 (V1 m ρ) c).arrAt 21 cfg0.N :=
    W2_arr m ρ c 21
  rw [h1, drop_unit_16x1500, h2, arr0_21_at, xblock_eq]
  rfl

theorem pooled_std_eq (c : Dev nD) (u : Fin 16) (j : Fin 1500) :
    (V3 m ρ c main_v94 : Vec Ideal S16x1500 .f32) (ix2 u j)
      = out0_22 (fun y => (V1 m ρ c main_v1 : Vec Ideal S16x200x30 .f32) (ix3 u (y 1) (y 2)))
          (V1 m ρ c main_v2) (V1 m ρ c main_v3) (V1 m ρ c main_v4) (V1 m ρ c main_v5) (V1 m ρ c main_v6)
          (V1 m ρ c main_v7) (V1 m ρ c main_v8) (V1 m ρ c main_v9) (V1 m ρ c main_v10) (V1 m ρ c main_v11)
          (V1 m ρ c main_v19) (V1 m ρ c main_v27) (V1 m ρ c main_v35) (V1 m ρ c main_v43) (V1 m ρ c main_v51)
          (V1 m ρ c main_v59) (V1 m ρ c main_v67) (V1 m ρ c main_v75) (V1 m ρ c main_v83) (V1 m ρ c main_v91)
          (ix3 (0 : Fin 1) (0 : Fin 1) j) := by
  have h1 : (V3 m ρ c main_v94 : Vec Ideal S16x1500 .f32)
      = shapeCast S16x1500 (W2 m ρ c (Proc.devRef .tc main_v92_1) : Vec Ideal S16x1x1500 .f32) shapeCasts_S16x1x1500_S16x1500 :=
    host1_std (W2 m ρ c)
  have h2 : (W2 m ρ c (Proc.devRef .tc main_v92_1) : Vec Ideal S16x1x1500 .f32) = (dat0 (V1 m ρ) c).arrAt 22 cfg0.N :=
    W2_arr m ρ c 22
  rw [h1, drop_unit_16x1500, h2, arr0_22_at, xblock_eq]
  rfl

end Cert.KernelIdeal.Hand

end
-- ==== Proof.KI.ValueHead.lean ====
import proofs.«169142_g2000501041679005_pallasbulk_208_6_alg».proof.Proof.KI.ValueTrunk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem w11a_eq (c : Dev nD) (a : Fin 1500) (j : Fin 512) :
    (V3 m ρ c main_v100 : Vec Ideal S1500x512 .bf16) (ix2 a j)
      = (m ((c : Thread nD τ).loc main_arg42) : Vec Ideal S3000x512 .f32) (ix2 (⟨a.val, by have := a.isLt; omega⟩ : Fin 3000) j) :=
  (congrFun (host1_w11a (W2 m ρ c)) (ix2 a j)).trans ((half_upper _ a j).trans (congrFun (arg_kept m ρ c main_arg42 (by decide)).1 _))

theorem w11b_eq (c : Dev nD) (a : Fin 1500) (j : Fin 512) :
    (V3 m ρ c main_v101 : Vec Ideal S1500x512 .bf16) (ix2 a j)
      = (m ((c : Thread nD τ).loc main_arg42) : Vec Ideal S3000x512 .f32) (ix2 (⟨a.val + 1500, by have := a.isLt; omega⟩ : Fin 3000) j) :=
  (congrFun (host1_w11b (W2 m ρ c)) (ix2 a j)).trans ((half_lower _ a j).trans (congrFun (arg_kept m ρ c main_arg42 (by decide)).1 _))

theorem b11_eq (c : Dev nD) (j : Fin 512) :
    (V3 m ρ c main_v102 : Vec Ideal S1x512 .f32) (ix2 (0 : Fin 1) j) = (m ((c : Thread nD τ).loc main_arg43) : Vec Ideal S512 .f32) (ix1 j) := by
  have h : (V3 m ρ c main_v102 : Vec Ideal S1x512 .f32)
      = shapeCast S1x512 (W2 m ρ c (Proc.devRef .tc main_arg43) : Vec Ideal S512 .f32) shapeCasts_S512_S1x512 := host1_b11 (W2 m ρ c)
  rw [h, add_unit_512]
  exact congrFun (arg_kept m ρ c main_arg43 (by decide)).1 _

theorem wlda_eq (c : Dev nD) (i : S512x128.Idx) :
    (V3 m ρ c main_v103 : Vec Ideal S512x128 .bf16) i = (m ((c : Thread nD τ).loc main_arg44) : Vec Ideal S512x128 .f32) i :=
  (congrFun (host1_wlda (W2 m ρ c)) i).trans (congrFun (arg_kept m ρ c main_arg44 (by decide)).1 i)

theorem blda_eq (c : Dev nD) (j : Fin 128) :
    (V3 m ρ c main_v104 : Vec Ideal S1x128 .f32) (ix2 (0 : Fin 1) j) = (m ((c : Thread nD τ).loc main_arg45) : Vec Ideal S128 .f32) (ix1 j) := by
  have h : (V3 m ρ c main_v104 : Vec Ideal S1x128 .f32)
      = shapeCast S1x128 (W2 m ρ c (Proc.devRef .tc main_arg45) : Vec Ideal S128 .f32) shapeCasts_S128_S1x128 := host1_blda (W2 m ρ c)
  rw [h, add_unit_128]
  exact congrFun (arg_kept m ρ c main_arg45 (by decide)).1 _

theorem wplda_eq (c : Dev nD) (i : S128x128.Idx) :
    (V3 m ρ c main_v105 : Vec Ideal S128x128 .bf16) i = (m ((c : Thread nD τ).loc main_arg46) : Vec Ideal S128x128 .f32) i :=
  (congrFun (host1_wplda (W2 m ρ c)) i).trans (congrFun (arg_kept m ρ c main_arg46 (by decide)).1 i)

theorem bplda_eq (c : Dev nD) (j : Fin 128) :
    (V3 m ρ c main_v106 : Vec Ideal S1x128 .f32) (ix2 (0 : Fin 1) j) = (m ((c : Thread nD τ).loc main_arg47) : Vec Ideal S128 .f32) (ix1 j) := by
  have h : (V3 m ρ c main_v106 : Vec Ideal S1x128 .f32)
      = shapeCast S1x128 (W2 m ρ c (Proc.devRef .tc main_arg47) : Vec Ideal S128 .f32) shapeCasts_S128_S1x128 := host1_bplda (W2 m ρ c)
  rw [h, add_unit_128]
  exact congrFun (arg_kept m ρ c main_arg47 (by decide)).1 _

theorem pq_p (c : Dev nD) (j : Fin 128) :
    (V3 m ρ c main_v99 : Vec Ideal S2x128 .f32) (ix2 (0 : Fin 2) j)
      = vec S128 .f32 (m ((c : Thread nD τ).loc main_arg48)) (ix1 j) * vec S128 .f32 (m ((c : Thread nD τ).loc main_arg48)) (ix1 j) :=
  (congrFun (host1_pq (W2 m ρ c)) (ix2 (0 : Fin 2) j)).trans ((pqRows_p_real _ _ j).trans
    (congrArg₂ (· * ·) (congrFun (arg_kept m ρ c main_arg48 (by decide)).1 (ix1 j)) (congrFun (arg_kept m ρ c main_arg48 (by decide)).1 (ix1 j))))

theorem pq_q (c : Dev nD) (j : Fin 128) :
    (V3 m ρ c main_v99 : Vec Ideal S2x128 .f32) (ix2 (1 : Fin 2) j) = (m ((c : Thread nD τ).loc main_arg49) : Vec Ideal S128 .f32) (ix1 j) :=
  (congrFun (host1_pq (W2 m ρ c)) (ix2 (1 : Fin 2) j)).trans ((pqRows_q _ _ j).trans (congrFun (arg_kept m ρ c main_arg49 (by decide)).1 (ix1 j)))

end Cert.KernelIdeal.Hand

end
-- ==== Proof.Math.HeadSpec.lean ====
import Idealize.ShloMosaic.Lib.ValueLayout
import Idealize.ShloMosaic.PureOps.Ideal.Laws

noncomputable section

open scoped BigOperators

namespace Cert.Math.Head

open Idealize.ShloMosaic Idealize.ShloMosaic.ValueIdx

theorem matmul_plain_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c; apply Fin.ext
  match c with
  | ⟨0, _⟩ => rfl
  | ⟨1, _⟩ => rfl

theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c; apply Fin.ext
  match c with
  | ⟨0, _⟩ => rfl
  | ⟨1, _⟩ => rfl

theorem rsqrt_apply {s : Shape} {φ : FTy} (x : FVec Ideal s φ) (i : s.Idx) : rsqrt x i = Ideal.rsqrt (x i) := rfl

def aff {m k n : ℕ} (X : Fin m → Fin k → EReal) (W : Fin k → Fin n → EReal) (b : Fin n → EReal)
    (u : Fin m) (c : Fin n) : EReal := (∑ a, X u a * W a c) + b c

def xvec {m d n : ℕ} (M S : Fin m → Fin d → EReal) (Wa Wb : Fin d → Fin n → EReal) (b : Fin n → EReal)
    (u : Fin m) (k : Fin n) : EReal := (∑ j, M u j * Wa j k) + (∑ j, S u j * Wb j k) + b k

def unitRow {m n : ℕ} (Y : Fin m → Fin n → EReal) (ε : EReal) (u : Fin m) (a : Fin n) : EReal :=
  Y u a * Ideal.rsqrt (max (∑ a', Y u a' * Y u a') ε)

abbrev lo (n : Fin 8) : Fin 16 := ⟨0 + n.val, by omega⟩
abbrev hi (n : Fin 8) : Fin 16 := ⟨8 + n.val, by omega⟩

def scoreA (Z : Fin 16 → Fin 128 → EReal) (two : EReal) (P Q : Fin 128 → EReal) (n : Fin 8) : EReal :=
  ∑ c, (Z (lo n) c * Z (lo n) c * Q c + Z (hi n) c * Z (hi n) c * Q c + two * Z (lo n) c * Z (hi n) c * P c)

def scoreB (Z : Fin 16 → Fin 128 → EReal) (two : EReal) (P Q : Fin 128 → EReal) (n : Fin 8) : EReal :=
  ∑ c, (Z (lo n) c * Q c * Z (lo n) c + Z (hi n) c * Q c * Z (hi n) c + two * Z (lo n) c * P c * Z (hi n) c)

theorem scoreA_eq_scoreB (Z : Fin 16 → Fin 128 → EReal) (two : EReal) (P Q : Fin 128 → EReal) (n : Fin 8) :
    scoreA Z two P Q n = scoreB Z two P Q n := by
  unfold scoreA scoreB
  refine Finset.sum_congr rfl fun c _ => ?_
  rw [mul_right_comm (Z (lo n) c) (Z (lo n) c) (Q c), mul_right_comm (Z (hi n) c) (Z (hi n) c) (Q c),
    mul_right_comm (two * Z (lo n) c) (Z (hi n) c) (P c)]

theorem aff_congr {m k n : ℕ} {X X' : Fin m → Fin k → EReal} {W W' : Fin k → Fin n → EReal} {b b' : Fin n → EReal}
    (hX : ∀ u a, X u a = X' u a) (hW : ∀ a c, W a c = W' a c) (hb : ∀ c, b c = b' c) (u : Fin m) (c : Fin n) :
    aff X W b u c = aff X' W' b' u c := by
  unfold aff
  rw [hb c]
  exact congrArg (· + b' c) (Finset.sum_congr rfl fun a _ => by rw [hX u a, hW a c])

theorem xvec_congr {m d n : ℕ} {M M' S S' : Fin m → Fin d → EReal} {Wa Wa' Wb Wb' : Fin d → Fin n → EReal}
    {b b' : Fin n → EReal} (hM : ∀ u j, M u j = M' u j) (hS : ∀ u j, S u j = S' u j)
    (hWa : ∀ j k, Wa j k = Wa' j k) (hWb : ∀ j k, Wb j k = Wb' j k) (hb : ∀ k, b k = b' k) (u : Fin m) (k : Fin n) :
    xvec M S Wa Wb b u k = xvec M' S' Wa' Wb' b' u k := by
  unfold xvec
  have e1 : (∑ j, M u j * Wa j k) = ∑ j, M' u j * Wa' j k := Finset.sum_congr rfl fun j _ => by rw [hM u j, hWa j k]
  have e2 : (∑ j, S u j * Wb j k) = ∑ j, S' u j * Wb' j k := Finset.sum_congr rfl fun j _ => by rw [hS u j, hWb j k]
  rw [e1, e2, hb k]

theorem unitRow_congr {m n : ℕ} {Y Y' : Fin m → Fin n → EReal} (ε : EReal) (hY : ∀ u a, Y u a = Y' u a)
    (u : Fin m) (a : Fin n) : unitRow Y ε u a = unitRow Y' ε u a := by
  unfold unitRow
  have e1 : (∑ a', Y u a' * Y u a') = ∑ a', Y' u a' * Y' u a' := Finset.sum_congr rfl fun a' _ => by rw [hY u a']
  rw [hY u a, e1]

theorem scoreB_congr {Z Z' : Fin 16 → Fin 128 → EReal} (two : EReal) {P P' Q Q' : Fin 128 → EReal}
    (hZ : ∀ u c, Z u c = Z' u c) (hP : ∀ c, P c = P' c) (hQ : ∀ c, Q c = Q' c) (n : Fin 8) :
    scoreB Z two P Q n = scoreB Z' two P' Q' n := by
  unfold scoreB
  exact Finset.sum_congr rfl fun c _ => by rw [hZ (lo n) c, hZ (hi n) c, hP c, hQ c]

def headZ (M S : Fin 16 → Fin 1500 → EReal) (Wa Wb : Fin 1500 → Fin 512 → EReal) (b11 : Fin 512 → EReal)
    (Wl : Fin 512 → Fin 128 → EReal) (bl : Fin 128 → EReal) (ε : EReal) (Wp : Fin 128 → Fin 128 → EReal)
    (bp : Fin 128 → EReal) : Fin 16 → Fin 128 → EReal :=
  aff (unitRow (aff (xvec M S Wa Wb b11) Wl bl) ε) Wp bp

theorem headZ_congr {M M' S S' : Fin 16 → Fin 1500 → EReal} {Wa Wa' Wb Wb' : Fin 1500 → Fin 512 → EReal}
    {b11 b11' : Fin 512 → EReal} {Wl Wl' : Fin 512 → Fin 128 → EReal} {bl bl' : Fin 128 → EReal} (ε : EReal)
    {Wp Wp' : Fin 128 → Fin 128 → EReal} {bp bp' : Fin 128 → EReal}
    (hM : ∀ u j, M u j = M' u j) (hS : ∀ u j, S u j = S' u j) (hWa : ∀ j k, Wa j k = Wa' j k)
    (hWb : ∀ j k, Wb j k = Wb' j k) (hb11 : ∀ k, b11 k = b11' k) (hWl : ∀ k a, Wl k a = Wl' k a)
    (hbl : ∀ a, bl a = bl' a) (hWp : ∀ a c, Wp a c = Wp' a c) (hbp : ∀ c, bp c = bp' c) (u : Fin 16) (c : Fin 128) :
    headZ M S Wa Wb b11 Wl bl ε Wp bp u c = headZ M' S' Wa' Wb' b11' Wl' bl' ε Wp' bp' u c :=
  aff_congr (unitRow_congr ε (aff_congr (xvec_congr hM hS hWa hWb hb11) hWl hbl)) hWp hbp u c

end Cert.Math.Head

end
-- ==== Proof.Math.Head.lean ====
import proofs.«169142_g2000501041679005_pallasbulk_208_6_alg».proof.Proof.Gen.KernelIdeal.Skeleton
import proofs.«169142_g2000501041679005_pallasbulk_208_6_alg».proof.Proof.Math.HeadSpec

noncomputable section

open scoped BigOperators

namespace Cert.Math.Head

open Idealize.ShloMosaic Idealize.ShloMosaic.ValueIdx
open Cert.KernelIdeal Cert.KernelIdeal.Gen

theorem mm1500 {φ₁ φ₂ : FTy} (A : FVec Ideal S16x1500 φ₁) (B : FVec Ideal S1500x512 φ₂) (u : Fin 16) (k : Fin 512) :
    matmul dot_S16x1500_S1500x512_S16x512_1_0_0_1_n_n none A B (constant S16x512 .f32 0x00000000#32) (ix2 u k)
      = ∑ j, A (ix2 u j) * B (ix2 j k) :=
  matmul_plain_apply dot_S16x1500_S1500x512_S16x512_1_0_0_1_n_n_wf none A B u k

theorem mm512 {φ₁ φ₂ : FTy} (A : FVec Ideal S16x512 φ₁) (B : FVec Ideal S512x128 φ₂) (u : Fin 16) (a : Fin 128) :
    matmul dot_S16x512_S512x128_S16x128_1_0_0_1_n_n none A B (constant S16x128 .f32 0x00000000#32) (ix2 u a)
      = ∑ k, A (ix2 u k) * B (ix2 k a) :=
  matmul_plain_apply dot_S16x512_S512x128_S16x128_1_0_0_1_n_n_wf none A B u a

theorem mm128 {φ₁ φ₂ : FTy} (A : FVec Ideal S16x128 φ₁) (B : FVec Ideal S128x128 φ₂) (u : Fin 16) (c : Fin 128) :
    matmul dot_S16x128_S128x128_S16x128_1_0_0_1_n_n none A B (constant S16x128 .f32 0x00000000#32) (ix2 u c)
      = ∑ a, A (ix2 u a) * B (ix2 a c) :=
  matmul_plain_apply dot_S16x128_S128x128_S16x128_1_0_0_1_n_n_wf none A B u c

theorem lin11_apply (m s : FVec Ideal S16x1500 .f32) (wa wb : FVec Ideal S1500x512 .bf16) (b : FVec Ideal S1x512 .f32)
    (h : FTy.bf16.bits < FTy.f32.bits) (u : Fin 16) (k : Fin 512) :
    addf (addf (matmul dot_S16x1500_S1500x512_S16x512_1_0_0_1_n_n none (truncf .bf16 m h) wa
            (constant S16x512 .f32 0x00000000#32))
          (matmul dot_S16x1500_S1500x512_S16x512_1_0_0_1_n_n none (truncf .bf16 s h) wb
            (constant S16x512 .f32 0x00000000#32)))
        (broadcastTo S16x512 b broadcasts_S1x512_S16x512) (ix2 u k)
      = xvec (fun u j => m (ix2 u j)) (fun u j => s (ix2 u j)) (fun j k => wa (ix2 j k)) (fun j k => wb (ix2 j k))
          (fun k => b (ix2 (0 : Fin 1) k)) u k := by
  rw [addf_apply, addf_apply, mm1500, mm1500, broadcastTo_1b_ab_apply]
  rfl

theorem lda_apply (X : FVec Ideal S16x512 .f32) (W : FVec Ideal S512x128 .bf16) (b : FVec Ideal S1x128 .f32)
    (h : FTy.bf16.bits < FTy.f32.bits) (u : Fin 16) (a : Fin 128) :
    addf (matmul dot_S16x512_S512x128_S16x128_1_0_0_1_n_n none (truncf .bf16 X h) W
          (constant S16x128 .f32 0x00000000#32))
        (broadcastTo S16x128 b broadcasts_S1x128_S16x128) (ix2 u a)
      = aff (fun u k => X (ix2 u k)) (fun k a => W (ix2 k a)) (fun a => b (ix2 (0 : Fin 1) a)) u a := by
  rw [addf_apply, mm512, broadcastTo_1b_ab_apply]
  rfl

theorem unit_apply (Y : FVec Ideal S16x128 .f32) (hφ : FKind.Formats .f32)
    (hacc : (0x00000000#32 : BitVec 32) = 0x00000000#32) (ε : Ideal .f32) (u : Fin 16) (a : Fin 128) :
    mulf Y (broadcastTo S16x128 (rsqrt (maximumf (shapeCast S16x1
        (multiReduction .add [1] S16 (mulf Y Y) 0x00000000#32 reduces_S16x128_S16 hφ hacc) shapeCasts_S16_S16x1)
        (broadcast S16x1 ε))) broadcasts_S16x1_S16x128) (ix2 u a)
      = unitRow (fun u a => Y (ix2 u a)) ε u a := by
  rw [mulf_apply, broadcastTo_a1_ab_apply, rsqrt_apply, maximumf_apply, shapeCast_a_a1_apply, rowSum_apply,
    broadcast_apply]
  rfl

theorem score_apply (Z : FVec Ideal S16x128 .f32) (p q : FVec Ideal S1x128 .f32) (two : Ideal .f32)
    (hφ : FKind.Formats .f32) (hacc : (0x00000000#32 : BitVec 32) = 0x00000000#32) (n : Fin 8) :
    shapeCast S8x1 (multiReduction .add [1] S8
      (addf (addf
          (mulf (mulf (extractStridedSlice S8x128 ![0, 0] Z slices_S16x128_o0_0_S8x128)
              (extractStridedSlice S8x128 ![0, 0] Z slices_S16x128_o0_0_S8x128))
            (broadcastTo S8x128 q broadcasts_S1x128_S8x128))
          (mulf (mulf (extractStridedSlice S8x128 ![8, 0] Z slices_S16x128_o8_0_S8x128)
              (extractStridedSlice S8x128 ![8, 0] Z slices_S16x128_o8_0_S8x128))
            (broadcastTo S8x128 q broadcasts_S1x128_S8x128)))
        (mulf (mulf (mulf (broadcast S8x128 two) (extractStridedSlice S8x128 ![0, 0] Z slices_S16x128_o0_0_S8x128))
            (extractStridedSlice S8x128 ![8, 0] Z slices_S16x128_o8_0_S8x128))
          (broadcastTo S8x128 p broadcasts_S1x128_S8x128)))
      0x00000000#32 reduces_S8x128_S8 hφ hacc) shapeCasts_S8_S8x1 (ix2 n (0 : Fin 1))
      = scoreA (fun u c => Z (ix2 u c)) two (fun c => p (ix2 (0 : Fin 1) c)) (fun c => q (ix2 (0 : Fin 1) c)) n := by
  rw [shapeCast_a_a1_apply, rowSum_apply]
  unfold scoreA
  refine Finset.sum_congr rfl fun c _ => ?_
  simp only [addf_apply, mulf_apply, broadcast_apply, broadcastTo_1b_ab_apply, slice2_axis0_eq]

theorem k1_pay2_apply (x0 x1 : FVec Ideal S16x1500 .f32) (x2 x3 : FVec Ideal S1500x512 .bf16)
    (x4 : FVec Ideal S1x512 .f32) (x5 : FVec Ideal S512x128 .bf16) (x6 : FVec Ideal S1x128 .f32)
    (x7 : FVec Ideal S128x128 .bf16) (u : Fin 16) (c : Fin 128) :
    k1_pay2 (F := Ideal) x0 x1 x2 x3 x4 x5 x6 x7 (ix2 u c)
      = ∑ a, unitRow (aff (xvec (fun u j => x0 (ix2 u j)) (fun u j => x1 (ix2 u j)) (fun j k => x2 (ix2 j k))
            (fun j k => x3 (ix2 j k)) (fun k => x4 (ix2 (0 : Fin 1) k))) (fun k a => x5 (ix2 k a))
            (fun a => x6 (ix2 (0 : Fin 1) a))) (Scalar.ofBits (F := Ideal) .f32 0x179ABE15#32) u a * x7 (ix2 a c) := by
  unfold k1_pay2
  simp only [shapeCast_self]
  rw [mm128]
  refine Finset.sum_congr rfl fun a _ => ?_
  rw [truncf_apply, unit_apply]
  exact congrArg (· * x7 (ix2 a c)) (unitRow_congr _ (fun u a => (lda_apply _ x5 x6 _ u a).trans
    (aff_congr (fun u k => lin11_apply x0 x1 x2 x3 x4 _ u k) (fun _ _ => rfl) (fun _ => rfl) u a)) u a)

theorem kernel_head (x0 x1 : FVec Ideal S16x1500 .f32) (x2 x3 : FVec Ideal S1500x512 .bf16)
    (x4 : FVec Ideal S1x512 .f32) (x5 : FVec Ideal S512x128 .bf16) (x6 : FVec Ideal S1x128 .f32)
    (x7 : FVec Ideal S128x128 .bf16) (x8 p q : FVec Ideal S1x128 .f32) (n : Fin 8) :
    k1_pay1 (F := Ideal) (k1_pay2 x0 x1 x2 x3 x4 x5 x6 x7) x8 p q (ix2 n (0 : Fin 1))
      = scoreA (headZ (fun u j => x0 (ix2 u j)) (fun u j => x1 (ix2 u j)) (fun j k => x2 (ix2 j k))
            (fun j k => x3 (ix2 j k)) (fun k => x4 (ix2 (0 : Fin 1) k)) (fun k a => x5 (ix2 k a))
            (fun a => x6 (ix2 (0 : Fin 1) a)) (Scalar.ofBits (F := Ideal) .f32 0x179ABE15#32)
            (fun a c => x7 (ix2 a c)) (fun c => x8 (ix2 (0 : Fin 1) c)))
          (Scalar.ofBits (F := Ideal) .f32 0x40000000#32) (fun c => p (ix2 (0 : Fin 1) c))
          (fun c => q (ix2 (0 : Fin 1) c)) n := by
  unfold k1_pay1
  simp only [shapeCast_self]
  rw [score_apply]
  unfold scoreA
  refine Finset.sum_congr rfl fun c _ => ?_
  have hZ : ∀ u : Fin 16, addf (k1_pay2 (F := Ideal) x0 x1 x2 x3 x4 x5 x6 x7)
      (broadcastTo S16x128 x8 broadcasts_S1x128_S16x128) (ix2 u c)
        = headZ (fun u j => x0 (ix2 u j)) (fun u j => x1 (ix2 u j)) (fun j k => x2 (ix2 j k))
            (fun j k => x3 (ix2 j k)) (fun k => x4 (ix2 (0 : Fin 1) k)) (fun k a => x5 (ix2 k a))
            (fun a => x6 (ix2 (0 : Fin 1) a)) (Scalar.ofBits (F := Ideal) .f32 0x179ABE15#32)
            (fun a c => x7 (ix2 a c)) (fun c => x8 (ix2 (0 : Fin 1) c)) u c := fun u => by
    rw [addf_apply, k1_pay2_apply, broadcastTo_1b_ab_apply]
    rfl
  simp only [hZ]

end Cert.Math.Head

end
-- ==== Proof.Math.HeadRefTail.lean ====
import proofs.«169142_g2000501041679005_pallasbulk_208_6_alg».proof.Proof.Gen.ReferenceIdeal.Skeleton
import proofs.«169142_g2000501041679005_pallasbulk_208_6_alg».proof.Proof.Math.HeadSpec

noncomputable section

open scoped BigOperators

namespace Cert.Math.HeadRef

open Idealize.ShloMosaic Idealize.ShloMosaic.ValueIdx
open Cert.Math.Head
open Cert.ReferenceIdeal Cert.ReferenceIdeal.Gen

theorem mm512 {φ₁ φ₂ : FTy} (A : FVec Ideal S16x512 φ₁) (B : FVec Ideal S512x128 φ₂) (u : Fin 16) (a : Fin 128) :
    matmul dot_S16x512_S512x128_S16x128_1_0_0_1_n_n none A B (constant S16x128 .f32 0x00000000#32) (ix2 u a)
      = ∑ k, A (ix2 u k) * B (ix2 k a) :=
  matmul_plain_apply dot_S16x512_S512x128_S16x128_1_0_0_1_n_n_wf none A B u a

theorem mm128 {φ₁ φ₂ : FTy} (A : FVec Ideal S16x128 φ₁) (B : FVec Ideal S128x128 φ₂) (u : Fin 16) (c : Fin 128) :
    matmul dot_S16x128_S128x128_S16x128_1_0_0_1_n_n none A B (constant S16x128 .f32 0x00000000#32) (ix2 u c)
      = ∑ a, A (ix2 u a) * B (ix2 a c) :=
  matmul_plain_apply dot_S16x128_S128x128_S16x128_1_0_0_1_n_n_wf none A B u c

theorem lda_apply (X : FVec Ideal S16x512 .f32) (W : FVec Ideal S512x128 .f32) (b : FVec Ideal S1x128 .f32)
    (u : Fin 16) (a : Fin 128) :
    addf (matmul dot_S16x512_S512x128_S16x128_1_0_0_1_n_n none X W (constant S16x128 .f32 0x00000000#32))
        (broadcastTo S16x128 b broadcasts_S1x128_S16x128) (ix2 u a)
      = aff (fun u k => X (ix2 u k)) (fun k a => W (ix2 k a)) (fun a => b (ix2 (0 : Fin 1) a)) u a := by
  rw [addf_apply, mm512, broadcastTo_1b_ab_apply]
  rfl

theorem plda_apply (N : FVec Ideal S16x128 .f32) (W : FVec Ideal S128x128 .f32) (b : FVec Ideal S1x128 .f32)
    (u : Fin 16) (c : Fin 128) :
    addf (matmul dot_S16x128_S128x128_S16x128_1_0_0_1_n_n none N W (constant S16x128 .f32 0x00000000#32))
        (broadcastTo S16x128 b broadcasts_S1x128_S16x128) (ix2 u c)
      = aff (fun u a => N (ix2 u a)) (fun a c => W (ix2 a c)) (fun c => b (ix2 (0 : Fin 1) c)) u c := by
  rw [addf_apply, mm128, broadcastTo_1b_ab_apply]
  rfl

theorem unit_apply (Y : FVec Ideal S16x128 .f32) (hφ : FKind.Formats .f32)
    (hacc : (0x00000000#32 : BitVec 32) = 0x00000000#32) (ε : Ideal .f32) (u : Fin 16) (a : Fin 128) :
    mulf Y (broadcastTo S16x128 (rsqrt (maximumf (shapeCast S16x1
        (multiReduction .add [1] S16 (mulf Y Y) 0x00000000#32 reduces_S16x128_S16 hφ hacc) shapeCasts_S16_S16x1)
        (broadcast S16x1 ε))) broadcasts_S16x1_S16x128) (ix2 u a)
      = unitRow (fun u a => Y (ix2 u a)) ε u a := by
  rw [mulf_apply, broadcastTo_a1_ab_apply, rsqrt_apply, maximumf_apply, shapeCast_a_a1_apply, rowSum_apply,
    broadcast_apply]
  rfl

theorem summand_apply (Z : FVec Ideal S16x128 .f32) (r r' q : FVec Ideal S128x1 .f32) (two : Ideal .f32)
    (c : Fin 128) (n : Fin 8) :
    addf (addf
        (mulf (mulf (extractStridedSlice S128x8 ![0, 0] (transpose S128x16 [1, 0] Z transposes_S16x128_p1_0_S128x16)
              slices_S128x16_o0_0_S128x8) (broadcastTo S128x8 q broadcasts_S128x1_S128x8))
          (extractStridedSlice S128x8 ![0, 0] (transpose S128x16 [1, 0] Z transposes_S16x128_p1_0_S128x16)
            slices_S128x16_o0_0_S128x8))
        (mulf (mulf (extractStridedSlice S128x8 ![0, 8] (transpose S128x16 [1, 0] Z transposes_S16x128_p1_0_S128x16)
              slices_S128x16_o0_8_S128x8) (broadcastTo S128x8 q broadcasts_S128x1_S128x8))
          (extractStridedSlice S128x8 ![0, 8] (transpose S128x16 [1, 0] Z transposes_S16x128_p1_0_S128x16)
            slices_S128x16_o0_8_S128x8)))
      (mulf (mulf (mulf (broadcast S128x8 two)
            (extractStridedSlice S128x8 ![0, 0] (transpose S128x16 [1, 0] Z transposes_S16x128_p1_0_S128x16)
              slices_S128x16_o0_0_S128x8))
          (broadcastTo S128x8 (mulf r r') broadcasts_S128x1_S128x8))
        (extractStridedSlice S128x8 ![0, 8] (transpose S128x16 [1, 0] Z transposes_S16x128_p1_0_S128x16)
          slices_S128x16_o0_8_S128x8)) (ix2 c n)
      = Z (ix2 (lo n) c) * q (ix2 c (0 : Fin 1)) * Z (ix2 (lo n) c)
        + Z (ix2 (hi n) c) * q (ix2 c (0 : Fin 1)) * Z (ix2 (hi n) c)
        + two * Z (ix2 (lo n) c) * (r (ix2 c (0 : Fin 1)) * r' (ix2 c (0 : Fin 1))) * Z (ix2 (hi n) c) := by
  simp only [addf_apply, mulf_apply, broadcast_apply, broadcastTo_a1_ab_apply, slice2_axis1_eq]
  rw [transpose_ix2_apply, transpose_ix2_apply]

theorem k10_pay50_apply (X : FVec Ideal S16x512 .f32) (v237 : FVec Ideal S512x128 .f32) (v239 : FVec Ideal S1x128 .f32)
    (v251 : FVec Ideal S128x128 .f32) (v253 : FVec Ideal S1x128 .f32) (v260 v262 v265 : FVec Ideal S128x1 .f32)
    (c : Fin 128) (n : Fin 8) :
    k10_pay50 (F := Ideal) X v237 v239 v251 v253 v260 v262 v265 (ix2 c n)
      = (fun Z : Fin 16 → Fin 128 → EReal =>
          Z (lo n) c * v265 (ix2 c (0 : Fin 1)) * Z (lo n) c + Z (hi n) c * v265 (ix2 c (0 : Fin 1)) * Z (hi n) c
            + Scalar.ofBits (F := Ideal) .f32 0x40000000#32 * Z (lo n) c
                * (v260 (ix2 c (0 : Fin 1)) * v262 (ix2 c (0 : Fin 1))) * Z (hi n) c)
        (aff (unitRow (aff (fun u k => X (ix2 u k)) (fun k a => v237 (ix2 k a)) (fun a => v239 (ix2 (0 : Fin 1) a)))
            (Scalar.ofBits (F := Ideal) .f32 0x179ABE15#32)) (fun a c => v251 (ix2 a c))
          (fun c => v253 (ix2 (0 : Fin 1) c))) := by
  unfold k10_pay50
  simp only [shapeCast_self]
  rw [summand_apply]
  have hZ : ∀ (u : Fin 16) (c : Fin 128),
      addf (matmul dot_S16x128_S128x128_S16x128_1_0_0_1_n_n none
          (mulf (addf (matmul dot_S16x512_S512x128_S16x128_1_0_0_1_n_n none X v237
                (constant S16x128 .f32 0x00000000#32)) (broadcastTo S16x128 v239 broadcasts_S1x128_S16x128))
            (broadcastTo S16x128 (rsqrt (maximumf (shapeCast S16x1 (multiReduction .add [1] S16
                (mulf (addf (matmul dot_S16x512_S512x128_S16x128_1_0_0_1_n_n none X v237
                      (constant S16x128 .f32 0x00000000#32)) (broadcastTo S16x128 v239 broadcasts_S1x128_S16x128))
                  (addf (matmul dot_S16x512_S512x128_S16x128_1_0_0_1_n_n none X v237
                      (constant S16x128 .f32 0x00000000#32)) (broadcastTo S16x128 v239 broadcasts_S1x128_S16x128)))
                0x00000000#32 reduces_S16x128_S16 (.inl rfl) rfl) shapeCasts_S16_S16x1)
              (broadcast S16x1 (Scalar.ofBits (F := Ideal) .f32 0x179ABE15#32)))) broadcasts_S16x1_S16x128))
          v251 (constant S16x128 .f32 0x00000000#32)) (broadcastTo S16x128 v253 broadcasts_S1x128_S16x128) (ix2 u c)
        = aff (unitRow (aff (fun u k => X (ix2 u k)) (fun k a => v237 (ix2 k a)) (fun a => v239 (ix2 (0 : Fin 1) a)))
            (Scalar.ofBits (F := Ideal) .f32 0x179ABE15#32)) (fun a c => v251 (ix2 a c))
          (fun c => v253 (ix2 (0 : Fin 1) c)) u c := fun u c =>
    (plda_apply _ v251 v253 u c).trans (aff_congr (fun u a => (unit_apply _ _ _ _ u a).trans
      (unitRow_congr _ (fun u a => lda_apply X v237 v239 u a) u a)) (fun _ _ => rfl) (fun _ => rfl) u c)
  rw [hZ, hZ]

theorem k10_pay1_apply (v279 : FVec Ideal S128x8 .f32) (n : Fin 8) :
    k10_pay1 (F := Ideal) v279 (ix2 (0 : Fin 1) n) = ∑ c, v279 (ix2 c n) := by
  unfold k10_pay1
  simp only []
  rw [shapeCast_a_1a_apply, colSum_apply]

theorem ref_tail (X : FVec Ideal S16x512 .f32) (v237 : FVec Ideal S512x128 .f32) (v239 : FVec Ideal S1x128 .f32)
    (v251 : FVec Ideal S128x128 .f32) (v253 : FVec Ideal S1x128 .f32) (v260 v262 v265 : FVec Ideal S128x1 .f32)
    (n : Fin 8) :
    k10_pay1 (F := Ideal) (k10_pay50 X v237 v239 v251 v253 v260 v262 v265) (ix2 (0 : Fin 1) n)
      = scoreB (aff (unitRow (aff (fun u k => X (ix2 u k)) (fun k a => v237 (ix2 k a))
              (fun a => v239 (ix2 (0 : Fin 1) a))) (Scalar.ofBits (F := Ideal) .f32 0x179ABE15#32))
            (fun a c => v251 (ix2 a c)) (fun c => v253 (ix2 (0 : Fin 1) c)))
          (Scalar.ofBits (F := Ideal) .f32 0x40000000#32)
          (fun c => v260 (ix2 c (0 : Fin 1)) * v262 (ix2 c (0 : Fin 1))) (fun c => v265 (ix2 c (0 : Fin 1))) n := by
  rw [k10_pay1_apply]
  unfold scoreB
  exact Finset.sum_congr rfl fun c _ => k10_pay50_apply X v237 v239 v251 v253 v260 v262 v265 c n

end Cert.Math.HeadRef

end
-- ==== Proof.Math.HeadRef49.lean ====
import proofs.«169142_g2000501041679005_pallasbulk_208_6_alg».proof.Proof.Gen.ReferenceIdeal.Skeleton
import proofs.«169142_g2000501041679005_pallasbulk_208_6_alg».proof.Proof.Math.HeadSpec

noncomputable section

open scoped BigOperators

namespace Cert.Math.HeadRef

open Idealize.ShloMosaic Idealize.ShloMosaic.ValueIdx Cert.Math.Head

theorem xvec_form {m d n : ℕ} (w : DotDims.WF ⟨2, ![m, d]⟩ ⟨2, ![d, n]⟩ ⟨2, ![m, n]⟩ [1] [0] [0] [1] [] [])
    (R1 R2 : FVec Ideal ⟨2, ![m, d]⟩ .f32) (A B : FVec Ideal ⟨2, ![d, n]⟩ .f32) (b : FVec Ideal ⟨2, ![1, n]⟩ .f32)
    (hsa : (⟨2, ![d, n]⟩ : Shape).ShapeCasts ⟨2, ![d, n]⟩) (hsb : (⟨2, ![1, n]⟩ : Shape).ShapeCasts ⟨2, ![1, n]⟩)
    (hbc : (⟨2, ![1, n]⟩ : Shape).Broadcasts ⟨2, ![m, n]⟩) (u : Fin m) (k : Fin n) :
    addf (addf (matmul (⟨[1], [0], [0], [1], [], [], w⟩ : DotDims ⟨2, ![m, d]⟩ ⟨2, ![d, n]⟩ ⟨2, ![m, n]⟩) none R1
              (shapeCast ⟨2, ![d, n]⟩ A hsa) (constant ⟨2, ![m, n]⟩ .f32 0x00000000#32))
            (matmul (⟨[1], [0], [0], [1], [], [], w⟩ : DotDims ⟨2, ![m, d]⟩ ⟨2, ![d, n]⟩ ⟨2, ![m, n]⟩) none R2
              (shapeCast ⟨2, ![d, n]⟩ B hsa) (constant ⟨2, ![m, n]⟩ .f32 0x00000000#32)))
        (broadcastTo ⟨2, ![m, n]⟩ (shapeCast ⟨2, ![1, n]⟩ b hsb) hbc) (ix2 u k)
      = xvec (fun u j => R1 (ix2 u j)) (fun u j => R2 (ix2 u j)) (fun j k => A (ix2 j k)) (fun j k => B (ix2 j k))
          (fun k => b (ix2 (0 : Fin 1) k)) u k := by
  rw [shapeCast_self A hsa, shapeCast_self B hsa, shapeCast_self b hsb]
  show matmul _ none R1 A _ (ix2 u k) + matmul _ none R2 B _ (ix2 u k) + broadcastTo ⟨2, ![m, n]⟩ b hbc (ix2 u k) = _
  rw [broadcastTo_1b_ab_apply b hbc u k, matmul_plain_apply w none R1 A u k, matmul_plain_apply w none R2 B u k]
  rfl

theorem concat16_rows {L : ℕ} (r0 r1 r2 r3 r4 r5 r6 r7 r8 r9 r10 r11 r12 r13 r14 r15 : (⟨2, ![1, L]⟩ : Shape).Idx → EReal)
    (h : Shape.Concatenates (([⟨⟨2, ![1, L]⟩, r0⟩, ⟨⟨2, ![1, L]⟩, r1⟩, ⟨⟨2, ![1, L]⟩, r2⟩, ⟨⟨2, ![1, L]⟩, r3⟩, ⟨⟨2, ![1, L]⟩, r4⟩, ⟨⟨2, ![1, L]⟩, r5⟩, ⟨⟨2, ![1, L]⟩, r6⟩, ⟨⟨2, ![1, L]⟩, r7⟩, ⟨⟨2, ![1, L]⟩, r8⟩, ⟨⟨2, ![1, L]⟩, r9⟩, ⟨⟨2, ![1, L]⟩, r10⟩, ⟨⟨2, ![1, L]⟩, r11⟩, ⟨⟨2, ![1, L]⟩, r12⟩, ⟨⟨2, ![1, L]⟩, r13⟩, ⟨⟨2, ![1, L]⟩, r14⟩, ⟨⟨2, ![1, L]⟩, r15⟩] : List ((s : Shape) × (s.Idx → EReal))).map (·.1)) ⟨2, ![16, L]⟩ 0)
    (u : Fin 16) (j : Fin L) :
    concatenate ⟨2, ![16, L]⟩ 0 ([⟨⟨2, ![1, L]⟩, r0⟩, ⟨⟨2, ![1, L]⟩, r1⟩, ⟨⟨2, ![1, L]⟩, r2⟩, ⟨⟨2, ![1, L]⟩, r3⟩, ⟨⟨2, ![1, L]⟩, r4⟩, ⟨⟨2, ![1, L]⟩, r5⟩, ⟨⟨2, ![1, L]⟩, r6⟩, ⟨⟨2, ![1, L]⟩, r7⟩, ⟨⟨2, ![1, L]⟩, r8⟩, ⟨⟨2, ![1, L]⟩, r9⟩, ⟨⟨2, ![1, L]⟩, r10⟩, ⟨⟨2, ![1, L]⟩, r11⟩, ⟨⟨2, ![1, L]⟩, r12⟩, ⟨⟨2, ![1, L]⟩, r13⟩, ⟨⟨2, ![1, L]⟩, r14⟩, ⟨⟨2, ![1, L]⟩, r15⟩] : List ((s : Shape) × (s.Idx → EReal))) h (ix2 u j)
      = (![r0, r1, r2, r3, r4, r5, r6, r7, r8, r9, r10, r11, r12, r13, r14, r15] : Fin 16 → (⟨2, ![1, L]⟩ : Shape).Idx → EReal) u (ix2 (0 : Fin 1) j) :=
  concatenate_ofFn_unit_apply (t := ⟨2, ![16, L]⟩) (s₁ := ⟨2, ![1, L]⟩) (0 : Fin 2)
    (![r0, r1, r2, r3, r4, r5, r6, r7, r8, r9, r10, r11, r12, r13, r14, r15] : Fin 16 → (⟨2, ![1, L]⟩ : Shape).Idx → EReal) h rfl rfl (ix2 u j) u rfl (ix2 (0 : Fin 1) j)
    (fun b hb => by
      match b with
      | ⟨0, _⟩ => exact absurd rfl hb
      | ⟨1, _⟩ => rfl)

section Reference

open Cert.ReferenceIdeal Cert.ReferenceIdeal.Gen

def inlMean (X : FVec Ideal S178x1500 .f32) : FVec Ideal S1x1500 .f32 :=
  mulf (shapeCast S1x1500 (multiReduction .add [0] S1500 X 0x00000000#32 reduces_S178x1500_S1500 (.inl rfl) rfl) shapeCasts_S1500_S1x1500)
    (broadcast S1x1500 (Scalar.ofBits .f32 0x3BB81703#32))

def inlStd (X : FVec Ideal S178x1500 .f32) : FVec Ideal S1x1500 .f32 :=
  sqrt (mulf (shapeCast S1x1500 (multiReduction .add [0] S1500
      (mulf (subf X (broadcastTo S178x1500 (inlMean X) broadcasts_S1x1500_S178x1500))
        (subf X (broadcastTo S178x1500 (inlMean X) broadcasts_S1x1500_S178x1500)))
      0x00000000#32 reduces_S178x1500_S1500 (.inl rfl) rfl) shapeCasts_S1500_S1x1500)
    (broadcast S1x1500 (Scalar.ofBits .f32 0x3BB92144#32)))

theorem k10_pay49_apply (m0 s0 m1 s1 m2 s2 m3 s3 m4 s4 m5 s5 m6 s6 m7 s7 m8 s8 m9 s9 m10 s10 m11 s11 m12 s12 m13 s13 : FVec Ideal S1x1500 .f32) (v197 : FVec Ideal S178x1500 .f32)
    (v210 : Vec Ideal S1x178x1500 .f32) (A B : FVec Ideal S1500x512 .f32) (b : FVec Ideal S1x512 .f32)
    (u : Fin 16) (k : Fin 512) :
    k10_pay49 (F := Ideal) m0 s0 m1 s1 m2 s2 m3 s3 m4 s4 m5 s5 m6 s6 m7 s7 m8 s8 m9 s9 m10 s10 m11 s11 m12 s12 m13 s13 v197 v210 A B b (ix2 u k)
      = xvec (fun u j => (![m0, m1, m2, m3, m4, m5, m6, m7, m8, m9, m10, m11, m12, m13, (inlMean v197), (inlMean (shapeCast S178x1500 v210 shapeCasts_S1x178x1500_S178x1500))] : Fin 16 → S1x1500.Idx → EReal) u (ix2 (0 : Fin 1) j))
          (fun u j => (![s0, s1, s2, s3, s4, s5, s6, s7, s8, s9, s10, s11, s12, s13, (inlStd v197), (inlStd (shapeCast S178x1500 v210 shapeCasts_S1x178x1500_S178x1500))] : Fin 16 → S1x1500.Idx → EReal) u (ix2 (0 : Fin 1) j))
          (fun j k => A (ix2 j k)) (fun j k => B (ix2 j k)) (fun k => b (ix2 (0 : Fin 1) k)) u k := by
  unfold k10_pay49
  refine (xvec_form dot_S16x1500_S1500x512_S16x512_1_0_0_1_n_n_wf _ _ A B b _ _ _ u k).trans ?_
  refine xvec_congr (fun u j => ?_) (fun u j => ?_) (fun _ _ => rfl) (fun _ _ => rfl) (fun _ => rfl) u k
  · exact concat16_rows m0 m1 m2 m3 m4 m5 m6 m7 m8 m9 m10 m11 m12 m13 (inlMean v197) (inlMean (shapeCast S178x1500 v210 shapeCasts_S1x178x1500_S178x1500)) concatenates_S1x1500_S1x1500_S1x1500_S1x1500_S1x1500_S1x1500_S1x1500_S1x1500_S1x1500_S1x1500_S1x1500_S1x1500_S1x1500_S1x1500_S1x1500_S1x1500_S16x1500_d0 u j
  · exact concat16_rows s0 s1 s2 s3 s4 s5 s6 s7 s8 s9 s10 s11 s12 s13 (inlStd v197) (inlStd (shapeCast S178x1500 v210 shapeCasts_S1x178x1500_S178x1500)) concatenates_S1x1500_S1x1500_S1x1500_S1x1500_S1x1500_S1x1500_S1x1500_S1x1500_S1x1500_S1x1500_S1x1500_S1x1500_S1x1500_S1x1500_S1x1500_S1x1500_S16x1500_d0 u j

end Reference

end Cert.Math.HeadRef

end
-- ==== Proof.Math.HeadLd.lean ====
import Idealize.ShloMosaic.Lib.Pipeline.Value
import Idealize.ShloMosaic.Lib.ValueIdx

noncomputable section

namespace Cert.Math.HeadLd

open Idealize.ShloMosaic Idealize.ShloMosaic.ValueIdx

variable {Val : EltTy → Type} {e : EltTy}

theorem ld_slab (X : (⟨3, ![16, 178, 1500]⟩ : Shape).Idx → Val e) (u : Fin 16)
    (inb : ∀ a, (![u.val, 0, 0] : Fin 3 → ℕ) a + (⟨3, ![1, 178, 1500]⟩ : Shape).size a
      ≤ (⟨3, ![16, 178, 1500]⟩ : Shape).size a) (t : Fin 178) (j : Fin 1500) :
    View.ld X (Rect.unit (s := ⟨3, ![16, 178, 1500]⟩) ![u.val, 0, 0] (⟨3, ![1, 178, 1500]⟩ : Shape).size inb)
        (ix3 (0 : Fin 1) t j) = X (ix3 u t j) := by
  show X _ = X _
  refine congrArg X (funext fun a => Fin.ext ?_)
  match a with
  | ⟨0, _⟩ => show u.val + 1 * 0 = u.val; omega
  | ⟨1, _⟩ => show 0 + 1 * t.val = t.val; omega
  | ⟨2, _⟩ => show 0 + 1 * j.val = j.val; omega

theorem ld_row2 (Y : (⟨2, ![2, 128]⟩ : Shape).Idx → Val e) (r : Fin 2)
    (inb : ∀ a, (![r.val, 0] : Fin 2 → ℕ) a + (⟨2, ![1, 128]⟩ : Shape).size a ≤ (⟨2, ![2, 128]⟩ : Shape).size a)
    (c : Fin 128) :
    View.ld Y (Rect.unit (s := ⟨2, ![2, 128]⟩) ![r.val, 0] (⟨2, ![1, 128]⟩ : Shape).size inb)
        (ix2 (0 : Fin 1) c) = Y (ix2 r c) := by
  show Y _ = Y _
  refine congrArg Y (funext fun a => Fin.ext ?_)
  match a with
  | ⟨0, _⟩ => show r.val + 1 * 0 = r.val; omega
  | ⟨1, _⟩ => show 0 + 1 * c.val = c.val; omega

theorem ld_whole2 {d : Fin 2 → ℕ} (X : (⟨2, d⟩ : Shape).Idx → Val e)
    (inb : ∀ a, (![0, 0] : Fin 2 → ℕ) a + (⟨2, d⟩ : Shape).size a ≤ (⟨2, d⟩ : Shape).size a) :
    View.ld X (Rect.unit (s := ⟨2, d⟩) ![0, 0] (⟨2, d⟩ : Shape).size inb) = X :=
  View.ld_unit_zero (funext fun a => match a with | ⟨0, _⟩ => rfl | ⟨1, _⟩ => rfl) inb X

end Cert.Math.HeadLd

end
-- ==== Proof.Math.HeadNet.lean ====
import proofs.«169142_g2000501041679005_pallasbulk_208_6_alg».proof.Proof.Math.Pool
import proofs.«169142_g2000501041679005_pallasbulk_208_6_alg».proof.Proof.Math.Head
import proofs.«169142_g2000501041679005_pallasbulk_208_6_alg».proof.Proof.Math.HeadRefTail
import proofs.«169142_g2000501041679005_pallasbulk_208_6_alg».proof.Proof.Math.HeadRef49
import proofs.«169142_g2000501041679005_pallasbulk_208_6_alg».proof.Proof.Math.HeadLd

noncomputable section

open scoped BigOperators

namespace Cert.Math.HeadNet

open Idealize.ShloMosaic Idealize.ShloMosaic.ValueIdx Cert.Math Cert.Math.Head

section Kernel

open Cert.KernelIdeal Cert.KernelIdeal.Gen

abbrev kr0 : Rect S16x1500 := Rect.unit (s := S16x1500) ![0, 0] S16x1500.size inb_S16x1500_S16x1500_0_0
abbrev kr1 : Rect S1500x512 := Rect.unit (s := S1500x512) ![0, 0] S1500x512.size inb_S1500x512_S1500x512_0_0
abbrev kr2 : Rect S1x512 := Rect.unit (s := S1x512) ![0, 0] S1x512.size inb_S1x512_S1x512_0_0
abbrev kr3 : Rect S512x128 := Rect.unit (s := S512x128) ![0, 0] S512x128.size inb_S512x128_S512x128_0_0
abbrev kr4 : Rect S1x128 := Rect.unit (s := S1x128) ![0, 0] S1x128.size inb_S1x128_S1x128_0_0
abbrev kr5 : Rect S128x128 := Rect.unit (s := S128x128) ![0, 0] S128x128.size inb_S128x128_S128x128_0_0
abbrev kr6 : Rect S2x128 := Rect.unit (s := S2x128) ![0, 0] S1x128.size inb_S2x128_S1x128_0_0
abbrev kr7 : Rect S2x128 := Rect.unit (s := S2x128) ![1, 0] S1x128.size inb_S2x128_S1x128_1_0

def kerHead (x0 : Vec Ideal S16x1500 .f32) (x1 : Vec Ideal S16x1500 .f32) (x2 : Vec Ideal S1500x512 .bf16) (x3 : Vec Ideal S1500x512 .bf16) (x4 : Vec Ideal S1x512 .f32) (x5 : Vec Ideal S512x128 .bf16) (x6 : Vec Ideal S1x128 .f32) (x7 : Vec Ideal S128x128 .bf16) (x8 : Vec Ideal S1x128 .f32) (x9 : Vec Ideal S2x128 .f32) : Vec Ideal S8x1 .f32 :=
  k1_pay1 (k1_pay2 (View.ld x0 kr0) (View.ld x1 kr0) (View.ld x2 kr1) (View.ld x3 kr1) (View.ld x4 kr2) (View.ld x5 kr3) (View.ld x6 kr4) (View.ld x7 kr5)) (View.ld x8 kr4) (View.ld x9 kr6) (View.ld x9 kr7)

theorem kerHead_apply (x0 : Vec Ideal S16x1500 .f32) (x1 : Vec Ideal S16x1500 .f32) (x2 : Vec Ideal S1500x512 .bf16) (x3 : Vec Ideal S1500x512 .bf16) (x4 : Vec Ideal S1x512 .f32) (x5 : Vec Ideal S512x128 .bf16) (x6 : Vec Ideal S1x128 .f32) (x7 : Vec Ideal S128x128 .bf16) (x8 : Vec Ideal S1x128 .f32) (x9 : Vec Ideal S2x128 .f32) (n : Fin 8) :
    kerHead x0 x1 x2 x3 x4 x5 x6 x7 x8 x9 (ix2 n (0 : Fin 1))
      = scoreA (headZ (fun u j => x0 (ix2 u j)) (fun u j => x1 (ix2 u j)) (fun j k => x2 (ix2 j k)) (fun j k => x3 (ix2 j k)) (fun k => x4 (ix2 (0 : Fin 1) k)) (fun k a => x5 (ix2 k a)) (fun a => x6 (ix2 (0 : Fin 1) a)) (Scalar.ofBits (F := Ideal) .f32 0x179ABE15#32) (fun a c => x7 (ix2 a c)) (fun c => x8 (ix2 (0 : Fin 1) c)))
          (Scalar.ofBits (F := Ideal) .f32 0x40000000#32) (fun c => x9 (ix2 (0 : Fin 2) c)) (fun c => x9 (ix2 (1 : Fin 2) c)) n := by
  have e0 : View.ld x0 kr0 = x0 := HeadLd.ld_whole2 x0 _
  have e1 : View.ld x1 kr0 = x1 := HeadLd.ld_whole2 x1 _
  have e2 : View.ld x2 kr1 = x2 := HeadLd.ld_whole2 x2 _
  have e3 : View.ld x3 kr1 = x3 := HeadLd.ld_whole2 x3 _
  have e4 : View.ld x4 kr2 = x4 := HeadLd.ld_whole2 x4 _
  have e5 : View.ld x5 kr3 = x5 := HeadLd.ld_whole2 x5 _
  have e6 : View.ld x6 kr4 = x6 := HeadLd.ld_whole2 x6 _
  have e7 : View.ld x7 kr5 = x7 := HeadLd.ld_whole2 x7 _
  have e8 : View.ld x8 kr4 = x8 := HeadLd.ld_whole2 x8 _
  have ep : (fun c : Fin 128 => View.ld x9 kr6 (ix2 (0 : Fin 1) c)) = fun c => x9 (ix2 (0 : Fin 2) c) :=
    funext fun c => HeadLd.ld_row2 x9 0 _ c
  have eq' : (fun c : Fin 128 => View.ld x9 kr7 (ix2 (0 : Fin 1) c)) = fun c => x9 (ix2 (1 : Fin 2) c) :=
    funext fun c => HeadLd.ld_row2 x9 1 _ c
  unfold kerHead
  rw [e0, e1, e2, e3, e4, e5, e6, e7, e8]
  refine (kernel_head x0 x1 x2 x3 x4 x5 x6 x7 x8 (View.ld x9 kr6) (View.ld x9 kr7) n).trans ?_
  rw [ep, eq']

end Kernel

section Reference

open Cert.ReferenceIdeal Cert.ReferenceIdeal.Gen Cert.Math.HeadRef

abbrev rr0 : Rect S16x178x1500 := Rect.unit (s := S16x178x1500) ![0, 0, 0] S1x178x1500.size inb_S16x178x1500_S1x178x1500_0_0_0
abbrev rr1 : Rect S16x178x1500 := Rect.unit (s := S16x178x1500) ![1, 0, 0] S1x178x1500.size inb_S16x178x1500_S1x178x1500_1_0_0
abbrev rr2 : Rect S16x178x1500 := Rect.unit (s := S16x178x1500) ![2, 0, 0] S1x178x1500.size inb_S16x178x1500_S1x178x1500_2_0_0
abbrev rr3 : Rect S16x178x1500 := Rect.unit (s := S16x178x1500) ![3, 0, 0] S1x178x1500.size inb_S16x178x1500_S1x178x1500_3_0_0
abbrev rr4 : Rect S16x178x1500 := Rect.unit (s := S16x178x1500) ![4, 0, 0] S1x178x1500.size inb_S16x178x1500_S1x178x1500_4_0_0
abbrev rr5 : Rect S16x178x1500 := Rect.unit (s := S16x178x1500) ![5, 0, 0] S1x178x1500.size inb_S16x178x1500_S1x178x1500_5_0_0
abbrev rr6 : Rect S16x178x1500 := Rect.unit (s := S16x178x1500) ![6, 0, 0] S1x178x1500.size inb_S16x178x1500_S1x178x1500_6_0_0
abbrev rr7 : Rect S16x178x1500 := Rect.unit (s := S16x178x1500) ![7, 0, 0] S1x178x1500.size inb_S16x178x1500_S1x178x1500_7_0_0
abbrev rr8 : Rect S16x178x1500 := Rect.unit (s := S16x178x1500) ![8, 0, 0] S1x178x1500.size inb_S16x178x1500_S1x178x1500_8_0_0
abbrev rr9 : Rect S16x178x1500 := Rect.unit (s := S16x178x1500) ![9, 0, 0] S1x178x1500.size inb_S16x178x1500_S1x178x1500_9_0_0
abbrev rr10 : Rect S16x178x1500 := Rect.unit (s := S16x178x1500) ![10, 0, 0] S1x178x1500.size inb_S16x178x1500_S1x178x1500_10_0_0
abbrev rr11 : Rect S16x178x1500 := Rect.unit (s := S16x178x1500) ![11, 0, 0] S1x178x1500.size inb_S16x178x1500_S1x178x1500_11_0_0
abbrev rr12 : Rect S16x178x1500 := Rect.unit (s := S16x178x1500) ![12, 0, 0] S1x178x1500.size inb_S16x178x1500_S1x178x1500_12_0_0
abbrev rr13 : Rect S16x178x1500 := Rect.unit (s := S16x178x1500) ![13, 0, 0] S1x178x1500.size inb_S16x178x1500_S1x178x1500_13_0_0
abbrev rr14 : Rect S16x178x1500 := Rect.unit (s := S16x178x1500) ![14, 0, 0] S1x178x1500.size inb_S16x178x1500_S1x178x1500_14_0_0
abbrev rr15 : Rect S16x178x1500 := Rect.unit (s := S16x178x1500) ![15, 0, 0] S1x178x1500.size inb_S16x178x1500_S1x178x1500_15_0_0
abbrev rr16 : Rect S1500x512 := Rect.unit (s := S1500x512) ![0, 0] S1500x512.size inb_S1500x512_S1500x512_0_0
abbrev rr17 : Rect S1x512 := Rect.unit (s := S1x512) ![0, 0] S1x512.size inb_S1x512_S1x512_0_0
abbrev rr18 : Rect S512x128 := Rect.unit (s := S512x128) ![0, 0] S512x128.size inb_S512x128_S512x128_0_0
abbrev rr19 : Rect S1x128 := Rect.unit (s := S1x128) ![0, 0] S1x128.size inb_S1x128_S1x128_0_0
abbrev rr20 : Rect S128x128 := Rect.unit (s := S128x128) ![0, 0] S128x128.size inb_S128x128_S128x128_0_0
abbrev rr21 : Rect S128x1 := Rect.unit (s := S128x1) ![0, 0] S128x1.size inb_S128x1_S128x1_0_0

def refHead (x0 : Vec Ideal S16x178x1500 .f32) (x1 : Vec Ideal S1500x512 .f32) (x2 : Vec Ideal S1500x512 .f32) (x3 : Vec Ideal S1x512 .f32) (x4 : Vec Ideal S512x128 .f32) (x5 : Vec Ideal S1x128 .f32) (x6 : Vec Ideal S128x128 .f32) (x7 : Vec Ideal S1x128 .f32) (x8 : Vec Ideal S128x1 .f32) (x9 : Vec Ideal S128x1 .f32) : Vec Ideal S1x8 .f32 :=
  k10_pay1 (k10_pay50 (k10_pay49 (k10_pay3 (View.ld x0 rr0)) (k10_pay4 (View.ld x0 rr0)) (k10_pay6 (View.ld x0 rr1)) (k10_pay7 (View.ld x0 rr1)) (k10_pay9 (View.ld x0 rr2)) (k10_pay11 (k10_pay10 (View.ld x0 rr2)) (Scalar.ofBits .f32 0x3BB92144#32)) (k10_pay13 (View.ld x0 rr3)) (k10_pay14 (View.ld x0 rr3)) (k10_pay16 (View.ld x0 rr4)) (k10_pay17 (View.ld x0 rr4)) (k10_pay19 (View.ld x0 rr5)) (k10_pay21 (k10_pay20 (View.ld x0 rr5))) (k10_pay23 (View.ld x0 rr6)) (k10_pay24 (View.ld x0 rr6)) (k10_pay26 (View.ld x0 rr7)) (k10_pay27 (View.ld x0 rr7)) (k10_pay29 (View.ld x0 rr8)) (k10_pay31 (k10_pay28 (View.ld x0 rr8)) (k10_pay30 (View.ld x0 rr8))) (k10_pay33 (View.ld x0 rr9)) (k10_pay34 (View.ld x0 rr9)) (k10_pay36 (View.ld x0 rr10)) (k10_pay37 (View.ld x0 rr10)) (k10_pay40 (k10_pay39 (View.ld x0 rr11)) (Scalar.ofBits .f32 0x3BB81703#32)) (k10_pay41 (k10_pay38 (View.ld x0 rr11)) (k10_pay39 (View.ld x0 rr11)) (Scalar.ofBits .f32 0x3BB81703#32)) (k10_pay43 (View.ld x0 rr12)) (k10_pay44 (View.ld x0 rr12)) (k10_pay46 (View.ld x0 rr13)) (k10_pay47 (View.ld x0 rr13)) (k10_pay48 (View.ld x0 rr14)) (View.ld x0 rr15) (View.ld x1 rr16) (View.ld x2 rr16) (View.ld x3 rr17)) (View.ld x4 rr18) (View.ld x5 rr19) (View.ld x6 rr20) (View.ld x7 rr19) (View.ld x8 rr21) (View.ld x8 rr21) (View.ld x9 rr21))

section Rows

variable (s0 s1 s2 s3 s4 s5 s6 s7 s8 s9 s10 s11 s12 s13 s14 s15 : Vec Ideal S1x178x1500 .f32)

theorem rowsM_eq (u : Fin 16) (j : Fin 1500) :
    (![k10_pay3 (F := Ideal) s0, k10_pay6 (F := Ideal) s1, k10_pay9 (F := Ideal) s2, k10_pay13 (F := Ideal) s3, k10_pay16 (F := Ideal) s4, k10_pay19 (F := Ideal) s5, k10_pay23 (F := Ideal) s6, k10_pay26 (F := Ideal) s7, k10_pay29 (F := Ideal) s8, k10_pay33 (F := Ideal) s9, k10_pay36 (F := Ideal) s10, k10_pay40 (F := Ideal) (k10_pay39 (F := Ideal) s11) (Scalar.ofBits .f32 0x3BB81703#32), k10_pay43 (F := Ideal) s12, k10_pay46 (F := Ideal) s13, inlMean (k10_pay48 (F := Ideal) s14), inlMean (shapeCast S178x1500 s15 shapeCasts_S1x178x1500_S178x1500)] : Fin 16 → S1x1500.Idx → EReal) u (ix2 (0 : Fin 1) j)
      = poolMean (fun t j => (![s0, s1, s2, s3, s4, s5, s6, s7, s8, s9, s10, s11, s12, s13, s14, s15] : Fin 16 → S1x178x1500.Idx → EReal) u (ix3 (0 : Fin 1) t j)) j := by
  match u with
  | ⟨0, _⟩ => exact refMean_0 s0 j
  | ⟨1, _⟩ => exact refMean_1 s1 j
  | ⟨2, _⟩ => exact refMean_2 s2 j
  | ⟨3, _⟩ => exact refMean_3 s3 j
  | ⟨4, _⟩ => exact refMean_4 s4 j
  | ⟨5, _⟩ => exact refMean_5 s5 j
  | ⟨6, _⟩ => exact refMean_6 s6 j
  | ⟨7, _⟩ => exact refMean_7 s7 j
  | ⟨8, _⟩ => exact refMean_8 s8 j
  | ⟨9, _⟩ => exact refMean_9 s9 j
  | ⟨10, _⟩ => exact refMean_10 s10 j
  | ⟨11, _⟩ => exact refMean_11 s11 j
  | ⟨12, _⟩ => exact refMean_12 s12 j
  | ⟨13, _⟩ => exact refMean_13 s13 j
  | ⟨14, _⟩ => exact (pooled_mean_apply (k10_pay48 (F := Ideal) s14) _ _ _ _ j).trans (congrArg (fun g => poolMean g j) (funext fun t => funext fun j => refSlab_14_apply s14 t j))
  | ⟨15, _⟩ => exact ref_mean_core s15 _ _ _ _ _ j
  | ⟨n + 16, hn⟩ => exact absurd hn (by omega)

theorem rowsS_eq (u : Fin 16) (j : Fin 1500) :
    (![k10_pay4 (F := Ideal) s0, k10_pay7 (F := Ideal) s1, k10_pay11 (F := Ideal) (k10_pay10 (F := Ideal) s2) (Scalar.ofBits .f32 0x3BB92144#32), k10_pay14 (F := Ideal) s3, k10_pay17 (F := Ideal) s4, k10_pay21 (F := Ideal) (k10_pay20 (F := Ideal) s5), k10_pay24 (F := Ideal) s6, k10_pay27 (F := Ideal) s7, k10_pay31 (F := Ideal) (k10_pay28 (F := Ideal) s8) (k10_pay30 (F := Ideal) s8), k10_pay34 (F := Ideal) s9, k10_pay37 (F := Ideal) s10, k10_pay41 (F := Ideal) (k10_pay38 (F := Ideal) s11) (k10_pay39 (F := Ideal) s11) (Scalar.ofBits .f32 0x3BB81703#32), k10_pay44 (F := Ideal) s12, k10_pay47 (F := Ideal) s13, inlStd (k10_pay48 (F := Ideal) s14), inlStd (shapeCast S178x1500 s15 shapeCasts_S1x178x1500_S178x1500)] : Fin 16 → S1x1500.Idx → EReal) u (ix2 (0 : Fin 1) j)
      = poolStd (fun t j => (![s0, s1, s2, s3, s4, s5, s6, s7, s8, s9, s10, s11, s12, s13, s14, s15] : Fin 16 → S1x178x1500.Idx → EReal) u (ix3 (0 : Fin 1) t j)) j := by
  match u with
  | ⟨0, _⟩ => exact refStd_0 s0 j
  | ⟨1, _⟩ => exact refStd_1 s1 j
  | ⟨2, _⟩ => exact refStd_2 s2 j
  | ⟨3, _⟩ => exact refStd_3 s3 j
  | ⟨4, _⟩ => exact refStd_4 s4 j
  | ⟨5, _⟩ => exact refStd_5 s5 j
  | ⟨6, _⟩ => exact refStd_6 s6 j
  | ⟨7, _⟩ => exact refStd_7 s7 j
  | ⟨8, _⟩ => exact refStd_8 s8 j
  | ⟨9, _⟩ => exact refStd_9 s9 j
  | ⟨10, _⟩ => exact refStd_10 s10 j
  | ⟨11, _⟩ => exact refStd_11 s11 j
  | ⟨12, _⟩ => exact refStd_12 s12 j
  | ⟨13, _⟩ => exact refStd_13 s13 j
  | ⟨14, _⟩ => exact (pooled_std_apply (k10_pay48 (F := Ideal) s14) _ _ _ _ _ j).trans (congrArg (fun g => poolStd g j) (funext fun t => funext fun j => refSlab_14_apply s14 t j))
  | ⟨15, _⟩ => exact ref_std_core s15 _ _ _ _ _ _ j
  | ⟨n + 16, hn⟩ => exact absurd hn (by omega)

theorem ref_head (A B : FVec Ideal S1500x512 .f32) (b11 : FVec Ideal S1x512 .f32) (Wl : FVec Ideal S512x128 .f32)
    (bl : FVec Ideal S1x128 .f32) (Wp : FVec Ideal S128x128 .f32) (bp : FVec Ideal S1x128 .f32)
    (p1 p2 q : FVec Ideal S128x1 .f32) (n : Fin 8) :
    k10_pay1 (F := Ideal) (k10_pay50 (F := Ideal) (k10_pay49 (F := Ideal) (k10_pay3 (F := Ideal) s0) (k10_pay4 (F := Ideal) s0) (k10_pay6 (F := Ideal) s1) (k10_pay7 (F := Ideal) s1) (k10_pay9 (F := Ideal) s2) (k10_pay11 (F := Ideal) (k10_pay10 (F := Ideal) s2) (Scalar.ofBits .f32 0x3BB92144#32)) (k10_pay13 (F := Ideal) s3) (k10_pay14 (F := Ideal) s3) (k10_pay16 (F := Ideal) s4) (k10_pay17 (F := Ideal) s4) (k10_pay19 (F := Ideal) s5) (k10_pay21 (F := Ideal) (k10_pay20 (F := Ideal) s5)) (k10_pay23 (F := Ideal) s6) (k10_pay24 (F := Ideal) s6) (k10_pay26 (F := Ideal) s7) (k10_pay27 (F := Ideal) s7) (k10_pay29 (F := Ideal) s8) (k10_pay31 (F := Ideal) (k10_pay28 (F := Ideal) s8) (k10_pay30 (F := Ideal) s8)) (k10_pay33 (F := Ideal) s9) (k10_pay34 (F := Ideal) s9) (k10_pay36 (F := Ideal) s10) (k10_pay37 (F := Ideal) s10) (k10_pay40 (F := Ideal) (k10_pay39 (F := Ideal) s11) (Scalar.ofBits .f32 0x3BB81703#32)) (k10_pay41 (F := Ideal) (k10_pay38 (F := Ideal) s11) (k10_pay39 (F := Ideal) s11) (Scalar.ofBits .f32 0x3BB81703#32)) (k10_pay43 (F := Ideal) s12) (k10_pay44 (F := Ideal) s12) (k10_pay46 (F := Ideal) s13) (k10_pay47 (F := Ideal) s13) (k10_pay48 (F := Ideal) s14) s15 A B b11) Wl bl Wp bp p1 p2 q) (ix2 (0 : Fin 1) n)
      = scoreB (headZ (fun u j => poolMean (fun t j => (![s0, s1, s2, s3, s4, s5, s6, s7, s8, s9, s10, s11, s12, s13, s14, s15] : Fin 16 → S1x178x1500.Idx → EReal) u (ix3 (0 : Fin 1) t j)) j) (fun u j => poolStd (fun t j => (![s0, s1, s2, s3, s4, s5, s6, s7, s8, s9, s10, s11, s12, s13, s14, s15] : Fin 16 → S1x178x1500.Idx → EReal) u (ix3 (0 : Fin 1) t j)) j) (fun j k => A (ix2 j k)) (fun j k => B (ix2 j k)) (fun k => b11 (ix2 (0 : Fin 1) k)) (fun k a => Wl (ix2 k a)) (fun a => bl (ix2 (0 : Fin 1) a)) (Scalar.ofBits (F := Ideal) .f32 0x179ABE15#32) (fun a c => Wp (ix2 a c)) (fun c => bp (ix2 (0 : Fin 1) c)))
          (Scalar.ofBits (F := Ideal) .f32 0x40000000#32) (fun c => p1 (ix2 c (0 : Fin 1)) * p2 (ix2 c (0 : Fin 1)))
          (fun c => q (ix2 c (0 : Fin 1))) n :=
  (ref_tail _ Wl bl Wp bp p1 p2 q n).trans
    (scoreB_congr _ (fun u c => aff_congr (unitRow_congr _ (fun u a => aff_congr
        (fun u k => (k10_pay49_apply _ _ _ _ _ _ _ _ _ _ _ _ _ _ _ _ _ _ _ _ _ _ _ _ _ _ _ _ _ _ A B b11 u k).trans
          (xvec_congr (rowsM_eq s0 s1 s2 s3 s4 s5 s6 s7 s8 s9 s10 s11 s12 s13 s14 s15) (rowsS_eq s0 s1 s2 s3 s4 s5 s6 s7 s8 s9 s10 s11 s12 s13 s14 s15) (fun _ _ => rfl) (fun _ _ => rfl) (fun _ => rfl) u k))
        (fun _ _ => rfl) (fun _ => rfl) u a)) (fun _ _ => rfl) (fun _ => rfl) u c) (fun _ => rfl) (fun _ => rfl) n)

end Rows

theorem slab_eq (x0 : Vec Ideal S16x178x1500 .f32) (u : Fin 16) (t : Fin 178) (j : Fin 1500) :
    (![(View.ld x0 rr0), (View.ld x0 rr1), (View.ld x0 rr2), (View.ld x0 rr3), (View.ld x0 rr4), (View.ld x0 rr5), (View.ld x0 rr6), (View.ld x0 rr7), (View.ld x0 rr8), (View.ld x0 rr9), (View.ld x0 rr10), (View.ld x0 rr11), (View.ld x0 rr12), (View.ld x0 rr13), (View.ld x0 rr14), (View.ld x0 rr15)] : Fin 16 → S1x178x1500.Idx → EReal) u (ix3 (0 : Fin 1) t j) = x0 (ix3 u t j) := by
  match u with
  | ⟨0, _⟩ => exact HeadLd.ld_slab x0 0 _ t j
  | ⟨1, _⟩ => exact HeadLd.ld_slab x0 1 _ t j
  | ⟨2, _⟩ => exact HeadLd.ld_slab x0 2 _ t j
  | ⟨3, _⟩ => exact HeadLd.ld_slab x0 3 _ t j
  | ⟨4, _⟩ => exact HeadLd.ld_slab x0 4 _ t j
  | ⟨5, _⟩ => exact HeadLd.ld_slab x0 5 _ t j
  | ⟨6, _⟩ => exact HeadLd.ld_slab x0 6 _ t j
  | ⟨7, _⟩ => exact HeadLd.ld_slab x0 7 _ t j
  | ⟨8, _⟩ => exact HeadLd.ld_slab x0 8 _ t j
  | ⟨9, _⟩ => exact HeadLd.ld_slab x0 9 _ t j
  | ⟨10, _⟩ => exact HeadLd.ld_slab x0 10 _ t j
  | ⟨11, _⟩ => exact HeadLd.ld_slab x0 11 _ t j
  | ⟨12, _⟩ => exact HeadLd.ld_slab x0 12 _ t j
  | ⟨13, _⟩ => exact HeadLd.ld_slab x0 13 _ t j
  | ⟨14, _⟩ => exact HeadLd.ld_slab x0 14 _ t j
  | ⟨15, _⟩ => exact HeadLd.ld_slab x0 15 _ t j
  | ⟨n + 16, hn⟩ => exact absurd hn (by omega)

theorem refHead_apply (x0 : Vec Ideal S16x178x1500 .f32) (x1 : Vec Ideal S1500x512 .f32) (x2 : Vec Ideal S1500x512 .f32) (x3 : Vec Ideal S1x512 .f32) (x4 : Vec Ideal S512x128 .f32) (x5 : Vec Ideal S1x128 .f32) (x6 : Vec Ideal S128x128 .f32) (x7 : Vec Ideal S1x128 .f32) (x8 : Vec Ideal S128x1 .f32) (x9 : Vec Ideal S128x1 .f32) (n : Fin 8) :
    refHead x0 x1 x2 x3 x4 x5 x6 x7 x8 x9 (ix2 (0 : Fin 1) n)
      = scoreB (headZ (fun u j => poolMean (fun t j => x0 (ix3 u t j)) j) (fun u j => poolStd (fun t j => x0 (ix3 u t j)) j) (fun j k => x1 (ix2 j k)) (fun j k => x2 (ix2 j k)) (fun k => x3 (ix2 (0 : Fin 1) k)) (fun k a => x4 (ix2 k a)) (fun a => x5 (ix2 (0 : Fin 1) a)) (Scalar.ofBits (F := Ideal) .f32 0x179ABE15#32) (fun a c => x6 (ix2 a c)) (fun c => x7 (ix2 (0 : Fin 1) c)))
          (Scalar.ofBits (F := Ideal) .f32 0x40000000#32) (fun c => x8 (ix2 c (0 : Fin 1)) * x8 (ix2 c (0 : Fin 1)))
          (fun c => x9 (ix2 c (0 : Fin 1))) n := by
  have e1 : View.ld x1 rr16 = x1 := HeadLd.ld_whole2 x1 _
  have e2 : View.ld x2 rr16 = x2 := HeadLd.ld_whole2 x2 _
  have e3 : View.ld x3 rr17 = x3 := HeadLd.ld_whole2 x3 _
  have e4 : View.ld x4 rr18 = x4 := HeadLd.ld_whole2 x4 _
  have e5 : View.ld x5 rr19 = x5 := HeadLd.ld_whole2 x5 _
  have e6 : View.ld x6 rr20 = x6 := HeadLd.ld_whole2 x6 _
  have e7 : View.ld x7 rr19 = x7 := HeadLd.ld_whole2 x7 _
  have e8 : View.ld x8 rr21 = x8 := HeadLd.ld_whole2 x8 _
  have e9 : View.ld x9 rr21 = x9 := HeadLd.ld_whole2 x9 _
  unfold refHead
  rw [e1, e2, e3, e4, e5, e6, e7, e8, e9]
  refine (ref_head (View.ld x0 rr0) (View.ld x0 rr1) (View.ld x0 rr2) (View.ld x0 rr3) (View.ld x0 rr4) (View.ld x0 rr5) (View.ld x0 rr6) (View.ld x0 rr7) (View.ld x0 rr8) (View.ld x0 rr9) (View.ld x0 rr10) (View.ld x0 rr11) (View.ld x0 rr12) (View.ld x0 rr13) (View.ld x0 rr14) (View.ld x0 rr15) x1 x2 x3 x4 x5 x6 x7 x8 x8 x9 n).trans ?_
  exact scoreB_congr _ (fun u c => headZ_congr _
      (fun u j => congrArg (fun g => poolMean g j) (funext fun t => funext fun j => slab_eq x0 u t j))
      (fun u j => congrArg (fun g => poolStd g j) (funext fun t => funext fun j => slab_eq x0 u t j))
      (fun _ _ => rfl) (fun _ _ => rfl) (fun _ => rfl) (fun _ _ => rfl) (fun _ => rfl) (fun _ _ => rfl) (fun _ => rfl) u c)
    (fun _ => rfl) (fun _ => rfl) n

end Reference

theorem headnet
    (y0 y1 : Vec Ideal Cert.KernelIdeal.S16x1500 .f32) (y2 y3 : Vec Ideal Cert.KernelIdeal.S1500x512 .bf16)
    (y4 : Vec Ideal Cert.KernelIdeal.S1x512 .f32) (y5 : Vec Ideal Cert.KernelIdeal.S512x128 .bf16)
    (y6 : Vec Ideal Cert.KernelIdeal.S1x128 .f32) (y7 : Vec Ideal Cert.KernelIdeal.S128x128 .bf16)
    (y8 : Vec Ideal Cert.KernelIdeal.S1x128 .f32) (y9 : Vec Ideal Cert.KernelIdeal.S2x128 .f32)
    (x0 : Vec Ideal Cert.ReferenceIdeal.S16x178x1500 .f32) (x1 x2 : Vec Ideal Cert.ReferenceIdeal.S1500x512 .f32)
    (x3 : Vec Ideal Cert.ReferenceIdeal.S1x512 .f32) (x4 : Vec Ideal Cert.ReferenceIdeal.S512x128 .f32)
    (x5 : Vec Ideal Cert.ReferenceIdeal.S1x128 .f32) (x6 : Vec Ideal Cert.ReferenceIdeal.S128x128 .f32)
    (x7 : Vec Ideal Cert.ReferenceIdeal.S1x128 .f32) (x8 x9 : Vec Ideal Cert.ReferenceIdeal.S128x1 .f32)
    (hM : ∀ (u : Fin 16) (j : Fin 1500), y0 (ix2 u j) = poolMean (fun t j => x0 (ix3 u t j)) j)
    (hS : ∀ (u : Fin 16) (j : Fin 1500), y1 (ix2 u j) = poolStd (fun t j => x0 (ix3 u t j)) j)
    (hWa : ∀ (j : Fin 1500) (k : Fin 512), y2 (ix2 j k) = x1 (ix2 j k))
    (hWb : ∀ (j : Fin 1500) (k : Fin 512), y3 (ix2 j k) = x2 (ix2 j k))
    (hb11 : ∀ k : Fin 512, y4 (ix2 (0 : Fin 1) k) = x3 (ix2 (0 : Fin 1) k))
    (hWl : ∀ (k : Fin 512) (a : Fin 128), y5 (ix2 k a) = x4 (ix2 k a))
    (hbl : ∀ a : Fin 128, y6 (ix2 (0 : Fin 1) a) = x5 (ix2 (0 : Fin 1) a))
    (hWp : ∀ (a c : Fin 128), y7 (ix2 a c) = x6 (ix2 a c))
    (hbp : ∀ c : Fin 128, y8 (ix2 (0 : Fin 1) c) = x7 (ix2 (0 : Fin 1) c))
    (hp : ∀ c : Fin 128, y9 (ix2 (0 : Fin 2) c) = x8 (ix2 c (0 : Fin 1)) * x8 (ix2 c (0 : Fin 1)))
    (hq : ∀ c : Fin 128, y9 (ix2 (1 : Fin 2) c) = x9 (ix2 c (0 : Fin 1))) (n : Fin 8) :
    kerHead y0 y1 y2 y3 y4 y5 y6 y7 y8 y9 (ix2 n (0 : Fin 1)) = refHead x0 x1 x2 x3 x4 x5 x6 x7 x8 x9 (ix2 (0 : Fin 1) n) := by
  refine (kerHead_apply y0 y1 y2 y3 y4 y5 y6 y7 y8 y9 n).trans ?_
  refine (scoreA_eq_scoreB _ _ _ _ n).trans ?_
  refine Eq.trans ?_ (refHead_apply x0 x1 x2 x3 x4 x5 x6 x7 x8 x9 n).symm
  exact scoreB_congr _ (fun u c => headZ_congr _ hM hS hWa hWb hb11 hWl hbl hWp hbp u c) hp hq n

end Cert.Math.HeadNet

end
-- ==== Proof.Bridge.lean ====
import proofs.«169142_g2000501041679005_pallasbulk_208_6_alg».proof.Proof.Bridge.Stats
import proofs.«169142_g2000501041679005_pallasbulk_208_6_alg».proof.Proof.KI.Value
import proofs.«169142_g2000501041679005_pallasbulk_208_6_alg».proof.Proof.KI.ValueHead
import proofs.«169142_g2000501041679005_pallasbulk_208_6_alg».proof.Proof.Math.HeadNet
import proofs.«169142_g2000501041679005_pallasbulk_208_6_alg».proof.Proof.R.Value

set_option maxRecDepth 16384

noncomputable section

namespace Cert.Bridge

open Cert.KernelIdeal Cert.KernelIdeal.Gen Cert.KernelIdeal.Hand Cert.Math
open Idealize.ShloMosaic Idealize.ShloMosaic.ValueIdx Idealize.ShloMosaic.TcCoe Idealize.SL.Sem

theorem col_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  Cert.Math.Head.shapeCast_a_a1_apply x h i 0

variable [Cert.Pre_finite_inputs.Facts]
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (g' : Dev Cert.ReferenceIdeal.nD → PrngReg)

theorem mean_match (hpre : Cert.Pre_KernelIdeal m) (hag : Agree m m') (c : Dev nD) (u : Fin 16) (j : Fin 1500) :
    (V3 m g c main_v93 : Vec Ideal S16x1500 .f32) (ix2 u j)
      = poolMean (fun t j => Cert.ReferenceIdeal.Val.A10 m' g' c (ix3 u t j)) j := by
  have hv1 : (V1 m g c main_v1 : Vec Ideal S16x200x30 .f32) = kx m c := V1_x m g c
  have hw0 : (V1 m g c main_v2 : Vec Ideal S150x512 .bf16) = kw0 m c := host0_w0 (W0 m g c)
  have hw1 : (V1 m g c main_v3 : Vec Ideal S512x512 .bf16) = kw1 m c := host0_w1 (W0 m g c)
  have hw2 : (V1 m g c main_v4 : Vec Ideal S1536x512 .bf16) = kw2 m c := host0_w2 (W0 m g c)
  have hw3 : (V1 m g c main_v5 : Vec Ideal S512x512 .bf16) = kw3 m c := host0_w3 (W0 m g c)
  have hw4 : (V1 m g c main_v6 : Vec Ideal S1536x512 .bf16) = kw4 m c := host0_w4 (W0 m g c)
  have hw5 : (V1 m g c main_v7 : Vec Ideal S512x512 .bf16) = kw5 m c := host0_w5 (W0 m g c)
  have hw6 : (V1 m g c main_v8 : Vec Ideal S1536x512 .bf16) = kw6 m c := host0_w6 (W0 m g c)
  have hw7 : (V1 m g c main_v9 : Vec Ideal S512x512 .bf16) = kw7 m c := host0_w7 (W0 m g c)
  have hw8 : (V1 m g c main_v10 : Vec Ideal S512x512 .bf16) = kw8 m c := host0_w8 (W0 m g c)
  have hw9 : (V1 m g c main_v11 : Vec Ideal S512x1500 .bf16) = kw9 m c := host0_w9 (W0 m g c)
  have hp0 : (V1 m g c main_v19 : Vec Ideal S3x512 .f32) = kp0 m c := V1_p0 m g c
  have hp1 : (V1 m g c main_v27 : Vec Ideal S3x512 .f32) = kp1 m c := V1_p1 m g c
  have hp2 : (V1 m g c main_v35 : Vec Ideal S3x512 .f32) = kp2 m c := V1_p2 m g c
  have hp3 : (V1 m g c main_v43 : Vec Ideal S3x512 .f32) = kp3 m c := V1_p3 m g c
  have hp4 : (V1 m g c main_v51 : Vec Ideal S3x512 .f32) = kp4 m c := V1_p4 m g c
  have hp5 : (V1 m g c main_v59 : Vec Ideal S3x512 .f32) = kp5 m c := V1_p5 m g c
  have hp6 : (V1 m g c main_v67 : Vec Ideal S3x512 .f32) = kp6 m c := V1_p6 m g c
  have hp7 : (V1 m g c main_v75 : Vec Ideal S3x512 .f32) = kp7 m c := V1_p7 m g c
  have hp8 : (V1 m g c main_v83 : Vec Ideal S3x512 .f32) = kp8 m c := V1_p8 m g c
  have hp9 : (V1 m g c main_v91 : Vec Ideal S3x1500 .f32) = kp9 m c := V1_p9 m g c
  rw [pooled_mean_eq m g c u j, hv1, hw0, hw1, hw2, hw3, hw4, hw5, hw6, hw7, hw8, hw9, hp0, hp1, hp2, hp3, hp4, hp5, hp6, hp7, hp8, hp9]
  exact (stats_match m m' g' hpre hag c u j).1

theorem std_match (hpre : Cert.Pre_KernelIdeal m) (hag : Agree m m') (c : Dev nD) (u : Fin 16) (j : Fin 1500) :
    (V3 m g c main_v94 : Vec Ideal S16x1500 .f32) (ix2 u j)
      = poolStd (fun t j => Cert.ReferenceIdeal.Val.A10 m' g' c (ix3 u t j)) j := by
  have hv1 : (V1 m g c main_v1 : Vec Ideal S16x200x30 .f32) = kx m c := V1_x m g c
  have hw0 : (V1 m g c main_v2 : Vec Ideal S150x512 .bf16) = kw0 m c := host0_w0 (W0 m g c)
  have hw1 : (V1 m g c main_v3 : Vec Ideal S512x512 .bf16) = kw1 m c := host0_w1 (W0 m g c)
  have hw2 : (V1 m g c main_v4 : Vec Ideal S1536x512 .bf16) = kw2 m c := host0_w2 (W0 m g c)
  have hw3 : (V1 m g c main_v5 : Vec Ideal S512x512 .bf16) = kw3 m c := host0_w3 (W0 m g c)
  have hw4 : (V1 m g c main_v6 : Vec Ideal S1536x512 .bf16) = kw4 m c := host0_w4 (W0 m g c)
  have hw5 : (V1 m g c main_v7 : Vec Ideal S512x512 .bf16) = kw5 m c := host0_w5 (W0 m g c)
  have hw6 : (V1 m g c main_v8 : Vec Ideal S1536x512 .bf16) = kw6 m c := host0_w6 (W0 m g c)
  have hw7 : (V1 m g c main_v9 : Vec Ideal S512x512 .bf16) = kw7 m c := host0_w7 (W0 m g c)
  have hw8 : (V1 m g c main_v10 : Vec Ideal S512x512 .bf16) = kw8 m c := host0_w8 (W0 m g c)
  have hw9 : (V1 m g c main_v11 : Vec Ideal S512x1500 .bf16) = kw9 m c := host0_w9 (W0 m g c)
  have hp0 : (V1 m g c main_v19 : Vec Ideal S3x512 .f32) = kp0 m c := V1_p0 m g c
  have hp1 : (V1 m g c main_v27 : Vec Ideal S3x512 .f32) = kp1 m c := V1_p1 m g c
  have hp2 : (V1 m g c main_v35 : Vec Ideal S3x512 .f32) = kp2 m c := V1_p2 m g c
  have hp3 : (V1 m g c main_v43 : Vec Ideal S3x512 .f32) = kp3 m c := V1_p3 m g c
  have hp4 : (V1 m g c main_v51 : Vec Ideal S3x512 .f32) = kp4 m c := V1_p4 m g c
  have hp5 : (V1 m g c main_v59 : Vec Ideal S3x512 .f32) = kp5 m c := V1_p5 m g c
  have hp6 : (V1 m g c main_v67 : Vec Ideal S3x512 .f32) = kp6 m c := V1_p6 m g c
  have hp7 : (V1 m g c main_v75 : Vec Ideal S3x512 .f32) = kp7 m c := V1_p7 m g c
  have hp8 : (V1 m g c main_v83 : Vec Ideal S3x512 .f32) = kp8 m c := V1_p8 m g c
  have hp9 : (V1 m g c main_v91 : Vec Ideal S3x1500 .f32) = kp9 m c := V1_p9 m g c
  rw [pooled_std_eq m g c u j, hv1, hw0, hw1, hw2, hw3, hw4, hw5, hw6, hw7, hw8, hw9, hp0, hp1, hp2, hp3, hp4, hp5, hp6, hp7, hp8, hp9]
  exact (stats_match m m' g' hpre hag c u j).2

theorem value_eq (hpre : Cert.Pre_KernelIdeal m) (hag : Agree m m') (c : Dev nD) :
    (Cert.ReferenceIdeal.Gen.W23 m' g' c (Proc.devRef .tc Cert.ReferenceIdeal.main_v50) : Vec Ideal Cert.ReferenceIdeal.S8 .f32)
      = (W5 m g c (Proc.devRef .tc main_v108) : Vec Ideal S8 .f32) := by
  funext i
  obtain ⟨n, rfl⟩ : ∃ n : Fin 8, i = ix1 n := ⟨i 0, eq_ix1 i⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49⟩ := hag c
  rw [Cert.ReferenceIdeal.Val.result m' g' c n, score_eq m g c n]

  refine Eq.trans (congrFun (View.canon_unit_zero (Val := Elt Ideal) zeros2 _ _) (ix2 (0 : Fin 1) n)) ?_
  refine Eq.trans ?_ (congrFun (View.canon_unit_zero (Val := Elt Ideal) zeros2 _ _) (ix2 n (0 : Fin 1))).symm
  refine (Cert.Math.HeadNet.headnet
    (V3 m g c main_v93) (V3 m g c main_v94) (V3 m g c main_v100) (V3 m g c main_v101) (V3 m g c main_v102)
    (V3 m g c main_v103) (V3 m g c main_v104) (V3 m g c main_v105) (V3 m g c main_v106) (V3 m g c main_v99)
    _ _ _ _ _ _ _ _ _ _
    (fun u j => mean_match m g m' g' hpre hag c u j) (fun u j => std_match m g m' g' hpre hag c u j)
    ?hWa ?hWb ?hb11 ?hWl ?hbl ?hWp ?hbp ?hp ?hq n).symm
  case hWa =>
    exact fun j k => (w11a_eq m g c j k).trans ((half_upper _ j k).trans (buf_apply e42 _)).symm
  case hWb =>
    exact fun j k => (w11b_eq m g c j k).trans ((half_lower _ j k).trans (buf_apply e42 _)).symm
  case hb11 =>
    exact fun k => (b11_eq m g c k).trans ((row_apply _ _ k).trans (buf_apply e43 _)).symm
  case hWl =>
    exact fun k a => (wlda_eq m g c (ix2 k a)).trans (buf_apply e44 _).symm
  case hbl =>
    exact fun a => (blda_eq m g c a).trans ((row_apply _ _ a).trans (buf_apply e45 _)).symm
  case hWp =>
    exact fun a c' => (wplda_eq m g c (ix2 a c')).trans (buf_apply e46 _).symm
  case hbp =>
    exact fun c' => (bplda_eq m g c c').trans ((row_apply _ _ c').trans (buf_apply e47 _)).symm
  case hp =>
    intro c'
    rw [pq_p m g c c', col_apply, buf_apply e48 (ix1 c')]
  case hq =>
    intro c'
    rw [pq_q m g c c', col_apply, buf_apply e49 (ix1 c')]

end Cert.Bridge

end
-- ==== Proof.lean ====
import proofs.«169142_g2000501041679005_pallasbulk_208_6_alg».proof.Defs
import proofs.«169142_g2000501041679005_pallasbulk_208_6_alg».proof.Proof.Gen.Kernel
import proofs.«169142_g2000501041679005_pallasbulk_208_6_alg».proof.Proof.Gen.KernelIdeal
import proofs.«169142_g2000501041679005_pallasbulk_208_6_alg».proof.Proof.Gen.ReferenceIdeal
import proofs.«169142_g2000501041679005_pallasbulk_208_6_alg».proof.Proof.Gen.Pre_finite_inputs
import proofs.«169142_g2000501041679005_pallasbulk_208_6_alg».proof.Proof.K.Frame
import proofs.«169142_g2000501041679005_pallasbulk_208_6_alg».proof.Proof.KI.Frame
import proofs.«169142_g2000501041679005_pallasbulk_208_6_alg».proof.Proof.R.Frame
import proofs.«169142_g2000501041679005_pallasbulk_208_6_alg».proof.Proof.Bridge
import Idealize.ShloMosaic.Adequacy
import Idealize.ShloMosaic.Init

noncomputable section

namespace Cert.Proof

open Idealize.ShloMosaic Idealize.SL.Sem

/-- Each run keeps every unscoped buffer numbered below 50 as launched, and the fifty arguments are such buffers. -/
theorem frame_k : Cert.frame_Kernel := fun m ρ _ =>
  (θ_run (Cert.Kernel.defs (F := Bits)) _ _).mono (fun r h c => by
    repeat' apply And.intro
    all_goals exact (h c).2 _ (by decide) (by decide)) (Cert.Kernel.Hand.run_kept (F := Bits) m ρ)

theorem frame_ki : Cert.frame_KernelIdeal := fun m ρ _ =>
  (θ_run (Cert.KernelIdeal.defs (F := Ideal)) _ _).mono (fun r h c => by
    repeat' apply And.intro
    all_goals exact (h c).2 _ (by decide) (by decide)) (Cert.KernelIdeal.Hand.run_kept (F := Ideal) m ρ)

theorem frame_r : Cert.frame_ReferenceIdeal := fun m ρ _ =>
  (θ_run (Cert.ReferenceIdeal.defs (F := Ideal)) _ _).mono (fun r h c => by
    repeat' apply And.intro
    all_goals exact (h c).2 _ (by decide) (by decide)) (Cert.ReferenceIdeal.Host.run_kept (F := Ideal) m ρ)

/-- Both runs name their result buffer's contents as a fold over the launch memory; the two folds are equal entry by entry. -/
theorem algebraic : Cert.algebraic_KernelIdeal_ReferenceIdeal := fun m g m' g' hpre hagree =>
  ⟨fun c => Cert.KernelIdeal.Hand.W5 (F := Ideal) m g c (Proc.devRef .tc Cert.KernelIdeal.main_v108),
    (θ_run (Cert.KernelIdeal.defs (F := Ideal)) _ _).mono (fun r h c => ⟨(h c).1, by
      repeat' apply And.intro
      all_goals exact (h c).2 _ (by decide) (by decide)⟩) (Cert.KernelIdeal.Hand.run_kept (F := Ideal) m g),
    (θ_run (Cert.ReferenceIdeal.defs (F := Ideal)) _ _).mono (fun r h c =>
      ⟨(h c).1.trans (Cert.Bridge.value_eq m g m' g' hpre hagree c), by
        repeat' apply And.intro
        all_goals exact (h c).2 _ (by decide) (by decide)⟩) (Cert.ReferenceIdeal.Host.run_kept (F := Ideal) m' g')⟩

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
